-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x131072 : Shape := ⟨2, ![2, 131072]⟩
abbrev S1x512 : Shape := ⟨2, ![1, 512]⟩
abbrev S512x384 : Shape := ⟨2, ![512, 384]⟩
abbrev S1x384 : Shape := ⟨2, ![1, 384]⟩
abbrev S384x256 : Shape := ⟨2, ![384, 256]⟩
abbrev S1x256 : Shape := ⟨2, ![1, 256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S512x384 : S_.BroadcastsInDim S512x384 (![] : Fin 0 → Fin S512x384.rank)
  reducesTo_S512x384_S_d0_1 : S512x384.ReducesTo [0, 1] S_
  bcast_S_S1x384 : S_.BroadcastsInDim S1x384 (![] : Fin 0 → Fin S1x384.rank)
  reducesTo_S1x384_S_d0_1 : S1x384.ReducesTo [0, 1] S_
  bcast_S_S384x256 : S_.BroadcastsInDim S384x256 (![] : Fin 0 → Fin S384x256.rank)
  reducesTo_S384x256_S_d0_1 : S384x256.ReducesTo [0, 1] S_
  bcast_S_S1x256 : S_.BroadcastsInDim S1x256 (![] : Fin 0 → Fin S1x256.rank)
  reducesTo_S1x256_S_d0_1 : S1x256.ReducesTo [0, 1] S_
  bcast_S_S2x131072 : S_.BroadcastsInDim S2x131072 (![] : Fin 0 → Fin S2x131072.rank)
  reducesTo_S2x131072_S_d0_1 : S2x131072.ReducesTo [0, 1] S_

variable [Facts]

def fn_part2 {F : FTy → Type} [FloatOps F] (main_arg1 : IVec S2x131072 32) (main_arg8 : FVec F S384x256 .f32) (main_arg9 : FVec F S1x256 .f32) (main_v33 : IVec S_ 1) : IVec S_ 1 :=
  let main_v34 : FVec F S384x256 .f32 := Host.absf main_arg8
  let main_cst_12 : FVec F S_ .f32 := constant S_ .f32 0x7F800000#32
  let main_v35 : FVec F S384x256 .f32 := broadcastInDim S384x256 ![] bcast_S_S384x256 main_cst_12
  let main_v36 : IVec S384x256 1 := cmpf .olt main_v34 main_v35
  let main_c_13 : IVec S_ 1 := constantI S_ 1 1#1
  let main_v37 : IVec S_ 1 := (fun x v => Host.reduce IntOp.andi x v reducesTo_S384x256_S_d0_1 h_S_) main_v36 main_c_13
  let main_v38 : IVec S_ 1 := andi main_v33 main_v37
  let main_v39 : FVec F S1x256 .f32 := Host.absf main_arg9
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_c_16 : IVec S_ 32 := constantI S_ 32 0#32
  let main_v44 : IVec S2x131072 32 := broadcastInDim S2x131072 ![] bcast_S_S2x131072 main_c_16
  let main_v45 : IVec S2x131072 1 := cmpi .sge main_arg1 main_v44
  let main_c_17 : IVec S_ 32 := constantI S_ 32 8192#32
  let main_v46 : IVec S2x131072 32 := broadcastInDim S2x131072 ![] bcast_S_S2x131072 main_c_17
  let main_v47 : IVec S2x131072 1 := cmpi .slt main_arg1 main_v46
  let main_v48 : IVec S2x131072 1 := andi main_v45 main_v47
  let main_c_18 : IVec S_ 1 := constantI S_ 1 1#1
  let main_v49 : IVec S_ 1 := (fun x v => Host.reduce IntOp.andi x v reducesTo_S2x131072_S_d0_1 h_S_) main_v48 main_c_18
  let main_v50 : IVec S_ 1 := andi main_v43 main_v49
  main_v50

def fn_part1 {F : FTy → Type} [FloatOps F] (main_arg1 : IVec S2x131072 32) (main_arg5 : FVec F S1x384 .f32) (main_arg6 : FVec F S1x384 .f32) (main_arg7 : FVec F S1x384 .f32) (main_arg8 : FVec F S384x256 .f32) (main_arg9 : FVec F S1x256 .f32) (main_v13 : IVec S_ 1) (main_v16 : IVec S512x384 1) : IVec S_ 1 :=
  let main_c_5 : IVec S_ 1 := constantI S_ 1 1#1
  let main_v17 : IVec S_ 1 := (fun x v => Host.reduce IntOp.andi x v reducesTo_S512x384_S_d0_1 h_S_) main_v16 main_c_5
  let main_v18 : IVec S_ 1 := andi main_v13 main_v17
  let main_v19 : FVec F S1x384 .f32 := Host.absf main_arg5
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  let main_v24 : FVec F S1x384 .f32 := Host.absf main_arg6
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  let main_v29 : FVec F S1x384 .f32 := Host.absf main_arg7
  let main_cst_10 : FVec F S_ .f32 := constant S_ .f32 0x7F800000#32
  let main_v30 : FVec F S1x384 .f32 := broadcastInDim S1x384 ![] bcast_S_S1x384 main_cst_10
  let main_v31 : IVec S1x384 1 := cmpf .olt main_v29 main_v30
  let main_c_11 : IVec S_ 1 := constantI S_ 1 1#1
  let main_v32 : IVec S_ 1 := (fun x v => Host.reduce IntOp.andi x v reducesTo_S1x384_S_d0_1 h_S_) main_v31 main_c_11
  let main_v33 : IVec S_ 1 := andi main_v28 main_v32
  fn_part2 (F := F) main_arg1 main_arg8 main_arg9 main_v33

def fn {F : FTy → Type} [FloatOps F] (main_arg0 : FVec F S8192x512 .f32) (main_arg1 : IVec S2x131072 32) (main_arg2 : FVec F S1x512 .f32) (main_arg3 : FVec F S1x512 .f32) (main_arg4 : FVec F S512x384 .f32) (main_arg5 : FVec F S1x384 .f32) (main_arg6 : FVec F S1x384 .f32) (main_arg7 : FVec F S1x384 .f32) (main_arg8 : FVec F S384x256 .f32) (main_arg9 : FVec F S1x256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x384 .f32 := Host.absf main_arg4
  let main_cst_4 : FVec F S_ .f32 := constant S_ .f32 0x7F800000#32
  let main_v15 : FVec F S512x384 .f32 := broadcastInDim S512x384 ![] bcast_S_S512x384 main_cst_4
  let main_v16 : IVec S512x384 1 := cmpf .olt main_v14 main_v15
  fn_part1 (F := F) main_arg1 main_arg5 main_arg6 main_arg7 main_arg8 main_arg9 main_v13 main_v16
-- ==== Kernel.lean ====
abbrev S8192x512 : Shape := ⟨2, ![8192, 512]⟩
abbrev S2x131072 : Shape := ⟨2, ![2, 131072]⟩
abbrev S1x512 : Shape := ⟨2, ![1, 512]⟩
abbrev S512x384 : Shape := ⟨2, ![512, 384]⟩
abbrev S1x384 : Shape := ⟨2, ![1, 384]⟩
abbrev S384x256 : Shape := ⟨2, ![384, 256]⟩
abbrev S1x256 : Shape := ⟨2, ![1, 256]⟩
abbrev S1x131072 : Shape := ⟨2, ![1, 131072]⟩
abbrev S131072 : Shape := ⟨1, ![131072]⟩
abbrev S_ : Shape := ⟨0, ![]⟩
abbrev S8192 : Shape := ⟨1, ![8192]⟩
abbrev S131072x1 : Shape := ⟨2, ![131072, 1]⟩
abbrev S8192x1 : Shape := ⟨2, ![8192, 1]⟩
abbrev S8192x128 : Shape := ⟨2, ![8192, 128]⟩
abbrev S8192x8192 : Shape := ⟨2, ![8192, 8192]⟩
abbrev S131072x2 : Shape := ⟨2, ![131072, 2]⟩
abbrev S32x2x512 : Shape := ⟨3, ![32, 2, 512]⟩
abbrev S256x512 : Shape := ⟨2, ![256, 512]⟩
abbrev S1x2x512 : Shape := ⟨3, ![1, 2, 512]⟩
abbrev S512 : Shape := ⟨1, ![512]⟩
abbrev S2x512 : Shape := ⟨2, ![2, 512]⟩
abbrev S32x1x512 : Shape := ⟨3, ![32, 1, 512]⟩
abbrev S32x512 : Shape := ⟨2, ![32, 512]⟩
abbrev S8192x384 : Shape := ⟨2, ![8192, 384]⟩
abbrev S256x128 : Shape := ⟨2, ![256, 128]⟩
abbrev S256x384 : Shape := ⟨2, ![256, 384]⟩
abbrev S256x1 : Shape := ⟨2, ![256, 1]⟩
abbrev S16x2x384 : Shape := ⟨3, ![16, 2, 384]⟩
abbrev S512x1024 : Shape := ⟨2, ![512, 1024]⟩
abbrev S512x128 : Shape := ⟨2, ![512, 128]⟩
abbrev S1x2x384 : Shape := ⟨3, ![1, 2, 384]⟩
abbrev S1024x384 : Shape := ⟨2, ![1024, 384]⟩
abbrev S512x1 : Shape := ⟨2, ![512, 1]⟩
abbrev S384 : Shape := ⟨1, ![384]⟩
abbrev S2x384 : Shape := ⟨2, ![2, 384]⟩
abbrev S16x1x384 : Shape := ⟨3, ![16, 1, 384]⟩
abbrev S16x384 : Shape := ⟨2, ![16, 384]⟩
abbrev S8192x256 : Shape := ⟨2, ![8192, 256]⟩
abbrev S256x256 : Shape := ⟨2, ![256, 256]⟩
abbrev S512x256 : Shape := ⟨2, ![512, 256]⟩
abbrev S1024x256 : Shape := ⟨2, ![1024, 256]⟩

abbrev nBuf : Space → Nat
  | .hbm => 144
  | .vmem => 42
  | .smem => 0
  | _ => 0

abbrev hbmTy0_0 (i : Nat) : BufTy := match i % 128 with
  | 0 => ⟨S8192x512, .f32⟩
  | 1 => ⟨S2x131072, .i32⟩
  | 2 => ⟨S1x512, .f32⟩
  | 3 => ⟨S1x512, .f32⟩
  | 4 => ⟨S512x384, .f32⟩
  | 5 => ⟨S1x384, .f32⟩
  | 6 => ⟨S1x384, .f32⟩
  | 7 => ⟨S1x384, .f32⟩
  | 8 => ⟨S384x256, .f32⟩
  | 9 => ⟨S1x256, .f32⟩
  | 10 => ⟨S1x131072, .i32⟩
  | 11 => ⟨S131072, .i32⟩
  | 12 => ⟨S1x131072, .i32⟩
  | 13 => ⟨S131072, .i32⟩
  | 14 => ⟨S_, .f32⟩
  | 15 => ⟨S8192, .f32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S131072x1, .i32⟩
  | 24 => ⟨S_, .f32⟩
  | 25 => ⟨S131072, .f32⟩
  | 26 => ⟨S8192, .f32⟩
  | 27 => ⟨S_, .f32⟩
  | 28 => ⟨S8192, .f32⟩
  | 29 => ⟨S8192, .f32⟩
  | 30 => ⟨S8192, .f32⟩
  | 31 => ⟨S8192x1, .f32⟩
  | 32 => ⟨S8192x128, .f32⟩
  | 33 => ⟨S_, .f32⟩
  | 34 => ⟨S8192x8192, .f32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x1, .i32⟩
  | 51 => ⟨S131072x2, .i32⟩
  | 52 => ⟨S_, .f32⟩
  | 53 => ⟨S131072, .f32⟩
  | 54 => ⟨S8192x8192, .f32⟩
  | 55 => ⟨S_, .i32⟩
  | 56 => ⟨S_, .f32⟩
  | 57 => ⟨S8192x512, .f32⟩
  | 58 => ⟨S_, .i32⟩
  | 59 => ⟨S_, .f32⟩
  | 60 => ⟨S1x512, .f32⟩
  | 61 => ⟨S_, .i32⟩
  | 62 => ⟨S_, .f32⟩
  | 63 => ⟨S1x512, .f32⟩
  | 64 => ⟨S512x384, .bf16⟩
  | 65 => ⟨S_, .i32⟩
  | 66 => ⟨S_, .bf16⟩
  | 67 => ⟨S512x384, .bf16⟩
  | 68 => ⟨S_, .i32⟩
  | 69 => ⟨S_, .f32⟩
  | 70 => ⟨S1x384, .f32⟩
  | 71 => ⟨S_, .i32⟩
  | 72 => ⟨S_, .f32⟩
  | 73 => ⟨S1x384, .f32⟩
  | 74 => ⟨S_, .i32⟩
  | 75 => ⟨S_, .f32⟩
  | 76 => ⟨S1x384, .f32⟩
  | 77 => ⟨S384x256, .bf16⟩
  | 78 => ⟨S_, .i32⟩
  | 79 => ⟨S_, .bf16⟩
  | 80 => ⟨S384x256, .bf16⟩
  | 81 => ⟨S_, .i32⟩
  | 82 => ⟨S_, .f32⟩
  | 83 => ⟨S1x256, .f32⟩
  | 84 => ⟨S32x2x512, .f32⟩
  | 85 => ⟨S32x1x512, .f32⟩
  | 86 => ⟨S32x512, .f32⟩
  | 87 => ⟨S_, .f32⟩
  | 88 => ⟨S512, .f32⟩
  | 89 => ⟨S1x512, .f32⟩
  | 90 => ⟨S_, .f32⟩
  | 91 => ⟨S1x512, .f32⟩
  | 92 => ⟨S1x512, .f32⟩
  | 93 => ⟨S32x1x512, .f32⟩
  | 94 => ⟨S32x512, .f32⟩
  | 95 => ⟨S_, .f32⟩
  | 96 => ⟨S512, .f32⟩
  | 97 => ⟨S1x512, .f32⟩
  | 98 => ⟨S_, .f32⟩
  | 99 => ⟨S1x512, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S_, .f32⟩
  | 107 => ⟨S1x512, .f32⟩
  | 108 => ⟨S1x512, .f32⟩
  | 109 => ⟨S1x512, .f32⟩
  | 110 => ⟨S1x512, .f32⟩
  | 111 => ⟨S1x512, .f32⟩
  | 112 => ⟨S1x512, .f32⟩
  | 113 => ⟨S8192x384, .bf16⟩
  | 114 => ⟨S8192x384, .bf16⟩
  | 115 => ⟨S16x2x384, .f32⟩
  | 116 => ⟨S16x1x384, .f32⟩
  | 117 => ⟨S16x384, .f32⟩
  | 118 => ⟨S_, .f32⟩
  | 119 => ⟨S_, .f32⟩
  | 120 => ⟨S_, .f32⟩
  | 121 => ⟨S_, .f32⟩
  | 122 => ⟨S16x1x384, .f32⟩
  | 123 => ⟨S16x384, .f32⟩
  | 124 => ⟨S_, .f32⟩
  | 125 => ⟨S_, .f32⟩
  | 126 => ⟨S_, .f32⟩
  | 127 => ⟨S_, .f32⟩
  | _ => ⟨S8192x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1x384, .f32⟩
  | 10 => ⟨S1x384, .f32⟩
  | 11 => ⟨S1x384, .f32⟩
  | 12 => ⟨S1x384, .f32⟩
  | 13 => ⟨S1x384, .f32⟩
  | 14 => ⟨S8192x256, .bf16⟩
  | 15 => ⟨S8192x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S1x2x512, .f32⟩
  | .local _ .vmem, ⟨3, _⟩ => ⟨S1x2x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S256x128, .f32⟩
  | .local _ .vmem, ⟨9, _⟩ => ⟨S256x128, .f32⟩
  | .local _ .vmem, ⟨10, _⟩ => ⟨S512x384, .bf16⟩
  | .local _ .vmem, ⟨11, _⟩ => ⟨S256x384, .bf16⟩
  | .local _ .vmem, ⟨12, _⟩ => ⟨S256x384, .bf16⟩
  | .local _ .vmem, ⟨13, _⟩ => ⟨S512x1024, .f32⟩
  | .local _ .vmem, ⟨14, _⟩ => ⟨S512x1024, .f32⟩
  | .local _ .vmem, ⟨15, _⟩ => ⟨S8192x384, .bf16⟩
  | .local _ .vmem, ⟨16, _⟩ => ⟨S1x384, .f32⟩
  | .local _ .vmem, ⟨17, _⟩ => ⟨S512x128, .f32⟩
  | .local _ .vmem, ⟨18, _⟩ => ⟨S512x128, .f32⟩
  | .local _ .vmem, ⟨19, _⟩ => ⟨S512x384, .bf16⟩
  | .local _ .vmem, ⟨20, _⟩ => ⟨S512x384, .bf16⟩
  | .local _ .vmem, ⟨21, _⟩ => ⟨S1x2x384, .f32⟩
  | .local _ .vmem, ⟨22, _⟩ => ⟨S1x2x384, .f32⟩
  | .local _ .vmem, ⟨23, _⟩ => ⟨S512x384, .f32⟩
  | .local _ .vmem, ⟨24, _⟩ => ⟨S256x384, .bf16⟩
  | .local _ .vmem, ⟨25, _⟩ => ⟨S256x384, .bf16⟩
  | .local _ .vmem, ⟨26, _⟩ => ⟨S1x384, .f32⟩
  | .local _ .vmem, ⟨27, _⟩ => ⟨S1x384, .f32⟩
  | .local _ .vmem, ⟨28, _⟩ => ⟨S256x128, .f32⟩
  | .local _ .vmem, ⟨29, _⟩ => ⟨S256x128, .f32⟩
  | .local _ .vmem, ⟨30, _⟩ => ⟨S384x256, .bf16⟩
  | .local _ .vmem, ⟨31, _⟩ => ⟨S256x256, .bf16⟩
  | .local _ .vmem, ⟨32, _⟩ => ⟨S256x256, .bf16⟩
  | .local _ .vmem, ⟨33, _⟩ => ⟨S512x1024, .f32⟩
  | .local _ .vmem, ⟨34, _⟩ => ⟨S512x1024, .f32⟩
  | .local _ .vmem, ⟨35, _⟩ => ⟨S8192x256, .bf16⟩
  | .local _ .vmem, ⟨36, _⟩ => ⟨S1x256, .f32⟩
  | .local _ .vmem, ⟨37, _⟩ => ⟨S512x128, .f32⟩
  | .local _ .vmem, ⟨38, _⟩ => ⟨S512x128, .f32⟩
  | .local _ .vmem, ⟨39, _⟩ => ⟨S512x256, .f32⟩
  | .local _ .vmem, ⟨40, _⟩ => ⟨S512x256, .f32⟩
  | .local _ .vmem, ⟨41, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_call0_v0 : Ref sig .tc := ⟨.hbm, 56, rfl⟩
abbrev main_v34 : Ref sig .tc := ⟨.hbm, 57, rfl⟩
abbrev main_c_10 : Ref sig .tc := ⟨.hbm, 58, rfl⟩
abbrev main_call1_v0 : Ref sig .tc := ⟨.hbm, 59, rfl⟩
abbrev main_v35 : Ref sig .tc := ⟨.hbm, 60, rfl⟩
abbrev main_c_11 : Ref sig .tc := ⟨.hbm, 61, rfl⟩
abbrev main_call2_v0 : Ref sig .tc := ⟨.hbm, 62, rfl⟩
abbrev main_v36 : Ref sig .tc := ⟨.hbm, 63, rfl⟩
abbrev main_v37 : Ref sig .tc := ⟨.hbm, 64, rfl⟩
abbrev main_c_12 : Ref sig .tc := ⟨.hbm, 65, rfl⟩
abbrev main_call3_v0 : Ref sig .tc := ⟨.hbm, 66, rfl⟩
abbrev main_v38 : Ref sig .tc := ⟨.hbm, 67, rfl⟩
abbrev main_c_13 : Ref sig .tc := ⟨.hbm, 68, rfl⟩
abbrev main_call4_v0 : Ref sig .tc := ⟨.hbm, 69, rfl⟩
abbrev main_v39 : Ref sig .tc := ⟨.hbm, 70, rfl⟩
abbrev main_c_14 : Ref sig .tc := ⟨.hbm, 71, rfl⟩
abbrev main_call5_v0 : Ref sig .tc := ⟨.hbm, 72, rfl⟩
abbrev main_v40 : Ref sig .tc := ⟨.hbm, 73, rfl⟩
abbrev main_c_15 : Ref sig .tc := ⟨.hbm, 74, rfl⟩
abbrev main_call6_v0 : Ref sig .tc := ⟨.hbm, 75, rfl⟩
abbrev main_v41 : Ref sig .tc := ⟨.hbm, 76, rfl⟩
abbrev main_v42 : Ref sig .tc := ⟨.hbm, 77, rfl⟩
abbrev main_c_16 : Ref sig .tc := ⟨.hbm, 78, rfl⟩
abbrev main_call7_v0 : Ref sig .tc := ⟨.hbm, 79, rfl⟩
abbrev main_v43 : Ref sig .tc := ⟨.hbm, 80, rfl⟩
abbrev main_c_17 : Ref sig .tc := ⟨.hbm, 81, rfl⟩
abbrev main_call8_v0 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_18 : Ref sig .tc := ⟨.hbm, 87, rfl⟩
abbrev main_v48 : Ref sig .tc := ⟨.hbm, 88, rfl⟩
abbrev main_v49 : Ref sig .tc := ⟨.hbm, 89, rfl⟩
abbrev main_cst_19 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_20 : Ref sig .tc := ⟨.hbm, 95, rfl⟩
abbrev main_v54 : Ref sig .tc := ⟨.hbm, 96, rfl⟩
abbrev main_v55 : Ref sig .tc := ⟨.hbm, 97, rfl⟩
abbrev main_cst_21 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_22 : Ref sig .tc := ⟨.hbm, 103, rfl⟩
abbrev main_v60 : Ref sig .tc := ⟨.hbm, 104, rfl⟩
abbrev main_v61 : Ref sig .tc := ⟨.hbm, 105, rfl⟩
abbrev main_cst_23 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69_0 : Ref sig .tc := ⟨.hbm, 114, rfl⟩
abbrev main_v69_1 : Ref sig .tc := ⟨.hbm, 115, rfl⟩
abbrev main_v70 : Ref sig .tc := ⟨.hbm, 116, rfl⟩
abbrev main_v71 : Ref sig .tc := ⟨.hbm, 117, rfl⟩
abbrev main_cst_24 : Ref sig .tc := ⟨.hbm, 118, rfl⟩
abbrev main_v72 : Ref sig .tc := ⟨.hbm, 119, rfl⟩
abbrev main_cst_25 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_26 : Ref sig .tc := ⟨.hbm, 124, rfl⟩
abbrev main_v76 : Ref sig .tc := ⟨.hbm, 125, rfl⟩
abbrev main_cst_27 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_28 : Ref sig .tc := ⟨.hbm, 130, rfl⟩
abbrev main_v80 : Ref sig .tc := ⟨.hbm, 131, rfl⟩
abbrev main_v81 : Ref sig .tc := ⟨.hbm, 132, rfl⟩
abbrev main_cst_29 : Ref sig .tc := ⟨.hbm, 133, rfl⟩
abbrev main_v82 : Ref sig .tc := ⟨.hbm, 134, rfl⟩
abbrev main_cst_30 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x384 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![16, 8], ![false, false]⟩

def k2_mult1 (i : grid2.Coords) : BitVec 32 :=
  let arg0 : BitVec 32 := BitVec.ofNat 32 (i 0).val
  let c512_i32 : BitVec 32 := 512#32
  let v0 : BitVec 32 := Scalar.muli arg0 c512_i32
  v0
def k2_mult2 (i : grid2.Coords) : BitVec 32 :=
  let arg1 : BitVec 32 := BitVec.ofNat 32 (i 1).val
  let c1024_i32 : BitVec 32 := 1024#32
  let v8 : BitVec 32 := Scalar.muli arg1 c1024_i32
  v8
def k2_off1 (i : grid2.Coords) : Fin 2 → Nat :=
  let arg1 : BitVec 32 := BitVec.ofNat 32 (i 1).val
  let c1024_i32 : BitVec 32 := 1024#32
  let v8 : BitVec 32 := Scalar.muli arg1 c1024_i32
  let v9 : BitVec 32 := v8
  let v14 : Index := Scalar.indexCast v9
  let c0_4 : Index := 0#32
  ![v14.toNat, 0]
def k2_cond2 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_7 : BitVec 32 := 0#32
  let v24 : BitVec 1 := Scalar.cmpi .ne v23 c0_i32_7
  v24

def k2_off2 (i : grid2.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v25 : Index := Scalar.indexCast v1
  let c0_8 : Index := 0#32
  ![v25.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x384 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x2x384 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S384x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![16, 8], ![false, false]⟩

def k4_mult1 (i : grid4.Coords) : BitVec 32 :=
  let arg0 : BitVec 32 := BitVec.ofNat 32 (i 0).val
  let c512_i32 : BitVec 32 := 512#32
  let v0 : BitVec 32 := Scalar.muli arg0 c512_i32
  v0
def k4_mult2 (i : grid4.Coords) : BitVec 32 :=
  let arg1 : BitVec 32 := BitVec.ofNat 32 (i 1).val
  let c1024_i32 : BitVec 32 := 1024#32
  let v5 : BitVec 32 := Scalar.muli arg1 c1024_i32
  v5
def k4_off1 (i : grid4.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v11 : Index := Scalar.indexCast v6
  let c0_4 : Index := 0#32
  ![v11.toNat, 0]
def k4_cond2 (i : grid4.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_7 : BitVec 32 := 0#32
  let v21 : BitVec 1 := Scalar.cmpi .ne v20 c0_i32_7
  v21

def k4_off2 (i : grid4.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v22 : Index := Scalar.indexCast v1
  let c0_8 : Index := 0#32
  ![v22.toNat, 0]
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8192x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S512x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192 : S_.BroadcastsInDim S8192 (![] : Fin 0 → Fin S8192.rank)
  bcast_S_S131072 : S_.BroadcastsInDim S131072 (![] : Fin 0 → Fin S131072.rank)
  bcast_S131072_S131072x1_0 : S131072.BroadcastsInDim S131072x1 (![0] : Fin 1 → Fin S131072x1.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  concatenates_S131072x1_S131072x1_S131072x2_d1 : Shape.Concatenates [S131072x1, S131072x1] S131072x2 1
  pads_S8192x512_S8192x512_000_000 : S8192x512.Pads (![0, 0] : Fin 2 → Nat) ![0, 0] ![0, 0] S8192x512
  h_S_ : 0 < S_.numel
  pads_S1x512_S1x512_000_000 : S1x512.Pads (![0, 0] : Fin 2 → Nat) ![0, 0] ![0, 0] S1x512
  bitsLt_bf16_f32 : FTy.bits .bf16 < FTy.bits .f32
  pads_S512x384_S512x384_000_000 : S512x384.Pads (![0, 0] : Fin 2 → Nat) ![0, 0] ![0, 0] S512x384
  pads_S1x384_S1x384_000_000 : S1x384.Pads (![0, 0] : Fin 2 → Nat) ![0, 0] ![0, 0] S1x384
  pads_S384x256_S384x256_000_000 : S384x256.Pads (![0, 0] : Fin 2 → Nat) ![0, 0] ![0, 0] S384x256
  pads_S1x256_S1x256_000_000 : S1x256.Pads (![0, 0] : Fin 2 → Nat) ![0, 0] ![0, 0] S1x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S512 : S256x512.Reduces [0] S512
  shapeCasts_S512_S1x512 : S512.ShapeCasts S1x512
  concatenates_S1x512_S1x512_S2x512_d0 : Shape.Concatenates [S1x512, S1x512] S2x512 0
  shapeCasts_S2x512_S1x2x512 : S2x512.ShapeCasts S1x2x512
  inb_S1x2x512_S1x2x512_0_0_0 : ∀ a, (![0, 0, 0] : Fin 3 → Nat) a + S1x2x512.size a ≤ S1x2x512.size a
  h_S1x2x512 : 0 < S1x2x512.numel
  slices_S32x2x512_S32x1x512_0_0_0 : S32x2x512.Slices ![0, 0, 0] S32x1x512
  shapeCasts_S32x1x512_S32x512 : S32x1x512.ShapeCasts S32x512
  reducesTo_S32x512_S512_d0 : S32x512.ReducesTo [0] S512
  bcast_S512_S1x512_1 : S512.BroadcastsInDim S1x512 (![1] : Fin 1 → Fin S1x512.rank)
  bcast_S_S1x512 : S_.BroadcastsInDim S1x512 (![] : Fin 0 → Fin S1x512.rank)
  slices_S32x2x512_S32x1x512_0_1_0 : S32x2x512.Slices ![0, 1, 0] S32x1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S256x1 : S256x128.Slices ![0, 0] S256x1
  broadcasts_S256x1_S256x512 : S256x1.Broadcasts S256x512
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S256x384_S256x384_0_0 : ∀ a, (![0, 0] : Fin 2 → Nat) a + S256x384.size a ≤ S256x384.size a
  h_S256x384 : 0 < S256x384.numel
  packedbf16_S256x384_S256x384_0_0 : (Rect.unit (s := S256x384) ![0, 0] S256x384.size inb_S256x384_S256x384_0_0).PackedRows (EltTy.packing .bf16)
  iota_S512x384_d0_w32 : S512x384.Iotas .tc 32 [0]
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S1024x384 : 0 < S1024x384.numel
  shapeCasts_S1024x384_S1024x384 : S1024x384.ShapeCasts S1024x384
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x1 : S512x128.Slices ![0, 0] S512x1
  broadcasts_S512x1_S512x384 : S512x1.Broadcasts S512x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  packedbf16_S512x384_S512x384_0_0 : (Rect.unit (s := S512x384) ![0, 0] S512x384.size inb_S512x384_S512x384_0_0).PackedRows (EltTy.packing .bf16)
  reduces_S512x384_S384 : S512x384.Reduces [0] S384
  shapeCasts_S384_S1x384 : S384.ShapeCasts S1x384
  concatenates_S1x384_S1x384_S2x384_d0 : Shape.Concatenates [S1x384, S1x384] S2x384 0
  shapeCasts_S2x384_S1x2x384 : S2x384.ShapeCasts S1x2x384
  inb_S1x2x384_S1x2x384_0_0_0 : ∀ a, (![0, 0, 0] : Fin 3 → Nat) a + S1x2x384.size a ≤ S1x2x384.size a
  h_S1x2x384 : 0 < S1x2x384.numel
  slices_S16x2x384_S16x1x384_0_0_0 : S16x2x384.Slices ![0, 0, 0] S16x1x384
  shapeCasts_S16x1x384_S16x384 : S16x1x384.ShapeCasts S16x384
  reducesTo_S16x384_S_d0_1 : S16x384.ReducesTo [0, 1] S_
  slices_S16x2x384_S16x1x384_0_1_0 : S16x2x384.Slices ![0, 1, 0] S16x1x384
  bcast_S_S1x384 : S_.BroadcastsInDim S1x384 (![] : Fin 0 → Fin S1x384.rank)
  shapeCasts_S256x384_S256x384 : S256x384.ShapeCasts S256x384
  broadcasts_S1x384_S256x384 : S1x384.Broadcasts S256x384
  broadcasts_S256x1_S256x384 : S256x1.Broadcasts S256x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S1024x256 : 0 < S1024x256.numel
  shapeCasts_S1024x256_S1024x256 : S1024x256.ShapeCasts S1024x256
  broadcasts_S512x1_S512x256 : S512x1.Broadcasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  scatter_S8192_S131072x1_S131072_n_0_0_1_wf : ScatterDims.WF S8192 S131072x1 S131072 [] [0] [0] 1
  scatter_S8192x8192_S131072x2_S131072_n_01_01_1_wf : ScatterDims.WF S8192x8192 S131072x2 S131072 [] [0, 1] [0, 1] 1
  dot_S256x512_S512x384_S256x384_1_0_0_1_n_n_wf : DotDims.WF S256x512 S512x384 S256x384 [1] [0] [0] [1] [] []
  dot_S512x1024_S1024x384_S512x384_1_0_0_1_n_n_wf : DotDims.WF S512x1024 S1024x384 S512x384 [1] [0] [0] [1] [] []
  dot_S256x384_S384x256_S256x256_1_0_0_1_n_n_wf : DotDims.WF S256x384 S384x256 S256x256 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512.size a ≤ S32x2x512.size a
  hwx0_1 : ∀ i : grid0.Coords, EltTy.bits .f32 = 32 ∨ (Rect.block (s := S32x2x512) S1x2x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .f32 = 32 ∨ (Rect.block (s := S8192x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x128.size a
  hwx1_3 : ∀ i : grid1.Coords, EltTy.bits .f32 = 32 ∨ (Rect.block (s := S8192x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x384.size a ≤ S512x384.size a
  hwx1_4 : ∀ i : grid1.Coords, EltTy.bits .bf16 = 32 ∨ (Rect.block (s := S512x384) S512x384.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x384.size a ≤ S8192x384.size a
  hwx1_5 : ∀ i : grid1.Coords, EltTy.bits .bf16 = 32 ∨ (Rect.block (s := S8192x384) S256x384.size (cc1_transform_5 i) (hinb1_5 i)).WholeWords (EltTy.packing .bf16)
  hrank2 : 0 < grid2.rank
  k2_mult1_dvd : ∀ i : grid2.Coords, 512 ∣ (k2_mult1 i).toNat
  k2_mult2_dvd : ∀ i : grid2.Coords, 1024 ∣ (k2_mult2 i).toNat
  k2_off1_inb : ∀ i : grid2.Coords, ∀ a, (k2_off1 i) a + S1024x384.size a ≤ S8192x384.size a
  k2_off2_inb : ∀ i : grid2.Coords, ∀ (k2_h2 : k2_cond2 i = 1#1), ∀ a, (k2_off2 i) a + S512x384.size a ≤ S8192x384.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x8192.size a
  hwx2_0 : ∀ i : grid2.Coords, EltTy.bits .f32 = 32 ∨ (Rect.block (s := S8192x8192) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x384.size a ≤ S8192x384.size a
  hwx2_1 : ∀ i : grid2.Coords, EltTy.bits .bf16 = 32 ∨ (Rect.block (s := S8192x384) S8192x384.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x384.size a ≤ S1x384.size a
  hwx2_2 : ∀ i : grid2.Coords, EltTy.bits .f32 = 32 ∨ (Rect.block (s := S1x384) S1x384.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x128.size a
  hwx2_3 : ∀ i : grid2.Coords, EltTy.bits .f32 = 32 ∨ (Rect.block (s := S8192x128) S512x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x384.size a ≤ S8192x384.size a
  hwx2_4 : ∀ i : grid2.Coords, EltTy.bits .bf16 = 32 ∨ (Rect.block (s := S8192x384) S512x384.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x384.size a ≤ S16x2x384.size a
  hwx2_5 : ∀ i : grid2.Coords, EltTy.bits .f32 = 32 ∨ (Rect.block (s := S16x2x384) S1x2x384.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x384.size a ≤ S8192x384.size a
  hwx3_0 : ∀ i : grid3.Coords, EltTy.bits .bf16 = 32 ∨ (Rect.block (s := S8192x384) S256x384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x384.size a ≤ S1x384.size a
  hwx3_1 : ∀ i : grid3.Coords, EltTy.bits .f32 = 32 ∨ (Rect.block (s := S1x384) S1x384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S8192x128.size a
  hwx3_3 : ∀ i : grid3.Coords, EltTy.bits .f32 = 32 ∨ (Rect.block (s := S8192x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384x256.size a ≤ S384x256.size a
  hwx3_4 : ∀ i : grid3.Coords, EltTy.bits .bf16 = 32 ∨ (Rect.block (s := S384x256) S384x256.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S8192x256.size a
  hwx3_5 : ∀ i : grid3.Coords, EltTy.bits .bf16 = 32 ∨ (Rect.block (s := S8192x256) S256x256.size (cc3_transform_5 i) (hinb3_5 i)).WholeWords (EltTy.packing .bf16)
  hrank4 : 0 < grid4.rank
  k4_mult1_dvd : ∀ i : grid4.Coords, 512 ∣ (k4_mult1 i).toNat
  k4_mult2_dvd : ∀ i : grid4.Coords, 1024 ∣ (k4_mult2 i).toNat
  k4_off1_inb : ∀ i : grid4.Coords, ∀ a, (k4_off1 i) a + S1024x256.size a ≤ S8192x256.size a
  k4_off2_inb : ∀ i : grid4.Coords, ∀ (k4_h2 : k4_cond2 i = 1#1), ∀ a, (k4_off2 i) a + S512x256.size a ≤ S8192x256.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x8192.size a
  hwx4_0 : ∀ i : grid4.Coords, EltTy.bits .f32 = 32 ∨ (Rect.block (s := S8192x8192) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x256.size a ≤ S8192x256.size a
  hwx4_1 : ∀ i : grid4.Coords, EltTy.bits .bf16 = 32 ∨ (Rect.block (s := S8192x256) S8192x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S8192x128.size a
  hwx4_3 : ∀ i : grid4.Coords, EltTy.bits .f32 = 32 ∨ (Rect.block (s := S8192x128) S512x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S8192x256.size a
  hwx4_4 : ∀ i : grid4.Coords, EltTy.bits .f32 = 32 ∨ (Rect.block (s := S8192x256) S512x256.size (cc4_transform_4 i) (hinb4_4 i)).WholeWords (EltTy.packing .f32)

variable [Facts₀]

def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf
def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf
def dot_S256x384_S384x256_S256x256_1_0_0_1_n_n : DotDims S256x384 S384x256 S256x256 where
  lhsContracting := [1]
  rhsContracting := [0]
  lhsNonContracting := [0]
  rhsNonContracting := [1]
  lhsBatch := []
  rhsBatch := []
  wf := dot_S256x384_S384x256_S256x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v34) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x2x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v34) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38) S512x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S256x384.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S8192x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v69_0) S512x384.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v69_1) S1x2x384.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v69_0) S256x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S256x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v43) S384x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S256x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v33) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S8192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S512x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v90) S512x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S2x131072 : Shape := ⟨2, ![2, 131072]⟩
abbrev S1x512 : Shape := ⟨2, ![1, 512]⟩
abbrev S512x384 : Shape := ⟨2, ![512, 384]⟩
abbrev S1x384 : Shape := ⟨2, ![1, 384]⟩
abbrev S384x256 : Shape := ⟨2, ![384, 256]⟩
abbrev S1x256 : Shape := ⟨2, ![1, 256]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S1x8192 : Shape := ⟨2, ![1, 8192]⟩
abbrev S256x512 : Shape := ⟨2, ![256, 512]⟩
abbrev S512 : Shape := ⟨1, ![512]⟩
abbrev S8192x384 : Shape := ⟨2, ![8192, 384]⟩
abbrev S256x384 : Shape := ⟨2, ![256, 384]⟩
abbrev S32x2x384 : Shape := ⟨3, ![32, 2, 384]⟩
abbrev S1x2x384 : Shape := ⟨3, ![1, 2, 384]⟩
abbrev S384 : Shape := ⟨1, ![384]⟩
abbrev S2x384 : Shape := ⟨2, ![2, 384]⟩
abbrev S32x1x384 : Shape := ⟨3, ![32, 1, 384]⟩
abbrev S32x384 : Shape := ⟨2, ![32, 384]⟩
abbrev S8192x256 : Shape := ⟨2, ![8192, 256]⟩
abbrev S256x256 : Shape := ⟨2, ![256, 256]⟩
abbrev S512x256 : Shape := ⟨2, ![512, 256]⟩

abbrev nBuf : Space → Nat
  | .hbm => 144
  | .vmem => 33
  | .smem => 0
  | _ => 0

abbrev hbmTy0_0 (i : Nat) : BufTy := match i % 128 with
  | 0 => ⟨S8192x512, .f32⟩
  | 1 => ⟨S2x131072, .i32⟩
  | 2 => ⟨S1x512, .f32⟩
  | 3 => ⟨S1x512, .f32⟩
  | 4 => ⟨S512x384, .f32⟩
  | 5 => ⟨S1x384, .f32⟩
  | 6 => ⟨S1x384, .f32⟩
  | 7 => ⟨S1x384, .f32⟩
  | 8 => ⟨S384x256, .f32⟩
  | 9 => ⟨S1x256, .f32⟩
  | 10 => ⟨S1x131072, .i32⟩
  | 11 => ⟨S131072, .i32⟩
  | 12 => ⟨S1x131072, .i32⟩
  | 13 => ⟨S131072, .i32⟩
  | 14 => ⟨S_, .f32⟩
  | 15 => ⟨S8192x8192, .f32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x1, .i32⟩
  | 32 => ⟨S131072x2, .i32⟩
  | 33 => ⟨S_, .f32⟩
  | 34 => ⟨S131072, .f32⟩
  | 35 => ⟨S8192x8192, .f32⟩
  | 36 => ⟨S8192x8192, .i32⟩
  | 37 => ⟨S8192x8192, .i32⟩
  | 38 => ⟨S_, .i32⟩
  | 39 => ⟨S8192x8192, .i32⟩
  | 40 => ⟨S8192x8192, .i32⟩
  | 41 => ⟨S8192x8192, .i1⟩
  | 42 => ⟨S8192x8192, .f32⟩
  | 43 => ⟨S8192x8192, .f32⟩
  | 44 => ⟨S_, .f32⟩
  | 45 => ⟨S8192, .f32⟩
  | 46 => ⟨S_, .f32⟩
  | 47 => ⟨S8192, .f32⟩
  | 48 => ⟨S8192, .i1⟩
  | 49 => ⟨S8192, .f32⟩
  | 50 => ⟨S_, .f32⟩
  | 51 => ⟨S_, .f32⟩
  | 52 => ⟨S8192, .f32⟩
  | 53 => ⟨S8192, .f32⟩
  | 54 => ⟨S8192x1, .f32⟩
  | 55 => ⟨S8192x8192, .f32⟩
  | 56 => ⟨S8192x8192, .f32⟩
  | 57 => ⟨S1x8192, .f32⟩
  | 58 => ⟨S8192x8192, .f32⟩
  | 59 => ⟨S8192x8192, .f32⟩
  | 60 => ⟨S_, .i32⟩
  | 61 => ⟨S_, .f32⟩
  | 62 => ⟨S8192x512, .f32⟩
  | 63 => ⟨S8192x8192, .bf16⟩
  | 64 => ⟨S_, .i32⟩
  | 65 => ⟨S_, .bf16⟩
  | 66 => ⟨S8192x8192, .bf16⟩
  | 67 => ⟨S_, .i32⟩
  | 68 => ⟨S_, .f32⟩
  | 69 => ⟨S1x512, .f32⟩
  | 70 => ⟨S_, .i32⟩
  | 71 => ⟨S_, .f32⟩
  | 72 => ⟨S1x512, .f32⟩
  | 73 => ⟨S512x384, .bf16⟩
  | 74 => ⟨S_, .i32⟩
  | 75 => ⟨S_, .bf16⟩
  | 76 => ⟨S512x384, .bf16⟩
  | 77 => ⟨S_, .i32⟩
  | 78 => ⟨S_, .f32⟩
  | 79 => ⟨S1x384, .f32⟩
  | 80 => ⟨S_, .i32⟩
  | 81 => ⟨S_, .f32⟩
  | 82 => ⟨S1x384, .f32⟩
  | 83 => ⟨S_, .i32⟩
  | 84 => ⟨S_, .f32⟩
  | 85 => ⟨S1x384, .f32⟩
  | 86 => ⟨S384x256, .bf16⟩
  | 87 => ⟨S_, .i32⟩
  | 88 => ⟨S_, .bf16⟩
  | 89 => ⟨S384x256, .bf16⟩
  | 90 => ⟨S_, .i32⟩
  | 91 => ⟨S_, .f32⟩
  | 92 => ⟨S1x256, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S_, .f32⟩
  | 107 => ⟨S1x512, .f32⟩
  | 108 => ⟨S1x512, .f32⟩
  | 109 => ⟨S1x512, .f32⟩
  | 110 => ⟨S1x512, .f32⟩
  | 111 => ⟨S1x512, .f32⟩
  | 112 => ⟨S1x512, .f32⟩
  | 113 => ⟨S8192x384, .bf16⟩
  | 114 => ⟨S8192x384, .bf16⟩
  | 115 => ⟨S32x2x384, .f32⟩
  | 116 => ⟨S32x1x384, .f32⟩
  | 117 => ⟨S32x384, .f32⟩
  | 118 => ⟨S_, .f32⟩
  | 119 => ⟨S_, .f32⟩
  | 120 => ⟨S_, .f32⟩
  | 121 => ⟨S_, .f32⟩
  | 122 => ⟨S32x1x384, .f32⟩
  | 123 => ⟨S32x384, .f32⟩
  | 124 => ⟨S_, .f32⟩
  | 125 => ⟨S_, .f32⟩
  | 126 => ⟨S_, .f32⟩
  | 127 => ⟨S_, .f32⟩
  | _ => ⟨S8192x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1x384, .f32⟩
  | 10 => ⟨S1x384, .f32⟩
  | 11 => ⟨S1x384, .f32⟩
  | 12 => ⟨S1x384, .f32⟩
  | 13 => ⟨S1x384, .f32⟩
  | 14 => ⟨S8192x256, .bf16⟩
  | 15 => ⟨S8192x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S512x384, .bf16⟩
  | .local _ .vmem, ⟨9, _⟩ => ⟨S256x384, .bf16⟩
  | .local _ .vmem, ⟨10, _⟩ => ⟨S256x384, .bf16⟩
  | .local _ .vmem, ⟨11, _⟩ => ⟨S256x512, .bf16⟩
  | .local _ .vmem, ⟨12, _⟩ => ⟨S256x512, .bf16⟩
  | .local _ .vmem, ⟨13, _⟩ => ⟨S8192x384, .bf16⟩
  | .local _ .vmem, ⟨14, _⟩ => ⟨S1x384, .f32⟩
  | .local _ .vmem, ⟨15, _⟩ => ⟨S256x384, .bf16⟩
  | .local _ .vmem, ⟨16, _⟩ => ⟨S256x384, .bf16⟩
  | .local _ .vmem, ⟨17, _⟩ => ⟨S1x2x384, .f32⟩
  | .local _ .vmem, ⟨18, _⟩ => ⟨S1x2x384, .f32⟩
  | .local _ .vmem, ⟨19, _⟩ => ⟨S256x384, .f32⟩
  | .local _ .vmem, ⟨20, _⟩ => ⟨S256x384, .bf16⟩
  | .local _ .vmem, ⟨21, _⟩ => ⟨S256x384, .bf16⟩
  | .local _ .vmem, ⟨22, _⟩ => ⟨S1x384, .f32⟩
  | .local _ .vmem, ⟨23, _⟩ => ⟨S1x384, .f32⟩
  | .local _ .vmem, ⟨24, _⟩ => ⟨S384x256, .bf16⟩
  | .local _ .vmem, ⟨25, _⟩ => ⟨S256x256, .bf16⟩
  | .local _ .vmem, ⟨26, _⟩ => ⟨S256x256, .bf16⟩
  | .local _ .vmem, ⟨27, _⟩ => ⟨S256x512, .bf16⟩
  | .local _ .vmem, ⟨28, _⟩ => ⟨S256x512, .bf16⟩
  | .local _ .vmem, ⟨29, _⟩ => ⟨S8192x256, .bf16⟩
  | .local _ .vmem, ⟨30, _⟩ => ⟨S1x256, .f32⟩
  | .local _ .vmem, ⟨31, _⟩ => ⟨S256x256, .f32⟩
  | .local _ .vmem, ⟨32, _⟩ => ⟨S256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_call2_v0 : Ref sig .tc := ⟨.hbm, 65, rfl⟩
abbrev main_v40 : Ref sig .tc := ⟨.hbm, 66, rfl⟩
abbrev main_c_10 : Ref sig .tc := ⟨.hbm, 67, rfl⟩
abbrev main_call3_v0 : Ref sig .tc := ⟨.hbm, 68, rfl⟩
abbrev main_v41 : Ref sig .tc := ⟨.hbm, 69, rfl⟩
abbrev main_c_11 : Ref sig .tc := ⟨.hbm, 70, rfl⟩
abbrev main_call4_v0 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_call5_v0 : Ref sig .tc := ⟨.hbm, 75, rfl⟩
abbrev main_v44 : Ref sig .tc := ⟨.hbm, 76, rfl⟩
abbrev main_c_13 : Ref sig .tc := ⟨.hbm, 77, rfl⟩
abbrev main_call6_v0 : Ref sig .tc := ⟨.hbm, 78, rfl⟩
abbrev main_v45 : Ref sig .tc := ⟨.hbm, 79, rfl⟩
abbrev main_c_14 : Ref sig .tc := ⟨.hbm, 80, rfl⟩
abbrev main_call7_v0 : Ref sig .tc := ⟨.hbm, 81, rfl⟩
abbrev main_v46 : Ref sig .tc := ⟨.hbm, 82, rfl⟩
abbrev main_c_15 : Ref sig .tc := ⟨.hbm, 83, rfl⟩
abbrev main_call8_v0 : Ref sig .tc := ⟨.hbm, 84, rfl⟩
abbrev main_v47 : Ref sig .tc := ⟨.hbm, 85, rfl⟩
abbrev main_v48 : Ref sig .tc := ⟨.hbm, 86, rfl⟩
abbrev main_c_16 : Ref sig .tc := ⟨.hbm, 87, rfl⟩
abbrev main_call9_v0 : Ref sig .tc := ⟨.hbm, 88, rfl⟩
abbrev main_v49 : Ref sig .tc := ⟨.hbm, 89, rfl⟩
abbrev main_c_17 : Ref sig .tc := ⟨.hbm, 90, rfl⟩
abbrev main_call10_v0 : Ref sig .tc := ⟨.hbm, 91, rfl⟩
abbrev main_v50 : Ref sig .tc := ⟨.hbm, 92, rfl⟩
abbrev main_v51_0 : Ref sig .tc := ⟨.hbm, 93, rfl⟩
abbrev main_v51_1 : Ref sig .tc := ⟨.hbm, 94, rfl⟩
abbrev main_cst_18 : Ref sig .tc := ⟨.hbm, 95, rfl⟩
abbrev main_v52 : Ref sig .tc := ⟨.hbm, 96, rfl⟩
abbrev main_v53 : Ref sig .tc := ⟨.hbm, 97, rfl⟩
abbrev main_cst_19 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_20 : Ref sig .tc := ⟨.hbm, 103, rfl⟩
abbrev main_v58 : Ref sig .tc := ⟨.hbm, 104, rfl⟩
abbrev main_v59 : Ref sig .tc := ⟨.hbm, 105, rfl⟩
abbrev main_cst_21 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67_0 : Ref sig .tc := ⟨.hbm, 114, rfl⟩
abbrev main_v67_1 : Ref sig .tc := ⟨.hbm, 115, rfl⟩
abbrev main_v68 : Ref sig .tc := ⟨.hbm, 116, rfl⟩
abbrev main_v69 : Ref sig .tc := ⟨.hbm, 117, rfl⟩
abbrev main_cst_22 : Ref sig .tc := ⟨.hbm, 118, rfl⟩
abbrev main_v70 : Ref sig .tc := ⟨.hbm, 119, rfl⟩
abbrev main_cst_23 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_24 : Ref sig .tc := ⟨.hbm, 124, rfl⟩
abbrev main_v74 : Ref sig .tc := ⟨.hbm, 125, rfl⟩
abbrev main_cst_25 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_26 : Ref sig .tc := ⟨.hbm, 130, rfl⟩
abbrev main_v78 : Ref sig .tc := ⟨.hbm, 131, rfl⟩
abbrev main_v79 : Ref sig .tc := ⟨.hbm, 132, rfl⟩
abbrev main_cst_27 : Ref sig .tc := ⟨.hbm, 133, rfl⟩
abbrev main_v80 : Ref sig .tc := ⟨.hbm, 134, rfl⟩
abbrev main_cst_28 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![32, 16], ![false, false]⟩

def k2_mult1 (i : grid2.Coords) : BitVec 32 :=
  let arg1 : BitVec 32 := BitVec.ofNat 32 (i 1).val
  let c512_i32 : BitVec 32 := 512#32
  let v7 : BitVec 32 := Scalar.muli arg1 c512_i32
  v7
def k2_off1 (i : grid2.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0 : Index := 0#32
  ![v9.toNat, 0]
def k2_cond2 (i : grid2.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_7 : BitVec 32 := 0#32
  let v22 : BitVec 1 := Scalar.cmpi .ne v21 c0_i32_7
  v22

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x384 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![32, 16], ![false, false]⟩

def k4_mult1 (i : grid4.Coords) : BitVec 32 :=
  let arg1 : BitVec 32 := BitVec.ofNat 32 (i 1).val
  let c512_i32 : BitVec 32 := 512#32
  let v3 : BitVec 32 := Scalar.muli arg1 c512_i32
  v3
def k4_off1 (i : grid4.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S256x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8192x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S256x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  pads_S8192x512_S8192x512_000_000 : S8192x512.Pads (![0, 0] : Fin 2 → Nat) ![0, 0] ![0, 0] S8192x512
  bitsLt_bf16_f32 : FTy.bits .bf16 < FTy.bits .f32
  pads_S8192x8192_S8192x8192_000_000 : S8192x8192.Pads (![0, 0] : Fin 2 → Nat) ![0, 0] ![0, 0] S8192x8192
  pads_S1x512_S1x512_000_000 : S1x512.Pads (![0, 0] : Fin 2 → Nat) ![0, 0] ![0, 0] S1x512
  pads_S512x384_S512x384_000_000 : S512x384.Pads (![0, 0] : Fin 2 → Nat) ![0, 0] ![0, 0] S512x384
  pads_S1x384_S1x384_000_000 : S1x384.Pads (![0, 0] : Fin 2 → Nat) ![0, 0] ![0, 0] S1x384
  pads_S384x256_S384x256_000_000 : S384x256.Pads (![0, 0] : Fin 2 → Nat) ![0, 0] ![0, 0] S384x256
  pads_S1x256_S1x256_000_000 : S1x256.Pads (![0, 0] : Fin 2 → Nat) ![0, 0] ![0, 0] S1x256
  inb_S1x512_S1x512_0_0 : ∀ a, (![0, 0] : Fin 2 → Nat) a + S1x512.size a ≤ S1x512.size a
  h_S1x512 : 0 < S1x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1x512_S1x512 : S1x512.ShapeCasts S1x512
  reduces_S256x512_S512 : S256x512.Reduces [0] S512
  shapeCasts_S512_S1x512 : S512.ShapeCasts S1x512
  bcast_S_S1x512 : S_.BroadcastsInDim S1x512 (![] : Fin 0 → Fin S1x512.rank)
  broadcasts_S1x512_S256x512 : S1x512.Broadcasts S256x512
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S256x384_S256x384_0_0 : ∀ a, (![0, 0] : Fin 2 → Nat) a + S256x384.size a ≤ S256x384.size a
  h_S256x384 : 0 < S256x384.numel
  packedbf16_S256x384_S256x384_0_0 : (Rect.unit (s := S256x384) ![0, 0] S256x384.size inb_S256x384_S256x384_0_0).PackedRows (EltTy.packing .bf16)
  iota_S256x384_d0_w32 : S256x384.Iotas .tc 32 [0]
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  reduces_S256x384_S384 : S256x384.Reduces [0] S384
  shapeCasts_S384_S1x384 : S384.ShapeCasts S1x384
  concatenates_S1x384_S1x384_S2x384_d0 : Shape.Concatenates [S1x384, S1x384] S2x384 0
  shapeCasts_S2x384_S1x2x384 : S2x384.ShapeCasts S1x2x384
  inb_S1x2x384_S1x2x384_0_0_0 : ∀ a, (![0, 0, 0] : Fin 3 → Nat) a + S1x2x384.size a ≤ S1x2x384.size a
  h_S1x2x384 : 0 < S1x2x384.numel
  slices_S32x2x384_S32x1x384_0_0_0 : S32x2x384.Slices ![0, 0, 0] S32x1x384
  shapeCasts_S32x1x384_S32x384 : S32x1x384.ShapeCasts S32x384
  reducesTo_S32x384_S_d0_1 : S32x384.ReducesTo [0, 1] S_
  slices_S32x2x384_S32x1x384_0_1_0 : S32x2x384.Slices ![0, 1, 0] S32x1x384
  bcast_S_S1x384 : S_.BroadcastsInDim S1x384 (![] : Fin 0 → Fin S1x384.rank)
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  h_S512x256 : 0 < S512x256.numel
  shapeCasts_S512x256_S512x256 : S512x256.ShapeCasts S512x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  scatter_S8192x8192_S131072x2_S131072_n_01_01_1_wf : ScatterDims.WF S8192x8192 S131072x2 S131072 [] [0, 1] [0, 1] 1
  dot_S256x512_S512x384_S256x384_1_0_0_1_n_n_wf : DotDims.WF S256x512 S512x384 S256x384 [1] [0] [0] [1] [] []
  dot_S256x384_S384x256_S256x256_1_0_0_1_n_n_wf : DotDims.WF S256x384 S384x256 S256x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .f32 = 32 ∨ (Rect.block (s := S8192x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x384.size a ≤ S512x384.size a
  hwx1_3 : ∀ i : grid1.Coords, EltTy.bits .bf16 = 32 ∨ (Rect.block (s := S512x384) S512x384.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x384.size a ≤ S8192x384.size a
  hwx1_4 : ∀ i : grid1.Coords, EltTy.bits .bf16 = 32 ∨ (Rect.block (s := S8192x384) S256x384.size (cc1_transform_4 i) (hinb1_4 i)).WholeWords (EltTy.packing .bf16)
  hrank2 : 0 < grid2.rank
  k2_mult1_dvd : ∀ i : grid2.Coords, 512 ∣ (k2_mult1 i).toNat
  k2_off1_inb : ∀ i : grid2.Coords, ∀ a, (k2_off1 i) a + S512x384.size a ≤ S8192x384.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S8192x8192.size a
  hwx2_0 : ∀ i : grid2.Coords, EltTy.bits .bf16 = 32 ∨ (Rect.block (s := S8192x8192) S256x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x384.size a ≤ S8192x384.size a
  hwx2_1 : ∀ i : grid2.Coords, EltTy.bits .bf16 = 32 ∨ (Rect.block (s := S8192x384) S8192x384.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x384.size a ≤ S1x384.size a
  hwx2_2 : ∀ i : grid2.Coords, EltTy.bits .f32 = 32 ∨ (Rect.block (s := S1x384) S1x384.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x384.size a ≤ S8192x384.size a
  hwx2_3 : ∀ i : grid2.Coords, EltTy.bits .bf16 = 32 ∨ (Rect.block (s := S8192x384) S256x384.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2x384.size a ≤ S32x2x384.size a
  hwx2_4 : ∀ i : grid2.Coords, EltTy.bits .f32 = 32 ∨ (Rect.block (s := S32x2x384) S1x2x384.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x384.size a ≤ S8192x384.size a
  hwx3_0 : ∀ i : grid3.Coords, EltTy.bits .bf16 = 32 ∨ (Rect.block (s := S8192x384) S256x384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x384.size a ≤ S1x384.size a
  hwx3_1 : ∀ i : grid3.Coords, EltTy.bits .f32 = 32 ∨ (Rect.block (s := S1x384) S1x384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x256.size a ≤ S384x256.size a
  hwx3_3 : ∀ i : grid3.Coords, EltTy.bits .bf16 = 32 ∨ (Rect.block (s := S384x256) S384x256.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S8192x256.size a
  hwx3_4 : ∀ i : grid3.Coords, EltTy.bits .bf16 = 32 ∨ (Rect.block (s := S8192x256) S256x256.size (cc3_transform_4 i) (hinb3_4 i)).WholeWords (EltTy.packing .bf16)
  hrank4 : 0 < grid4.rank
  k4_mult1_dvd : ∀ i : grid4.Coords, 512 ∣ (k4_mult1 i).toNat
  k4_off1_inb : ∀ i : grid4.Coords, ∀ a, (k4_off1 i) a + S512x256.size a ≤ S8192x256.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x512.size a ≤ S8192x8192.size a
  hwx4_0 : ∀ i : grid4.Coords, EltTy.bits .bf16 = 32 ∨ (Rect.block (s := S8192x8192) S256x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x256.size a ≤ S8192x256.size a
  hwx4_1 : ∀ i : grid4.Coords, EltTy.bits .bf16 = 32 ∨ (Rect.block (s := S8192x256) S8192x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S8192x256.size a
  hwx4_3 : ∀ i : grid4.Coords, EltTy.bits .f32 = 32 ∨ (Rect.block (s := S8192x256) S256x256.size (cc4_transform_3 i) (hinb4_3 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf
def dot_S256x384_S384x256_S256x256_1_0_0_1_n_n : DotDims S256x384 S384x256 S256x256 where
  lhsContracting := [1]
  rhsContracting := [0]
  lhsNonContracting := [0]
  rhsNonContracting := [1]
  lhsBatch := []
  rhsBatch := []
  wf := dot_S256x384_S384x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v38) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S512x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S256x384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S8192x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67_0) S256x384.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v67_1) S1x2x384.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v67_0) S256x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S384x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S256x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S8192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S256x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== Proof.KB_Run.lean ====
import proofs.«101322_g2000704916760673_pallasbulk_724_3_alg».proof.Proof.Gen.Kernel.Regions
import proofs.«101322_g2000704916760673_pallasbulk_724_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev VT (F : FTy → Type) [FloatOps F] : Type := (c : Dev nD) → (b : Ref sig .tc) → Buf (Elt F) ((c : Thread nD τ).loc b)

/-- What the run asks of a region: proof data at any entry contents, the body obligation, and the invariant's two ends. -/
structure Region (F : FTy → Type) [FloatOps F] (cfg : Cfg sig Λ₀) where
  dat : VT F → (c : Dev nD) → Dat τ (Elt F) Unit ℕ (UR sig nD τ) ℕ cfg c
  hA : ∀ V c w, (dat V c).A w = V c (Pipeline.arrRef cfg.spec w)
  hq : ∀ V c w, (dat V c).q w = fullShare := by intros; rfl
  howed : ∀ V c t, (dat V c).owed t = 0 := by intros; rfl
  hrec : ∀ V c t, (dat V c).recorded t = Set.univ := by intros; rfl
  hbody : ∀ V c, BodyObligation (dat V c) (defs₀ (F := F)) Variants.none () Set.univ
  hin : ∀ V c, (iprop((∃ r, prngReg c r) ∗ Pipeline.scopedRest cfg.spec c) : sProp (MT nD τ sig Unit (Elt F) ℕ (UR sig nD τ) ℕ)) ⊢ (dat V c).Φ 0
  hout : ∀ V c, (dat V c).Φ (Fin.last cfg.N) ⊢ (iprop((∃ r, prngReg c r) ∗ Pipeline.scopedRest cfg.spec c) : sProp (MT nD τ sig Unit (Elt F) ℕ (UR sig nD τ) ℕ))

structure Regions (F : FTy → Type) [FloatOps F] where
  r0 : Region F cfg0
  r1 : Region F cfg1
  r2 : Region F cfg2
  r3 : Region F cfg3
  r4 : Region F cfg4

def Regions.r (Rs : Regions F) : (p : Fin 5) → Region F (cfgs p)
  | ⟨0, _⟩ => Rs.r0 | ⟨1, _⟩ => Rs.r1 | ⟨2, _⟩ => Rs.r2 | ⟨3, _⟩ => Rs.r3 | ⟨4, _⟩ => Rs.r4
  | ⟨_ + 5, h⟩ => absurd h (Nat.not_lt.2 (Nat.le_add_left _ _))

section
variable {cfg : Cfg sig Λ₀} (R : Region F cfg) (Win : Dev nD → Valuation τ sig (Elt F))

/-- After a region entered at `Win`: its arrays at what its write-backs leave, every other buffer as entered. -/
def exitVal (c : Dev nD) : Valuation τ sig (Elt F) :=
  Pipeline.withArrays cfg.spec c (Win c) fun w => (R.dat (fun c b => Win c b) c).arrAt w cfg.N

theorem exitVal_arr (hinj : Function.Injective (Pipeline.arrRef cfg.spec)) (c : Dev nD) (w : Fin cfg.W) :
    exitVal R Win c (Proc.devRef .tc (Pipeline.arrRef cfg.spec w)) = (R.dat (fun c b => Win c b) c).arrAt w cfg.N :=
  Pipeline.withArrays_arr cfg.spec hinj c _ _ w

theorem exitVal_of_ne (c : Dev nD) (b : Ref sig .tc) (hb : ∀ w, Pipeline.arrRef cfg.spec w ≠ b) :
    exitVal R Win c (Proc.devRef .tc b) = Win c (Proc.devRef .tc b) :=
  Pipeline.withArrays_of_ne cfg.spec c _ _ b hb

/-- An array no window names is not touched, and an input window's array is never written. -/
theorem exitVal_keep (hinj : Function.Injective (Pipeline.arrRef cfg.spec)) (c : Dev nD) (b : Ref sig .tc)
    (h : ∀ w : Fin cfg.W, Pipeline.arrRef cfg.spec w = b → (cfg.win w).isOut = false) :
    exitVal R Win c (Proc.devRef .tc b) = Win c (Proc.devRef .tc b) := by
  by_cases hb : ∃ w, Pipeline.arrRef cfg.spec w = b
  · obtain ⟨w, rfl⟩ := hb
    rw [exitVal_arr R Win hinj]
    exact ((R.dat _ c).arrAt_in w (h w rfl) _).trans (R.hA _ c w)
  · exact exitVal_of_ne R Win c b fun w e => hb ⟨w, e⟩
end

variable (m : (ℓ : Loc nD τ sig) → Buf (Elt F) ℓ) (ρ : Dev nD → PrngReg) (Rs : Regions F)

abbrev Vin0 : VT F := fun c b => V18 m c b
def W19 : Dev nD → Valuation τ sig (Elt F) := exitVal Rs.r0 (V18 m)
abbrev W20 : Dev nD → Valuation τ sig (Elt F) := fun c => StableHlo.after hostOps1 (W19 m Rs c)
theorem W20_of (c : Dev nD) (r : Ref sig .tc) (h : r ∉ hostOps1_W) : W20 m Rs c r = W19 m Rs c r :=
  StableHlo.after_of_writes_sub hostOps1 _ hostOps1_writes h
abbrev Vin1 : VT F := fun c b => W20 m Rs c b
def W21 : Dev nD → Valuation τ sig (Elt F) := exitVal Rs.r1 (W20 m Rs)
abbrev Vin2 : VT F := fun c b => W21 m Rs c b
def W22 : Dev nD → Valuation τ sig (Elt F) := exitVal Rs.r2 (W21 m Rs)
abbrev W23 : Dev nD → Valuation τ sig (Elt F) := fun c => StableHlo.after hostOps3 (W22 m Rs c)
theorem W23_of (c : Dev nD) (r : Ref sig .tc) (h : r ∉ hostOps3_W) : W23 m Rs c r = W22 m Rs c r :=
  StableHlo.after_of_writes_sub hostOps3 _ hostOps3_writes h
abbrev Vin3 : VT F := fun c b => W23 m Rs c b
def W24 : Dev nD → Valuation τ sig (Elt F) := exitVal Rs.r3 (W23 m Rs)
abbrev Vin4 : VT F := fun c b => W24 m Rs c b
def W25 : Dev nD → Valuation τ sig (Elt F) := exitVal Rs.r4 (W24 m Rs)

theorem W19_arr (c : Dev nD) (w : Fin cfg0.W) :
    W19 m Rs c (Proc.devRef .tc (Pipeline.arrRef spec0 w)) = (Rs.r0.dat (Vin0 m) c).arrAt w cfg0.N :=
  exitVal_arr Rs.r0 (V18 m) launch0.win.arr_inj c w
theorem W19_keep (c : Dev nD) (b : Ref sig .tc)
    (h : ∀ w : Fin cfg0.W, Pipeline.arrRef spec0 w = b → (cfg0.win w).isOut = false) :
    W19 m Rs c (Proc.devRef .tc b) = V18 m c (Proc.devRef .tc b) :=
  exitVal_keep Rs.r0 (V18 m) launch0.win.arr_inj c b h
theorem W21_arr (c : Dev nD) (w : Fin cfg1.W) :
    W21 m Rs c (Proc.devRef .tc (Pipeline.arrRef spec1 w)) = (Rs.r1.dat (Vin1 m Rs) c).arrAt w cfg1.N :=
  exitVal_arr Rs.r1 (W20 m Rs) launch1.win.arr_inj c w
theorem W21_keep (c : Dev nD) (b : Ref sig .tc)
    (h : ∀ w : Fin cfg1.W, Pipeline.arrRef spec1 w = b → (cfg1.win w).isOut = false) :
    W21 m Rs c (Proc.devRef .tc b) = W20 m Rs c (Proc.devRef .tc b) :=
  exitVal_keep Rs.r1 (W20 m Rs) launch1.win.arr_inj c b h
theorem W22_arr (c : Dev nD) (w : Fin cfg2.W) :
    W22 m Rs c (Proc.devRef .tc (Pipeline.arrRef spec2 w)) = (Rs.r2.dat (Vin2 m Rs) c).arrAt w cfg2.N :=
  exitVal_arr Rs.r2 (W21 m Rs) launch2.win.arr_inj c w
theorem W22_keep (c : Dev nD) (b : Ref sig .tc)
    (h : ∀ w : Fin cfg2.W, Pipeline.arrRef spec2 w = b → (cfg2.win w).isOut = false) :
    W22 m Rs c (Proc.devRef .tc b) = W21 m Rs c (Proc.devRef .tc b) :=
  exitVal_keep Rs.r2 (W21 m Rs) launch2.win.arr_inj c b h
theorem W24_arr (c : Dev nD) (w : Fin cfg3.W) :
    W24 m Rs c (Proc.devRef .tc (Pipeline.arrRef spec3 w)) = (Rs.r3.dat (Vin3 m Rs) c).arrAt w cfg3.N :=
  exitVal_arr Rs.r3 (W23 m Rs) launch3.win.arr_inj c w
theorem W24_keep (c : Dev nD) (b : Ref sig .tc)
    (h : ∀ w : Fin cfg3.W, Pipeline.arrRef spec3 w = b → (cfg3.win w).isOut = false) :
    W24 m Rs c (Proc.devRef .tc b) = W23 m Rs c (Proc.devRef .tc b) :=
  exitVal_keep Rs.r3 (W23 m Rs) launch3.win.arr_inj c b h
theorem W25_arr (c : Dev nD) (w : Fin cfg4.W) :
    W25 m Rs c (Proc.devRef .tc (Pipeline.arrRef spec4 w)) = (Rs.r4.dat (Vin4 m Rs) c).arrAt w cfg4.N :=
  exitVal_arr Rs.r4 (W24 m Rs) launch4.win.arr_inj c w
theorem W25_keep (c : Dev nD) (b : Ref sig .tc)
    (h : ∀ w : Fin cfg4.W, Pipeline.arrRef spec4 w = b → (cfg4.win w).isOut = false) :
    W25 m Rs c (Proc.devRef .tc b) = W24 m Rs c (Proc.devRef .tc b) :=
  exitVal_keep Rs.r4 (W24 m Rs) launch4.win.arr_inj c b h

/-- Region `p`'s entry contents. -/
def Win : Fin 5 → Dev nD → Valuation τ sig (Elt F)
  | ⟨0, _⟩ => V18 m | ⟨1, _⟩ => W20 m Rs | ⟨2, _⟩ => W21 m Rs | ⟨3, _⟩ => W23 m Rs | ⟨4, _⟩ => W24 m Rs
  | ⟨_ + 5, h⟩ => absurd h (Nat.not_lt.2 (Nat.le_add_left _ _))
abbrev Vin (p : Fin 5) : VT F := fun c b => Win m Rs p c b
abbrev Wout (p : Fin 5) : Dev nD → Valuation τ sig (Elt F) := exitVal (Rs.r p) (Win m Rs p)
abbrev Vout (p : Fin 5) : VT F := fun c b => Wout m Rs p c b

theorem hF (p : Fin 5) (la : Pipeline.LaunchFacts (nD := nD) (τ := τ) cfgs p) (c : Dev nD) (w : Fin (cfgs p).W) :
    ((Rs.r p).dat (Vin m Rs p) c).arrAt w (cfgs p).N = Vout m Rs p c (Pipeline.arrRef (cfgs p).spec w) :=
  (exitVal_arr (Rs.r p) (Win m Rs p) la.win.arr_inj c w).symm
theorem hrest (p : Fin 5) (c : Dev nD) :
    ∀ b, b ∉ Finset.univ.image (Pipeline.arrRef (cfgs p).spec) → Vout m Rs p c b = Vin m Rs p c b :=
  fun b hb => exitVal_of_ne (Rs.r p) (Win m Rs p) c b fun w e => hb (Finset.mem_image.mpr ⟨w, Finset.mem_univ _, e⟩)

set_option backward.isDefEq.respectTransparency.types false in
/-- Every pipeline's proof data, each at its region's entry contents. -/
def pdats (p : Fin 5) (c : Dev nD) : Dat τ (Elt F) Unit ℕ (UR sig nD τ) ℕ (Pipeline.pin (pcfgs (F := F)) adm p) c :=
  (Rs.r p).dat (Vin m Rs p) c

abbrev 𝒱₀ : Variants := Variants.none
abbrev L : GSem nD τ sig → Finset Unit := fun _ => ∅
abbrev lv : GSem nD τ sig → Unit → ℕ := fun _ _ => 0
abbrev Rest (c : Dev nD) : sProp 𝕄 := iprop((∃ r, prngReg c r) ∗ ∃ W, owes (c : Thread nD τ) (0 : CellTallies nD τ sig Unit) W)
abbrev Erest : Fin 6 → Dev nD → sProp 𝕄 := fun _ c => Rest (F := F) c
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W25 m Rs c) ∗ ∃ r, prngReg c r)

set_option backward.isDefEq.respectTransparency.types false in
/-- Region `p` over the thread state: its arrays are split out of the unscoped buffers and put back at their exit contents; the generator register and the scoped rest go into its invariant and come back; nothing is owed. -/
def reg (p : Fin 5) (la : Pipeline.LaunchFacts (nD := nD) (τ := τ) cfgs p) :
    Pipeline.RegionSeg (pcfgs (F := F)) adm (pdats m Rs) () defs₀ 𝒱₀ L lv p where
  win := la.win.to₀
  block_pos := la.block_pos
  stage_whole := la.stage_whole
  K := PEmpty
  osem k := k.elim
  ho := Pipeline.OwnSemFacts.none _
  hbody c := ((Rs.r p).hbody (Vin m Rs p) c).loose
  hwaits := Pipeline.hwaits_of_owed_zero _ _ _ _ L lv p fun c t => (Rs.r p).howed (Vin m Rs p) c t
  pre c := iprop(StableHlo.held (c : Thread nD τ) (Pipeline.ucRefs τ sig) (Win m Rs p c) ∗ Rest c)
  post c := iprop(StableHlo.held (c : Thread nD τ) (Pipeline.ucRefs τ sig) (Wout m Rs p c) ∗ Rest c)
  X c := iprop(∃ r, prngReg c r)
  Y c := iprop(∃ r, prngReg c r)
  Z c := Pipeline.unscopedRest (Ix := Unit) (Name := ℕ) (U := UR sig nD τ) (Lvl := ℕ) (cfgs p).spec c (Vin m Rs p c)
  hentry c := by
    rw [Pipeline.ownSems0_none]
    have hsplit := Pipeline.arrays_of_unscopedBufs (p := p) (pcfgs (F := F)) adm (pdats m Rs) la.win la.arr_whole c
      ((pdats m Rs p c).share_full fun w => (Rs.r p).hq (Vin m Rs p) c w) (Vin m Rs p c) fun w => (Rs.r p).hA (Vin m Rs p) c w
    rw [Pipeline.unscopedBufs_held] at hsplit
    have ho : (pdats m Rs p c).owed 0 = 0 := (Rs.r p).howed (Vin m Rs p) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun _ _ => Or.inl (((Rs.r p).hrec (Vin m Rs p) c 0).symm ▸ Set.mem_univ _)
      iexact HO
    isplitl [Hp]; · iexact Hp
    iexact Hrest
  hin c :=
    (show (iprop((∃ r, prngReg c r) ∗ Pipeline.prefHeld (pcfgs (F := F) p).pre c (fun _ => fullShare) (adm p).1
          ∗ Pipeline.scopedRest (Pipeline.pin (pcfgs (F := F)) adm p).spec c) : sProp 𝕄)
        ⊢ iprop((∃ r, prngReg c r) ∗ Pipeline.scopedRest (cfgs p).spec c) from by
      iintro ⟨Hp, -, Hr⟩
      isplitl [Hp]; · iexact Hp
      iexact Hr).trans ((Rs.r p).hin (Vin m Rs p) c)
  hout c := by
    rw [Pipeline.ownSems0_none]
    exact ((Rs.r p).hout (Vin m Rs p) c).trans
      (show (iprop((∃ r, prngReg c r) ∗ Pipeline.scopedRest (cfgs p).spec c) : sProp 𝕄)
        ⊢ iprop((∃ r, prngReg c r) ∗ BI.emp ∗ Pipeline.scopedRest (Pipeline.pin (pcfgs (F := F)) adm p).spec c) from by
      iintro ⟨Hp, Hr⟩
      isplitl [Hp]; · iexact Hp
      isplitr; · iempintro
      iexact Hr)
  hexit c := by
    have hjoin := Pipeline.unscopedBufs_of_arrays (p := p) (pcfgs (F := F)) adm (Ix := Unit) (Name := ℕ) (U := UR sig nD τ) (Lvl := ℕ)
      la.win la.arr_whole c (pdats m Rs) ((pdats m Rs p c).share_full fun w => (Rs.r p).hq (Vin m Rs p) c w)
      (Vin m Rs p c) (Vout m Rs p c) ((pdats m Rs p c).arrAt · (cfgs p).N) (hF m Rs p la c) (hrest m Rs p c)
    rw [Pipeline.unscopedBufs_held] at hjoin
    have ho : (pdats m Rs p c).owed (Fin.last (Pipeline.pin (pcfgs (F := F)) adm p).N) = 0 := (Rs.r p).howed (Vin m Rs p) c _
    unfold Pipeline.Dat.owesAt Pipeline.owesWithin
    rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m Rs) () defs₀ 𝒱₀ L lv) :=
  [ .host (seg0 m 𝒱₀ L lv Erest),
    .host (seg1 m 𝒱₀ L lv Erest),
    .host (seg2 m 𝒱₀ L lv Erest),
    .host (seg3 m 𝒱₀ L lv Erest),
    .host (seg4 m 𝒱₀ L lv Erest),
    .host (seg5 m 𝒱₀ L lv Erest),
    .host (seg6 m 𝒱₀ L lv Erest),
    .host (seg7 m 𝒱₀ L lv Erest),
    .host (seg8 m 𝒱₀ L lv Erest),
    .host (seg9 m 𝒱₀ L lv Erest),
    .host (seg10 m 𝒱₀ L lv Erest),
    .host (seg11 m 𝒱₀ L lv Erest),
    .host (seg12 m 𝒱₀ L lv Erest),
    .host (seg13 m 𝒱₀ L lv Erest),
    .host (seg14 m 𝒱₀ L lv Erest),
    .host (seg15 m 𝒱₀ L lv Erest),
    .host (seg16 m 𝒱₀ L lv Erest),
    .host (seg17 m 𝒱₀ L lv Erest),
    .region (reg m Rs 0 launch0),
    .host (hseg hostOps1 hostOps1_sub hostOps1_fresh (W19 m Rs)),
    .region (reg m Rs 1 launch1),
    .region (reg m Rs 2 launch2),
    .host (hseg hostOps3 hostOps3_sub hostOps3_fresh (W22 m Rs)),
    .region (reg m Rs 3 launch3),
    .region (reg m Rs 4 launch4) ]

theorem main_run (c : Dev nD) : main (F := F) c = Pipeline.Seg.run (segs m Rs) := by
  rw [main_chain c, Pipeline.Seg.run_eq_chain]
  rfl

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W25 m Rs c b) :=
  Pipeline.θ_run_regions_kit (pcfgs (F := F)) adm (pdats m Rs) () cellOf_inj emb₁ defs₀ 𝒱₀ L lv m ρ main (segs m Rs)
    (fun c Q => by rw [main_run m Rs c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c)) (Tₙ := Tₙ m Rs)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W25 m Rs c) ∗ Rest c) : sProp 𝕄)
          ⊢ iprop(Tₙ m Rs c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m Rs c b)
    (hfin := fun c s' => by
      iintro ⟨⟨Hh, -⟩, HSI⟩
      unfold StableHlo.held
      imodintro
      iapply (pointsTo_read_all (Pipeline.ucRefs τ sig) (fun b => (((c : Thread nD τ)).1, b)) (W25 m Rs c) s')
      isplitl [Hh] <;> iassumption)
    (hQ := fun s h c => h c)

end Cert.Kernel.Hand

end
-- ==== Proof.KB_RunArgs.lean ====
import proofs.«101322_g2000704916760673_pallasbulk_724_3_alg».proof.Proof.KB_Run

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg) (Rs : Regions F)

/-- A buffer that no host stretch writes and that is no region's output array ends at its launch contents. -/
theorem W25_launch (c : Dev nD) (b : Ref sig .tc)
    (hr : (∀ w : Fin cfg4.W, Pipeline.arrRef spec4 w = b → (cfg4.win w).isOut = false)
      ∧ (∀ w : Fin cfg3.W, Pipeline.arrRef spec3 w = b → (cfg3.win w).isOut = false)
      ∧ (∀ w : Fin cfg2.W, Pipeline.arrRef spec2 w = b → (cfg2.win w).isOut = false)
      ∧ (∀ w : Fin cfg1.W, Pipeline.arrRef spec1 w = b → (cfg1.win w).isOut = false)
      ∧ (∀ w : Fin cfg0.W, Pipeline.arrRef spec0 w = b → (cfg0.win w).isOut = false))
    (g1 : b ∉ hostOps3_W ∧ b ∉ hostOps1_W ∧ b ∉ hostOps0_17_W ∧ b ∉ hostOps0_16_W ∧ b ∉ hostOps0_15_W ∧ b ∉ hostOps0_14_W ∧ b ∉ hostOps0_13_W ∧ b ∉ hostOps0_12_W)
    (g2 : b ∉ hostOps0_11_W ∧ b ∉ hostOps0_10_W ∧ b ∉ hostOps0_9_W ∧ b ∉ hostOps0_8_W ∧ b ∉ hostOps0_7_W ∧ b ∉ hostOps0_6_W ∧ b ∉ hostOps0_5_W ∧ b ∉ hostOps0_4_W)
    (g3 : b ∉ hostOps0_3_W ∧ b ∉ hostOps0_2_W ∧ b ∉ hostOps0_1_W ∧ b ∉ hostOps0_W) :
    W25 m Rs c (Proc.devRef .tc b) = m ((c : Thread nD τ).loc b) := by
  obtain ⟨r4, r3, r2, r1, r0⟩ := hr
  obtain ⟨n3, n1, n0_17, n0_16, n0_15, n0_14, n0_13, n0_12⟩ := g1
  obtain ⟨n0_11, n0_10, n0_9, n0_8, n0_7, n0_6, n0_5, n0_4⟩ := g2
  obtain ⟨n0_3, n0_2, n0_1, n0⟩ := g3
  exact (W25_keep m Rs c b r4).trans <| (W24_keep m Rs c b r3).trans <| (W23_of m Rs c b n3).trans <|
    (W22_keep m Rs c b r2).trans <| (W21_keep m Rs c b r1).trans <| (W20_of m Rs c b n1).trans <|
    (W19_keep m Rs c b r0).trans <|
    (V18_of m c b n0_17).trans <|
    (V17_of m c b n0_16).trans <|
    (V16_of m c b n0_15).trans <|
    (V15_of m c b n0_14).trans <|
    (V14_of m c b n0_13).trans <|
    (V13_of m c b n0_12).trans <|
    (V12_of m c b n0_11).trans <|
    (V11_of m c b n0_10).trans <|
    (V10_of m c b n0_9).trans <|
    (V9_of m c b n0_8).trans <|
    (V8_of m c b n0_7).trans <|
    (V7_of m c b n0_6).trans <|
    (V6_of m c b n0_5).trans <|
    (V5_of m c b n0_4).trans <|
    (V4_of m c b n0_3).trans <|
    (V3_of m c b n0_2).trans <|
    (V2_of m c b n0_1).trans <|
    (V1_of m c b n0).trans rfl

theorem run_result : θ_run defs (onTc (τ := τ) (main (F := F))) ⟨m, fun _ => 0, ρ⟩ (fun r => ∀ c : Dev nD,
      r.2.mem ((c.tc : Thread nD τ).loc main_v90) = W25 m Rs c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v90 (by decide)),
      (h c _ (mem_uc main_arg0 (by decide))).trans (W25_launch m Rs c main_arg0 (by decide) (by decide) (by decide) (by decide)),
      (h c _ (mem_uc main_arg1 (by decide))).trans (W25_launch m Rs c main_arg1 (by decide) (by decide) (by decide) (by decide)),
      (h c _ (mem_uc main_arg2 (by decide))).trans (W25_launch m Rs c main_arg2 (by decide) (by decide) (by decide) (by decide)),
      (h c _ (mem_uc main_arg3 (by decide))).trans (W25_launch m Rs c main_arg3 (by decide) (by decide) (by decide) (by decide)),
      (h c _ (mem_uc main_arg4 (by decide))).trans (W25_launch m Rs c main_arg4 (by decide) (by decide) (by decide) (by decide)),
      (h c _ (mem_uc main_arg5 (by decide))).trans (W25_launch m Rs c main_arg5 (by decide) (by decide) (by decide) (by decide)),
      (h c _ (mem_uc main_arg6 (by decide))).trans (W25_launch m Rs c main_arg6 (by decide) (by decide) (by decide) (by decide)),
      (h c _ (mem_uc main_arg7 (by decide))).trans (W25_launch m Rs c main_arg7 (by decide) (by decide) (by decide) (by decide)),
      (h c _ (mem_uc main_arg8 (by decide))).trans (W25_launch m Rs c main_arg8 (by decide) (by decide) (by decide) (by decide)),
      (h c _ (mem_uc main_arg9 (by decide))).trans (W25_launch m Rs c main_arg9 (by decide) (by decide) (by decide) (by decide))⟩) (run m ρ Rs)

end Cert.Kernel.Hand

end
-- ==== Proof.KB_R0.lean ====
import proofs.«101322_g2000704916760673_pallasbulk_724_3_alg».proof.Proof.Gen.Kernel.Launch
import proofs.«101322_g2000704916760673_pallasbulk_724_3_alg».proof.Proof.Gen.Kernel.Skeleton
import proofs.«101322_g2000704916760673_pallasbulk_724_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  refine (dat.before_in_eq_fetched 0 rfl (fun _ => rfl) (fun _ _ _ => rfl) (fun s => ?_) t d).trans ?_
  · rw [hafter]; unfold Dat.blockOf iblk0; rw [hA]; try rfl
  · unfold Dat.fetched Dat.blockOf iblk0; rw [hA]; try rfl

abbrev rIn : Rect S256x512 := Rect.unit (s := S256x512) ![0, 0] S256x512.size inb_S256x512_S256x512_0_0

abbrev rOut : Rect S1x2x512 := Rect.unit (s := S1x2x512) ![0, 0, 0] S1x2x512.size inb_S1x2x512_S1x2x512_0_0_0

def out0_1 (x : Vec F S256x512 .f32) : Vec F S1x2x512 .f32 :=
  View.canon [⟨rOut, k0_pay1 (View.ld x rIn)⟩]

theorem cover0_1 (p : Vec F S1x2x512 .f32) (y : S1x2x512.Idx) :
    ∃ pc ∈ ([⟨rOut, p⟩] : List (View.Piece (Elt F) S1x2x512 .f32)), y ∈ pc.1.set :=
  ⟨⟨rOut, p⟩, List.mem_singleton_self _, View.mem_set_unit_zero (by funext a; match a with | ⟨0, _⟩ => rfl | ⟨1, _⟩ => rfl | ⟨2, _⟩ => rfl) inb_S1x2x512_S1x2x512_0_0_0 y⟩

set_option maxHeartbeats 1000000 in

theorem sound_kernel0 (c : Dev nD) (E : Set ℕ) (i : grid0.Coords)
    (arg1 : Memref sig .tc .vmem S256x512 .f32) (harg1 : arg1.IsWhole) (arg2 : Memref sig .tc .vmem S1x2x512 .f32) (harg2 : arg2.IsWhole)
    (x : Vec F S256x512 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (out0_1 x)) -∗ K ⟨⟩))
      ⊢ wp frame (wpE (defs₀ (F := F)) Variants.none c none) E (cc0_moments_kernel i arg1 harg1 arg2 harg2) K := by
  simp only [cc0_moments_kernel_eq_skeleton]; unfold cc0_moments_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem Phi_eq0 (c : Dev nD) (t : Fin (cfg0.N + 1)) : (dat0 V c).Φ t = Pipeline.ΦA spec0 c := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

theorem phi_in0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [Phi_eq0]; unfold Pipeline.ΦA
  iintro ⟨Hp, Hr⟩
  isplitl [Hr]; · iexact Hr
  iexact Hp

theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [Phi_eq0]; unfold Pipeline.ΦA
  iintro ⟨Hr, Hp⟩
  isplitl [Hp]; · iexact Hp
  iexact Hr

end Cert.Kernel.Hand

end
-- ==== Proof.KB_R1.lean ====
import proofs.«101322_g2000704916760673_pallasbulk_724_3_alg».proof.Proof.Gen.Kernel.Launch
import proofs.«101322_g2000704916760673_pallasbulk_724_3_alg».proof.Proof.Gen.Kernel.Skeleton
import proofs.«101322_g2000704916760673_pallasbulk_724_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t :=
  (dat.before_in_eq_fetched 4 rfl (fun _ => rfl) (fun _ _ _ => rfl)
    (fun t => by rw [hafter]; unfold Dat.blockOf iblk1; rw [hA]; try rfl) t d).trans
    (by unfold Dat.fetched Dat.blockOf iblk1; rw [hA]; try rfl)

abbrev r1_x : Rect S256x512 := Rect.unit (s := S256x512) ![0, 0] S256x512.size inb_S256x512_S256x512_0_0
abbrev r1_s : Rect S1x512 := Rect.unit (s := S1x512) ![0, 0] S1x512.size inb_S1x512_S1x512_0_0
abbrev r1_d : Rect S256x128 := Rect.unit (s := S256x128) ![0, 0] S256x128.size inb_S256x128_S256x128_0_0
abbrev r1_w : Rect S512x384 := Rect.unit (s := S512x384) ![0, 0] S512x384.size inb_S512x384_S512x384_0_0
abbrev r1_o : Rect S256x384 := Rect.unit (s := S256x384) ![0, 0] S256x384.size inb_S256x384_S256x384_0_0

def out1_5 (x0 : Vec F S256x512 .f32) (x1 : Vec F S1x512 .f32) (x2 : Vec F S1x512 .f32) (x3 : Vec F S256x128 .f32)
    (x4 : Vec F S512x384 .bf16) : Vec F S256x384 .bf16 :=
  View.canon [⟨r1_o, k1_pay1 (View.ld x0 r1_x) (View.ld x1 r1_s) (View.ld x2 r1_s) (View.ld x3 r1_d) (View.ld x4 r1_w)⟩]

theorem cover1_5 (p0 : Vec F S256x384 .bf16) (y : S256x384.Idx) :
    ∃ pc ∈ ([⟨r1_o, p0⟩] : List (View.Piece (Elt F) S256x384 .bf16)), y ∈ pc.1.set :=
  View.cover_of_tiled [⟨r1_o, p0⟩] S256x384.size (by rfl) y

set_option maxHeartbeats 1000000 in

theorem sound_kernel1 (c : Dev nD) (E : Set ℕ) (i : grid1.Coords)
    (arg1 : Memref sig .tc .vmem S256x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S256x128 .f32) (harg4 : arg4.IsWhole)
    (arg5 : Memref sig .tc .vmem S512x384 .bf16) (harg5 : arg5.IsWhole) (arg6 : Memref sig .tc .vmem S256x384 .bf16) (harg6 : arg6.IsWhole)
    (x0 : Vec F S256x512 .f32) (x1 : Vec F S1x512 .f32) (x2 : Vec F S1x512 .f32) (x3 : Vec F S256x128 .f32) (x4 : Vec F S512x384 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1_affine_matmul_kernel i arg1 harg1 arg2 harg2 arg3 harg3 arg4 harg4 arg5 harg5 arg6 harg6) K := by
  simp only [cc1_affine_matmul_kernel_eq_skeleton]; unfold cc1_affine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

theorem phi_in1 (c : Dev nD) :
    iprop((∃ r, prngReg c r) ∗ Pipeline.scopedRest spec1 c) ⊢ (dat1 (F := F) V c).Φ 0 := by
  rw [show (dat1 V c).Φ 0 = Pipeline.ΦA spec1 c from rfl]; unfold Pipeline.ΦA
  iintro ⟨Hp, Hr⟩
  isplitl [Hr]; · iexact Hr
  iexact Hp

theorem phi_out1 (c : Dev nD) :
    (dat1 (F := F) V c).Φ (Fin.last cfg1.N) ⊢ iprop((∃ r, prngReg c r) ∗ Pipeline.scopedRest spec1 c) := by
  rw [show (dat1 V c).Φ (Fin.last cfg1.N) = Pipeline.ΦA spec1 c from rfl]; unfold Pipeline.ΦA
  iintro ⟨Hr, Hp⟩
  isplitl [Hp]; · iexact Hp
  iexact Hr

end Cert.Kernel.Hand

end
-- ==== Proof.KB_R2.lean ====
import proofs.«101322_g2000704916760673_pallasbulk_724_3_alg».proof.Proof.Gen.Kernel.Launch
import proofs.«101322_g2000704916760673_pallasbulk_724_3_alg».proof.Proof.Gen.Kernel.Skeleton
import proofs.«101322_g2000704916760673_pallasbulk_724_3_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k2zero2 : (![0, 0] : Fin 2 → ℕ) = fun _ => 0 := by funext a; fin_cases a <;> rfl

theorem k2zero3 : (![0, 0, 0] : Fin 3 → ℕ) = fun _ => 0 := by funext a; fin_cases a <;> rfl

abbrev k2rowsOfBlock (i : grid2.Coords) : Rect S8192x384 := Rect.unit (s := S8192x384) (k2_off1 i) S1024x384.size (k2_off1_inb i)

theorem k2_off2_inb_all : ∀ i : grid2.Coords, ∀ a, (k2_off2 i) a + S512x384.size a ≤ S8192x384.size a := by decide +kernel

abbrev k2rowsOfTile (i : grid2.Coords) : Rect S8192x384 := Rect.unit (s := S8192x384) (k2_off2 i) S512x384.size (k2_off2_inb_all i)

abbrev cond2_0 (i : grid2.Coords) : Prop := (Scalar.cmpi .ne (Scalar.extui (Scalar.cmpi .eq (BitVec.ofNat 32 (i 1).val) 0#32)) 0#32) = 1#1

theorem k2_read_whole_store {Val : EltTy → Type} {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

abbrev k2accZero : Vec F S512x384 .f32 := k2_pay1

def accStep2 (i : grid2.Coords) (xA : Vec F S512x1024 .f32) (s : Vec F S512x384 .f32) (xG : Vec F S8192x384 .bf16) : Vec F S512x384 .f32 :=
  k2_pay2 xA s (View.ld xG (k2rowsOfBlock i))

def out2_4 (i : grid2.Coords) (xG : Vec F S8192x384 .bf16) (s : Vec F S512x384 .f32) (xD : Vec F S512x128 .f32) (xB : Vec F S1x384 .f32) : Vec F S512x384 .bf16 :=
  k2_pay4 i (View.ld xG (k2rowsOfTile i)) s xD xB

def out2_5 (i : grid2.Coords) (xG : Vec F S8192x384 .bf16) (s : Vec F S512x384 .f32) (xD : Vec F S512x128 .f32) (xB : Vec F S1x384 .f32) : Vec F S1x2x384 .f32 :=
  k2_pay5 i (View.ld xG (k2rowsOfTile i)) s xD xB

set_option maxHeartbeats 4000000 in

theorem sound_kernel2_A (c : Dev nD) (E : Set ℕ) (i : grid2.Coords) (arg2 : Memref sig .tc .vmem S512x1024 .f32) (harg2 : arg2.IsWhole) (arg3 : Memref sig .tc .vmem S8192x384 .bf16) (harg3 : arg3.IsWhole) (arg4 : Memref sig .tc .vmem S1x384 .f32) (harg4 : arg4.IsWhole) (arg5 : Memref sig .tc .vmem S512x128 .f32) (harg5 : arg5.IsWhole) (arg6 : Memref sig .tc .vmem S512x384 .bf16) (harg6 : arg6.IsWhole) (arg7 : Memref sig .tc .vmem S1x2x384 .f32) (harg7 : arg7.IsWhole) (arg8 : Memref sig .tc .vmem S512x384 .f32) (harg8 : arg8.IsWhole) (hc0 : cond2_0 i) (hc1 : ¬ k2_cond2 i = 1#1)
    (xA : Vec F S512x1024 .f32) (xG : Vec F S8192x384 .bf16) (xB : Vec F S1x384 .f32) (xD : Vec F S512x128 .f32)
    (x6 : Vec F S512x384 .bf16) (x7 : Vec F S1x2x384 .f32) (K : PUnit → sProp 𝕄) :
    iprop(owns (c : Thread nD τ) arg2 fullShare xA ∗ owns (c : Thread nD τ) arg3 fullShare xG ∗ owns (c : Thread nD τ) arg4 fullShare xB ∗ owns (c : Thread nD τ) arg5 fullShare xD
        ∗ owns (c : Thread nD τ) arg6 fullShare x6 ∗ owns (c : Thread nD τ) arg7 fullShare x7 ∗ (∃ d, owns (c : Thread nD τ) arg8 fullShare d)
        ∗ (iprop(owns (c : Thread nD τ) arg2 fullShare xA ∗ owns (c : Thread nD τ) arg3 fullShare xG ∗ owns (c : Thread nD τ) arg4 fullShare xB ∗ owns (c : Thread nD τ) arg5 fullShare xD
            ∗ owns (c : Thread nD τ) arg6 fullShare x6 ∗ owns (c : Thread nD τ) arg7 fullShare x7 ∗ owns (c : Thread nD τ) arg8 fullShare (accStep2 i xA k2accZero xG)) -∗ K ⟨⟩))
      ⊢ wp frame (wpE (defs₀ (F := F)) Variants.none c none) E (cc2__body i arg2 harg2 arg3 harg3 arg4 harg4 arg5 harg5 arg6 harg6 arg7 harg7 arg8 harg8) K := by
  simp only [cc2__body_eq_skeleton]; unfold cc2__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  have e2 := harg2.read_unread xA; have e3 := harg3.read_unread xG; have e4 := harg4.read_unread xB; have e5 := harg5.read_unread xD
  have e8 : True := trivial
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_run_names
  rw [k2_read_whole_store (S := S512x384) _ _ k2zero2]
  simp only [View.readAt_eq_ld, e2, e3, e4, e5, e8, View.ld_unit_zero (S := S512x1024) k2zero2, View.ld_unit_zero (S := S512x384) k2zero2,
    View.ld_unit_zero (S := S512x128) k2zero2, View.ld_unit_zero (S := S1x384) k2zero2, View.readCov_unit_zero (S := S512x384) _ k2zero2]
  rfl

set_option maxHeartbeats 4000000 in

theorem sound_kernel2_B (c : Dev nD) (E : Set ℕ) (i : grid2.Coords) (arg2 : Memref sig .tc .vmem S512x1024 .f32) (harg2 : arg2.IsWhole) (arg3 : Memref sig .tc .vmem S8192x384 .bf16) (harg3 : arg3.IsWhole) (arg4 : Memref sig .tc .vmem S1x384 .f32) (harg4 : arg4.IsWhole) (arg5 : Memref sig .tc .vmem S512x128 .f32) (harg5 : arg5.IsWhole) (arg6 : Memref sig .tc .vmem S512x384 .bf16) (harg6 : arg6.IsWhole) (arg7 : Memref sig .tc .vmem S1x2x384 .f32) (harg7 : arg7.IsWhole) (arg8 : Memref sig .tc .vmem S512x384 .f32) (harg8 : arg8.IsWhole) (hc0 : ¬ cond2_0 i) (hc1 : ¬ k2_cond2 i = 1#1)
    (xA : Vec F S512x1024 .f32) (xG : Vec F S8192x384 .bf16) (xB : Vec F S1x384 .f32) (xD : Vec F S512x128 .f32)
    (x6 : Vec F S512x384 .bf16) (x7 : Vec F S1x2x384 .f32) (xS : Vec F S512x384 .f32) (K : PUnit → sProp 𝕄) :
    iprop(owns (c : Thread nD τ) arg2 fullShare xA ∗ owns (c : Thread nD τ) arg3 fullShare xG ∗ owns (c : Thread nD τ) arg4 fullShare xB ∗ owns (c : Thread nD τ) arg5 fullShare xD
        ∗ owns (c : Thread nD τ) arg6 fullShare x6 ∗ owns (c : Thread nD τ) arg7 fullShare x7 ∗ owns (c : Thread nD τ) arg8 fullShare xS
        ∗ (iprop(owns (c : Thread nD τ) arg2 fullShare xA ∗ owns (c : Thread nD τ) arg3 fullShare xG ∗ owns (c : Thread nD τ) arg4 fullShare xB ∗ owns (c : Thread nD τ) arg5 fullShare xD
            ∗ owns (c : Thread nD τ) arg6 fullShare x6 ∗ owns (c : Thread nD τ) arg7 fullShare x7 ∗ owns (c : Thread nD τ) arg8 fullShare (accStep2 i xA xS xG)) -∗ K ⟨⟩))
      ⊢ wp frame (wpE (defs₀ (F := F)) Variants.none c none) E (cc2__body i arg2 harg2 arg3 harg3 arg4 harg4 arg5 harg5 arg6 harg6 arg7 harg7 arg8 harg8) K := by
  simp only [cc2__body_eq_skeleton]; unfold cc2__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg8.eq_unread hf8
  sl_exec (disch := first | exact hc0 | exact hc1)
  sl_step
  have e2 := harg2.read_unread xA; have e3 := harg3.read_unread xG; have e4 := harg4.read_unread xB; have e5 := harg5.read_unread xD; have e8 := harg8.read_unread xS
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_run_names
  rw [k2_read_whole_store (S := S512x384) _ _ k2zero2]
  simp only [View.readAt_eq_ld, e2, e3, e4, e5, e8, View.ld_unit_zero (S := S512x1024) k2zero2, View.ld_unit_zero (S := S512x384) k2zero2,
    View.ld_unit_zero (S := S512x128) k2zero2, View.ld_unit_zero (S := S1x384) k2zero2, View.readCov_unit_zero (S := S512x384) _ k2zero2]
  rfl

set_option maxHeartbeats 4000000 in

theorem sound_kernel2_C (c : Dev nD) (E : Set ℕ) (i : grid2.Coords) (arg2 : Memref sig .tc .vmem S512x1024 .f32) (harg2 : arg2.IsWhole) (arg3 : Memref sig .tc .vmem S8192x384 .bf16) (harg3 : arg3.IsWhole) (arg4 : Memref sig .tc .vmem S1x384 .f32) (harg4 : arg4.IsWhole) (arg5 : Memref sig .tc .vmem S512x128 .f32) (harg5 : arg5.IsWhole) (arg6 : Memref sig .tc .vmem S512x384 .bf16) (harg6 : arg6.IsWhole) (arg7 : Memref sig .tc .vmem S1x2x384 .f32) (harg7 : arg7.IsWhole) (arg8 : Memref sig .tc .vmem S512x384 .f32) (harg8 : arg8.IsWhole) (hc0 : ¬ cond2_0 i) (hc1 : k2_cond2 i = 1#1)
    (xA : Vec F S512x1024 .f32) (xG : Vec F S8192x384 .bf16) (xB : Vec F S1x384 .f32) (xD : Vec F S512x128 .f32)
    (xS : Vec F S512x384 .f32) (K : PUnit → sProp 𝕄) :
    iprop(owns (c : Thread nD τ) arg2 fullShare xA ∗ owns (c : Thread nD τ) arg3 fullShare xG ∗ owns (c : Thread nD τ) arg4 fullShare xB ∗ owns (c : Thread nD τ) arg5 fullShare xD
        ∗ (∃ d, owns (c : Thread nD τ) arg6 fullShare d) ∗ (∃ d, owns (c : Thread nD τ) arg7 fullShare d) ∗ owns (c : Thread nD τ) arg8 fullShare xS
        ∗ (iprop(owns (c : Thread nD τ) arg2 fullShare xA ∗ owns (c : Thread nD τ) arg3 fullShare xG ∗ owns (c : Thread nD τ) arg4 fullShare xB ∗ owns (c : Thread nD τ) arg5 fullShare xD
            ∗ owns (c : Thread nD τ) arg6 fullShare (out2_4 i xG (accStep2 i xA xS xG) xD xB) ∗ owns (c : Thread nD τ) arg7 fullShare (out2_5 i xG (accStep2 i xA xS xG) xD xB)
            ∗ owns (c : Thread nD τ) arg8 fullShare (accStep2 i xA xS xG)) -∗ K ⟨⟩))
      ⊢ wp frame (wpE (defs₀ (F := F)) Variants.none c none) E (cc2__body i arg2 harg2 arg3 harg3 arg4 harg4 arg5 harg5 arg6 harg6 arg7 harg7 arg8 harg8) K := by
  simp only [cc2__body_eq_skeleton]; unfold cc2__body_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg5.eq_unread hf5; obtain rfl := harg8.eq_unread hf8
  sl_exec (disch := first | exact hc0 | exact hc1)
  sl_step
  have e2 := harg2.read_unread xA; have e3 := harg3.read_unread xG; have e4 := harg4.read_unread xB; have e5 := harg5.read_unread xD; have e8 := harg8.read_unread xS
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [k2_read_whole_store (S := S512x384) _ _ k2zero2]
    simp only [View.readAt_eq_ld, e2, e3, e4, e5, e8, View.ld_unit_zero (S := S512x1024) k2zero2, View.ld_unit_zero (S := S512x384) k2zero2,
      View.ld_unit_zero (S := S512x128) k2zero2, View.ld_unit_zero (S := S1x384) k2zero2, View.readCov_unit_zero (S := S512x384) _ k2zero2]
    rfl
  isplitl [H7]
  · iexists _; isplitr
    swap; · iexact H7
    ipureintro
    sl_unfold_run_names
    rw [k2_read_whole_store (S := S1x2x384) _ _ k2zero3]
    simp only [View.readAt_eq_ld, e2, e3, e4, e5, e8, View.ld_unit_zero (S := S512x1024) k2zero2, View.ld_unit_zero (S := S512x384) k2zero2,
      View.ld_unit_zero (S := S512x128) k2zero2, View.ld_unit_zero (S := S1x384) k2zero2, View.readCov_unit_zero (S := S512x384) _ k2zero2]
    rfl
  iexists _; isplitr
  swap; · iexact H8
  ipureintro
  sl_unfold_run_names
  rw [k2_read_whole_store (S := S512x384) _ _ k2zero2]
  simp only [View.readAt_eq_ld, e2, e3, e4, e5, e8, View.ld_unit_zero (S := S512x1024) k2zero2, View.ld_unit_zero (S := S512x384) k2zero2,
    View.ld_unit_zero (S := S512x128) k2zero2, View.ld_unit_zero (S := S1x384) k2zero2, View.readCov_unit_zero (S := S512x384) _ k2zero2]
  rfl

section Data

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem hcond2_0 : ∀ t : Fin cfg2.N, cond2_0 (grid2.coords t) ↔ t.val % 8 = 0 :=
  (by decide +kernel : ∀ t : Fin grid2.N, cond2_0 (grid2.coords t) ↔ t.val % 8 = 0)

theorem hcond2_1 : ∀ t : Fin cfg2.N, k2_cond2 (grid2.coords t) = 1#1 ↔ t.val % 8 = 7 :=
  (by decide +kernel : ∀ t : Fin grid2.N, k2_cond2 (grid2.coords t) = 1#1 ↔ t.val % 8 = 7)
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

theorem idleAt2_4 : ∀ t : Fin cfg2.N, ¬ t.val % 8 = 7 → cfg2.idle 4 (grid2.coords t) = true :=
  (by decide +kernel : ∀ t : Fin grid2.N, ¬ t.val % 8 = 7 → idle2 4 (grid2.coords t) = true)
theorem idleAt2_5 : ∀ t : Fin cfg2.N, ¬ t.val % 8 = 7 → cfg2.idle 5 (grid2.coords t) = true :=
  (by decide +kernel : ∀ t : Fin grid2.N, ¬ t.val % 8 = 7 → idle2 5 (grid2.coords t) = true)
theorem liveAt2_4 : ∀ t : Fin cfg2.N, t.val % 8 = 7 → cfg2.idle 4 (grid2.coords t) = false :=
  (by decide +kernel : ∀ t : Fin grid2.N, t.val % 8 = 7 → idle2 4 (grid2.coords t) = false)
theorem liveAt2_5 : ∀ t : Fin cfg2.N, t.val % 8 = 7 → cfg2.idle 5 (grid2.coords t) = false :=
  (by decide +kernel : ∀ t : Fin grid2.N, t.val % 8 = 7 → idle2 5 (grid2.coords t) = false)
theorem noFlush2_4 (t : Fin cfg2.N) (h : ¬ t.val % 8 = 7) : (cfg2.win 4).flush t = false :=
  Bool.eq_false_iff.mpr fun hf => h ((flush2_4 t).mp hf)
theorem noFlush2_5 (t : Fin cfg2.N) (h : ¬ t.val % 8 = 7) : (cfg2.win 5).flush t = false :=
  Bool.eq_false_iff.mpr fun hf => h ((flush2_5 t).mp hf)

def accNext2 (c : Dev nD) (n : ℕ) (h : n < cfg2.N) (s : Vec F S512x384 .f32) : Vec F S512x384 .f32 :=
  accStep2 (grid2.coords ⟨n, h⟩) (iblk2 V c 0 ⟨n, h⟩) s (iblk2 V c 1 ⟨n, h⟩)

def acc2 (c : Dev nD) : (n : ℕ) → n < cfg2.N → Vec F S512x384 .f32
  | 0, h => accNext2 V c 0 h k2accZero
  | n + 1, h =>
    if (n + 1) % 8 = 0 then accNext2 V c (n + 1) h k2accZero
    else accNext2 V c (n + 1) h (acc2 c n (Nat.lt_of_succ_lt h))

theorem acc2_reset (c : Dev nD) (n : ℕ) (h : n < cfg2.N) (h0 : n % 8 = 0) : acc2 V c n h = accNext2 V c n h k2accZero := by
  cases n with
  | zero => rfl
  | succ n => exact if_pos h0

theorem acc2_step (c : Dev nD) (n : ℕ) (h : n + 1 < cfg2.N) (h0 : ¬ (n + 1) % 8 = 0) :
    acc2 V c (n + 1) h = accNext2 V c (n + 1) h (acc2 V c n (Nat.lt_of_succ_lt h)) := if_neg h0

theorem acc2_at_reset (c : Dev nD) (t : Fin cfg2.N) (h0 : t.val % 8 = 0) :
    acc2 V c t.val t.isLt = accStep2 (grid2.coords t) (iblk2 V c 0 t) k2accZero (iblk2 V c 1 t) :=
  acc2_reset V c t.val t.isLt h0

theorem acc2_at_step (c : Dev nD) (t : Fin cfg2.N) (h0 : ¬ t.val % 8 = 0) :
    acc2 V c t.val t.isLt = accStep2 (grid2.coords t) (iblk2 V c 0 t)
      (acc2 V c (t.val - 1) (Nat.lt_of_le_of_lt (Nat.sub_le _ _) t.isLt)) (iblk2 V c 1 t) := by
  obtain ⟨n, hn⟩ := t
  cases n with
  | zero => exact absurd (Nat.zero_mod _) h0
  | succ n => exact acc2_step V c n hn h0

abbrev scM2 : Memref sig .tc .vmem S512x384 .f32 := Memref.whole cc2_scratch0

def Phi2 (c : Dev nD) : (n : ℕ) → n ≤ cfg2.N → sProp 𝕄
  | 0, _ => iprop(iprop(∃ r, prngReg c r) ∗ Pipeline.scopedRest spec2 c)
  | n + 1, h => iprop(iprop(∃ r, prngReg c r) ∗ owns (c : Thread nD τ) scM2 fullShare (acc2 V c n h) ∗ Pipeline.scopedRestBut spec2 c [cc2_scratch0])

theorem Phi2_zero_eq (c : Dev nD) :
    (iprop(iprop(∃ r, prngReg c r) ∗ Pipeline.scopedRest spec2 c) : sProp 𝕄)
      = iprop(iprop(∃ r, prngReg c r) ∗ iprop(∃ d, owns (c : Thread nD τ) scM2 fullShare d) ∗ Pipeline.scopedRestBut spec2 c [cc2_scratch0]) := by
  rw [scopedRest2_split]; simp only [scM2, owns_whole]; try rfl

theorem Phi2_succ (c : Dev nD) (n : ℕ) (hn : n < cfg2.N) :
    Phi2 V c (n + 1) hn = iprop(iprop(∃ r, prngReg c r) ∗ owns (c : Thread nD τ) scM2 fullShare (acc2 V c n hn) ∗ Pipeline.scopedRestBut spec2 c [cc2_scratch0]) := rfl

theorem Phi2_pos (c : Dev nD) (n : ℕ) (h : n ≤ cfg2.N) (hz : n ≠ 0) :
    Phi2 V c n h = iprop(iprop(∃ r, prngReg c r) ∗ owns (c : Thread nD τ) scM2 fullShare (acc2 V c (n - 1) (by omega)) ∗ Pipeline.scopedRestBut spec2 c [cc2_scratch0]) := by
  cases n with
  | zero => exact absurd rfl hz
  | succ n => rfl

theorem Phi2_weak (c : Dev nD) (n : ℕ) (h : n ≤ cfg2.N) :
    Phi2 V c n h ⊢ iprop(iprop(∃ r, prngReg c r) ∗ iprop(∃ d, owns (c : Thread nD τ) scM2 fullShare d) ∗ Pipeline.scopedRestBut spec2 c [cc2_scratch0]) := by
  cases n with
  | zero => rw [show Phi2 V c 0 h = iprop(iprop(∃ r, prngReg c r) ∗ Pipeline.scopedRest spec2 c) from rfl, Phi2_zero_eq]
  | succ n =>
    rw [Phi2_succ]
    iintro ⟨Hg, HS, HR⟩
    isplitl [Hg]; · iexact Hg
    isplitl [HS]; · iexists _; iexact HS
    iexact HR

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (grid2.coords t) (iblk2 V c 1 t) (acc2 V c t.val t.isLt) (iblk2 V c 3 t) (iblk2 V c 2 t)
    | ⟨5, _⟩ => out2_5 (grid2.coords t) (iblk2 V c 1 t) (acc2 V c t.val t.isLt) (iblk2 V c 3 t) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t
    = out2_4 (grid2.coords t) (iblk2 V c 1 t) (acc2 V c t.val t.isLt) (iblk2 V c 3 t) (iblk2 V c 2 t) := by dsimp only [dat2]
theorem after2_5 (c : Dev nD) (t : Fin cfg2.N) : (dat2 V c).after 5 t
    = out2_5 (grid2.coords t) (iblk2 V c 1 t) (acc2 V c t.val t.isLt) (iblk2 V c 3 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ, Phi2_castSucc]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h7 : t.val % 8 = 7
  · have h0 : ¬ t.val % 8 = 0 := by omega
    have hz : t.val ≠ 0 := fun e => h0 (by rw [e])
    rw [show (dat2 V c).leavesExact 4 t = owns (c : Thread nD τ) (st2_4 t) fullShare ((dat2 V c).after 4 t) from by
      unfold Dat.leavesExact; rw [liveAt2_4 t h7], after2_4]
    rw [show (dat2 V c).leavesExact 5 t = owns (c : Thread nD τ) (st2_5 t) fullShare ((dat2 V c).after 5 t) from by
      unfold Dat.leavesExact; rw [liveAt2_5 t h7], after2_5]
    rw [acc2_at_step V c t h0, Phi2_pos V c _ _ hz]
    iintro ⟨⟨Hg, HS, HR⟩, Ho, ⟨%d0, H0⟩, ⟨%d1, H1⟩, ⟨%d2, H2⟩, ⟨%d3, H3⟩, ⟨%d4, H4⟩, ⟨%d5, H5⟩⟩
    iapply (sound_kernel2_C c Set.univ (grid2.coords t) _ _ _ _ _ _ _ _ _ _ _ _ _ _ (fun h => h0 ((hcond2_0 t).mp h)) ((hcond2_1 t).mpr h7)
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [Hg HS HR]
    · isplitl [Hg]; · iexact Hg
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 4 t (idleAt2_4 t h7) (noFlush2_4 t h7),
      Dat.leavesExact_idle (dat2 V c) 5 t (idleAt2_5 t h7) (noFlush2_5 t h7)]
    by_cases h0 : t.val % 8 = 0
    · rw [acc2_at_reset V c t h0]
      refine (sep_mono (Phi2_weak V c _ _) .rfl).trans ?_
      iintro ⟨⟨Hg, ⟨%ds, HS⟩, HR⟩, Ho, ⟨%d0, H0⟩, ⟨%d1, H1⟩, ⟨%d2, H2⟩, ⟨%d3, H3⟩, ⟨%d4, H4⟩, ⟨%d5, H5⟩⟩
      iapply (sound_kernel2_A c Set.univ (grid2.coords t) _ _ _ _ _ _ _ _ _ _ _ _ _ _ ((hcond2_0 t).mpr h0) (fun h => h7 ((hcond2_1 t).mp h))
        (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have hz : t.val ≠ 0 := fun e => h0 (by rw [e])
      rw [acc2_at_step V c t h0, Phi2_pos V c _ _ hz]
      iintro ⟨⟨Hg, HS, HR⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ (fun h => h0 ((hcond2_0 t).mp h)) (fun h => h7 ((hcond2_1 t).mp h))
        (iblk2 V c 0 t) (iblk2 V c 1 t) (iblk2 V c 2 t) (iblk2 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem phi_in2 (c : Dev nD) : iprop(iprop(∃ r, prngReg c r) ∗ Pipeline.scopedRest spec2 c) ⊢ (dat2 V c).Φ 0 := by
  rw [show (dat2 V c).Φ 0 = Phi2 V c 0 (Nat.zero_le _) from rfl]
  exact .rfl

theorem phi_out2 (c : Dev nD) : (dat2 V c).Φ (Fin.last cfg2.N) ⊢ iprop(iprop(∃ r, prngReg c r) ∗ Pipeline.scopedRest spec2 c) := by
  rw [show (dat2 V c).Φ (Fin.last cfg2.N) = Phi2 V c cfg2.N (Nat.le_refl _) from rfl, Phi2_zero_eq]
  exact Phi2_weak V c _ _

end Data

end Cert.Kernel.Hand

end
-- ==== Proof.KB_R3.lean ====
import proofs.«101322_g2000704916760673_pallasbulk_724_3_alg».proof.Proof.Gen.Kernel.Launch
import proofs.«101322_g2000704916760673_pallasbulk_724_3_alg».proof.Proof.Gen.Kernel.Skeleton
import proofs.«101322_g2000704916760673_pallasbulk_724_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t :=
  (dat.before_in_eq_fetched 2 rfl (fun _ => rfl) (fun _ _ _ => rfl)
    (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t :=
  (dat.before_in_eq_fetched 3 rfl (fun _ => rfl) (fun _ _ _ => rfl)
    (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c)
    (hA : dat.A 4 = V c (Pipeline.arrRef spec3 4)) (hafter : ∀ t, dat.after 4 t = iblk3 V c 4 t)
    (t : Fin cfg3.N) (d) : dat.before 4 t d = iblk3 V c 4 t :=
  (dat.before_in_eq_fetched 4 rfl (fun _ => rfl) (fun _ _ _ => rfl)
    (fun t => by rw [hafter]; unfold Dat.blockOf iblk3; rw [hA]; try rfl) t d).trans
    (by unfold Dat.fetched Dat.blockOf iblk3; rw [hA]; try rfl)

abbrev r3_x : Rect S256x384 := Rect.unit (s := S256x384) ![0, 0] S256x384.size inb_S256x384_S256x384_0_0
abbrev r3_s : Rect S1x384 := Rect.unit (s := S1x384) ![0, 0] S1x384.size inb_S1x384_S1x384_0_0
abbrev r3_d : Rect S256x128 := Rect.unit (s := S256x128) ![0, 0] S256x128.size inb_S256x128_S256x128_0_0
abbrev r3_w : Rect S384x256 := Rect.unit (s := S384x256) ![0, 0] S384x256.size inb_S384x256_S384x256_0_0
abbrev r3_o : Rect S256x256 := Rect.unit (s := S256x256) ![0, 0] S256x256.size inb_S256x256_S256x256_0_0

def out3_5 (x0 : Vec F S256x384 .bf16) (x1 : Vec F S1x384 .f32) (x2 : Vec F S1x384 .f32) (x3 : Vec F S256x128 .f32)
    (x4 : Vec F S384x256 .bf16) : Vec F S256x256 .bf16 :=
  View.canon [⟨r3_o, k3_pay1 (View.ld x0 r3_x) (View.ld x1 r3_s) (View.ld x2 r3_s) (View.ld x3 r3_d) (View.ld x4 r3_w)⟩]

theorem cover3_5 (p0 : Vec F S256x256 .bf16) (y : S256x256.Idx) :
    ∃ pc ∈ ([⟨r3_o, p0⟩] : List (View.Piece (Elt F) S256x256 .bf16)), y ∈ pc.1.set :=
  View.cover_of_tiled [⟨r3_o, p0⟩] S256x256.size (by rfl) y

set_option maxHeartbeats 1000000 in

theorem sound_kernel3 (c : Dev nD) (E : Set ℕ) (i : grid3.Coords)
    (arg1 : Memref sig .tc .vmem S256x384 .bf16) (harg1 : arg1.IsWhole) (arg2 : Memref sig .tc .vmem S1x384 .f32) (harg2 : arg2.IsWhole)
    (arg3 : Memref sig .tc .vmem S1x384 .f32) (harg3 : arg3.IsWhole) (arg4 : Memref sig .tc .vmem S256x128 .f32) (harg4 : arg4.IsWhole)
    (arg5 : Memref sig .tc .vmem S384x256 .bf16) (harg5 : arg5.IsWhole) (arg6 : Memref sig .tc .vmem S256x256 .bf16) (harg6 : arg6.IsWhole)
    (x0 : Vec F S256x384 .bf16) (x1 : Vec F S1x384 .f32) (x2 : Vec F S1x384 .f32) (x3 : Vec F S256x128 .f32) (x4 : Vec F S384x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3_affine_matmul_kernel i arg1 harg1 arg2 harg2 arg3 harg3 arg4 harg4 arg5 harg5 arg6 harg6) K := by
  simp only [cc3_affine_matmul_kernel_eq_skeleton]; unfold cc3_affine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

theorem phi_in3 (c : Dev nD) :
    iprop((∃ r, prngReg c r) ∗ Pipeline.scopedRest spec3 c) ⊢ (dat3 (F := F) V c).Φ 0 := by
  rw [show (dat3 V c).Φ 0 = Pipeline.ΦA spec3 c from rfl]; unfold Pipeline.ΦA
  iintro ⟨Hp, Hr⟩
  isplitl [Hr]; · iexact Hr
  iexact Hp

theorem phi_out3 (c : Dev nD) :
    (dat3 (F := F) V c).Φ (Fin.last cfg3.N) ⊢ iprop((∃ r, prngReg c r) ∗ Pipeline.scopedRest spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.Kernel.Hand

end
-- ==== Proof.KB_R4.lean ====
import proofs.«101322_g2000704916760673_pallasbulk_724_3_alg».proof.Proof.Gen.Kernel.Launch
import proofs.«101322_g2000704916760673_pallasbulk_724_3_alg».proof.Proof.Gen.Kernel.Skeleton
import proofs.«101322_g2000704916760673_pallasbulk_724_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst4 (i : grid4.Coords) : Prop :=
  (Scalar.cmpi .ne (Scalar.extui (Scalar.cmpi .eq (BitVec.ofNat 32 (i 1).val) 0#32)) 0#32) = 1#1

abbrev isLast4 (i : grid4.Coords) : Prop := k4_cond2 i = 1#1

theorem zero2_K4 : (![0, 0] : Fin 2 → Nat) = fun _ => 0 := by funext a; fin_cases a <;> rfl

abbrev featRows4 (i : grid4.Coords) (x1 : Vec F S8192x256 .bf16) : Vec F S1024x256 .bf16 :=
  View.ld x1 (Rect.unit (s := S8192x256) (k4_off1 i) S1024x256.size (k4_off1_inb i))

abbrev ownRows4 (i : grid4.Coords) (h : isLast4 i) (x1 : Vec F S8192x256 .bf16) : Vec F S512x256 .bf16 :=
  View.ld x1 (Rect.unit (s := S8192x256) (k4_off2 i) S512x256.size (k4_off2_inb i h))

theorem read_last_whole_store4 {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst hz; funext y
  have e := View.read_writes_cons_emb v f (Rect.whole S) w L y
  rw [Rect.emb_whole_apply] at e
  exact e

set_option maxHeartbeats 4000000 in
theorem run4_first (c : Dev nD) (i : grid4.Coords)
    (arg2 : Memref sig .tc .vmem S512x1024 .f32) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (hc0 : isFirst4 i) (hc1 : ¬isLast4 i)
    (x0 : Vec F S512x1024 .f32) (x1 : Vec F S8192x256 .bf16) (x2 : Vec F S1x256 .f32) (x3 : Vec F S512x128 .f32) (xo : Vec F S512x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k4_pay2 x0 (k4_pay1 (F := F)) (featRows4 i x1))) -∗ K ⟨⟩))
      ⊢ wp frame (wpE (defs₀ (F := F)) Variants.none c none) E (cc4__body i arg2 harg2 arg3 harg3 arg4 harg4 arg5 harg5 arg6 harg6 arg7 harg7) K := by
  simp only [cc4__body_eq_skeleton]; unfold cc4__body_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  refine (read_last_whole_store4 _ _ zero2_K4 _ _ _).trans ?_
  simp only [View.readAt_eq_ld, harg2.read_unread, harg3.read_unread, View.ld_unit_zero (S := S512x1024) zero2_K4,
    View.readCov_unit_zero (S := S512x256) _ zero2_K4]
  rfl

set_option maxHeartbeats 4000000 in
theorem run4_middle (c : Dev nD) (i : grid4.Coords)
    (arg2 : Memref sig .tc .vmem S512x1024 .f32) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (hc0 : ¬isFirst4 i) (hc1 : ¬isLast4 i)
    (x0 : Vec F S512x1024 .f32) (x1 : Vec F S8192x256 .bf16) (x2 : Vec F S1x256 .f32) (x3 : Vec F S512x128 .f32) (xo : Vec F S512x256 .f32)
    (xs : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k4_pay2 x0 xs (featRows4 i x1))) -∗ K ⟨⟩))
      ⊢ wp frame (wpE (defs₀ (F := F)) Variants.none c none) E (cc4__body i arg2 harg2 arg3 harg3 arg4 harg4 arg5 harg5 arg6 harg6 arg7 harg7) K := by
  simp only [cc4__body_eq_skeleton]; unfold cc4__body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  refine (read_last_whole_store4 _ _ zero2_K4 _ _ _).trans ?_
  simp only [View.readAt_eq_ld, harg2.read_unread, harg3.read_unread, harg7.read_unread, View.ld_unit_zero (S := S512x1024) zero2_K4,
    View.ld_unit_zero (S := S512x256) zero2_K4]
  rfl

set_option maxHeartbeats 4000000 in
theorem run4_last (c : Dev nD) (i : grid4.Coords)
    (arg2 : Memref sig .tc .vmem S512x1024 .f32) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (hc0 : ¬isFirst4 i) (hc1 : isLast4 i)
    (x0 : Vec F S512x1024 .f32) (x1 : Vec F S8192x256 .bf16) (x2 : Vec F S1x256 .f32) (x3 : Vec F S512x128 .f32)
    (xs : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare (k4_pay3 (ownRows4 i hc1 x1) (k4_pay2 x0 xs (featRows4 i x1)) x3 x2)
            ∗ owns (c : Thread nD τ) arg7 fullShare (k4_pay2 x0 xs (featRows4 i x1))) -∗ K ⟨⟩))
      ⊢ wp frame (wpE (defs₀ (F := F)) Variants.none c none) E (cc4__body i arg2 harg2 arg3 harg3 arg4 harg4 arg5 harg5 arg6 harg6 arg7 harg7) K := by
  simp only [cc4__body_eq_skeleton]; unfold cc4__body_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_last_whole_store4 _ _ zero2_K4 _ _ _).trans ?_
    simp only [View.readAt_eq_ld, harg2.read_unread, harg3.read_unread, harg4.read_unread, harg5.read_unread, harg7.read_unread,
      View.ld_unit_zero (S := S512x1024) zero2_K4, View.ld_unit_zero (S := S512x256) zero2_K4, View.ld_unit_zero (S := S512x128) zero2_K4,
      View.ld_unit_zero (S := S1x256) zero2_K4, View.readCov_unit_zero (S := S512x256) _ zero2_K4]
    rfl
  iexists _; isplitr
  swap; · iexact HS
  ipureintro
  refine (read_last_whole_store4 _ _ zero2_K4 _ _ _).trans ?_
  simp only [View.readAt_eq_ld, harg2.read_unread, harg3.read_unread, harg7.read_unread, View.ld_unit_zero (S := S512x1024) zero2_K4,
    View.ld_unit_zero (S := S512x256) zero2_K4]
  rfl

theorem isFirst4_iff : ∀ t : Fin cfg4.N, isFirst4 (grid4.coords t) ↔ t.val % 8 = 0 :=
  (by decide +kernel : ∀ t : Fin grid4.N, isFirst4 (grid4.coords t) ↔ t.val % 8 = 0)

theorem isLast4_iff : ∀ t : Fin cfg4.N, isLast4 (grid4.coords t) ↔ t.val % 8 = 7 :=
  (by decide +kernel : ∀ t : Fin grid4.N, isLast4 (grid4.coords t) ↔ t.val % 8 = 7)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel

theorem idle4_4 : ∀ t : Fin cfg4.N, ¬isLast4 (grid4.coords t) → cfg4.idle 4 (grid4.coords t) = true := by decide +kernel
theorem noFlush4_4 : ∀ t : Fin cfg4.N, ¬isLast4 (grid4.coords t) → (cfg4.win 4).flush t = false := by decide +kernel

theorem live4_4 : ∀ t : Fin cfg4.N, isLast4 (grid4.coords t) → cfg4.idle 4 (grid4.coords t) = false := by decide +kernel

abbrev ms4_0 (t : Fin cfg4.N) : Memref sig .tc .vmem S512x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x256 .f32 := win4_4.stage (cfg4.slots t 4)
abbrev hs4_4 (t : Fin cfg4.N) : (ms4_4 t).IsWhole := hstage4_4 ((cfg4.slots t 4).cast nbuf4_4)

abbrev scM4 : Memref sig .tc .vmem S512x256 .f32 := Memref.whole cc4_scratch0

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cnt4 (c : Dev nD) (t : Fin cfg4.N) : Vec F S512x1024 .f32 := iblk4 V c 0 t

abbrev feat4 (c : Dev nD) (t : Fin cfg4.N) : Vec F S8192x256 .bf16 := iblk4 V c 1 t

abbrev bias4 (c : Dev nD) (t : Fin cfg4.N) : Vec F S1x256 .f32 := iblk4 V c 2 t

abbrev fac4 (c : Dev nD) (t : Fin cfg4.N) : Vec F S512x128 .f32 := iblk4 V c 3 t

def acc4 (c : Dev nD) : (n : ℕ) → n < cfg4.N → Vec F S512x256 .f32
  | 0, hn => k4_pay2 (cnt4 V c ⟨0, hn⟩) (k4_pay1 (F := F)) (featRows4 (grid4.coords ⟨0, hn⟩) (feat4 V c ⟨0, hn⟩))
  | n + 1, hn =>
    if (n + 1) % 8 = 0 then
      k4_pay2 (cnt4 V c ⟨n + 1, hn⟩) (k4_pay1 (F := F)) (featRows4 (grid4.coords ⟨n + 1, hn⟩) (feat4 V c ⟨n + 1, hn⟩))
    else
      k4_pay2 (cnt4 V c ⟨n + 1, hn⟩) (acc4 c n (Nat.lt_of_succ_lt hn)) (featRows4 (grid4.coords ⟨n + 1, hn⟩) (feat4 V c ⟨n + 1, hn⟩))

theorem acc4_first (c : Dev nD) (t : Fin cfg4.N) (h : t.val % 8 = 0) :
    acc4 V c t.val t.isLt = k4_pay2 (cnt4 V c t) (k4_pay1 (F := F)) (featRows4 (grid4.coords t) (feat4 V c t)) := by
  obtain ⟨n, hn⟩ := t
  cases n with
  | zero => rfl
  | succ n => exact if_pos h

theorem acc4_later (c : Dev nD) (t : Fin cfg4.N) (h : ¬t.val % 8 = 0) :
    acc4 V c t.val t.isLt
      = k4_pay2 (cnt4 V c t) (acc4 V c (t.val - 1) (Nat.lt_of_le_of_lt (Nat.sub_le _ _) t.isLt)) (featRows4 (grid4.coords t) (feat4 V c t)) := by
  obtain ⟨n, hn⟩ := t
  cases n with
  | zero => exact absurd (Nat.zero_mod _) h
  | succ n => exact if_neg h

def out4 (c : Dev nD) (t : Fin cfg4.N) : Vec F S512x256 .f32 :=
  if h : isLast4 (grid4.coords t) then
    k4_pay3 (ownRows4 (grid4.coords t) h (feat4 V c t)) (acc4 V c t.val t.isLt) (fac4 V c t) (bias4 V c t)
  else k4_pay1 (F := F)

theorem out4_last (c : Dev nD) (t : Fin cfg4.N) (h : isLast4 (grid4.coords t)) :
    out4 V c t = k4_pay3 (ownRows4 (grid4.coords t) h (feat4 V c t)) (acc4 V c t.val t.isLt) (fac4 V c t) (bias4 V c t) := dif_pos h

def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r) ∗ owns (c : Thread nD τ) scM4 fullShare (acc4 V c n hn)
      ∗ Pipeline.scopedRestBut (Ix := Unit) (Name := ℕ) (U := UR sig nD τ) (Lvl := ℕ) (Val := Elt F) spec4 c [cc4_scratch0])

theorem Phi4_succ (c : Dev nD) (n : ℕ) (hn : n < cfg4.N) :
    Phi4 V c (n + 1) hn = iprop((∃ r, prngReg c r) ∗ owns (c : Thread nD τ) scM4 fullShare (acc4 V c n hn)
      ∗ Pipeline.scopedRestBut (Ix := Unit) (Name := ℕ) (U := UR sig nD τ) (Lvl := ℕ) (Val := Elt F) spec4 c [cc4_scratch0]) := rfl

theorem Phi4_pos (c : Dev nD) (n : ℕ) (h : n ≤ cfg4.N) (hz : n ≠ 0) :
    Phi4 V c n h = iprop((∃ r, prngReg c r) ∗ owns (c : Thread nD τ) scM4 fullShare (acc4 V c (n - 1) (by omega))
      ∗ Pipeline.scopedRestBut (Ix := Unit) (Name := ℕ) (U := UR sig nD τ) (Lvl := ℕ) (Val := Elt F) spec4 c [cc4_scratch0]) := by
  cases n with
  | zero => exact absurd rfl hz
  | succ n => rfl

theorem Phi4_some (c : Dev nD) (n : ℕ) (h : n ≤ cfg4.N) :
    Phi4 V c n h ⊢ iprop((∃ r, prngReg c r) ∗ (∃ d, owns (c : Thread nD τ) scM4 fullShare d)
      ∗ Pipeline.scopedRestBut (Ix := Unit) (Name := ℕ) (U := UR sig nD τ) (Lvl := ℕ) (Val := Elt F) spec4 c [cc4_scratch0]) := by
  cases n with
  | zero =>
    show iprop((∃ r, prngReg c r) ∗ Pipeline.scopedRest (Ix := Unit) (Name := ℕ) (U := UR sig nD τ) (Lvl := ℕ) (Val := Elt F) spec4 c) ⊢ _
    rw [scopedRest4_split]
    iintro ⟨Hg, ⟨%f, HS⟩, HR⟩
    isplitl [Hg]; · iexact Hg
    isplitl [HS]
    · iexists f; rw [owns_whole]; iexact HS
    iexact HR
  | succ n =>
    rw [Phi4_succ]
    iintro ⟨Hg, HS, HR⟩
    isplitl [Hg]; · iexact Hg
    isplitl [HS]; · iexists _; iexact HS
    iexact HR

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  have hN : t.val < 128 := lt_of_lt_of_eq t.isLt (show cfg4.N = 128 from N_4)
  by_cases hl : t.val % 8 = 7
  · have h0 : ¬t.val % 8 = 0 := by omega
    have hz : t.val ≠ 0 := by omega
    rw [show (dat4 V c).leavesExact 4 t = owns (c : Thread nD τ) (ms4_4 t) fullShare ((dat4 V c).after 4 t) from by
      unfold Dat.leavesExact; rw [live4_4 t ((isLast4_iff t).mpr hl)], after4_4, out4_last V c t ((isLast4_iff t).mpr hl)]
    rw [acc4_later V c t h0]
    rw [Phi4_castSucc V c t, Phi4_pos V c _ _ hz]
    iintro ⟨⟨Hg, HS, HR⟩, Ho, ⟨%d0, H0⟩, ⟨%d1, H1⟩, ⟨%d2, H2⟩, ⟨%d3, H3⟩, ⟨%d4, H4⟩⟩
    iapply (run4_last c (grid4.coords t) (ms4_0 t) (hs4_0 t) (ms4_1 t) (hs4_1 t) (ms4_2 t) (hs4_2 t) (ms4_3 t) (hs4_3 t)
        (ms4_4 t) (hs4_4 t) scM4 (Memref.isWhole_whole _)
        (fun h => h0 ((isFirst4_iff t).mp h)) ((isLast4_iff t).mpr hl) (cnt4 V c t) (feat4 V c t) (bias4 V c t) (fac4 V c t)
        (acc4 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hg HS HR]
    · isplitl [Hg]; · iexact Hg
      isplitl [HS]; · iexact HS
      iexact HR
    isplitl [Ho]; · iexact Ho
    isplitl [H0]; · iexact H0
    isplitl [H1]; · iexact H1
    isplitl [H2]; · iexact H2
    isplitl [H3]; · iexact H3
    iexact H4
  · have hnl : ¬isLast4 (grid4.coords t) := fun h => hl ((isLast4_iff t).mp h)
    rw [Dat.leavesExact_idle (dat4 V c) 4 t (idle4_4 t hnl) (noFlush4_4 t hnl)]
    by_cases h0 : t.val % 8 = 0
    · rw [acc4_first V c t h0]
      rw [Phi4_castSucc V c t]
      refine (sep_mono (Phi4_some V c _ _) .rfl).trans ?_
      iintro ⟨⟨Hg, ⟨%ds, HS⟩, HR⟩, Ho, ⟨%d0, H0⟩, ⟨%d1, H1⟩, ⟨%d2, H2⟩, ⟨%d3, H3⟩, ⟨%d4, H4⟩⟩
      iapply (run4_first c (grid4.coords t) (ms4_0 t) (hs4_0 t) (ms4_1 t) (hs4_1 t) (ms4_2 t) (hs4_2 t) (ms4_3 t) (hs4_3 t)
        (ms4_4 t) (hs4_4 t) scM4 (Memref.isWhole_whole _)
          ((isFirst4_iff t).mpr h0) hnl (cnt4 V c t) (feat4 V c t) (bias4 V c t) (fac4 V c t)
          ((dat4 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists d4; iexact H4
    · have hz : t.val ≠ 0 := by omega
      rw [acc4_later V c t h0]
      rw [Phi4_castSucc V c t, Phi4_pos V c _ _ hz]
      iintro ⟨⟨Hg, HS, HR⟩, Ho, ⟨%d0, H0⟩, ⟨%d1, H1⟩, ⟨%d2, H2⟩, ⟨%d3, H3⟩, ⟨%d4, H4⟩⟩
      iapply (run4_middle c (grid4.coords t) (ms4_0 t) (hs4_0 t) (ms4_1 t) (hs4_1 t) (ms4_2 t) (hs4_2 t) (ms4_3 t) (hs4_3 t)
        (ms4_4 t) (hs4_4 t) scM4 (Memref.isWhole_whole _)
          (fun h => h0 ((isFirst4_iff t).mp h)) hnl (cnt4 V c t) (feat4 V c t) (bias4 V c t) (fac4 V c t)
          ((dat4 V c).before 4 t d4) (acc4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists d4; iexact H4

theorem body_obligation4 (c : Dev nD) : BodyObligation (dat4 (F := F) V c) (defs₀ (F := F)) Variants.none () Set.univ := fun t => by
  rw [bigSep_W4, bigSep_W4]
  exact sound_body4 V c t

theorem phi_in4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 (Nat.zero_le _) from rfl]
  exact Idealize.SL.BI.Entails.refl _

theorem phi_out4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N (Nat.le_refl _) from rfl]
  refine (Phi4_some V c _ _).trans ?_
  rw [scopedRest4_split]
  simp only [scM4, owns_whole]
  try exact Idealize.SL.BI.Entails.refl _

end Cert.Kernel.Hand

end
-- ==== Proof.KB_Bundle.lean ====
import proofs.«101322_g2000704916760673_pallasbulk_724_3_alg».proof.Proof.KB_RunArgs
import proofs.«101322_g2000704916760673_pallasbulk_724_3_alg».proof.Proof.KB_R0
import proofs.«101322_g2000704916760673_pallasbulk_724_3_alg».proof.Proof.KB_R1
import proofs.«101322_g2000704916760673_pallasbulk_724_3_alg».proof.Proof.KB_R2
import proofs.«101322_g2000704916760673_pallasbulk_724_3_alg».proof.Proof.KB_R3
import proofs.«101322_g2000704916760673_pallasbulk_724_3_alg».proof.Proof.KB_R4

noncomputable section

namespace Cert.Kernel.Hand

open Idealize.ShloMosaic Idealize.ShloMosaic.TcCoe
open Idealize.SL Idealize.SL.Sem
open Cert.Kernel Cert.Kernel.Gen

variable {F : FTy → Type} [FloatOps F]

def regions : Regions F where
  r0 := { dat := dat0, hA := A_eq0, hbody := body_obligation0, hin := phi_in0, hout := phi_out0 }
  r1 := { dat := dat1, hA := A_eq1, hbody := body_obligation1, hin := phi_in1, hout := phi_out1 }
  r2 := { dat := dat2, hA := A_eq2, hbody := body_obligation2, hin := phi_in2, hout := phi_out2 }
  r3 := { dat := dat3, hA := A_eq3, hbody := body_obligation3, hin := phi_in3, hout := phi_out3 }
  r4 := { dat := dat4, hA := A_eq4, hbody := body_obligation4, hin := phi_in4, hout := phi_out4 }

end Cert.Kernel.Hand

end
-- ==== Proof.KI_Run.lean ====
import proofs.«101322_g2000704916760673_pallasbulk_724_3_alg».proof.Proof.Gen.KernelIdeal.Regions
import proofs.«101322_g2000704916760673_pallasbulk_724_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev VT (F : FTy → Type) [FloatOps F] : Type := (c : Dev nD) → (b : Ref sig .tc) → Buf (Elt F) ((c : Thread nD τ).loc b)

/-- What the run asks of a region: proof data at any entry contents, the body obligation, and the invariant's two ends. -/
structure Region (F : FTy → Type) [FloatOps F] (cfg : Cfg sig Λ₀) where
  dat : VT F → (c : Dev nD) → Dat τ (Elt F) Unit ℕ (UR sig nD τ) ℕ cfg c
  hA : ∀ V c w, (dat V c).A w = V c (Pipeline.arrRef cfg.spec w)
  hq : ∀ V c w, (dat V c).q w = fullShare := by intros; rfl
  howed : ∀ V c t, (dat V c).owed t = 0 := by intros; rfl
  hrec : ∀ V c t, (dat V c).recorded t = Set.univ := by intros; rfl
  hbody : ∀ V c, BodyObligation (dat V c) (defs₀ (F := F)) Variants.none () Set.univ
  hin : ∀ V c, (iprop((∃ r, prngReg c r) ∗ Pipeline.scopedRest cfg.spec c) : sProp (MT nD τ sig Unit (Elt F) ℕ (UR sig nD τ) ℕ)) ⊢ (dat V c).Φ 0
  hout : ∀ V c, (dat V c).Φ (Fin.last cfg.N) ⊢ (iprop((∃ r, prngReg c r) ∗ Pipeline.scopedRest cfg.spec c) : sProp (MT nD τ sig Unit (Elt F) ℕ (UR sig nD τ) ℕ))

structure Regions (F : FTy → Type) [FloatOps F] where
  r0 : Region F cfg0
  r1 : Region F cfg1
  r2 : Region F cfg2
  r3 : Region F cfg3
  r4 : Region F cfg4

def Regions.r (Rs : Regions F) : (p : Fin 5) → Region F (cfgs p)
  | ⟨0, _⟩ => Rs.r0 | ⟨1, _⟩ => Rs.r1 | ⟨2, _⟩ => Rs.r2 | ⟨3, _⟩ => Rs.r3 | ⟨4, _⟩ => Rs.r4
  | ⟨_ + 5, h⟩ => absurd h (Nat.not_lt.2 (Nat.le_add_left _ _))

section
variable {cfg : Cfg sig Λ₀} (R : Region F cfg) (Win : Dev nD → Valuation τ sig (Elt F))

/-- After a region entered at `Win`: its arrays at what its write-backs leave, every other buffer as entered. -/
def exitVal (c : Dev nD) : Valuation τ sig (Elt F) :=
  Pipeline.withArrays cfg.spec c (Win c) fun w => (R.dat (fun c b => Win c b) c).arrAt w cfg.N

theorem exitVal_arr (hinj : Function.Injective (Pipeline.arrRef cfg.spec)) (c : Dev nD) (w : Fin cfg.W) :
    exitVal R Win c (Proc.devRef .tc (Pipeline.arrRef cfg.spec w)) = (R.dat (fun c b => Win c b) c).arrAt w cfg.N :=
  Pipeline.withArrays_arr cfg.spec hinj c _ _ w

theorem exitVal_of_ne (c : Dev nD) (b : Ref sig .tc) (hb : ∀ w, Pipeline.arrRef cfg.spec w ≠ b) :
    exitVal R Win c (Proc.devRef .tc b) = Win c (Proc.devRef .tc b) :=
  Pipeline.withArrays_of_ne cfg.spec c _ _ b hb

/-- An array no window names is not touched, and an input window's array is never written. -/
theorem exitVal_keep (hinj : Function.Injective (Pipeline.arrRef cfg.spec)) (c : Dev nD) (b : Ref sig .tc)
    (h : ∀ w : Fin cfg.W, Pipeline.arrRef cfg.spec w = b → (cfg.win w).isOut = false) :
    exitVal R Win c (Proc.devRef .tc b) = Win c (Proc.devRef .tc b) := by
  by_cases hb : ∃ w, Pipeline.arrRef cfg.spec w = b
  · obtain ⟨w, rfl⟩ := hb
    rw [exitVal_arr R Win hinj]
    exact ((R.dat _ c).arrAt_in w (h w rfl) _).trans (R.hA _ c w)
  · exact exitVal_of_ne R Win c b fun w e => hb ⟨w, e⟩
end

variable (m : (ℓ : Loc nD τ sig) → Buf (Elt F) ℓ) (ρ : Dev nD → PrngReg) (Rs : Regions F)

abbrev Vin0 : VT F := fun c b => V18 m c b
def W19 : Dev nD → Valuation τ sig (Elt F) := exitVal Rs.r0 (V18 m)
abbrev W20 : Dev nD → Valuation τ sig (Elt F) := fun c => StableHlo.after hostOps1 (W19 m Rs c)
theorem W20_of (c : Dev nD) (r : Ref sig .tc) (h : r ∉ hostOps1_W) : W20 m Rs c r = W19 m Rs c r :=
  StableHlo.after_of_writes_sub hostOps1 _ hostOps1_writes h
abbrev Vin1 : VT F := fun c b => W20 m Rs c b
def W21 : Dev nD → Valuation τ sig (Elt F) := exitVal Rs.r1 (W20 m Rs)
abbrev Vin2 : VT F := fun c b => W21 m Rs c b
def W22 : Dev nD → Valuation τ sig (Elt F) := exitVal Rs.r2 (W21 m Rs)
abbrev W23 : Dev nD → Valuation τ sig (Elt F) := fun c => StableHlo.after hostOps3 (W22 m Rs c)
theorem W23_of (c : Dev nD) (r : Ref sig .tc) (h : r ∉ hostOps3_W) : W23 m Rs c r = W22 m Rs c r :=
  StableHlo.after_of_writes_sub hostOps3 _ hostOps3_writes h
abbrev Vin3 : VT F := fun c b => W23 m Rs c b
def W24 : Dev nD → Valuation τ sig (Elt F) := exitVal Rs.r3 (W23 m Rs)
abbrev Vin4 : VT F := fun c b => W24 m Rs c b
def W25 : Dev nD → Valuation τ sig (Elt F) := exitVal Rs.r4 (W24 m Rs)

theorem W19_arr (c : Dev nD) (w : Fin cfg0.W) :
    W19 m Rs c (Proc.devRef .tc (Pipeline.arrRef spec0 w)) = (Rs.r0.dat (Vin0 m) c).arrAt w cfg0.N :=
  exitVal_arr Rs.r0 (V18 m) launch0.win.arr_inj c w
theorem W19_keep (c : Dev nD) (b : Ref sig .tc)
    (h : ∀ w : Fin cfg0.W, Pipeline.arrRef spec0 w = b → (cfg0.win w).isOut = false) :
    W19 m Rs c (Proc.devRef .tc b) = V18 m c (Proc.devRef .tc b) :=
  exitVal_keep Rs.r0 (V18 m) launch0.win.arr_inj c b h
theorem W21_arr (c : Dev nD) (w : Fin cfg1.W) :
    W21 m Rs c (Proc.devRef .tc (Pipeline.arrRef spec1 w)) = (Rs.r1.dat (Vin1 m Rs) c).arrAt w cfg1.N :=
  exitVal_arr Rs.r1 (W20 m Rs) launch1.win.arr_inj c w
theorem W21_keep (c : Dev nD) (b : Ref sig .tc)
    (h : ∀ w : Fin cfg1.W, Pipeline.arrRef spec1 w = b → (cfg1.win w).isOut = false) :
    W21 m Rs c (Proc.devRef .tc b) = W20 m Rs c (Proc.devRef .tc b) :=
  exitVal_keep Rs.r1 (W20 m Rs) launch1.win.arr_inj c b h
theorem W22_arr (c : Dev nD) (w : Fin cfg2.W) :
    W22 m Rs c (Proc.devRef .tc (Pipeline.arrRef spec2 w)) = (Rs.r2.dat (Vin2 m Rs) c).arrAt w cfg2.N :=
  exitVal_arr Rs.r2 (W21 m Rs) launch2.win.arr_inj c w
theorem W22_keep (c : Dev nD) (b : Ref sig .tc)
    (h : ∀ w : Fin cfg2.W, Pipeline.arrRef spec2 w = b → (cfg2.win w).isOut = false) :
    W22 m Rs c (Proc.devRef .tc b) = W21 m Rs c (Proc.devRef .tc b) :=
  exitVal_keep Rs.r2 (W21 m Rs) launch2.win.arr_inj c b h
theorem W24_arr (c : Dev nD) (w : Fin cfg3.W) :
    W24 m Rs c (Proc.devRef .tc (Pipeline.arrRef spec3 w)) = (Rs.r3.dat (Vin3 m Rs) c).arrAt w cfg3.N :=
  exitVal_arr Rs.r3 (W23 m Rs) launch3.win.arr_inj c w
theorem W24_keep (c : Dev nD) (b : Ref sig .tc)
    (h : ∀ w : Fin cfg3.W, Pipeline.arrRef spec3 w = b → (cfg3.win w).isOut = false) :
    W24 m Rs c (Proc.devRef .tc b) = W23 m Rs c (Proc.devRef .tc b) :=
  exitVal_keep Rs.r3 (W23 m Rs) launch3.win.arr_inj c b h
theorem W25_arr (c : Dev nD) (w : Fin cfg4.W) :
    W25 m Rs c (Proc.devRef .tc (Pipeline.arrRef spec4 w)) = (Rs.r4.dat (Vin4 m Rs) c).arrAt w cfg4.N :=
  exitVal_arr Rs.r4 (W24 m Rs) launch4.win.arr_inj c w
theorem W25_keep (c : Dev nD) (b : Ref sig .tc)
    (h : ∀ w : Fin cfg4.W, Pipeline.arrRef spec4 w = b → (cfg4.win w).isOut = false) :
    W25 m Rs c (Proc.devRef .tc b) = W24 m Rs c (Proc.devRef .tc b) :=
  exitVal_keep Rs.r4 (W24 m Rs) launch4.win.arr_inj c b h

/-- Region `p`'s entry contents. -/
def Win : Fin 5 → Dev nD → Valuation τ sig (Elt F)
  | ⟨0, _⟩ => V18 m | ⟨1, _⟩ => W20 m Rs | ⟨2, _⟩ => W21 m Rs | ⟨3, _⟩ => W23 m Rs | ⟨4, _⟩ => W24 m Rs
  | ⟨_ + 5, h⟩ => absurd h (Nat.not_lt.2 (Nat.le_add_left _ _))
abbrev Vin (p : Fin 5) : VT F := fun c b => Win m Rs p c b
abbrev Wout (p : Fin 5) : Dev nD → Valuation τ sig (Elt F) := exitVal (Rs.r p) (Win m Rs p)
abbrev Vout (p : Fin 5) : VT F := fun c b => Wout m Rs p c b

theorem hF (p : Fin 5) (la : Pipeline.LaunchFacts (nD := nD) (τ := τ) cfgs p) (c : Dev nD) (w : Fin (cfgs p).W) :
    ((Rs.r p).dat (Vin m Rs p) c).arrAt w (cfgs p).N = Vout m Rs p c (Pipeline.arrRef (cfgs p).spec w) :=
  (exitVal_arr (Rs.r p) (Win m Rs p) la.win.arr_inj c w).symm
theorem hrest (p : Fin 5) (c : Dev nD) :
    ∀ b, b ∉ Finset.univ.image (Pipeline.arrRef (cfgs p).spec) → Vout m Rs p c b = Vin m Rs p c b :=
  fun b hb => exitVal_of_ne (Rs.r p) (Win m Rs p) c b fun w e => hb (Finset.mem_image.mpr ⟨w, Finset.mem_univ _, e⟩)

set_option backward.isDefEq.respectTransparency.types false in
/-- Every pipeline's proof data, each at its region's entry contents. -/
def pdats (p : Fin 5) (c : Dev nD) : Dat τ (Elt F) Unit ℕ (UR sig nD τ) ℕ (Pipeline.pin (pcfgs (F := F)) adm p) c :=
  (Rs.r p).dat (Vin m Rs p) c

abbrev 𝒱₀ : Variants := Variants.none
abbrev L : GSem nD τ sig → Finset Unit := fun _ => ∅
abbrev lv : GSem nD τ sig → Unit → ℕ := fun _ _ => 0
abbrev Rest (c : Dev nD) : sProp 𝕄 := iprop((∃ r, prngReg c r) ∗ ∃ W, owes (c : Thread nD τ) (0 : CellTallies nD τ sig Unit) W)
abbrev Erest : Fin 6 → Dev nD → sProp 𝕄 := fun _ c => Rest (F := F) c
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W25 m Rs c) ∗ ∃ r, prngReg c r)

set_option backward.isDefEq.respectTransparency.types false in
/-- Region `p` over the thread state: its arrays are split out of the unscoped buffers and put back at their exit contents; the generator register and the scoped rest go into its invariant and come back; nothing is owed. -/
def reg (p : Fin 5) (la : Pipeline.LaunchFacts (nD := nD) (τ := τ) cfgs p) :
    Pipeline.RegionSeg (pcfgs (F := F)) adm (pdats m Rs) () defs₀ 𝒱₀ L lv p where
  win := la.win.to₀
  block_pos := la.block_pos
  stage_whole := la.stage_whole
  K := PEmpty
  osem k := k.elim
  ho := Pipeline.OwnSemFacts.none _
  hbody c := ((Rs.r p).hbody (Vin m Rs p) c).loose
  hwaits := Pipeline.hwaits_of_owed_zero _ _ _ _ L lv p fun c t => (Rs.r p).howed (Vin m Rs p) c t
  pre c := iprop(StableHlo.held (c : Thread nD τ) (Pipeline.ucRefs τ sig) (Win m Rs p c) ∗ Rest c)
  post c := iprop(StableHlo.held (c : Thread nD τ) (Pipeline.ucRefs τ sig) (Wout m Rs p c) ∗ Rest c)
  X c := iprop(∃ r, prngReg c r)
  Y c := iprop(∃ r, prngReg c r)
  Z c := Pipeline.unscopedRest (Ix := Unit) (Name := ℕ) (U := UR sig nD τ) (Lvl := ℕ) (cfgs p).spec c (Vin m Rs p c)
  hentry c := by
    rw [Pipeline.ownSems0_none]
    have hsplit := Pipeline.arrays_of_unscopedBufs (p := p) (pcfgs (F := F)) adm (pdats m Rs) la.win la.arr_whole c
      ((pdats m Rs p c).share_full fun w => (Rs.r p).hq (Vin m Rs p) c w) (Vin m Rs p c) fun w => (Rs.r p).hA (Vin m Rs p) c w
    rw [Pipeline.unscopedBufs_held] at hsplit
    have ho : (pdats m Rs p c).owed 0 = 0 := (Rs.r p).howed (Vin m Rs p) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun _ _ => Or.inl (((Rs.r p).hrec (Vin m Rs p) c 0).symm ▸ Set.mem_univ _)
      iexact HO
    isplitl [Hp]; · iexact Hp
    iexact Hrest
  hin c :=
    (show (iprop((∃ r, prngReg c r) ∗ Pipeline.prefHeld (pcfgs (F := F) p).pre c (fun _ => fullShare) (adm p).1
          ∗ Pipeline.scopedRest (Pipeline.pin (pcfgs (F := F)) adm p).spec c) : sProp 𝕄)
        ⊢ iprop((∃ r, prngReg c r) ∗ Pipeline.scopedRest (cfgs p).spec c) from by
      iintro ⟨Hp, -, Hr⟩
      isplitl [Hp]; · iexact Hp
      iexact Hr).trans ((Rs.r p).hin (Vin m Rs p) c)
  hout c := by
    rw [Pipeline.ownSems0_none]
    exact ((Rs.r p).hout (Vin m Rs p) c).trans
      (show (iprop((∃ r, prngReg c r) ∗ Pipeline.scopedRest (cfgs p).spec c) : sProp 𝕄)
        ⊢ iprop((∃ r, prngReg c r) ∗ BI.emp ∗ Pipeline.scopedRest (Pipeline.pin (pcfgs (F := F)) adm p).spec c) from by
      iintro ⟨Hp, Hr⟩
      isplitl [Hp]; · iexact Hp
      isplitr; · iempintro
      iexact Hr)
  hexit c := by
    have hjoin := Pipeline.unscopedBufs_of_arrays (p := p) (pcfgs (F := F)) adm (Ix := Unit) (Name := ℕ) (U := UR sig nD τ) (Lvl := ℕ)
      la.win la.arr_whole c (pdats m Rs) ((pdats m Rs p c).share_full fun w => (Rs.r p).hq (Vin m Rs p) c w)
      (Vin m Rs p c) (Vout m Rs p c) ((pdats m Rs p c).arrAt · (cfgs p).N) (hF m Rs p la c) (hrest m Rs p c)
    rw [Pipeline.unscopedBufs_held] at hjoin
    have ho : (pdats m Rs p c).owed (Fin.last (Pipeline.pin (pcfgs (F := F)) adm p).N) = 0 := (Rs.r p).howed (Vin m Rs p) c _
    unfold Pipeline.Dat.owesAt Pipeline.owesWithin
    rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m Rs) () defs₀ 𝒱₀ L lv) :=
  [ .host (seg0 m 𝒱₀ L lv Erest),
    .host (seg1 m 𝒱₀ L lv Erest),
    .host (seg2 m 𝒱₀ L lv Erest),
    .host (seg3 m 𝒱₀ L lv Erest),
    .host (seg4 m 𝒱₀ L lv Erest),
    .host (seg5 m 𝒱₀ L lv Erest),
    .host (seg6 m 𝒱₀ L lv Erest),
    .host (seg7 m 𝒱₀ L lv Erest),
    .host (seg8 m 𝒱₀ L lv Erest),
    .host (seg9 m 𝒱₀ L lv Erest),
    .host (seg10 m 𝒱₀ L lv Erest),
    .host (seg11 m 𝒱₀ L lv Erest),
    .host (seg12 m 𝒱₀ L lv Erest),
    .host (seg13 m 𝒱₀ L lv Erest),
    .host (seg14 m 𝒱₀ L lv Erest),
    .host (seg15 m 𝒱₀ L lv Erest),
    .host (seg16 m 𝒱₀ L lv Erest),
    .host (seg17 m 𝒱₀ L lv Erest),
    .region (reg m Rs 0 launch0),
    .host (hseg hostOps1 hostOps1_sub hostOps1_fresh (W19 m Rs)),
    .region (reg m Rs 1 launch1),
    .region (reg m Rs 2 launch2),
    .host (hseg hostOps3 hostOps3_sub hostOps3_fresh (W22 m Rs)),
    .region (reg m Rs 3 launch3),
    .region (reg m Rs 4 launch4) ]

theorem main_run (c : Dev nD) : main (F := F) c = Pipeline.Seg.run (segs m Rs) := by
  rw [main_chain c, Pipeline.Seg.run_eq_chain]
  rfl

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W25 m Rs c b) :=
  Pipeline.θ_run_regions_kit (pcfgs (F := F)) adm (pdats m Rs) () cellOf_inj emb₁ defs₀ 𝒱₀ L lv m ρ main (segs m Rs)
    (fun c Q => by rw [main_run m Rs c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c)) (Tₙ := Tₙ m Rs)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W25 m Rs c) ∗ Rest c) : sProp 𝕄)
          ⊢ iprop(Tₙ m Rs c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m Rs c b)
    (hfin := fun c s' => by
      iintro ⟨⟨Hh, -⟩, HSI⟩
      unfold StableHlo.held
      imodintro
      iapply (pointsTo_read_all (Pipeline.ucRefs τ sig) (fun b => (((c : Thread nD τ)).1, b)) (W25 m Rs c) s')
      isplitl [Hh] <;> iassumption)
    (hQ := fun s h c => h c)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr2 (n m : Nat) : Type := (⟨2, ![n, m]⟩ : Shape).Idx → EReal

abbrev Arr3 (a b c : Nat) : Type := (⟨3, ![a, b, c]⟩ : Shape).Idx → EReal

abbrev tileRow (N b : Nat) (t r : Nat) (h : b * t + r < N) : Fin N := ⟨b * t + r, h⟩

theorem sum_tiles {M : Type*} [AddCommMonoid M] (n b N : Nat) (hN : n * b = N) (f : Fin N → M) :
    (∑ k : Fin n, ∑ r : Fin b, f ⟨b * k.val + r.val, by
        have hk := k.isLt; have hr := r.isLt
        calc b * k.val + r.val < b * k.val + b := by omega
          _ = b * (k.val + 1) := by ring
          _ ≤ b * n := Nat.mul_le_mul_left b hk
          _ = N := by rw [Nat.mul_comm, hN]⟩) = ∑ j : Fin N, f j := by
  subst hN
  rw [← (finProdFinEquiv (m := n) (n := b)).sum_comp f, Fintype.sum_prod_type]
  refine Finset.sum_congr rfl fun k _ => Finset.sum_congr rfl fun r _ => congrArg f (Fin.ext ?_)
  show b * k.val + r.val = r.val + b * k.val
  omega

def tileSum256 {C : Nat} (x : Arr2 8192 C) (t : Fin 32) (c : Fin C) : EReal :=
  ∑ r : Fin 256, x (ix2 (⟨256 * t.val + r.val, by omega⟩ : Fin 8192) c)

def tileSumSq256 {C : Nat} (x : Arr2 8192 C) (t : Fin 32) (c : Fin C) : EReal :=
  ∑ r : Fin 256, x (ix2 (⟨256 * t.val + r.val, by omega⟩ : Fin 8192) c) * x (ix2 (⟨256 * t.val + r.val, by omega⟩ : Fin 8192) c)

def tileSum512 {C : Nat} (x : Arr2 8192 C) (t : Fin 16) (c : Fin C) : EReal :=
  ∑ r : Fin 512, x (ix2 (⟨512 * t.val + r.val, by omega⟩ : Fin 8192) c)

def tileSumSq512 {C : Nat} (x : Arr2 8192 C) (t : Fin 16) (c : Fin C) : EReal :=
  ∑ r : Fin 512, x (ix2 (⟨512 * t.val + r.val, by omega⟩ : Fin 8192) c) * x (ix2 (⟨512 * t.val + r.val, by omega⟩ : Fin 8192) c)

def colSum {C : Nat} (x : Arr2 8192 C) (c : Fin C) : EReal := ∑ i : Fin 8192, x (ix2 i c)

def colSumSq {C : Nat} (x : Arr2 8192 C) (c : Fin C) : EReal := ∑ i : Fin 8192, x (ix2 i c) * x (ix2 i c)

def affine {C H : Nat} (x : Arr2 8192 C) (s t : Arr2 1 C) (w : Arr2 C H) (i : Fin 8192) (h : Fin H) : EReal :=
  ∑ c : Fin C, (x (ix2 i c) * s (ix2 0 c) + t (ix2 0 c)) * w (ix2 c h)

def affineScaled {C H : Nat} (x : Arr2 8192 C) (s t : Arr2 1 C) (dv : Arr2 8192 128) (w : Arr2 C H) (i : Fin 8192) (h : Fin H) : EReal :=
  ∑ c : Fin C, ((x (ix2 i c) * s (ix2 0 c) + t (ix2 0 c)) * dv (ix2 i 0)) * w (ix2 c h)

def aggregate {H : Nat} (a : Arr2 8192 8192) (g : Arr2 8192 H) (b : Arr2 1 H) (i : Fin 8192) (h : Fin H) : EReal :=
  max ((∑ j : Fin 8192, a (ix2 i j) * g (ix2 j h)) + b (ix2 0 h)) 0

def aggregateSelf {H : Nat} (a : Arr2 8192 8192) (g : Arr2 8192 H) (b : Arr2 1 H) (dv : Arr2 8192 128) (i : Fin 8192) (h : Fin H) : EReal :=
  max (((∑ j : Fin 8192, a (ix2 i j) * g (ix2 j h)) + g (ix2 i h)) * dv (ix2 i 0) + b (ix2 0 h)) 0

def mk2 {n m : Nat} (f : Fin n → Fin m → EReal) : Arr2 n m := fun j => f (j 0) (j 1)

theorem mk2_apply {n m : Nat} (f : Fin n → Fin m → EReal) (a : Fin n) (b : Fin m) : mk2 f (ix2 a b) = f a b := rfl

def c8192 : EReal := Ideal.ofBits .f32 0x46000000#32

def cEps : EReal := Ideal.ofBits .f32 0x3727C5AC#32

def cCnt : EReal := Ideal.ofBits .f32 0x4A400000#32

def cOne : EReal := Ideal.ofBits .f32 0x3F800000#32

def bnMean (S : Fin 512 → EReal) (c : Fin 512) : EReal := Ideal.div (S c) c8192
def bnVar (S SS : Fin 512 → EReal) (c : Fin 512) : EReal := max (Ideal.div (SS c) c8192 - bnMean S c * bnMean S c) 0
def bnScale (g : Arr2 1 512) (S SS : Fin 512 → EReal) : Arr2 1 512 :=
  mk2 fun _ c => g (ix2 0 c) * Ideal.rsqrt (bnVar S SS c + cEps)
def bnShift (b g : Arr2 1 512) (S SS : Fin 512 → EReal) : Arr2 1 512 :=
  mk2 fun _ c => b (ix2 0 c) - bnMean S c * bnScale g S SS (ix2 0 c)

def lnMean (T : EReal) : EReal := Ideal.div T cCnt
def lnVar (T TT : EReal) : EReal := max (Ideal.div TT cCnt - lnMean T * lnMean T) 0
def lnInvStd (T TT : EReal) : EReal := Ideal.div cOne (Ideal.sqrt (lnVar T TT) + cEps)
def lnScale (g : Arr2 1 384) (T TT : EReal) : Arr2 1 384 := mk2 fun _ h => g (ix2 0 h) * lnInvStd T TT
def lnShift (b g : Arr2 1 384) (T TT : EReal) : Arr2 1 384 :=
  mk2 fun _ h => b (ix2 0 h) - lnMean T * lnScale g T TT (ix2 0 h)

abbrev Edges : Type := IVec (⟨2, ![2, 131072]⟩ : Shape) 32

def node (ei : Edges) (r : Fin 2) (e : Fin 131072) : ℕ := (ei (ix2 r e)).toNat

def InRange (ei : Edges) : Prop := ∀ (r : Fin 2) (e : Fin 131072), 0 ≤ (ei (ix2 r e)).toInt ∧ (ei (ix2 r e)).toInt < 8192

def edgeCount (ei : Edges) (i j : Fin 8192) : EReal :=
  ∑ e : Fin 131072, if node ei 1 e = i.val ∧ node ei 0 e = j.val then 1 else 0

def inDegree (ei : Edges) (i : Fin 8192) : EReal := ∑ e : Fin 131072, if node ei 1 e = i.val then 1 else 0

def eye (i j : Fin 8192) : EReal := if i = j then 1 else 0

def rowFactor (ei : Edges) : Arr2 8192 128 := mk2 fun i _ => Ideal.rsqrt (inDegree ei i + cOne)

def rowDegree (ei : Edges) (i : Fin 8192) : EReal := ∑ j : Fin 8192, (edgeCount ei i j + eye i j)

def invSqrtDeg (ei : Edges) (i : Fin 8192) : EReal :=
  if Ideal.cmp .ogt (rowDegree ei i) 0 = 1#1 then Ideal.rsqrt (rowDegree ei i) else 0

def normAdj (ei : Edges) : Arr2 8192 8192 :=
  mk2 fun i j => (invSqrtDeg ei i * (edgeCount ei i j + eye i j)) * invSqrtDeg ei j

section Programs

variable (x : Arr2 8192 512) (ei : Edges) (g bb : Arr2 1 512) (w1 : Arr2 512 384) (b1 lg lb : Arr2 1 384)
  (w2 : Arr2 384 256) (b2 : Arr2 1 256)

def kS (c : Fin 512) : EReal := ∑ t : Fin 32, tileSum256 x t c
def kSS (c : Fin 512) : EReal := ∑ t : Fin 32, tileSumSq256 x t c
def kG1 : Arr2 8192 384 :=
  mk2 (affineScaled x (bnScale g (kS x) (kSS x)) (bnShift bb g (kS x) (kSS x)) (rowFactor ei) w1)
def kH1 : Arr2 8192 384 := mk2 (aggregateSelf (mk2 (edgeCount ei)) (kG1 x ei g bb w1) b1 (rowFactor ei))
def kT : EReal := ∑ t : Fin 16, ∑ h : Fin 384, tileSum512 (kH1 x ei g bb w1 b1) t h
def kTT : EReal := ∑ t : Fin 16, ∑ h : Fin 384, tileSumSq512 (kH1 x ei g bb w1 b1) t h
def kG2 : Arr2 8192 256 :=
  mk2 (affineScaled (kH1 x ei g bb w1 b1) (lnScale lg (kT x ei g bb w1 b1) (kTT x ei g bb w1 b1))
    (lnShift lb lg (kT x ei g bb w1 b1) (kTT x ei g bb w1 b1)) (rowFactor ei) w2)
def kOut : Arr2 8192 256 := mk2 (aggregateSelf (mk2 (edgeCount ei)) (kG2 x ei g bb w1 b1 lg lb w2) b2 (rowFactor ei))

def rH0 : Arr2 8192 384 :=
  mk2 (affine x (bnScale g (colSum x) (colSumSq x)) (bnShift bb g (colSum x) (colSumSq x)) w1)
def rH1 : Arr2 8192 384 := mk2 (aggregate (normAdj ei) (rH0 x g bb w1) b1)
def rT : EReal := ∑ t : Fin 32, ∑ h : Fin 384, tileSum256 (rH1 x ei g bb w1 b1) t h
def rTT : EReal := ∑ t : Fin 32, ∑ h : Fin 384, tileSumSq256 (rH1 x ei g bb w1 b1) t h
def rH2 : Arr2 8192 256 :=
  mk2 (affine (rH1 x ei g bb w1 b1) (lnScale lg (rT x ei g bb w1 b1) (rTT x ei g bb w1 b1))
    (lnShift lb lg (rT x ei g bb w1 b1) (rTT x ei g bb w1 b1)) w2)
def rOut : Arr2 8192 256 := mk2 (aggregate (normAdj ei) (rH2 x ei g bb w1 b1 lg lb w2) b2)

end Programs

end Cert.Spec

end
-- ==== Proof.KI_Comp.lean ====
import proofs.«101322_g2000704916760673_pallasbulk_724_3_alg».proof.Proof.KI_Run
import proofs.«101322_g2000704916760673_pallasbulk_724_3_alg».proof.Proof.Spec

set_option maxRecDepth 16384

noncomputable section

namespace Cert.KernelIdeal.Comp

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

structure Values (Rs : Hand.Regions Ideal) : Prop where

  sum0 : ∀ (V : Hand.VT Ideal) (c : Dev nD) (t : Fin 32) (k : Fin 512),
    (Rs.r0.dat V c).arrAt 1 cfg0.N (ix3 t (0 : Fin 2) k) = Spec.tileSum256 (V c main_v34) t k

  sq0 : ∀ (V : Hand.VT Ideal) (c : Dev nD) (t : Fin 32) (k : Fin 512),
    (Rs.r0.dat V c).arrAt 1 cfg0.N (ix3 t (1 : Fin 2) k) = Spec.tileSumSq256 (V c main_v34) t k

  aff1 : ∀ (V : Hand.VT Ideal) (c : Dev nD) (i : Fin 8192) (h : Fin 384),
    (Rs.r1.dat V c).arrAt 5 cfg1.N (ix2 i h)
      = Spec.affineScaled (V c main_v34) (V c main_v65) (V c main_v67) (V c main_v17) (V c main_v38) i h

  agg2 : ∀ (V : Hand.VT Ideal) (c : Dev nD) (i : Fin 8192) (h : Fin 384),
    (Rs.r2.dat V c).arrAt 4 cfg2.N (ix2 i h)
      = Spec.aggregateSelf (V c main_v33) (V c main_v68) (V c main_v39) (V c main_v17) i h

  sum2 : ∀ (V : Hand.VT Ideal) (c : Dev nD) (t : Fin 16) (h : Fin 384),
    (Rs.r2.dat V c).arrAt 5 cfg2.N (ix3 t (0 : Fin 2) h)
      = Spec.tileSum512 (Spec.mk2 (Spec.aggregateSelf (V c main_v33) (V c main_v68) (V c main_v39) (V c main_v17))) t h

  sq2 : ∀ (V : Hand.VT Ideal) (c : Dev nD) (t : Fin 16) (h : Fin 384),
    (Rs.r2.dat V c).arrAt 5 cfg2.N (ix3 t (1 : Fin 2) h)
      = Spec.tileSumSq512 (Spec.mk2 (Spec.aggregateSelf (V c main_v33) (V c main_v68) (V c main_v39) (V c main_v17))) t h

  aff3 : ∀ (V : Hand.VT Ideal) (c : Dev nD) (i : Fin 8192) (o : Fin 256),
    (Rs.r3.dat V c).arrAt 5 cfg3.N (ix2 i o)
      = Spec.affineScaled (V c main_v69_0) (V c main_v85) (V c main_v88) (V c main_v17) (V c main_v43) i o

  agg4 : ∀ (V : Hand.VT Ideal) (c : Dev nD) (i : Fin 8192) (o : Fin 256),
    (Rs.r4.dat V c).arrAt 4 cfg4.N (ix2 i o)
      = Spec.aggregateSelf (V c main_v33) (V c main_v89) (V c main_v44) (V c main_v17) i o

structure HostFacts : Prop where

  fac17 : ∀ W : Valuation τ sig (Elt Ideal), Spec.InRange (W (Proc.devRef .tc main_arg1)) →
    (StableHlo.after (hostOps0 (F := Ideal)) W (Proc.devRef .tc main_v17) : Spec.Arr2 8192 128)
      = Spec.rowFactor (W (Proc.devRef .tc main_arg1))

  cnt33 : ∀ W : Valuation τ sig (Elt Ideal), Spec.InRange (W (Proc.devRef .tc main_arg1)) →
    (StableHlo.after (hostOps0 (F := Ideal)) W (Proc.devRef .tc main_v33) : Spec.Arr2 8192 8192)
      = Spec.mk2 (Spec.edgeCount (W (Proc.devRef .tc main_arg1)))

  pad34 : ∀ W : Valuation τ sig (Elt Ideal),
    (StableHlo.after (hostOps0_1 (F := Ideal)) W (Proc.devRef .tc main_v34) : Spec.Arr2 8192 512) = W (Proc.devRef .tc main_arg0)
  pad35 : ∀ W : Valuation τ sig (Elt Ideal),
    (StableHlo.after (hostOps0_3 (F := Ideal)) W (Proc.devRef .tc main_v35) : Spec.Arr2 1 512) = W (Proc.devRef .tc main_arg2)
  pad36 : ∀ W : Valuation τ sig (Elt Ideal),
    (StableHlo.after (hostOps0_5 (F := Ideal)) W (Proc.devRef .tc main_v36) : Spec.Arr2 1 512) = W (Proc.devRef .tc main_arg3)

  cvt37 : ∀ W : Valuation τ sig (Elt Ideal),
    (StableHlo.after (hostOps0_6 (F := Ideal)) W (Proc.devRef .tc main_v37) : Spec.Arr2 512 384) = W (Proc.devRef .tc main_arg4)
  pad38 : ∀ W : Valuation τ sig (Elt Ideal),
    (StableHlo.after (hostOps0_7 (F := Ideal)) W (Proc.devRef .tc main_v38) : Spec.Arr2 512 384) = W (Proc.devRef .tc main_v37)
  pad39 : ∀ W : Valuation τ sig (Elt Ideal),
    (StableHlo.after (hostOps0_9 (F := Ideal)) W (Proc.devRef .tc main_v39) : Spec.Arr2 1 384) = W (Proc.devRef .tc main_arg5)
  pad40 : ∀ W : Valuation τ sig (Elt Ideal),
    (StableHlo.after (hostOps0_11 (F := Ideal)) W (Proc.devRef .tc main_v40) : Spec.Arr2 1 384) = W (Proc.devRef .tc main_arg6)
  pad41 : ∀ W : Valuation τ sig (Elt Ideal),
    (StableHlo.after (hostOps0_13 (F := Ideal)) W (Proc.devRef .tc main_v41) : Spec.Arr2 1 384) = W (Proc.devRef .tc main_arg7)

  cvt42 : ∀ W : Valuation τ sig (Elt Ideal),
    (StableHlo.after (hostOps0_14 (F := Ideal)) W (Proc.devRef .tc main_v42) : Spec.Arr2 384 256) = W (Proc.devRef .tc main_arg8)
  pad43 : ∀ W : Valuation τ sig (Elt Ideal),
    (StableHlo.after (hostOps0_15 (F := Ideal)) W (Proc.devRef .tc main_v43) : Spec.Arr2 384 256) = W (Proc.devRef .tc main_v42)
  pad44 : ∀ W : Valuation τ sig (Elt Ideal),
    (StableHlo.after (hostOps0_17 (F := Ideal)) W (Proc.devRef .tc main_v44) : Spec.Arr2 1 256) = W (Proc.devRef .tc main_arg9)

  bn65 : ∀ W : Valuation τ sig (Elt Ideal),
    (StableHlo.after (hostOps1 (F := Ideal)) W (Proc.devRef .tc main_v65) : Spec.Arr2 1 512)
      = Spec.bnScale (W (Proc.devRef .tc main_v35))
          (fun k => ∑ t : Fin 32, (W (Proc.devRef .tc main_v45) : Spec.Arr3 32 2 512) (ix3 t (0 : Fin 2) k))
          (fun k => ∑ t : Fin 32, (W (Proc.devRef .tc main_v45) : Spec.Arr3 32 2 512) (ix3 t (1 : Fin 2) k))

  bn67 : ∀ W : Valuation τ sig (Elt Ideal),
    (StableHlo.after (hostOps1 (F := Ideal)) W (Proc.devRef .tc main_v67) : Spec.Arr2 1 512)
      = Spec.bnShift (W (Proc.devRef .tc main_v36)) (W (Proc.devRef .tc main_v35))
          (fun k => ∑ t : Fin 32, (W (Proc.devRef .tc main_v45) : Spec.Arr3 32 2 512) (ix3 t (0 : Fin 2) k))
          (fun k => ∑ t : Fin 32, (W (Proc.devRef .tc main_v45) : Spec.Arr3 32 2 512) (ix3 t (1 : Fin 2) k))

  ln85 : ∀ W : Valuation τ sig (Elt Ideal),
    (StableHlo.after (hostOps3 (F := Ideal)) W (Proc.devRef .tc main_v85) : Spec.Arr2 1 384)
      = Spec.lnScale (W (Proc.devRef .tc main_v40))
          (∑ t : Fin 16, ∑ h : Fin 384, (W (Proc.devRef .tc main_v69_1) : Spec.Arr3 16 2 384) (ix3 t (0 : Fin 2) h))
          (∑ t : Fin 16, ∑ h : Fin 384, (W (Proc.devRef .tc main_v69_1) : Spec.Arr3 16 2 384) (ix3 t (1 : Fin 2) h))

  ln88 : ∀ W : Valuation τ sig (Elt Ideal),
    (StableHlo.after (hostOps3 (F := Ideal)) W (Proc.devRef .tc main_v88) : Spec.Arr2 1 384)
      = Spec.lnShift (W (Proc.devRef .tc main_v41)) (W (Proc.devRef .tc main_v40))
          (∑ t : Fin 16, ∑ h : Fin 384, (W (Proc.devRef .tc main_v69_1) : Spec.Arr3 16 2 384) (ix3 t (0 : Fin 2) h))
          (∑ t : Fin 16, ∑ h : Fin 384, (W (Proc.devRef .tc main_v69_1) : Spec.Arr3 16 2 384) (ix3 t (1 : Fin 2) h))

section Walk

variable (m : (ℓ : Loc nD τ sig) → Buf (Elt Ideal) ℓ) (Rs : Hand.Regions Ideal) (c : Dev nD)

/-- The contents at the boundaries of the run, in order: before each host stretch and each region. -/
def B : ℕ → Valuation τ sig (Elt Ideal)
  | 0 => V0 m c | 1 => V1 m c | 2 => V2 m c | 3 => V3 m c | 4 => V4 m c | 5 => V5 m c | 6 => V6 m c | 7 => V7 m c | 8 => V8 m c | 9 => V9 m c | 10 => V10 m c | 11 => V11 m c | 12 => V12 m c | 13 => V13 m c | 14 => V14 m c | 15 => V15 m c | 16 => V16 m c | 17 => V17 m c | 18 => V18 m c
  | 19 => W19 m Rs c | 20 => W20 m Rs c | 21 => W21 m Rs c | 22 => W22 m Rs c | 23 => W23 m Rs c | _ => W24 m Rs c

/-- Whether the item that runs after boundary `k` leaves buffer `r` alone. -/
def K (r : Ref sig .tc) : ℕ → Bool
  | 0 => decide (r ∉ hostOps0_W)
  | 1 => decide (r ∉ hostOps0_1_W)
  | 2 => decide (r ∉ hostOps0_2_W)
  | 3 => decide (r ∉ hostOps0_3_W)
  | 4 => decide (r ∉ hostOps0_4_W)
  | 5 => decide (r ∉ hostOps0_5_W)
  | 6 => decide (r ∉ hostOps0_6_W)
  | 7 => decide (r ∉ hostOps0_7_W)
  | 8 => decide (r ∉ hostOps0_8_W)
  | 9 => decide (r ∉ hostOps0_9_W)
  | 10 => decide (r ∉ hostOps0_10_W)
  | 11 => decide (r ∉ hostOps0_11_W)
  | 12 => decide (r ∉ hostOps0_12_W)
  | 13 => decide (r ∉ hostOps0_13_W)
  | 14 => decide (r ∉ hostOps0_14_W)
  | 15 => decide (r ∉ hostOps0_15_W)
  | 16 => decide (r ∉ hostOps0_16_W)
  | 17 => decide (r ∉ hostOps0_17_W)
  | 18 => decide (∀ w : Fin cfg0.W, Pipeline.arrRef spec0 w = r → (cfg0.win w).isOut = false)
  | 19 => decide (r ∉ hostOps1_W)
  | 20 => decide (∀ w : Fin cfg1.W, Pipeline.arrRef spec1 w = r → (cfg1.win w).isOut = false)
  | 21 => decide (∀ w : Fin cfg2.W, Pipeline.arrRef spec2 w = r → (cfg2.win w).isOut = false)
  | 22 => decide (r ∉ hostOps3_W)
  | 23 => decide (∀ w : Fin cfg3.W, Pipeline.arrRef spec3 w = r → (cfg3.win w).isOut = false)
  | _ => true

theorem step (r : Ref sig .tc) : ∀ k, K r k = true → B m Rs c (k + 1) (Proc.devRef .tc r) = B m Rs c k (Proc.devRef .tc r)
  | 0, h => V1_of m c r (of_decide_eq_true h)
  | 1, h => V2_of m c r (of_decide_eq_true h)
  | 2, h => V3_of m c r (of_decide_eq_true h)
  | 3, h => V4_of m c r (of_decide_eq_true h)
  | 4, h => V5_of m c r (of_decide_eq_true h)
  | 5, h => V6_of m c r (of_decide_eq_true h)
  | 6, h => V7_of m c r (of_decide_eq_true h)
  | 7, h => V8_of m c r (of_decide_eq_true h)
  | 8, h => V9_of m c r (of_decide_eq_true h)
  | 9, h => V10_of m c r (of_decide_eq_true h)
  | 10, h => V11_of m c r (of_decide_eq_true h)
  | 11, h => V12_of m c r (of_decide_eq_true h)
  | 12, h => V13_of m c r (of_decide_eq_true h)
  | 13, h => V14_of m c r (of_decide_eq_true h)
  | 14, h => V15_of m c r (of_decide_eq_true h)
  | 15, h => V16_of m c r (of_decide_eq_true h)
  | 16, h => V17_of m c r (of_decide_eq_true h)
  | 17, h => V18_of m c r (of_decide_eq_true h)
  | 18, h => W19_keep m Rs c r (of_decide_eq_true h)
  | 19, h => W20_of m Rs c r (of_decide_eq_true h)
  | 20, h => W21_keep m Rs c r (of_decide_eq_true h)
  | 21, h => W22_keep m Rs c r (of_decide_eq_true h)
  | 22, h => W23_of m Rs c r (of_decide_eq_true h)
  | 23, h => W24_keep m Rs c r (of_decide_eq_true h)
  | _ + 24, _ => rfl

/-- A buffer that no item between boundaries `j` and `k` writes holds at `k` what it held at `j`. -/
theorem walk (r : Ref sig .tc) (j k : ℕ) (h : ∀ i, j ≤ i → i < k → K r i = true) (hjk : j ≤ k := by decide) :
    B m Rs c k (Proc.devRef .tc r) = B m Rs c j (Proc.devRef .tc r) := by
  induction k, hjk using Nat.le_induction with
  | base => rfl
  | succ k hk ih =>
    exact (step m Rs c r k (h k hk k.lt_succ_self)).trans (ih fun i h1 h2 => h i h1 (Nat.lt_succ_of_lt h2))

end Walk

section Chain

variable (m : (ℓ : Loc nD τ sig) → Buf (Elt Ideal) ℓ) (Rs : Hand.Regions Ideal) (c : Dev nD)

abbrev aX : Spec.Arr2 8192 512 := m ((c : Thread nD τ).loc main_arg0)
abbrev aE : Spec.Edges := m ((c : Thread nD τ).loc main_arg1)
abbrev aG : Spec.Arr2 1 512 := m ((c : Thread nD τ).loc main_arg2)
abbrev aB : Spec.Arr2 1 512 := m ((c : Thread nD τ).loc main_arg3)
abbrev aW1 : Spec.Arr2 512 384 := m ((c : Thread nD τ).loc main_arg4)
abbrev aB1 : Spec.Arr2 1 384 := m ((c : Thread nD τ).loc main_arg5)
abbrev aLG : Spec.Arr2 1 384 := m ((c : Thread nD τ).loc main_arg6)
abbrev aLB : Spec.Arr2 1 384 := m ((c : Thread nD τ).loc main_arg7)
abbrev aW2 : Spec.Arr2 384 256 := m ((c : Thread nD τ).loc main_arg8)
abbrev aB2 : Spec.Arr2 1 256 := m ((c : Thread nD τ).loc main_arg9)

/-- Two arrays that agree at every pair of coordinates are equal. -/
theorem ext2 {n k : ℕ} {A A' : Spec.Arr2 n k} (h : ∀ i j, A (ix2 i j) = A' (ix2 i j)) : A = A' :=
  funext fun j => by rw [eq_ix2 j]; exact h _ _

theorem x_at (HH : HostFacts) (k : ℕ) (h : ∀ i, 2 ≤ i → i < k → K main_v34 i = true) (hk : 2 ≤ k := by decide) :
    (B m Rs c k (Proc.devRef .tc main_v34) : Spec.Arr2 8192 512) = aX m c :=
  (walk m Rs c main_v34 2 k h hk).trans <| (HH.pad34 (V1 m c)).trans (walk m Rs c main_arg0 0 1 (by decide))

theorem fac_at (HH : HostFacts) (hei : Spec.InRange (aE m c)) (k : ℕ) (h : ∀ i, 1 ≤ i → i < k → K main_v17 i = true)
    (hk : 1 ≤ k := by decide) :
    (B m Rs c k (Proc.devRef .tc main_v17) : Spec.Arr2 8192 128) = Spec.rowFactor (aE m c) :=
  (walk m Rs c main_v17 1 k h hk).trans (HH.fac17 (V0 m c) hei)

theorem cnt_at (HH : HostFacts) (hei : Spec.InRange (aE m c)) (k : ℕ) (h : ∀ i, 1 ≤ i → i < k → K main_v33 i = true)
    (hk : 1 ≤ k := by decide) :
    (B m Rs c k (Proc.devRef .tc main_v33) : Spec.Arr2 8192 8192) = Spec.mk2 (Spec.edgeCount (aE m c)) :=
  (walk m Rs c main_v33 1 k h hk).trans (HH.cnt33 (V0 m c) hei)

/-- A plane of region 0's moments, summed over the tiles, as a function of the features as launched. -/
theorem plane0 (HH : HostFacts) (p : Fin 2) {f : Spec.Arr2 8192 512 → Fin 32 → Fin 512 → EReal}
    (hv : ∀ (V : Hand.VT Ideal) (c : Dev nD) (t : Fin 32) (k : Fin 512),
      (Rs.r0.dat V c).arrAt 1 cfg0.N (ix3 t p k) = f (V c main_v34) t k) :
    (fun k : Fin 512 => (∑ t : Fin 32, (W19 m Rs c (Proc.devRef .tc main_v45) : Spec.Arr3 32 2 512) (ix3 t p k) : EReal))
      = fun k => ∑ t : Fin 32, f (aX m c) t k :=
  funext fun k => Finset.sum_congr rfl fun t _ =>
    (congrFun (W19_arr m Rs c (1 : Fin cfg0.W)) (ix3 t p k)).trans <| (hv (Vin0 m) c t k).trans
      (congrArg (fun a => f a t k) (x_at m Rs c HH 18 (by decide)))

theorem g19 (HH : HostFacts) : (W19 m Rs c (Proc.devRef .tc main_v35) : Spec.Arr2 1 512) = aG m c :=
  (walk m Rs c main_v35 4 19 (by decide)).trans <| (HH.pad35 (V3 m c)).trans (walk m Rs c main_arg2 0 3 (by decide))

theorem w20_v65 (HV : Values Rs) (HH : HostFacts) : (W20 m Rs c (Proc.devRef .tc main_v65) : Spec.Arr2 1 512)
    = Spec.bnScale (aG m c) (Spec.kS (aX m c)) (Spec.kSS (aX m c)) :=
  (HH.bn65 (W19 m Rs c)).trans
    (congr (congr (congrArg Spec.bnScale (g19 m Rs c HH)) (plane0 m Rs c HH 0 HV.sum0)) (plane0 m Rs c HH 1 HV.sq0))

theorem w20_v67 (HV : Values Rs) (HH : HostFacts) : (W20 m Rs c (Proc.devRef .tc main_v67) : Spec.Arr2 1 512)
    = Spec.bnShift (aB m c) (aG m c) (Spec.kS (aX m c)) (Spec.kSS (aX m c)) :=
  (HH.bn67 (W19 m Rs c)).trans
    (congr (congr (congr (congrArg Spec.bnShift ((walk m Rs c main_v36 6 19 (by decide)).trans <|
      (HH.pad36 (V5 m c)).trans (walk m Rs c main_arg3 0 5 (by decide)))) (g19 m Rs c HH))
      (plane0 m Rs c HH 0 HV.sum0)) (plane0 m Rs c HH 1 HV.sq0))

theorem w21_v68 (HV : Values Rs) (HH : HostFacts) (hei : Spec.InRange (aE m c)) :
    (W21 m Rs c (Proc.devRef .tc main_v68) : Spec.Arr2 8192 384) = Spec.kG1 (aX m c) (aE m c) (aG m c) (aB m c) (aW1 m c) :=
  ext2 fun i h => (congrFun (W21_arr m Rs c (5 : Fin cfg1.W)) (ix2 i h)).trans <| (HV.aff1 (Vin1 m Rs) c i h).trans <|
    congrFun (congrFun (congr (congr (congr (congr (congrArg (Spec.affineScaled (C := 512) (H := 384))
      (x_at m Rs c HH 20 (by decide))) (w20_v65 m Rs c HV HH)) (w20_v67 m Rs c HV HH)) (fac_at m Rs c HH hei 20 (by decide)))
      ((walk m Rs c main_v38 8 20 (by decide)).trans <| (HH.pad38 (V7 m c)).trans <|
        (HH.cvt37 (V6 m c)).trans (walk m Rs c main_arg4 0 6 (by decide)))) i) h

/-- The aggregation at what region 2 finds is the aggregation of the launch memory's arguments. -/
theorem agg2_fun (HV : Values Rs) (HH : HostFacts) (hei : Spec.InRange (aE m c)) :
    Spec.aggregateSelf (Vin2 m Rs c main_v33) (Vin2 m Rs c main_v68) (Vin2 m Rs c main_v39) (Vin2 m Rs c main_v17)
      = Spec.aggregateSelf (H := 384) (Spec.mk2 (Spec.edgeCount (aE m c)))
          (Spec.kG1 (aX m c) (aE m c) (aG m c) (aB m c) (aW1 m c)) (aB1 m c) (Spec.rowFactor (aE m c)) :=
  congr (congr (congr (congrArg (Spec.aggregateSelf (H := 384)) (cnt_at m Rs c HH hei 21 (by decide))) (w21_v68 m Rs c HV HH hei))
    ((walk m Rs c main_v39 10 21 (by decide)).trans <| (HH.pad39 (V9 m c)).trans (walk m Rs c main_arg5 0 9 (by decide))))
    (fac_at m Rs c HH hei 21 (by decide))

theorem w22_v69_0 (HV : Values Rs) (HH : HostFacts) (hei : Spec.InRange (aE m c)) :
    (W22 m Rs c (Proc.devRef .tc main_v69_0) : Spec.Arr2 8192 384)
      = Spec.kH1 (aX m c) (aE m c) (aG m c) (aB m c) (aW1 m c) (aB1 m c) :=
  ext2 fun i h => (congrFun (W22_arr m Rs c (4 : Fin cfg2.W)) (ix2 i h)).trans <| (HV.agg2 (Vin2 m Rs) c i h).trans <|
    congrFun (congrFun (agg2_fun m Rs c HV HH hei) i) h

/-- A plane of region 2's moments, summed over tiles and columns, as a function of the launch memory's arguments. -/
theorem plane2 (HV : Values Rs) (HH : HostFacts) (hei : Spec.InRange (aE m c)) (p : Fin 2)
    {f : Spec.Arr2 8192 384 → Fin 16 → Fin 384 → EReal}
    (hv : ∀ (V : Hand.VT Ideal) (c : Dev nD) (t : Fin 16) (h : Fin 384), (Rs.r2.dat V c).arrAt 5 cfg2.N (ix3 t p h)
      = f (Spec.mk2 (Spec.aggregateSelf (V c main_v33) (V c main_v68) (V c main_v39) (V c main_v17))) t h) :
    ((∑ t : Fin 16, ∑ h : Fin 384, (W22 m Rs c (Proc.devRef .tc main_v69_1) : Spec.Arr3 16 2 384) (ix3 t p h)) : EReal)
      = ∑ t : Fin 16, ∑ h : Fin 384, f (Spec.kH1 (aX m c) (aE m c) (aG m c) (aB m c) (aW1 m c) (aB1 m c)) t h :=
  Finset.sum_congr rfl fun t _ => Finset.sum_congr rfl fun h _ =>
    (congrFun (W22_arr m Rs c (5 : Fin cfg2.W)) (ix3 t p h)).trans <| (hv (Vin2 m Rs) c t h).trans <|
      congrArg (fun g : Fin 8192 → Fin 384 → EReal => f (Spec.mk2 g) t h) (agg2_fun m Rs c HV HH hei)

theorem lg22 (HH : HostFacts) : (W22 m Rs c (Proc.devRef .tc main_v40) : Spec.Arr2 1 384) = aLG m c :=
  (walk m Rs c main_v40 12 22 (by decide)).trans <| (HH.pad40 (V11 m c)).trans (walk m Rs c main_arg6 0 11 (by decide))

theorem w23_v85 (HV : Values Rs) (HH : HostFacts) (hei : Spec.InRange (aE m c)) :
    (W23 m Rs c (Proc.devRef .tc main_v85) : Spec.Arr2 1 384)
      = Spec.lnScale (aLG m c) (Spec.kT (aX m c) (aE m c) (aG m c) (aB m c) (aW1 m c) (aB1 m c))
          (Spec.kTT (aX m c) (aE m c) (aG m c) (aB m c) (aW1 m c) (aB1 m c)) :=
  (HH.ln85 (W22 m Rs c)).trans
    (congr (congr (congrArg Spec.lnScale (lg22 m Rs c HH)) (plane2 m Rs c HV HH hei 0 HV.sum2)) (plane2 m Rs c HV HH hei 1 HV.sq2))

theorem w23_v88 (HV : Values Rs) (HH : HostFacts) (hei : Spec.InRange (aE m c)) :
    (W23 m Rs c (Proc.devRef .tc main_v88) : Spec.Arr2 1 384)
      = Spec.lnShift (aLB m c) (aLG m c) (Spec.kT (aX m c) (aE m c) (aG m c) (aB m c) (aW1 m c) (aB1 m c))
          (Spec.kTT (aX m c) (aE m c) (aG m c) (aB m c) (aW1 m c) (aB1 m c)) :=
  (HH.ln88 (W22 m Rs c)).trans
    (congr (congr (congr (congrArg Spec.lnShift ((walk m Rs c main_v41 14 22 (by decide)).trans <|
      (HH.pad41 (V13 m c)).trans (walk m Rs c main_arg7 0 13 (by decide)))) (lg22 m Rs c HH))
      (plane2 m Rs c HV HH hei 0 HV.sum2)) (plane2 m Rs c HV HH hei 1 HV.sq2))

theorem w24_v89 (HV : Values Rs) (HH : HostFacts) (hei : Spec.InRange (aE m c)) :
    (W24 m Rs c (Proc.devRef .tc main_v89) : Spec.Arr2 8192 256)
      = Spec.kG2 (aX m c) (aE m c) (aG m c) (aB m c) (aW1 m c) (aB1 m c) (aLG m c) (aLB m c) (aW2 m c) :=
  ext2 fun i o => (congrFun (W24_arr m Rs c (5 : Fin cfg3.W)) (ix2 i o)).trans <| (HV.aff3 (Vin3 m Rs) c i o).trans <|
    congrFun (congrFun (congr (congr (congr (congr (congrArg (Spec.affineScaled (C := 384) (H := 256))
      ((W23_of m Rs c main_v69_0 (by decide)).trans (w22_v69_0 m Rs c HV HH hei))) (w23_v85 m Rs c HV HH hei))
      (w23_v88 m Rs c HV HH hei)) (fac_at m Rs c HH hei 23 (by decide)))
      ((walk m Rs c main_v43 16 23 (by decide)).trans <| (HH.pad43 (V15 m c)).trans <|
        (HH.cvt42 (V14 m c)).trans (walk m Rs c main_arg8 0 14 (by decide)))) i) o

/-- The result array after the whole run is the program's function of the launch memory's arguments. -/
theorem result_eq_of (HV : Values Rs) (HH : HostFacts) (hei : Spec.InRange (aE m c)) : (W25 m Rs c (Proc.devRef .tc main_v90) : Spec.Arr2 8192 256)
    = Spec.kOut (aX m c) (aE m c) (aG m c) (aB m c) (aW1 m c) (aB1 m c) (aLG m c) (aLB m c) (aW2 m c) (aB2 m c) :=
  ext2 fun i o => (congrFun (W25_arr m Rs c (4 : Fin cfg4.W)) (ix2 i o)).trans <| (HV.agg4 (Vin4 m Rs) c i o).trans <|
    congrFun (congrFun (congr (congr (congr (congrArg (Spec.aggregateSelf (H := 256)) (cnt_at m Rs c HH hei 24 (by decide)))
      (w24_v89 m Rs c HV HH hei))
      ((walk m Rs c main_v44 18 24 (by decide)).trans <| (HH.pad44 (V17 m c)).trans (walk m Rs c main_arg9 0 17 (by decide))))
      (fac_at m Rs c HH hei 24 (by decide))) i) o

end Chain

end Cert.KernelIdeal.Comp

end
-- ==== Proof.KI_RunArgs.lean ====
import proofs.«101322_g2000704916760673_pallasbulk_724_3_alg».proof.Proof.KI_Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg) (Rs : Regions F)

/-- A buffer that no host stretch writes and that is no region's output array ends at its launch contents. -/
theorem W25_launch (c : Dev nD) (b : Ref sig .tc)
    (hr : (∀ w : Fin cfg4.W, Pipeline.arrRef spec4 w = b → (cfg4.win w).isOut = false)
      ∧ (∀ w : Fin cfg3.W, Pipeline.arrRef spec3 w = b → (cfg3.win w).isOut = false)
      ∧ (∀ w : Fin cfg2.W, Pipeline.arrRef spec2 w = b → (cfg2.win w).isOut = false)
      ∧ (∀ w : Fin cfg1.W, Pipeline.arrRef spec1 w = b → (cfg1.win w).isOut = false)
      ∧ (∀ w : Fin cfg0.W, Pipeline.arrRef spec0 w = b → (cfg0.win w).isOut = false))
    (g1 : b ∉ hostOps3_W ∧ b ∉ hostOps1_W ∧ b ∉ hostOps0_17_W ∧ b ∉ hostOps0_16_W ∧ b ∉ hostOps0_15_W ∧ b ∉ hostOps0_14_W ∧ b ∉ hostOps0_13_W ∧ b ∉ hostOps0_12_W)
    (g2 : b ∉ hostOps0_11_W ∧ b ∉ hostOps0_10_W ∧ b ∉ hostOps0_9_W ∧ b ∉ hostOps0_8_W ∧ b ∉ hostOps0_7_W ∧ b ∉ hostOps0_6_W ∧ b ∉ hostOps0_5_W ∧ b ∉ hostOps0_4_W)
    (g3 : b ∉ hostOps0_3_W ∧ b ∉ hostOps0_2_W ∧ b ∉ hostOps0_1_W ∧ b ∉ hostOps0_W) :
    W25 m Rs c (Proc.devRef .tc b) = m ((c : Thread nD τ).loc b) := by
  obtain ⟨r4, r3, r2, r1, r0⟩ := hr
  obtain ⟨n3, n1, n0_17, n0_16, n0_15, n0_14, n0_13, n0_12⟩ := g1
  obtain ⟨n0_11, n0_10, n0_9, n0_8, n0_7, n0_6, n0_5, n0_4⟩ := g2
  obtain ⟨n0_3, n0_2, n0_1, n0⟩ := g3
  exact (W25_keep m Rs c b r4).trans <| (W24_keep m Rs c b r3).trans <| (W23_of m Rs c b n3).trans <|
    (W22_keep m Rs c b r2).trans <| (W21_keep m Rs c b r1).trans <| (W20_of m Rs c b n1).trans <|
    (W19_keep m Rs c b r0).trans <|
    (V18_of m c b n0_17).trans <|
    (V17_of m c b n0_16).trans <|
    (V16_of m c b n0_15).trans <|
    (V15_of m c b n0_14).trans <|
    (V14_of m c b n0_13).trans <|
    (V13_of m c b n0_12).trans <|
    (V12_of m c b n0_11).trans <|
    (V11_of m c b n0_10).trans <|
    (V10_of m c b n0_9).trans <|
    (V9_of m c b n0_8).trans <|
    (V8_of m c b n0_7).trans <|
    (V7_of m c b n0_6).trans <|
    (V6_of m c b n0_5).trans <|
    (V5_of m c b n0_4).trans <|
    (V4_of m c b n0_3).trans <|
    (V3_of m c b n0_2).trans <|
    (V2_of m c b n0_1).trans <|
    (V1_of m c b n0).trans rfl

theorem run_result : θ_run defs (onTc (τ := τ) (main (F := F))) ⟨m, fun _ => 0, ρ⟩ (fun r => ∀ c : Dev nD,
      r.2.mem ((c.tc : Thread nD τ).loc main_v90) = W25 m Rs c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v90 (by decide)),
      (h c _ (mem_uc main_arg0 (by decide))).trans (W25_launch m Rs c main_arg0 (by decide) (by decide) (by decide) (by decide)),
      (h c _ (mem_uc main_arg1 (by decide))).trans (W25_launch m Rs c main_arg1 (by decide) (by decide) (by decide) (by decide)),
      (h c _ (mem_uc main_arg2 (by decide))).trans (W25_launch m Rs c main_arg2 (by decide) (by decide) (by decide) (by decide)),
      (h c _ (mem_uc main_arg3 (by decide))).trans (W25_launch m Rs c main_arg3 (by decide) (by decide) (by decide) (by decide)),
      (h c _ (mem_uc main_arg4 (by decide))).trans (W25_launch m Rs c main_arg4 (by decide) (by decide) (by decide) (by decide)),
      (h c _ (mem_uc main_arg5 (by decide))).trans (W25_launch m Rs c main_arg5 (by decide) (by decide) (by decide) (by decide)),
      (h c _ (mem_uc main_arg6 (by decide))).trans (W25_launch m Rs c main_arg6 (by decide) (by decide) (by decide) (by decide)),
      (h c _ (mem_uc main_arg7 (by decide))).trans (W25_launch m Rs c main_arg7 (by decide) (by decide) (by decide) (by decide)),
      (h c _ (mem_uc main_arg8 (by decide))).trans (W25_launch m Rs c main_arg8 (by decide) (by decide) (by decide) (by decide)),
      (h c _ (mem_uc main_arg9 (by decide))).trans (W25_launch m Rs c main_arg9 (by decide) (by decide) (by decide) (by decide))⟩) (run m ρ Rs)

end Cert.KernelIdeal.Hand

end
-- ==== Proof.KI_R0.lean ====
import proofs.«101322_g2000704916760673_pallasbulk_724_3_alg».proof.Proof.Gen.KernelIdeal.Launch
import proofs.«101322_g2000704916760673_pallasbulk_724_3_alg».proof.Proof.Gen.KernelIdeal.Skeleton
import proofs.«101322_g2000704916760673_pallasbulk_724_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  refine (dat.before_in_eq_fetched 0 rfl (fun _ => rfl) (fun _ _ _ => rfl) (fun s => ?_) t d).trans ?_
  · rw [hafter]; unfold Dat.blockOf iblk0; rw [hA]; try rfl
  · unfold Dat.fetched Dat.blockOf iblk0; rw [hA]; try rfl

abbrev rIn : Rect S256x512 := Rect.unit (s := S256x512) ![0, 0] S256x512.size inb_S256x512_S256x512_0_0

abbrev rOut : Rect S1x2x512 := Rect.unit (s := S1x2x512) ![0, 0, 0] S1x2x512.size inb_S1x2x512_S1x2x512_0_0_0

def out0_1 (x : Vec F S256x512 .f32) : Vec F S1x2x512 .f32 :=
  View.canon [⟨rOut, k0_pay1 (View.ld x rIn)⟩]

theorem cover0_1 (p : Vec F S1x2x512 .f32) (y : S1x2x512.Idx) :
    ∃ pc ∈ ([⟨rOut, p⟩] : List (View.Piece (Elt F) S1x2x512 .f32)), y ∈ pc.1.set :=
  ⟨⟨rOut, p⟩, List.mem_singleton_self _, View.mem_set_unit_zero (by funext a; match a with | ⟨0, _⟩ => rfl | ⟨1, _⟩ => rfl | ⟨2, _⟩ => rfl) inb_S1x2x512_S1x2x512_0_0_0 y⟩

set_option maxHeartbeats 1000000 in

theorem sound_kernel0 (c : Dev nD) (E : Set ℕ) (i : grid0.Coords)
    (arg1 : Memref sig .tc .vmem S256x512 .f32) (harg1 : arg1.IsWhole) (arg2 : Memref sig .tc .vmem S1x2x512 .f32) (harg2 : arg2.IsWhole)
    (x : Vec F S256x512 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (out0_1 x)) -∗ K ⟨⟩))
      ⊢ wp frame (wpE (defs₀ (F := F)) Variants.none c none) E (cc0_moments_kernel i arg1 harg1 arg2 harg2) K := by
  simp only [cc0_moments_kernel_eq_skeleton]; unfold cc0_moments_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem Phi_eq0 (c : Dev nD) (t : Fin (cfg0.N + 1)) : (dat0 V c).Φ t = Pipeline.ΦA spec0 c := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

theorem phi_in0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [Phi_eq0]; unfold Pipeline.ΦA
  iintro ⟨Hp, Hr⟩
  isplitl [Hr]; · iexact Hr
  iexact Hp

theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [Phi_eq0]; unfold Pipeline.ΦA
  iintro ⟨Hr, Hp⟩
  isplitl [Hp]; · iexact Hp
  iexact Hr

end Cert.KernelIdeal.Hand

end
-- ==== Proof.KI_R1.lean ====
import proofs.«101322_g2000704916760673_pallasbulk_724_3_alg».proof.Proof.Gen.KernelIdeal.Launch
import proofs.«101322_g2000704916760673_pallasbulk_724_3_alg».proof.Proof.Gen.KernelIdeal.Skeleton
import proofs.«101322_g2000704916760673_pallasbulk_724_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t :=
  (dat.before_in_eq_fetched 4 rfl (fun _ => rfl) (fun _ _ _ => rfl)
    (fun t => by rw [hafter]; unfold Dat.blockOf iblk1; rw [hA]; try rfl) t d).trans
    (by unfold Dat.fetched Dat.blockOf iblk1; rw [hA]; try rfl)

abbrev r1_x : Rect S256x512 := Rect.unit (s := S256x512) ![0, 0] S256x512.size inb_S256x512_S256x512_0_0
abbrev r1_s : Rect S1x512 := Rect.unit (s := S1x512) ![0, 0] S1x512.size inb_S1x512_S1x512_0_0
abbrev r1_d : Rect S256x128 := Rect.unit (s := S256x128) ![0, 0] S256x128.size inb_S256x128_S256x128_0_0
abbrev r1_w : Rect S512x384 := Rect.unit (s := S512x384) ![0, 0] S512x384.size inb_S512x384_S512x384_0_0
abbrev r1_o : Rect S256x384 := Rect.unit (s := S256x384) ![0, 0] S256x384.size inb_S256x384_S256x384_0_0

def out1_5 (x0 : Vec F S256x512 .f32) (x1 : Vec F S1x512 .f32) (x2 : Vec F S1x512 .f32) (x3 : Vec F S256x128 .f32)
    (x4 : Vec F S512x384 .bf16) : Vec F S256x384 .bf16 :=
  View.canon [⟨r1_o, k1_pay1 (View.ld x0 r1_x) (View.ld x1 r1_s) (View.ld x2 r1_s) (View.ld x3 r1_d) (View.ld x4 r1_w)⟩]

theorem cover1_5 (p0 : Vec F S256x384 .bf16) (y : S256x384.Idx) :
    ∃ pc ∈ ([⟨r1_o, p0⟩] : List (View.Piece (Elt F) S256x384 .bf16)), y ∈ pc.1.set :=
  View.cover_of_tiled [⟨r1_o, p0⟩] S256x384.size (by rfl) y

set_option maxHeartbeats 1000000 in

theorem sound_kernel1 (c : Dev nD) (E : Set ℕ) (i : grid1.Coords)
    (arg1 : Memref sig .tc .vmem S256x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S256x128 .f32) (harg4 : arg4.IsWhole)
    (arg5 : Memref sig .tc .vmem S512x384 .bf16) (harg5 : arg5.IsWhole) (arg6 : Memref sig .tc .vmem S256x384 .bf16) (harg6 : arg6.IsWhole)
    (x0 : Vec F S256x512 .f32) (x1 : Vec F S1x512 .f32) (x2 : Vec F S1x512 .f32) (x3 : Vec F S256x128 .f32) (x4 : Vec F S512x384 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1_affine_matmul_kernel i arg1 harg1 arg2 harg2 arg3 harg3 arg4 harg4 arg5 harg5 arg6 harg6) K := by
  simp only [cc1_affine_matmul_kernel_eq_skeleton]; unfold cc1_affine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

theorem phi_in1 (c : Dev nD) :
    iprop((∃ r, prngReg c r) ∗ Pipeline.scopedRest spec1 c) ⊢ (dat1 (F := F) V c).Φ 0 := by
  rw [show (dat1 V c).Φ 0 = Pipeline.ΦA spec1 c from rfl]; unfold Pipeline.ΦA
  iintro ⟨Hp, Hr⟩
  isplitl [Hr]; · iexact Hr
  iexact Hp

theorem phi_out1 (c : Dev nD) :
    (dat1 (F := F) V c).Φ (Fin.last cfg1.N) ⊢ iprop((∃ r, prngReg c r) ∗ Pipeline.scopedRest spec1 c) := by
  rw [show (dat1 V c).Φ (Fin.last cfg1.N) = Pipeline.ΦA spec1 c from rfl]; unfold Pipeline.ΦA
  iintro ⟨Hr, Hp⟩
  isplitl [Hp]; · iexact Hp
  iexact Hr

end Cert.KernelIdeal.Hand

end
-- ==== Proof.KI_R2.lean ====
import proofs.«101322_g2000704916760673_pallasbulk_724_3_alg».proof.Proof.Gen.KernelIdeal.Launch
import proofs.«101322_g2000704916760673_pallasbulk_724_3_alg».proof.Proof.Gen.KernelIdeal.Skeleton
import proofs.«101322_g2000704916760673_pallasbulk_724_3_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k2zero2 : (![0, 0] : Fin 2 → ℕ) = fun _ => 0 := by funext a; fin_cases a <;> rfl

theorem k2zero3 : (![0, 0, 0] : Fin 3 → ℕ) = fun _ => 0 := by funext a; fin_cases a <;> rfl

abbrev k2rowsOfBlock (i : grid2.Coords) : Rect S8192x384 := Rect.unit (s := S8192x384) (k2_off1 i) S1024x384.size (k2_off1_inb i)

theorem k2_off2_inb_all : ∀ i : grid2.Coords, ∀ a, (k2_off2 i) a + S512x384.size a ≤ S8192x384.size a := by decide +kernel

abbrev k2rowsOfTile (i : grid2.Coords) : Rect S8192x384 := Rect.unit (s := S8192x384) (k2_off2 i) S512x384.size (k2_off2_inb_all i)

abbrev cond2_0 (i : grid2.Coords) : Prop := (Scalar.cmpi .ne (Scalar.extui (Scalar.cmpi .eq (BitVec.ofNat 32 (i 1).val) 0#32)) 0#32) = 1#1

theorem k2_read_whole_store {Val : EltTy → Type} {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

abbrev k2accZero : Vec F S512x384 .f32 := k2_pay1

def accStep2 (i : grid2.Coords) (xA : Vec F S512x1024 .f32) (s : Vec F S512x384 .f32) (xG : Vec F S8192x384 .bf16) : Vec F S512x384 .f32 :=
  k2_pay2 xA s (View.ld xG (k2rowsOfBlock i))

def out2_4 (i : grid2.Coords) (xG : Vec F S8192x384 .bf16) (s : Vec F S512x384 .f32) (xD : Vec F S512x128 .f32) (xB : Vec F S1x384 .f32) : Vec F S512x384 .bf16 :=
  k2_pay4 i (View.ld xG (k2rowsOfTile i)) s xD xB

def out2_5 (i : grid2.Coords) (xG : Vec F S8192x384 .bf16) (s : Vec F S512x384 .f32) (xD : Vec F S512x128 .f32) (xB : Vec F S1x384 .f32) : Vec F S1x2x384 .f32 :=
  k2_pay5 i (View.ld xG (k2rowsOfTile i)) s xD xB

set_option maxHeartbeats 4000000 in

theorem sound_kernel2_A (c : Dev nD) (E : Set ℕ) (i : grid2.Coords) (arg2 : Memref sig .tc .vmem S512x1024 .f32) (harg2 : arg2.IsWhole) (arg3 : Memref sig .tc .vmem S8192x384 .bf16) (harg3 : arg3.IsWhole) (arg4 : Memref sig .tc .vmem S1x384 .f32) (harg4 : arg4.IsWhole) (arg5 : Memref sig .tc .vmem S512x128 .f32) (harg5 : arg5.IsWhole) (arg6 : Memref sig .tc .vmem S512x384 .bf16) (harg6 : arg6.IsWhole) (arg7 : Memref sig .tc .vmem S1x2x384 .f32) (harg7 : arg7.IsWhole) (arg8 : Memref sig .tc .vmem S512x384 .f32) (harg8 : arg8.IsWhole) (hc0 : cond2_0 i) (hc1 : ¬ k2_cond2 i = 1#1)
    (xA : Vec F S512x1024 .f32) (xG : Vec F S8192x384 .bf16) (xB : Vec F S1x384 .f32) (xD : Vec F S512x128 .f32)
    (x6 : Vec F S512x384 .bf16) (x7 : Vec F S1x2x384 .f32) (K : PUnit → sProp 𝕄) :
    iprop(owns (c : Thread nD τ) arg2 fullShare xA ∗ owns (c : Thread nD τ) arg3 fullShare xG ∗ owns (c : Thread nD τ) arg4 fullShare xB ∗ owns (c : Thread nD τ) arg5 fullShare xD
        ∗ owns (c : Thread nD τ) arg6 fullShare x6 ∗ owns (c : Thread nD τ) arg7 fullShare x7 ∗ (∃ d, owns (c : Thread nD τ) arg8 fullShare d)
        ∗ (iprop(owns (c : Thread nD τ) arg2 fullShare xA ∗ owns (c : Thread nD τ) arg3 fullShare xG ∗ owns (c : Thread nD τ) arg4 fullShare xB ∗ owns (c : Thread nD τ) arg5 fullShare xD
            ∗ owns (c : Thread nD τ) arg6 fullShare x6 ∗ owns (c : Thread nD τ) arg7 fullShare x7 ∗ owns (c : Thread nD τ) arg8 fullShare (accStep2 i xA k2accZero xG)) -∗ K ⟨⟩))
      ⊢ wp frame (wpE (defs₀ (F := F)) Variants.none c none) E (cc2__body i arg2 harg2 arg3 harg3 arg4 harg4 arg5 harg5 arg6 harg6 arg7 harg7 arg8 harg8) K := by
  simp only [cc2__body_eq_skeleton]; unfold cc2__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  have e2 := harg2.read_unread xA; have e3 := harg3.read_unread xG; have e4 := harg4.read_unread xB; have e5 := harg5.read_unread xD
  have e8 : True := trivial
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_run_names
  rw [k2_read_whole_store (S := S512x384) _ _ k2zero2]
  simp only [View.readAt_eq_ld, e2, e3, e4, e5, e8, View.ld_unit_zero (S := S512x1024) k2zero2, View.ld_unit_zero (S := S512x384) k2zero2,
    View.ld_unit_zero (S := S512x128) k2zero2, View.ld_unit_zero (S := S1x384) k2zero2, View.readCov_unit_zero (S := S512x384) _ k2zero2]
  rfl

set_option maxHeartbeats 4000000 in

theorem sound_kernel2_B (c : Dev nD) (E : Set ℕ) (i : grid2.Coords) (arg2 : Memref sig .tc .vmem S512x1024 .f32) (harg2 : arg2.IsWhole) (arg3 : Memref sig .tc .vmem S8192x384 .bf16) (harg3 : arg3.IsWhole) (arg4 : Memref sig .tc .vmem S1x384 .f32) (harg4 : arg4.IsWhole) (arg5 : Memref sig .tc .vmem S512x128 .f32) (harg5 : arg5.IsWhole) (arg6 : Memref sig .tc .vmem S512x384 .bf16) (harg6 : arg6.IsWhole) (arg7 : Memref sig .tc .vmem S1x2x384 .f32) (harg7 : arg7.IsWhole) (arg8 : Memref sig .tc .vmem S512x384 .f32) (harg8 : arg8.IsWhole) (hc0 : ¬ cond2_0 i) (hc1 : ¬ k2_cond2 i = 1#1)
    (xA : Vec F S512x1024 .f32) (xG : Vec F S8192x384 .bf16) (xB : Vec F S1x384 .f32) (xD : Vec F S512x128 .f32)
    (x6 : Vec F S512x384 .bf16) (x7 : Vec F S1x2x384 .f32) (xS : Vec F S512x384 .f32) (K : PUnit → sProp 𝕄) :
    iprop(owns (c : Thread nD τ) arg2 fullShare xA ∗ owns (c : Thread nD τ) arg3 fullShare xG ∗ owns (c : Thread nD τ) arg4 fullShare xB ∗ owns (c : Thread nD τ) arg5 fullShare xD
        ∗ owns (c : Thread nD τ) arg6 fullShare x6 ∗ owns (c : Thread nD τ) arg7 fullShare x7 ∗ owns (c : Thread nD τ) arg8 fullShare xS
        ∗ (iprop(owns (c : Thread nD τ) arg2 fullShare xA ∗ owns (c : Thread nD τ) arg3 fullShare xG ∗ owns (c : Thread nD τ) arg4 fullShare xB ∗ owns (c : Thread nD τ) arg5 fullShare xD
            ∗ owns (c : Thread nD τ) arg6 fullShare x6 ∗ owns (c : Thread nD τ) arg7 fullShare x7 ∗ owns (c : Thread nD τ) arg8 fullShare (accStep2 i xA xS xG)) -∗ K ⟨⟩))
      ⊢ wp frame (wpE (defs₀ (F := F)) Variants.none c none) E (cc2__body i arg2 harg2 arg3 harg3 arg4 harg4 arg5 harg5 arg6 harg6 arg7 harg7 arg8 harg8) K := by
  simp only [cc2__body_eq_skeleton]; unfold cc2__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg8.eq_unread hf8
  sl_exec (disch := first | exact hc0 | exact hc1)
  sl_step
  have e2 := harg2.read_unread xA; have e3 := harg3.read_unread xG; have e4 := harg4.read_unread xB; have e5 := harg5.read_unread xD; have e8 := harg8.read_unread xS
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_run_names
  rw [k2_read_whole_store (S := S512x384) _ _ k2zero2]
  simp only [View.readAt_eq_ld, e2, e3, e4, e5, e8, View.ld_unit_zero (S := S512x1024) k2zero2, View.ld_unit_zero (S := S512x384) k2zero2,
    View.ld_unit_zero (S := S512x128) k2zero2, View.ld_unit_zero (S := S1x384) k2zero2, View.readCov_unit_zero (S := S512x384) _ k2zero2]
  rfl

set_option maxHeartbeats 4000000 in

theorem sound_kernel2_C (c : Dev nD) (E : Set ℕ) (i : grid2.Coords) (arg2 : Memref sig .tc .vmem S512x1024 .f32) (harg2 : arg2.IsWhole) (arg3 : Memref sig .tc .vmem S8192x384 .bf16) (harg3 : arg3.IsWhole) (arg4 : Memref sig .tc .vmem S1x384 .f32) (harg4 : arg4.IsWhole) (arg5 : Memref sig .tc .vmem S512x128 .f32) (harg5 : arg5.IsWhole) (arg6 : Memref sig .tc .vmem S512x384 .bf16) (harg6 : arg6.IsWhole) (arg7 : Memref sig .tc .vmem S1x2x384 .f32) (harg7 : arg7.IsWhole) (arg8 : Memref sig .tc .vmem S512x384 .f32) (harg8 : arg8.IsWhole) (hc0 : ¬ cond2_0 i) (hc1 : k2_cond2 i = 1#1)
    (xA : Vec F S512x1024 .f32) (xG : Vec F S8192x384 .bf16) (xB : Vec F S1x384 .f32) (xD : Vec F S512x128 .f32)
    (xS : Vec F S512x384 .f32) (K : PUnit → sProp 𝕄) :
    iprop(owns (c : Thread nD τ) arg2 fullShare xA ∗ owns (c : Thread nD τ) arg3 fullShare xG ∗ owns (c : Thread nD τ) arg4 fullShare xB ∗ owns (c : Thread nD τ) arg5 fullShare xD
        ∗ (∃ d, owns (c : Thread nD τ) arg6 fullShare d) ∗ (∃ d, owns (c : Thread nD τ) arg7 fullShare d) ∗ owns (c : Thread nD τ) arg8 fullShare xS
        ∗ (iprop(owns (c : Thread nD τ) arg2 fullShare xA ∗ owns (c : Thread nD τ) arg3 fullShare xG ∗ owns (c : Thread nD τ) arg4 fullShare xB ∗ owns (c : Thread nD τ) arg5 fullShare xD
            ∗ owns (c : Thread nD τ) arg6 fullShare (out2_4 i xG (accStep2 i xA xS xG) xD xB) ∗ owns (c : Thread nD τ) arg7 fullShare (out2_5 i xG (accStep2 i xA xS xG) xD xB)
            ∗ owns (c : Thread nD τ) arg8 fullShare (accStep2 i xA xS xG)) -∗ K ⟨⟩))
      ⊢ wp frame (wpE (defs₀ (F := F)) Variants.none c none) E (cc2__body i arg2 harg2 arg3 harg3 arg4 harg4 arg5 harg5 arg6 harg6 arg7 harg7 arg8 harg8) K := by
  simp only [cc2__body_eq_skeleton]; unfold cc2__body_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg5.eq_unread hf5; obtain rfl := harg8.eq_unread hf8
  sl_exec (disch := first | exact hc0 | exact hc1)
  sl_step
  have e2 := harg2.read_unread xA; have e3 := harg3.read_unread xG; have e4 := harg4.read_unread xB; have e5 := harg5.read_unread xD; have e8 := harg8.read_unread xS
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [k2_read_whole_store (S := S512x384) _ _ k2zero2]
    simp only [View.readAt_eq_ld, e2, e3, e4, e5, e8, View.ld_unit_zero (S := S512x1024) k2zero2, View.ld_unit_zero (S := S512x384) k2zero2,
      View.ld_unit_zero (S := S512x128) k2zero2, View.ld_unit_zero (S := S1x384) k2zero2, View.readCov_unit_zero (S := S512x384) _ k2zero2]
    rfl
  isplitl [H7]
  · iexists _; isplitr
    swap; · iexact H7
    ipureintro
    sl_unfold_run_names
    rw [k2_read_whole_store (S := S1x2x384) _ _ k2zero3]
    simp only [View.readAt_eq_ld, e2, e3, e4, e5, e8, View.ld_unit_zero (S := S512x1024) k2zero2, View.ld_unit_zero (S := S512x384) k2zero2,
      View.ld_unit_zero (S := S512x128) k2zero2, View.ld_unit_zero (S := S1x384) k2zero2, View.readCov_unit_zero (S := S512x384) _ k2zero2]
    rfl
  iexists _; isplitr
  swap; · iexact H8
  ipureintro
  sl_unfold_run_names
  rw [k2_read_whole_store (S := S512x384) _ _ k2zero2]
  simp only [View.readAt_eq_ld, e2, e3, e4, e5, e8, View.ld_unit_zero (S := S512x1024) k2zero2, View.ld_unit_zero (S := S512x384) k2zero2,
    View.ld_unit_zero (S := S512x128) k2zero2, View.ld_unit_zero (S := S1x384) k2zero2, View.readCov_unit_zero (S := S512x384) _ k2zero2]
  rfl

section Data

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem hcond2_0 : ∀ t : Fin cfg2.N, cond2_0 (grid2.coords t) ↔ t.val % 8 = 0 :=
  (by decide +kernel : ∀ t : Fin grid2.N, cond2_0 (grid2.coords t) ↔ t.val % 8 = 0)

theorem hcond2_1 : ∀ t : Fin cfg2.N, k2_cond2 (grid2.coords t) = 1#1 ↔ t.val % 8 = 7 :=
  (by decide +kernel : ∀ t : Fin grid2.N, k2_cond2 (grid2.coords t) = 1#1 ↔ t.val % 8 = 7)
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

theorem idleAt2_4 : ∀ t : Fin cfg2.N, ¬ t.val % 8 = 7 → cfg2.idle 4 (grid2.coords t) = true :=
  (by decide +kernel : ∀ t : Fin grid2.N, ¬ t.val % 8 = 7 → idle2 4 (grid2.coords t) = true)
theorem idleAt2_5 : ∀ t : Fin cfg2.N, ¬ t.val % 8 = 7 → cfg2.idle 5 (grid2.coords t) = true :=
  (by decide +kernel : ∀ t : Fin grid2.N, ¬ t.val % 8 = 7 → idle2 5 (grid2.coords t) = true)
theorem liveAt2_4 : ∀ t : Fin cfg2.N, t.val % 8 = 7 → cfg2.idle 4 (grid2.coords t) = false :=
  (by decide +kernel : ∀ t : Fin grid2.N, t.val % 8 = 7 → idle2 4 (grid2.coords t) = false)
theorem liveAt2_5 : ∀ t : Fin cfg2.N, t.val % 8 = 7 → cfg2.idle 5 (grid2.coords t) = false :=
  (by decide +kernel : ∀ t : Fin grid2.N, t.val % 8 = 7 → idle2 5 (grid2.coords t) = false)
theorem noFlush2_4 (t : Fin cfg2.N) (h : ¬ t.val % 8 = 7) : (cfg2.win 4).flush t = false :=
  Bool.eq_false_iff.mpr fun hf => h ((flush2_4 t).mp hf)
theorem noFlush2_5 (t : Fin cfg2.N) (h : ¬ t.val % 8 = 7) : (cfg2.win 5).flush t = false :=
  Bool.eq_false_iff.mpr fun hf => h ((flush2_5 t).mp hf)

def accNext2 (c : Dev nD) (n : ℕ) (h : n < cfg2.N) (s : Vec F S512x384 .f32) : Vec F S512x384 .f32 :=
  accStep2 (grid2.coords ⟨n, h⟩) (iblk2 V c 0 ⟨n, h⟩) s (iblk2 V c 1 ⟨n, h⟩)

def acc2 (c : Dev nD) : (n : ℕ) → n < cfg2.N → Vec F S512x384 .f32
  | 0, h => accNext2 V c 0 h k2accZero
  | n + 1, h =>
    if (n + 1) % 8 = 0 then accNext2 V c (n + 1) h k2accZero
    else accNext2 V c (n + 1) h (acc2 c n (Nat.lt_of_succ_lt h))

theorem acc2_reset (c : Dev nD) (n : ℕ) (h : n < cfg2.N) (h0 : n % 8 = 0) : acc2 V c n h = accNext2 V c n h k2accZero := by
  cases n with
  | zero => rfl
  | succ n => exact if_pos h0

theorem acc2_step (c : Dev nD) (n : ℕ) (h : n + 1 < cfg2.N) (h0 : ¬ (n + 1) % 8 = 0) :
    acc2 V c (n + 1) h = accNext2 V c (n + 1) h (acc2 V c n (Nat.lt_of_succ_lt h)) := if_neg h0

theorem acc2_at_reset (c : Dev nD) (t : Fin cfg2.N) (h0 : t.val % 8 = 0) :
    acc2 V c t.val t.isLt = accStep2 (grid2.coords t) (iblk2 V c 0 t) k2accZero (iblk2 V c 1 t) :=
  acc2_reset V c t.val t.isLt h0

theorem acc2_at_step (c : Dev nD) (t : Fin cfg2.N) (h0 : ¬ t.val % 8 = 0) :
    acc2 V c t.val t.isLt = accStep2 (grid2.coords t) (iblk2 V c 0 t)
      (acc2 V c (t.val - 1) (Nat.lt_of_le_of_lt (Nat.sub_le _ _) t.isLt)) (iblk2 V c 1 t) := by
  obtain ⟨n, hn⟩ := t
  cases n with
  | zero => exact absurd (Nat.zero_mod _) h0
  | succ n => exact acc2_step V c n hn h0

abbrev scM2 : Memref sig .tc .vmem S512x384 .f32 := Memref.whole cc2_scratch0

def Phi2 (c : Dev nD) : (n : ℕ) → n ≤ cfg2.N → sProp 𝕄
  | 0, _ => iprop(iprop(∃ r, prngReg c r) ∗ Pipeline.scopedRest spec2 c)
  | n + 1, h => iprop(iprop(∃ r, prngReg c r) ∗ owns (c : Thread nD τ) scM2 fullShare (acc2 V c n h) ∗ Pipeline.scopedRestBut spec2 c [cc2_scratch0])

theorem Phi2_zero_eq (c : Dev nD) :
    (iprop(iprop(∃ r, prngReg c r) ∗ Pipeline.scopedRest spec2 c) : sProp 𝕄)
      = iprop(iprop(∃ r, prngReg c r) ∗ iprop(∃ d, owns (c : Thread nD τ) scM2 fullShare d) ∗ Pipeline.scopedRestBut spec2 c [cc2_scratch0]) := by
  rw [scopedRest2_split]; simp only [scM2, owns_whole]; try rfl

theorem Phi2_succ (c : Dev nD) (n : ℕ) (hn : n < cfg2.N) :
    Phi2 V c (n + 1) hn = iprop(iprop(∃ r, prngReg c r) ∗ owns (c : Thread nD τ) scM2 fullShare (acc2 V c n hn) ∗ Pipeline.scopedRestBut spec2 c [cc2_scratch0]) := rfl

theorem Phi2_pos (c : Dev nD) (n : ℕ) (h : n ≤ cfg2.N) (hz : n ≠ 0) :
    Phi2 V c n h = iprop(iprop(∃ r, prngReg c r) ∗ owns (c : Thread nD τ) scM2 fullShare (acc2 V c (n - 1) (by omega)) ∗ Pipeline.scopedRestBut spec2 c [cc2_scratch0]) := by
  cases n with
  | zero => exact absurd rfl hz
  | succ n => rfl

theorem Phi2_weak (c : Dev nD) (n : ℕ) (h : n ≤ cfg2.N) :
    Phi2 V c n h ⊢ iprop(iprop(∃ r, prngReg c r) ∗ iprop(∃ d, owns (c : Thread nD τ) scM2 fullShare d) ∗ Pipeline.scopedRestBut spec2 c [cc2_scratch0]) := by
  cases n with
  | zero => rw [show Phi2 V c 0 h = iprop(iprop(∃ r, prngReg c r) ∗ Pipeline.scopedRest spec2 c) from rfl, Phi2_zero_eq]
  | succ n =>
    rw [Phi2_succ]
    iintro ⟨Hg, HS, HR⟩
    isplitl [Hg]; · iexact Hg
    isplitl [HS]; · iexists _; iexact HS
    iexact HR

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (grid2.coords t) (iblk2 V c 1 t) (acc2 V c t.val t.isLt) (iblk2 V c 3 t) (iblk2 V c 2 t)
    | ⟨5, _⟩ => out2_5 (grid2.coords t) (iblk2 V c 1 t) (acc2 V c t.val t.isLt) (iblk2 V c 3 t) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t
    = out2_4 (grid2.coords t) (iblk2 V c 1 t) (acc2 V c t.val t.isLt) (iblk2 V c 3 t) (iblk2 V c 2 t) := by dsimp only [dat2]
theorem after2_5 (c : Dev nD) (t : Fin cfg2.N) : (dat2 V c).after 5 t
    = out2_5 (grid2.coords t) (iblk2 V c 1 t) (acc2 V c t.val t.isLt) (iblk2 V c 3 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ, Phi2_castSucc]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h7 : t.val % 8 = 7
  · have h0 : ¬ t.val % 8 = 0 := by omega
    have hz : t.val ≠ 0 := fun e => h0 (by rw [e])
    rw [show (dat2 V c).leavesExact 4 t = owns (c : Thread nD τ) (st2_4 t) fullShare ((dat2 V c).after 4 t) from by
      unfold Dat.leavesExact; rw [liveAt2_4 t h7], after2_4]
    rw [show (dat2 V c).leavesExact 5 t = owns (c : Thread nD τ) (st2_5 t) fullShare ((dat2 V c).after 5 t) from by
      unfold Dat.leavesExact; rw [liveAt2_5 t h7], after2_5]
    rw [acc2_at_step V c t h0, Phi2_pos V c _ _ hz]
    iintro ⟨⟨Hg, HS, HR⟩, Ho, ⟨%d0, H0⟩, ⟨%d1, H1⟩, ⟨%d2, H2⟩, ⟨%d3, H3⟩, ⟨%d4, H4⟩, ⟨%d5, H5⟩⟩
    iapply (sound_kernel2_C c Set.univ (grid2.coords t) _ _ _ _ _ _ _ _ _ _ _ _ _ _ (fun h => h0 ((hcond2_0 t).mp h)) ((hcond2_1 t).mpr h7)
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [Hg HS HR]
    · isplitl [Hg]; · iexact Hg
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 4 t (idleAt2_4 t h7) (noFlush2_4 t h7),
      Dat.leavesExact_idle (dat2 V c) 5 t (idleAt2_5 t h7) (noFlush2_5 t h7)]
    by_cases h0 : t.val % 8 = 0
    · rw [acc2_at_reset V c t h0]
      refine (sep_mono (Phi2_weak V c _ _) .rfl).trans ?_
      iintro ⟨⟨Hg, ⟨%ds, HS⟩, HR⟩, Ho, ⟨%d0, H0⟩, ⟨%d1, H1⟩, ⟨%d2, H2⟩, ⟨%d3, H3⟩, ⟨%d4, H4⟩, ⟨%d5, H5⟩⟩
      iapply (sound_kernel2_A c Set.univ (grid2.coords t) _ _ _ _ _ _ _ _ _ _ _ _ _ _ ((hcond2_0 t).mpr h0) (fun h => h7 ((hcond2_1 t).mp h))
        (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have hz : t.val ≠ 0 := fun e => h0 (by rw [e])
      rw [acc2_at_step V c t h0, Phi2_pos V c _ _ hz]
      iintro ⟨⟨Hg, HS, HR⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ (fun h => h0 ((hcond2_0 t).mp h)) (fun h => h7 ((hcond2_1 t).mp h))
        (iblk2 V c 0 t) (iblk2 V c 1 t) (iblk2 V c 2 t) (iblk2 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem phi_in2 (c : Dev nD) : iprop(iprop(∃ r, prngReg c r) ∗ Pipeline.scopedRest spec2 c) ⊢ (dat2 V c).Φ 0 := by
  rw [show (dat2 V c).Φ 0 = Phi2 V c 0 (Nat.zero_le _) from rfl]
  exact .rfl

theorem phi_out2 (c : Dev nD) : (dat2 V c).Φ (Fin.last cfg2.N) ⊢ iprop(iprop(∃ r, prngReg c r) ∗ Pipeline.scopedRest spec2 c) := by
  rw [show (dat2 V c).Φ (Fin.last cfg2.N) = Phi2 V c cfg2.N (Nat.le_refl _) from rfl, Phi2_zero_eq]
  exact Phi2_weak V c _ _

end Data

end Cert.KernelIdeal.Hand

end
-- ==== Proof.KI_R3.lean ====
import proofs.«101322_g2000704916760673_pallasbulk_724_3_alg».proof.Proof.Gen.KernelIdeal.Launch
import proofs.«101322_g2000704916760673_pallasbulk_724_3_alg».proof.Proof.Gen.KernelIdeal.Skeleton
import proofs.«101322_g2000704916760673_pallasbulk_724_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t :=
  (dat.before_in_eq_fetched 2 rfl (fun _ => rfl) (fun _ _ _ => rfl)
    (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t :=
  (dat.before_in_eq_fetched 3 rfl (fun _ => rfl) (fun _ _ _ => rfl)
    (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c)
    (hA : dat.A 4 = V c (Pipeline.arrRef spec3 4)) (hafter : ∀ t, dat.after 4 t = iblk3 V c 4 t)
    (t : Fin cfg3.N) (d) : dat.before 4 t d = iblk3 V c 4 t :=
  (dat.before_in_eq_fetched 4 rfl (fun _ => rfl) (fun _ _ _ => rfl)
    (fun t => by rw [hafter]; unfold Dat.blockOf iblk3; rw [hA]; try rfl) t d).trans
    (by unfold Dat.fetched Dat.blockOf iblk3; rw [hA]; try rfl)

abbrev r3_x : Rect S256x384 := Rect.unit (s := S256x384) ![0, 0] S256x384.size inb_S256x384_S256x384_0_0
abbrev r3_s : Rect S1x384 := Rect.unit (s := S1x384) ![0, 0] S1x384.size inb_S1x384_S1x384_0_0
abbrev r3_d : Rect S256x128 := Rect.unit (s := S256x128) ![0, 0] S256x128.size inb_S256x128_S256x128_0_0
abbrev r3_w : Rect S384x256 := Rect.unit (s := S384x256) ![0, 0] S384x256.size inb_S384x256_S384x256_0_0
abbrev r3_o : Rect S256x256 := Rect.unit (s := S256x256) ![0, 0] S256x256.size inb_S256x256_S256x256_0_0

def out3_5 (x0 : Vec F S256x384 .bf16) (x1 : Vec F S1x384 .f32) (x2 : Vec F S1x384 .f32) (x3 : Vec F S256x128 .f32)
    (x4 : Vec F S384x256 .bf16) : Vec F S256x256 .bf16 :=
  View.canon [⟨r3_o, k3_pay1 (View.ld x0 r3_x) (View.ld x1 r3_s) (View.ld x2 r3_s) (View.ld x3 r3_d) (View.ld x4 r3_w)⟩]

theorem cover3_5 (p0 : Vec F S256x256 .bf16) (y : S256x256.Idx) :
    ∃ pc ∈ ([⟨r3_o, p0⟩] : List (View.Piece (Elt F) S256x256 .bf16)), y ∈ pc.1.set :=
  View.cover_of_tiled [⟨r3_o, p0⟩] S256x256.size (by rfl) y

set_option maxHeartbeats 1000000 in

theorem sound_kernel3 (c : Dev nD) (E : Set ℕ) (i : grid3.Coords)
    (arg1 : Memref sig .tc .vmem S256x384 .bf16) (harg1 : arg1.IsWhole) (arg2 : Memref sig .tc .vmem S1x384 .f32) (harg2 : arg2.IsWhole)
    (arg3 : Memref sig .tc .vmem S1x384 .f32) (harg3 : arg3.IsWhole) (arg4 : Memref sig .tc .vmem S256x128 .f32) (harg4 : arg4.IsWhole)
    (arg5 : Memref sig .tc .vmem S384x256 .bf16) (harg5 : arg5.IsWhole) (arg6 : Memref sig .tc .vmem S256x256 .bf16) (harg6 : arg6.IsWhole)
    (x0 : Vec F S256x384 .bf16) (x1 : Vec F S1x384 .f32) (x2 : Vec F S1x384 .f32) (x3 : Vec F S256x128 .f32) (x4 : Vec F S384x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3_affine_matmul_kernel i arg1 harg1 arg2 harg2 arg3 harg3 arg4 harg4 arg5 harg5 arg6 harg6) K := by
  simp only [cc3_affine_matmul_kernel_eq_skeleton]; unfold cc3_affine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

theorem phi_in3 (c : Dev nD) :
    iprop((∃ r, prngReg c r) ∗ Pipeline.scopedRest spec3 c) ⊢ (dat3 (F := F) V c).Φ 0 := by
  rw [show (dat3 V c).Φ 0 = Pipeline.ΦA spec3 c from rfl]; unfold Pipeline.ΦA
  iintro ⟨Hp, Hr⟩
  isplitl [Hr]; · iexact Hr
  iexact Hp

theorem phi_out3 (c : Dev nD) :
    (dat3 (F := F) V c).Φ (Fin.last cfg3.N) ⊢ iprop((∃ r, prngReg c r) ∗ Pipeline.scopedRest spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.KernelIdeal.Hand

end
-- ==== Proof.KI_R4.lean ====
import proofs.«101322_g2000704916760673_pallasbulk_724_3_alg».proof.Proof.Gen.KernelIdeal.Launch
import proofs.«101322_g2000704916760673_pallasbulk_724_3_alg».proof.Proof.Gen.KernelIdeal.Skeleton
import proofs.«101322_g2000704916760673_pallasbulk_724_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst4 (i : grid4.Coords) : Prop :=
  (Scalar.cmpi .ne (Scalar.extui (Scalar.cmpi .eq (BitVec.ofNat 32 (i 1).val) 0#32)) 0#32) = 1#1

abbrev isLast4 (i : grid4.Coords) : Prop := k4_cond2 i = 1#1

theorem zero2_K4 : (![0, 0] : Fin 2 → Nat) = fun _ => 0 := by funext a; fin_cases a <;> rfl

abbrev featRows4 (i : grid4.Coords) (x1 : Vec F S8192x256 .bf16) : Vec F S1024x256 .bf16 :=
  View.ld x1 (Rect.unit (s := S8192x256) (k4_off1 i) S1024x256.size (k4_off1_inb i))

abbrev ownRows4 (i : grid4.Coords) (h : isLast4 i) (x1 : Vec F S8192x256 .bf16) : Vec F S512x256 .bf16 :=
  View.ld x1 (Rect.unit (s := S8192x256) (k4_off2 i) S512x256.size (k4_off2_inb i h))

theorem read_last_whole_store4 {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst hz; funext y
  have e := View.read_writes_cons_emb v f (Rect.whole S) w L y
  rw [Rect.emb_whole_apply] at e
  exact e

set_option maxHeartbeats 4000000 in
theorem run4_first (c : Dev nD) (i : grid4.Coords)
    (arg2 : Memref sig .tc .vmem S512x1024 .f32) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (hc0 : isFirst4 i) (hc1 : ¬isLast4 i)
    (x0 : Vec F S512x1024 .f32) (x1 : Vec F S8192x256 .bf16) (x2 : Vec F S1x256 .f32) (x3 : Vec F S512x128 .f32) (xo : Vec F S512x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k4_pay2 x0 (k4_pay1 (F := F)) (featRows4 i x1))) -∗ K ⟨⟩))
      ⊢ wp frame (wpE (defs₀ (F := F)) Variants.none c none) E (cc4__body i arg2 harg2 arg3 harg3 arg4 harg4 arg5 harg5 arg6 harg6 arg7 harg7) K := by
  simp only [cc4__body_eq_skeleton]; unfold cc4__body_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  refine (read_last_whole_store4 _ _ zero2_K4 _ _ _).trans ?_
  simp only [View.readAt_eq_ld, harg2.read_unread, harg3.read_unread, View.ld_unit_zero (S := S512x1024) zero2_K4,
    View.readCov_unit_zero (S := S512x256) _ zero2_K4]
  rfl

set_option maxHeartbeats 4000000 in
theorem run4_middle (c : Dev nD) (i : grid4.Coords)
    (arg2 : Memref sig .tc .vmem S512x1024 .f32) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (hc0 : ¬isFirst4 i) (hc1 : ¬isLast4 i)
    (x0 : Vec F S512x1024 .f32) (x1 : Vec F S8192x256 .bf16) (x2 : Vec F S1x256 .f32) (x3 : Vec F S512x128 .f32) (xo : Vec F S512x256 .f32)
    (xs : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k4_pay2 x0 xs (featRows4 i x1))) -∗ K ⟨⟩))
      ⊢ wp frame (wpE (defs₀ (F := F)) Variants.none c none) E (cc4__body i arg2 harg2 arg3 harg3 arg4 harg4 arg5 harg5 arg6 harg6 arg7 harg7) K := by
  simp only [cc4__body_eq_skeleton]; unfold cc4__body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  refine (read_last_whole_store4 _ _ zero2_K4 _ _ _).trans ?_
  simp only [View.readAt_eq_ld, harg2.read_unread, harg3.read_unread, harg7.read_unread, View.ld_unit_zero (S := S512x1024) zero2_K4,
    View.ld_unit_zero (S := S512x256) zero2_K4]
  rfl

set_option maxHeartbeats 4000000 in
theorem run4_last (c : Dev nD) (i : grid4.Coords)
    (arg2 : Memref sig .tc .vmem S512x1024 .f32) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (hc0 : ¬isFirst4 i) (hc1 : isLast4 i)
    (x0 : Vec F S512x1024 .f32) (x1 : Vec F S8192x256 .bf16) (x2 : Vec F S1x256 .f32) (x3 : Vec F S512x128 .f32)
    (xs : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare (k4_pay3 (ownRows4 i hc1 x1) (k4_pay2 x0 xs (featRows4 i x1)) x3 x2)
            ∗ owns (c : Thread nD τ) arg7 fullShare (k4_pay2 x0 xs (featRows4 i x1))) -∗ K ⟨⟩))
      ⊢ wp frame (wpE (defs₀ (F := F)) Variants.none c none) E (cc4__body i arg2 harg2 arg3 harg3 arg4 harg4 arg5 harg5 arg6 harg6 arg7 harg7) K := by
  simp only [cc4__body_eq_skeleton]; unfold cc4__body_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_last_whole_store4 _ _ zero2_K4 _ _ _).trans ?_
    simp only [View.readAt_eq_ld, harg2.read_unread, harg3.read_unread, harg4.read_unread, harg5.read_unread, harg7.read_unread,
      View.ld_unit_zero (S := S512x1024) zero2_K4, View.ld_unit_zero (S := S512x256) zero2_K4, View.ld_unit_zero (S := S512x128) zero2_K4,
      View.ld_unit_zero (S := S1x256) zero2_K4, View.readCov_unit_zero (S := S512x256) _ zero2_K4]
    rfl
  iexists _; isplitr
  swap; · iexact HS
  ipureintro
  refine (read_last_whole_store4 _ _ zero2_K4 _ _ _).trans ?_
  simp only [View.readAt_eq_ld, harg2.read_unread, harg3.read_unread, harg7.read_unread, View.ld_unit_zero (S := S512x1024) zero2_K4,
    View.ld_unit_zero (S := S512x256) zero2_K4]
  rfl

theorem isFirst4_iff : ∀ t : Fin cfg4.N, isFirst4 (grid4.coords t) ↔ t.val % 8 = 0 :=
  (by decide +kernel : ∀ t : Fin grid4.N, isFirst4 (grid4.coords t) ↔ t.val % 8 = 0)

theorem isLast4_iff : ∀ t : Fin cfg4.N, isLast4 (grid4.coords t) ↔ t.val % 8 = 7 :=
  (by decide +kernel : ∀ t : Fin grid4.N, isLast4 (grid4.coords t) ↔ t.val % 8 = 7)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel

theorem idle4_4 : ∀ t : Fin cfg4.N, ¬isLast4 (grid4.coords t) → cfg4.idle 4 (grid4.coords t) = true := by decide +kernel
theorem noFlush4_4 : ∀ t : Fin cfg4.N, ¬isLast4 (grid4.coords t) → (cfg4.win 4).flush t = false := by decide +kernel

theorem live4_4 : ∀ t : Fin cfg4.N, isLast4 (grid4.coords t) → cfg4.idle 4 (grid4.coords t) = false := by decide +kernel

abbrev ms4_0 (t : Fin cfg4.N) : Memref sig .tc .vmem S512x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x256 .f32 := win4_4.stage (cfg4.slots t 4)
abbrev hs4_4 (t : Fin cfg4.N) : (ms4_4 t).IsWhole := hstage4_4 ((cfg4.slots t 4).cast nbuf4_4)

abbrev scM4 : Memref sig .tc .vmem S512x256 .f32 := Memref.whole cc4_scratch0

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cnt4 (c : Dev nD) (t : Fin cfg4.N) : Vec F S512x1024 .f32 := iblk4 V c 0 t

abbrev feat4 (c : Dev nD) (t : Fin cfg4.N) : Vec F S8192x256 .bf16 := iblk4 V c 1 t

abbrev bias4 (c : Dev nD) (t : Fin cfg4.N) : Vec F S1x256 .f32 := iblk4 V c 2 t

abbrev fac4 (c : Dev nD) (t : Fin cfg4.N) : Vec F S512x128 .f32 := iblk4 V c 3 t

def acc4 (c : Dev nD) : (n : ℕ) → n < cfg4.N → Vec F S512x256 .f32
  | 0, hn => k4_pay2 (cnt4 V c ⟨0, hn⟩) (k4_pay1 (F := F)) (featRows4 (grid4.coords ⟨0, hn⟩) (feat4 V c ⟨0, hn⟩))
  | n + 1, hn =>
    if (n + 1) % 8 = 0 then
      k4_pay2 (cnt4 V c ⟨n + 1, hn⟩) (k4_pay1 (F := F)) (featRows4 (grid4.coords ⟨n + 1, hn⟩) (feat4 V c ⟨n + 1, hn⟩))
    else
      k4_pay2 (cnt4 V c ⟨n + 1, hn⟩) (acc4 c n (Nat.lt_of_succ_lt hn)) (featRows4 (grid4.coords ⟨n + 1, hn⟩) (feat4 V c ⟨n + 1, hn⟩))

theorem acc4_first (c : Dev nD) (t : Fin cfg4.N) (h : t.val % 8 = 0) :
    acc4 V c t.val t.isLt = k4_pay2 (cnt4 V c t) (k4_pay1 (F := F)) (featRows4 (grid4.coords t) (feat4 V c t)) := by
  obtain ⟨n, hn⟩ := t
  cases n with
  | zero => rfl
  | succ n => exact if_pos h

theorem acc4_later (c : Dev nD) (t : Fin cfg4.N) (h : ¬t.val % 8 = 0) :
    acc4 V c t.val t.isLt
      = k4_pay2 (cnt4 V c t) (acc4 V c (t.val - 1) (Nat.lt_of_le_of_lt (Nat.sub_le _ _) t.isLt)) (featRows4 (grid4.coords t) (feat4 V c t)) := by
  obtain ⟨n, hn⟩ := t
  cases n with
  | zero => exact absurd (Nat.zero_mod _) h
  | succ n => exact if_neg h

def out4 (c : Dev nD) (t : Fin cfg4.N) : Vec F S512x256 .f32 :=
  if h : isLast4 (grid4.coords t) then
    k4_pay3 (ownRows4 (grid4.coords t) h (feat4 V c t)) (acc4 V c t.val t.isLt) (fac4 V c t) (bias4 V c t)
  else k4_pay1 (F := F)

theorem out4_last (c : Dev nD) (t : Fin cfg4.N) (h : isLast4 (grid4.coords t)) :
    out4 V c t = k4_pay3 (ownRows4 (grid4.coords t) h (feat4 V c t)) (acc4 V c t.val t.isLt) (fac4 V c t) (bias4 V c t) := dif_pos h

def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r) ∗ owns (c : Thread nD τ) scM4 fullShare (acc4 V c n hn)
      ∗ Pipeline.scopedRestBut (Ix := Unit) (Name := ℕ) (U := UR sig nD τ) (Lvl := ℕ) (Val := Elt F) spec4 c [cc4_scratch0])

theorem Phi4_succ (c : Dev nD) (n : ℕ) (hn : n < cfg4.N) :
    Phi4 V c (n + 1) hn = iprop((∃ r, prngReg c r) ∗ owns (c : Thread nD τ) scM4 fullShare (acc4 V c n hn)
      ∗ Pipeline.scopedRestBut (Ix := Unit) (Name := ℕ) (U := UR sig nD τ) (Lvl := ℕ) (Val := Elt F) spec4 c [cc4_scratch0]) := rfl

theorem Phi4_pos (c : Dev nD) (n : ℕ) (h : n ≤ cfg4.N) (hz : n ≠ 0) :
    Phi4 V c n h = iprop((∃ r, prngReg c r) ∗ owns (c : Thread nD τ) scM4 fullShare (acc4 V c (n - 1) (by omega))
      ∗ Pipeline.scopedRestBut (Ix := Unit) (Name := ℕ) (U := UR sig nD τ) (Lvl := ℕ) (Val := Elt F) spec4 c [cc4_scratch0]) := by
  cases n with
  | zero => exact absurd rfl hz
  | succ n => rfl

theorem Phi4_some (c : Dev nD) (n : ℕ) (h : n ≤ cfg4.N) :
    Phi4 V c n h ⊢ iprop((∃ r, prngReg c r) ∗ (∃ d, owns (c : Thread nD τ) scM4 fullShare d)
      ∗ Pipeline.scopedRestBut (Ix := Unit) (Name := ℕ) (U := UR sig nD τ) (Lvl := ℕ) (Val := Elt F) spec4 c [cc4_scratch0]) := by
  cases n with
  | zero =>
    show iprop((∃ r, prngReg c r) ∗ Pipeline.scopedRest (Ix := Unit) (Name := ℕ) (U := UR sig nD τ) (Lvl := ℕ) (Val := Elt F) spec4 c) ⊢ _
    rw [scopedRest4_split]
    iintro ⟨Hg, ⟨%f, HS⟩, HR⟩
    isplitl [Hg]; · iexact Hg
    isplitl [HS]
    · iexists f; rw [owns_whole]; iexact HS
    iexact HR
  | succ n =>
    rw [Phi4_succ]
    iintro ⟨Hg, HS, HR⟩
    isplitl [Hg]; · iexact Hg
    isplitl [HS]; · iexists _; iexact HS
    iexact HR

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  have hN : t.val < 128 := lt_of_lt_of_eq t.isLt (show cfg4.N = 128 from N_4)
  by_cases hl : t.val % 8 = 7
  · have h0 : ¬t.val % 8 = 0 := by omega
    have hz : t.val ≠ 0 := by omega
    rw [show (dat4 V c).leavesExact 4 t = owns (c : Thread nD τ) (ms4_4 t) fullShare ((dat4 V c).after 4 t) from by
      unfold Dat.leavesExact; rw [live4_4 t ((isLast4_iff t).mpr hl)], after4_4, out4_last V c t ((isLast4_iff t).mpr hl)]
    rw [acc4_later V c t h0]
    rw [Phi4_castSucc V c t, Phi4_pos V c _ _ hz]
    iintro ⟨⟨Hg, HS, HR⟩, Ho, ⟨%d0, H0⟩, ⟨%d1, H1⟩, ⟨%d2, H2⟩, ⟨%d3, H3⟩, ⟨%d4, H4⟩⟩
    iapply (run4_last c (grid4.coords t) (ms4_0 t) (hs4_0 t) (ms4_1 t) (hs4_1 t) (ms4_2 t) (hs4_2 t) (ms4_3 t) (hs4_3 t)
        (ms4_4 t) (hs4_4 t) scM4 (Memref.isWhole_whole _)
        (fun h => h0 ((isFirst4_iff t).mp h)) ((isLast4_iff t).mpr hl) (cnt4 V c t) (feat4 V c t) (bias4 V c t) (fac4 V c t)
        (acc4 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hg HS HR]
    · isplitl [Hg]; · iexact Hg
      isplitl [HS]; · iexact HS
      iexact HR
    isplitl [Ho]; · iexact Ho
    isplitl [H0]; · iexact H0
    isplitl [H1]; · iexact H1
    isplitl [H2]; · iexact H2
    isplitl [H3]; · iexact H3
    iexact H4
  · have hnl : ¬isLast4 (grid4.coords t) := fun h => hl ((isLast4_iff t).mp h)
    rw [Dat.leavesExact_idle (dat4 V c) 4 t (idle4_4 t hnl) (noFlush4_4 t hnl)]
    by_cases h0 : t.val % 8 = 0
    · rw [acc4_first V c t h0]
      rw [Phi4_castSucc V c t]
      refine (sep_mono (Phi4_some V c _ _) .rfl).trans ?_
      iintro ⟨⟨Hg, ⟨%ds, HS⟩, HR⟩, Ho, ⟨%d0, H0⟩, ⟨%d1, H1⟩, ⟨%d2, H2⟩, ⟨%d3, H3⟩, ⟨%d4, H4⟩⟩
      iapply (run4_first c (grid4.coords t) (ms4_0 t) (hs4_0 t) (ms4_1 t) (hs4_1 t) (ms4_2 t) (hs4_2 t) (ms4_3 t) (hs4_3 t)
        (ms4_4 t) (hs4_4 t) scM4 (Memref.isWhole_whole _)
          ((isFirst4_iff t).mpr h0) hnl (cnt4 V c t) (feat4 V c t) (bias4 V c t) (fac4 V c t)
          ((dat4 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists d4; iexact H4
    · have hz : t.val ≠ 0 := by omega
      rw [acc4_later V c t h0]
      rw [Phi4_castSucc V c t, Phi4_pos V c _ _ hz]
      iintro ⟨⟨Hg, HS, HR⟩, Ho, ⟨%d0, H0⟩, ⟨%d1, H1⟩, ⟨%d2, H2⟩, ⟨%d3, H3⟩, ⟨%d4, H4⟩⟩
      iapply (run4_middle c (grid4.coords t) (ms4_0 t) (hs4_0 t) (ms4_1 t) (hs4_1 t) (ms4_2 t) (hs4_2 t) (ms4_3 t) (hs4_3 t)
        (ms4_4 t) (hs4_4 t) scM4 (Memref.isWhole_whole _)
          (fun h => h0 ((isFirst4_iff t).mp h)) hnl (cnt4 V c t) (feat4 V c t) (bias4 V c t) (fac4 V c t)
          ((dat4 V c).before 4 t d4) (acc4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      iexists d4; iexact H4

theorem body_obligation4 (c : Dev nD) : BodyObligation (dat4 (F := F) V c) (defs₀ (F := F)) Variants.none () Set.univ := fun t => by
  rw [bigSep_W4, bigSep_W4]
  exact sound_body4 V c t

theorem phi_in4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 (Nat.zero_le _) from rfl]
  exact Idealize.SL.BI.Entails.refl _

theorem phi_out4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N (Nat.le_refl _) from rfl]
  refine (Phi4_some V c _ _).trans ?_
  rw [scopedRest4_split]
  simp only [scM4, owns_whole]
  try exact Idealize.SL.BI.Entails.refl _

end Cert.KernelIdeal.Hand

end
-- ==== Proof.KI_Bundle.lean ====
import proofs.«101322_g2000704916760673_pallasbulk_724_3_alg».proof.Proof.KI_RunArgs
import proofs.«101322_g2000704916760673_pallasbulk_724_3_alg».proof.Proof.KI_R0
import proofs.«101322_g2000704916760673_pallasbulk_724_3_alg».proof.Proof.KI_R1
import proofs.«101322_g2000704916760673_pallasbulk_724_3_alg».proof.Proof.KI_R2
import proofs.«101322_g2000704916760673_pallasbulk_724_3_alg».proof.Proof.KI_R3
import proofs.«101322_g2000704916760673_pallasbulk_724_3_alg».proof.Proof.KI_R4

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

def regions : Regions F where
  r0 := { dat := dat0, hA := A_eq0, hbody := body_obligation0, hin := phi_in0, hout := phi_out0 }
  r1 := { dat := dat1, hA := A_eq1, hbody := body_obligation1, hin := phi_in1, hout := phi_out1 }
  r2 := { dat := dat2, hA := A_eq2, hbody := body_obligation2, hin := phi_in2, hout := phi_out2 }
  r3 := { dat := dat3, hA := A_eq3, hbody := body_obligation3, hin := phi_in3, hout := phi_out3 }
  r4 := { dat := dat4, hA := A_eq4, hbody := body_obligation4, hin := phi_in4, hout := phi_out4 }

end Cert.KernelIdeal.Hand

end
-- ==== Proof.LibValue.lean ====
import Idealize.ShloMosaic.Lib.ValueLayout
import Idealize.ShloMosaic.Lib.KernelVsHost
import Idealize.ShloMosaic.Lib.StackMember
import Idealize.ShloMosaic.PureOps.Ideal.Laws

noncomputable section

open scoped BigOperators

namespace Cert.LibValue

open Idealize.ShloMosaic Idealize.ShloMosaic.ValueIdx

variable {α : Type}

/-- A rank-2 index is the pair of its coordinates. -/
theorem idx2_eq {m n : ℕ} (y : (⟨2, ![m, n]⟩ : Shape).Idx) (a : Fin m) (b : Fin n) (h0 : (y 0).val = a.val) (h1 : (y 1).val = b.val) :
    y = ix2 a b := (eq_ix2 y).trans (congrArg₂ ix2 (Fin.ext h0) (Fin.ext h1))

/-- A rank-3 index is the triple of its coordinates. -/
theorem idx3_eq {l m n : ℕ} (y : (⟨3, ![l, m, n]⟩ : Shape).Idx) (a : Fin l) (b : Fin m) (c : Fin n)
    (h0 : (y 0).val = a.val) (h1 : (y 1).val = b.val) (h2 : (y 2).val = c.val) : y = ix3 a b c := by
  obtain rfl : y 0 = a := Fin.ext h0
  obtain rfl : y 1 = b := Fin.ext h1
  obtain rfl : y 2 = c := Fin.ext h2
  exact eq_ix3 y

/-- A product into the zero splat is the product with no accumulator, whose plain form sums over the contracted coordinate. -/
theorem matmul_plain_apply {m k n : ℕ} {φ₁ φ₂ : FTy} (A : FVec Ideal ⟨2, ![m, k]⟩ φ₁) (B : FVec Ideal ⟨2, ![k, n]⟩ φ₂)
    (r : Fin m) (h : Fin n) :
    matmul (F := Ideal) (DotDims.plain m k n) none A B (constant (F := Ideal) ⟨2, ![m, n]⟩ .f32 0x00000000#32) (ix2 r h)
      = ∑ c : Fin k, A (ix2 r c) * B (ix2 c h) :=
  (congrFun (matmul_zero_eq_dotGeneral _ none A B) _).trans (StackMember.dotGeneral_plain_apply none A B r h)

/-- Reducing the row axis of a matrix leaves, at column `j`, the sum of that column: the lifted index is `(r, j)`. -/
theorem colSum_apply {m n : ℕ} (x : FVec Ideal ⟨2, ![m, n]⟩ .f32) (h : (⟨2, ![m, n]⟩ : Shape).Reduces [0] ⟨1, ![n]⟩) (j : Fin n) :
    multiReduction (F := Ideal) .add [0] ⟨1, ![n]⟩ x 0x00000000#32 h (.inl rfl) rfl (ix1 j) = ∑ r : Fin m, x (ix2 r j) :=
  (Ideal.multiReduction_add_single x _ h _ _ (ix1 j)).trans
    (Finset.sum_congr rfl fun r _ => congrArg x (funext fun a => Fin.ext (by
      match a with
      | ⟨0, _⟩ => rfl
      | ⟨1, _⟩ => rfl)))

/-- The float zero word, splat, is zero at every entry. -/
theorem zeroSplat_apply (s : Shape) (j : s.Idx) :
    broadcast (α := Ideal .f32) s (Scalar.ofBits (F := Ideal) .f32 0x00000000#32) j = 0 :=
  Ideal.ofBits_zero_f32

/-- One column spread over `b` columns reads, at `(p, c)`, the column's entry in row `p`: only the unit axis is collapsed. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two rows stacked and given a leading unit axis: entry `(0, 0, j)` is the first row's and `(0, 1, j)` the second's. -/
theorem stack2_apply {n : ℕ} (u v : (⟨1, ![n]⟩ : Shape).Idx → α)
    (h1 : (⟨1, ![n]⟩ : Shape).ShapeCasts ⟨2, ![1, n]⟩) (hc : Shape.Concatenates [⟨2, ![1, n]⟩, ⟨2, ![1, n]⟩] ⟨2, ![2, n]⟩ 0)
    (h3 : (⟨2, ![2, n]⟩ : Shape).ShapeCasts ⟨3, ![1, 2, n]⟩) (s : Fin 2) (j : Fin n) :
    shapeCast ⟨3, ![1, 2, n]⟩ (concatenate ⟨2, ![2, n]⟩ 0
        [⟨⟨2, ![1, n]⟩, shapeCast ⟨2, ![1, n]⟩ u h1⟩, ⟨⟨2, ![1, n]⟩, shapeCast ⟨2, ![1, n]⟩ v h1⟩] hc) h3 (ix3 (0 : Fin 1) s j)
      = if s.val = 0 then u (ix1 j) else v (ix1 j) := by
  refine (shapeCast_ab_1ab_apply _ h3 0 s j).trans ?_
  match s with
  | ⟨0, _⟩ =>
    refine (concatenate_pair_apply_left (t := ⟨2, ![2, n]⟩) (0 : Fin 2) _ _ hc (ix2 (0 : Fin 2) j) rfl (ix2 (0 : Fin 1) j) ?_).trans
      (shapeCast_a_1a_apply u h1 0 j)
    intro b; match b with
    | ⟨0, _⟩ => rfl
    | ⟨1, _⟩ => rfl
  | ⟨1, _⟩ =>
    refine (concatenate_pair_apply_right (t := ⟨2, ![2, n]⟩) (0 : Fin 2) _ _ hc (ix2 (1 : Fin 2) j) rfl rfl (ix2 (0 : Fin 1) j) ?_ rfl).trans
      (shapeCast_a_1a_apply v h1 0 j)
    intro b hb; match b, hb with
    | ⟨0, _⟩, hb => exact absurd rfl hb
    | ⟨1, _⟩, _ => rfl

end Cert.LibValue

end
-- ==== Proof.KI_V0.lean ====
import proofs.«101322_g2000704916760673_pallasbulk_724_3_alg».proof.Proof.KI_R0
import proofs.«101322_g2000704916760673_pallasbulk_724_3_alg».proof.Proof.Spec
import proofs.«101322_g2000704916760673_pallasbulk_724_3_alg».proof.Proof.LibValue
import Idealize.ShloMosaic.Lib.Pipeline.Value

noncomputable section

open scoped BigOperators

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal.Gen Cert.KernelIdeal.Hand Cert.LibValue

/-- The two stored rows are the column sums of the block and of its squares. -/
theorem moments_apply (x : Vec Ideal S256x512 .f32) (s : Fin 2) (k : Fin 512) :
    k0_pay1 (F := Ideal) x (ix3 (0 : Fin 1) s k)
      = if s.val = 0 then ∑ r : Fin 256, x (ix2 r k) else ∑ r : Fin 256, x (ix2 r k) * x (ix2 r k) := by
  unfold k0_pay1
  refine (stack2_apply _ _ shapeCasts_S512_S1x512 concatenates_S1x512_S1x512_S2x512_d0 shapeCasts_S2x512_S1x2x512 s k).trans ?_
  rw [colSum_apply _ reduces_S256x512_S512 k, colSum_apply _ reduces_S256x512_S512 k,
    shapeCast_self x shapeCasts_S256x512_S256x512]
  rfl

/-- The tile moments of `X`: at `(t, 0, k)` the sum of column `k` over tile `t`, at `(t, 1, k)` the sum of its squares. -/
def momentsArr (X : Spec.Arr2 8192 512) : S32x2x512.Idx → Elt Ideal .f32 := fun j =>
  if (j 1).val = 0 then Spec.tileSum256 X (j 0) (j 2) else Spec.tileSumSq256 X (j 0) (j 2)

section Run

variable (V : (c : Dev nD) → (b : Ref sig .tc) → Buf (Elt Ideal) ((c : Thread nD τ).loc b))

theorem zeros2 : (![0, 0] : Fin 2 → Nat) = fun _ => 0 := funext fun a => by
  match a with
  | ⟨0, _⟩ => rfl
  | ⟨1, _⟩ => rfl
theorem zeros3 : (![0, 0, 0] : Fin 3 → Nat) = fun _ => 0 := funext fun a => by
  match a with
  | ⟨0, _⟩ => rfl
  | ⟨1, _⟩ => rfl
  | ⟨2, _⟩ => rfl

theorem blockIdx0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

abbrev tileOf (t : Fin cfg0.N) : Fin 32 := ⟨t.val, lt_of_lt_of_eq t.isLt N_0⟩

/-- Tile `t`'s block is computed from rows `256·t … 256·t + 255`, so it is block `t` of the tile moments. -/
theorem flushed0_1_eq (c : Dev nD) (t : Fin cfg0.N) :
    (dat0 V c).flushed 1 t = ((cfg0.win 1).blk t).view.read (Elt Ideal) (momentsArr (V c main_v34)) := by
  obtain ⟨e0, e1, e2, e3, e4⟩ := blockIdx0 t
  show (cfg0.win 1).cut (grid0.coords t) ((dat0 V c).after 1 t) = _
  rw [after0_1]
  unfold out0_1
  rw [View.canon_unit_zero zeros3]
  simp only [View.ld_unit_zero (S := S256x512) zeros2]
  funext y
  obtain ⟨u, s, k, rfl⟩ : ∃ (u : Fin 1) (s : Fin 2) (k : Fin 512), y = ix3 u s k := ⟨y 0, y 1, y 2, eq_ix3 y⟩
  obtain rfl : u = 0 := Subsingleton.elim _ _
  have hemb : ((cfg0.win 1).blk t).view.emb (ix3 (0 : Fin 1) s k) = (ix3 (tileOf t) s k : S32x2x512.Idx) :=
    funext fun a => Fin.ext (by
      match a with
      | ⟨0, _⟩ => show win0_1.index t (0 : Fin 3) * 1 + 1 * 0 = t.val; omega
      | ⟨1, _⟩ => show win0_1.index t (1 : Fin 3) * 2 + 1 * s.val = s.val; omega
      | ⟨2, _⟩ => show win0_1.index t (2 : Fin 3) * 512 + 1 * k.val = k.val; omega)
  have hx : ∀ r : Fin 256, iblk0 V c 0 t (ix2 r k)
      = (V c main_v34 : Spec.Arr2 8192 512) (ix2 (⟨256 * (tileOf t).val + r.val, by omega⟩ : Fin 8192) k) := fun r =>
    congrArg (V c main_v34) (Shape.idx_ext₂
      (by show win0_0.index t (0 : Fin 2) * 256 + 1 * r.val = 256 * t.val + r.val; omega)
      (by show win0_0.index t (1 : Fin 2) * 512 + 1 * k.val = k.val; omega))
  show k0_pay1 (F := Ideal) (iblk0 V c 0 t) (ix3 (0 : Fin 1) s k)
    = momentsArr (V c main_v34) (((cfg0.win 1).blk t).view.emb (ix3 (0 : Fin 1) s k))
  rw [hemb, moments_apply]
  unfold momentsArr Spec.tileSum256 Spec.tileSumSq256
  exact congrArg₂ (fun a b : EReal => if s.val = 0 then a else b) (Finset.sum_congr rfl fun r _ => hx r)
    (Finset.sum_congr rfl fun r _ => by rw [hx r])

/-- Entry `(t, s, k)` of the moments array lies in tile `t`'s block. -/
theorem covered0_1 (i : S32x2x512.Idx) :
    ∃ t : Fin cfg0.N, (cfg0.win 1).flush t = true ∧ i ∈ ((cfg0.win 1).blk t).view.set := by
  have h0 : (i 0).val < 32 := (i 0).isLt
  have h1 : (i 1).val < 2 := (i 1).isLt
  have h2 : (i 2).val < 512 := (i 2).isLt
  let t : Fin cfg0.N := ⟨(i 0).val, lt_of_lt_of_eq h0 N_0.symm⟩
  obtain ⟨-, -, e2, e3, e4⟩ := blockIdx0 t
  have e2' : win0_1.index t (0 : Fin 3) = (i 0).val := e2
  refine ⟨t, flush0_1 t, ?_⟩
  show i ∈ ((View.whole main_v45).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 2 ≤ (i 1).val ∧ (i 1).val < win0_1.index t (1 : Fin 3) * 2 + 2; omega
  | ⟨2, _⟩ => show win0_1.index t (2 : Fin 3) * 512 ≤ (i 2).val ∧ (i 2).val < win0_1.index t (2 : Fin 3) * 512 + 512; omega

theorem arrAt0_1_eq (c : Dev nD) : (dat0 V c).arrAt 1 cfg0.N = momentsArr (V c main_v34) :=
  (dat0 V c).arrAt_eq_of_cover 1 (momentsArr (V c main_v34)) (fun t _ => flushed0_1_eq V c t) covered0_1

theorem arrAt0_1_sum (c : Dev nD) (t : Fin 32) (k : Fin 512) :
    (dat0 (F := Ideal) V c).arrAt 1 cfg0.N (ix3 t (0 : Fin 2) k) = Spec.tileSum256 (V c main_v34) t k := by
  rw [arrAt0_1_eq]; rfl

theorem arrAt0_1_sumSq (c : Dev nD) (t : Fin 32) (k : Fin 512) :
    (dat0 (F := Ideal) V c).arrAt 1 cfg0.N (ix3 t (1 : Fin 2) k) = Spec.tileSumSq256 (V c main_v34) t k := by
  rw [arrAt0_1_eq]; rfl

end Run

end Cert.KernelIdeal.HandV

end
-- ==== Proof.KI_V1.lean ====
import proofs.«101322_g2000704916760673_pallasbulk_724_3_alg».proof.Proof.KI_R1
import proofs.«101322_g2000704916760673_pallasbulk_724_3_alg».proof.Proof.Spec
import proofs.«101322_g2000704916760673_pallasbulk_724_3_alg».proof.Proof.LibValue
import Idealize.ShloMosaic.Lib.Pipeline.Value

noncomputable section

namespace Cert.KernelIdeal.HandV

open Cert.KernelIdeal.Gen Cert.KernelIdeal.Hand Cert.LibValue
open Idealize.ShloMosaic Idealize.ShloMosaic.TcCoe Idealize.ShloMosaic.ValueIdx Idealize.SL.Sem
open Idealize.ShloMosaic.Pipeline (Dat)
open scoped BigOperators

/-- A change of float format is the identity, and the product into the zero accumulator is the sum over the contracted axis. -/
theorem pay_K1_apply (x0 : Vec Ideal S256x512 .f32) (x1 x2 : Vec Ideal S1x512 .f32) (x3 : Vec Ideal S256x128 .f32)
    (x4 : Vec Ideal S512x384 .bf16) (p : Fin 256) (q : Fin 384) :
    k1_pay1 x0 x1 x2 x3 x4 (ix2 p q)
      = ∑ k : Fin 512, ((x0 (ix2 p k) * x1 (ix2 0 k) + x2 (ix2 0 k)) * x3 (ix2 p 0)) * x4 (ix2 k q) := by
  unfold k1_pay1
  rw [truncf_apply]
  refine (matmul_plain_apply _ _ p q).trans (Finset.sum_congr rfl fun k _ => ?_)
  rw [truncf_apply, mulf_apply, addf_apply, mulf_apply, broadcastTo_1b_ab_apply, broadcastTo_1b_ab_apply, broadcastTo_a1_ab_apply,
    slice2_axis1_apply 0 _ slices_S256x128_o0_0_S256x1 p (0 : Fin 1) (0 : Fin 128) rfl]
  simp only [Idealize.ShloMosaic.shapeCast_self, extf_apply]

variable (V : (c : Dev nD) → (b : Ref sig .tc) → Buf (Elt Ideal) ((c : Thread nD τ).loc b))

theorem origin_K1 : (![0, 0] : Fin 2 → Nat) = fun _ => 0 := funext fun a => by fin_cases a <;> rfl

abbrev inX_K1 (c : Dev nD) : Spec.Arr2 8192 512 := V c main_v34
abbrev inS_K1 (c : Dev nD) : Spec.Arr2 1 512 := V c main_v65
abbrev inT_K1 (c : Dev nD) : Spec.Arr2 1 512 := V c main_v67
abbrev inD_K1 (c : Dev nD) : Spec.Arr2 8192 128 := V c main_v17
abbrev inW_K1 (c : Dev nD) : Spec.Arr2 512 384 := V c main_v38

/-- The output array as one function of the five input arrays. -/
def G1 (c : Dev nD) : S8192x384.Idx → EReal := fun j =>
  Spec.affineScaled (inX_K1 V c) (inS_K1 V c) (inT_K1 V c) (inD_K1 V c) (inW_K1 V c) (j 0) (j 1)

theorem idx_K1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = win1_5.index t (0 : Fin 2) ∧ win1_3.index t (1 : Fin 2) = 0
    ∧ win1_4.index t (0 : Fin 2) = 0 ∧ win1_4.index t (1 : Fin 2) = 0
    ∧ win1_5.index t (0 : Fin 2) ≤ 31 ∧ win1_5.index t (1 : Fin 2) = 0 :=
  (by decide +kernel : ∀ t : Fin grid1.N, _)

theorem onto_K1 : ∀ q0 : Fin 32, ∃ t : Fin cfg1.N, win1_5.index t = ![q0.val, 0] :=
  (by decide +kernel : ∀ q0 : Fin 32, ∃ t : Fin grid1.N, win1_5.index t = ![q0.val, 0])

/-- Point `t`'s block is computed from the same rows of the features and row factors and from the whole scale, shift and weights: it is its block of `G1`. -/
theorem flushed_K1 (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero origin_K1]
  simp only [View.ld_unit_zero (S := S256x512) origin_K1, View.ld_unit_zero (S := S1x512) origin_K1,
    View.ld_unit_zero (S := S256x128) origin_K1, View.ld_unit_zero (S := S512x384) origin_K1]
  obtain ⟨e00, e01, e10, e11, e20, e21, e30, e31, e40, e41, e50, e51⟩ := idx_K1 t
  funext j
  obtain ⟨p, q, rfl⟩ : ∃ (p : Fin 256) (q : Fin 384), j = ix2 p q := ⟨j 0, j 1, eq_ix2 j⟩
  have hp := p.isLt
  have hr : win1_5.index t (0 : Fin 2) * 256 + p.val < 8192 := by omega
  show k1_pay1 (iblk1 V c 0 t) (iblk1 V c 1 t) (iblk1 V c 2 t) (iblk1 V c 3 t) (iblk1 V c 4 t) (ix2 p q)
      = G1 V c (((cfg1.win 5).blk t).view.emb (ix2 p q))
  rw [pay_K1_apply, show ((cfg1.win 5).blk t).view.emb (ix2 p q) = (ix2 (⟨_, hr⟩ : Fin 8192) q : S8192x384.Idx) from
    idx2_eq _ _ _ (by show win1_5.index t (0 : Fin 2) * 256 + 1 * p.val = win1_5.index t (0 : Fin 2) * 256 + p.val; omega)
      (by show win1_5.index t (1 : Fin 2) * 384 + 1 * q.val = q.val; omega)]
  show _ = ∑ k : Fin 512, ((inX_K1 V c (ix2 ⟨_, hr⟩ k) * inS_K1 V c (ix2 0 k)
      + inT_K1 V c (ix2 0 k)) * inD_K1 V c (ix2 ⟨_, hr⟩ 0)) * inW_K1 V c (ix2 k q)
  refine Finset.sum_congr rfl fun k _ => ?_
  have b0 : iblk1 V c 0 t (ix2 p k) = inX_K1 V c (ix2 ⟨_, hr⟩ k) :=
    congrArg (inX_K1 V c) (idx2_eq _ _ _ (by show win1_0.index t (0 : Fin 2) * 256 + 1 * p.val = win1_5.index t (0 : Fin 2) * 256 + p.val; omega)
      (by show win1_0.index t (1 : Fin 2) * 512 + 1 * k.val = k.val; omega))
  have b1 : iblk1 V c 1 t (ix2 0 k) = inS_K1 V c (ix2 0 k) :=
    congrArg (inS_K1 V c) (idx2_eq _ _ _ (by show win1_1.index t (0 : Fin 2) * 1 + 1 * 0 = 0; omega)
      (by show win1_1.index t (1 : Fin 2) * 512 + 1 * k.val = k.val; omega))
  have b2 : iblk1 V c 2 t (ix2 0 k) = inT_K1 V c (ix2 0 k) :=
    congrArg (inT_K1 V c) (idx2_eq _ _ _ (by show win1_2.index t (0 : Fin 2) * 1 + 1 * 0 = 0; omega)
      (by show win1_2.index t (1 : Fin 2) * 512 + 1 * k.val = k.val; omega))
  have b3 : iblk1 V c 3 t (ix2 p 0) = inD_K1 V c (ix2 ⟨_, hr⟩ 0) :=
    congrArg (inD_K1 V c) (idx2_eq _ _ _ (by show win1_3.index t (0 : Fin 2) * 256 + 1 * p.val = win1_5.index t (0 : Fin 2) * 256 + p.val; omega)
      (by show win1_3.index t (1 : Fin 2) * 128 + 1 * 0 = 0; omega))
  have b4 : iblk1 V c 4 t (ix2 k q) = inW_K1 V c (ix2 k q) :=
    congrArg (inW_K1 V c) (idx2_eq _ _ _ (by show win1_4.index t (0 : Fin 2) * 512 + 1 * k.val = k.val; omega)
      (by show win1_4.index t (1 : Fin 2) * 384 + 1 * q.val = q.val; omega))
  rw [b0, b1, b2, b3, b4]

/-- Row `r` belongs to the block of the point whose row block is `r / 256`. -/
theorem cover_K1 (i : S8192x384.Idx) :
    ∃ t : Fin cfg1.N, (cfg1.win 5).flush t = true ∧ i ∈ ((cfg1.win 5).blk t).view.set := by
  have hi0 : (i 0).val < 8192 := (i 0).isLt
  have hi1 : (i 1).val < 384 := (i 1).isLt
  obtain ⟨t, ht⟩ := onto_K1 ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  show i ∈ ((View.whole main_v68).slice (win1_5.rect t)).set
  rw [View.set_slice_whole, Rect.mem_set_unit]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 384 ≤ (i 1).val ∧ (i 1).val < win1_5.index t (1 : Fin 2) * 384 + 384
    omega

theorem value1 (c : Dev nD) (i : Fin 8192) (h : Fin 384) :
    (dat1 (F := Ideal) V c).arrAt 5 cfg1.N (ix2 i h)
      = Spec.affineScaled (V c main_v34) (V c main_v65) (V c main_v67) (V c main_v17) (V c main_v38) i h := by
  rw [(dat1 (F := Ideal) V c).arrAt_eq_of_cover 5 (G1 V c) (fun t _ => flushed_K1 V c t) cover_K1]
  rfl

end Cert.KernelIdeal.HandV

end
-- ==== Proof.KI_V2_Pay.lean ====
import proofs.«101322_g2000704916760673_pallasbulk_724_3_alg».proof.Proof.Gen.KernelIdeal.Skeleton
import proofs.«101322_g2000704916760673_pallasbulk_724_3_alg».proof.Proof.LibValue
import Idealize.ShloMosaic.Lib.Pipeline.Value

noncomputable section

open scoped BigOperators

namespace Cert.KernelIdeal.HandV

open Cert.KernelIdeal.Gen Idealize.ShloMosaic Idealize.ShloMosaic.ValueIdx Cert.LibValue

theorem k2_pay1_apply (j : S512x384.Idx) : k2_pay1 (F := Ideal) j = 0 := by
  unfold k2_pay1
  exact (congrFun (shapeCast_self _ shapeCasts_S512x384_S512x384) j).trans (zeroSplat_apply S512x384 j)

/-- The accumulator after a block: what it held plus the block product, a change of float format being the identity. -/
theorem k2_pay2_apply (v10 : Vec Ideal S512x1024 .f32) (v13 : Vec Ideal S512x384 .f32) (v15 : Vec Ideal S1024x384 .bf16)
    (r : Fin 512) (h : Fin 384) :
    k2_pay2 v10 v13 v15 (ix2 r h) = v13 (ix2 r h) + ∑ j : Fin 1024, v10 (ix2 r j) * v15 (ix2 j h) := by
  unfold k2_pay2
  refine (congrFun (shapeCast_self _ shapeCasts_S512x384_S512x384) (ix2 r h)).trans ?_
  refine (addf_apply _ _ (ix2 r h)).trans (congrArg₂ (· + ·) rfl ?_)
  refine (matmul_plain_apply _ _ r h).trans (Finset.sum_congr rfl fun c _ => congrArg₂ (· * ·) ?_ ?_)
  · exact (truncf_apply _ bitsLt_bf16_f32 (ix2 r c)).trans
      (congrFun (shapeCast_self v10 shapeCasts_S512x1024_S512x1024) (ix2 r c))
  · exact congrFun (shapeCast_self v15 shapeCasts_S1024x384_S1024x384) (ix2 c h)

/-- Row `512·a + r` is below 8192 for every tile `a < 16` and row `r < 512`, as a comparison of 32-bit words. -/
theorem k2_rowBelow8192 : ∀ (a : Fin 16) (r : Fin 512),
    IntOp.cmpi .slt (IntOp.addi (BitVec.ofNat 32 (0 * 512 + r.val)) (IntOp.muli (BitVec.ofNat 32 a.val) 512#32)) 8192#32 = 1#1 := by
  decide +kernel

/-- The row test holds, so the selected value is the clamped one; each spread operand is read at its own entry. -/
theorem k2_pay3_apply (i : grid2.Coords) (v26 : Vec Ideal S512x384 .bf16) (v29 : Vec Ideal S512x384 .f32)
    (v31 : Vec Ideal S512x128 .f32) (v36 : Vec Ideal S1x384 .f32) (r : Fin 512) (h : Fin 384) :
    k2_pay3 i v26 v29 v31 v36 (ix2 r h)
      = max ((v29 (ix2 r h) + v26 (ix2 r h)) * v31 (ix2 r (0 : Fin 128)) + v36 (ix2 (0 : Fin 1) h)) 0 := by
  unfold k2_pay3
  refine (select_apply _ _ _ (ix2 r h)).trans ?_
  refine (congrArg (fun c => Scalar.select c _ _) (k2_rowBelow8192 (i 0) r)).trans ((select_one _ _).trans ?_)
  refine (maximumf_apply _ _ (ix2 r h)).trans (congrArg₂ max ?_ (zeroSplat_apply S512x384 (ix2 r h)))
  refine (addf_apply _ _ (ix2 r h)).trans (congrArg₂ (· + ·) ?_ ?_)
  · refine (mulf_apply _ _ (ix2 r h)).trans (congrArg₂ (· * ·) ?_ ?_)
    · exact (addf_apply _ _ (ix2 r h)).trans (congrArg₂ (· + ·) rfl ((extf_apply _ bitsLt_bf16_f32 (ix2 r h)).trans
        (congrFun (shapeCast_self v26 shapeCasts_S512x384_S512x384) (ix2 r h))))
    · exact (broadcastTo_a1_ab_apply _ broadcasts_S512x1_S512x384 r h).trans
        ((slice2_axis1_apply 0 _ slices_S512x128_o0_0_S512x1 r (0 : Fin 1) (0 : Fin 128) rfl).trans
          (congrFun (shapeCast_self v31 shapeCasts_S512x128_S512x128) (ix2 r (0 : Fin 128))))
  · exact (broadcastTo_1b_ab_apply _ broadcasts_S1x384_S512x384 r h).trans
      (congrFun (shapeCast_self v36 shapeCasts_S1x384_S1x384) (ix2 (0 : Fin 1) h))

theorem k2_pay4_apply (i : grid2.Coords) (v26 : Vec Ideal S512x384 .bf16) (v29 : Vec Ideal S512x384 .f32)
    (v31 : Vec Ideal S512x128 .f32) (v36 : Vec Ideal S1x384 .f32) (r : Fin 512) (h : Fin 384) :
    k2_pay4 i v26 v29 v31 v36 (ix2 r h) = k2_pay3 i v26 v29 v31 v36 (ix2 r h) := by
  unfold k2_pay4
  exact truncf_apply _ bitsLt_bf16_f32 (ix2 r h)

/-- Row 0 holds the column sums of the result and row 1 the column sums of its squares. -/
theorem k2_pay5_apply (i : grid2.Coords) (v26 : Vec Ideal S512x384 .bf16) (v29 : Vec Ideal S512x384 .f32)
    (v31 : Vec Ideal S512x128 .f32) (v36 : Vec Ideal S1x384 .f32) (s : Fin 2) (h : Fin 384) :
    k2_pay5 i v26 v29 v31 v36 (ix3 (0 : Fin 1) s h)
      = if s.val = 0 then ∑ r : Fin 512, k2_pay3 i v26 v29 v31 v36 (ix2 r h)
        else ∑ r : Fin 512, k2_pay3 i v26 v29 v31 v36 (ix2 r h) * k2_pay3 i v26 v29 v31 v36 (ix2 r h) := by
  unfold k2_pay5
  refine (stack2_apply _ _ shapeCasts_S384_S1x384 concatenates_S1x384_S1x384_S2x384_d0 shapeCasts_S2x384_S1x2x384 s h).trans ?_
  rw [colSum_apply _ reduces_S512x384_S384 h, colSum_apply _ reduces_S512x384_S384 h]
  rfl

end Cert.KernelIdeal.HandV

end
-- ==== Proof.KI_V2_Idx.lean ====
import proofs.«101322_g2000704916760673_pallasbulk_724_3_alg».proof.Proof.Gen.KernelIdeal.Points
import proofs.«101322_g2000704916760673_pallasbulk_724_3_alg».proof.Proof.LibValue
import Idealize.ShloMosaic.Lib.Pipeline.Value
import Idealize.ShloMosaic.Lib.ValueIdx

noncomputable section

namespace Cert.KernelIdeal.HandV

open Idealize.ShloMosaic Idealize.ShloMosaic.TcCoe Idealize.ShloMosaic.ValueIdx
open Idealize.SL Idealize.SL.Sem
open Cert.KernelIdeal.Gen Cert.LibValue

theorem gridN2 : cfg2.N = 128 := by decide

theorem coords2_0 : ∀ t : Fin cfg2.N, ((grid2.coords t) 0).val = t.val / 8 :=
  (by decide +kernel : ∀ t : Fin grid2.N, ((grid2.coords t) 0).val = t.val / 8)

theorem coords2_1 : ∀ t : Fin cfg2.N, ((grid2.coords t) 1).val = t.val % 8 :=
  (by decide +kernel : ∀ t : Fin grid2.N, ((grid2.coords t) 1).val = t.val % 8)

theorem blockIdx2_0 : ∀ t : Fin cfg2.N, win2_0.index t (0 : Fin 2) = t.val / 8 ∧ win2_0.index t (1 : Fin 2) = t.val % 8 :=
  (by decide +kernel : ∀ t : Fin grid2.N, _)
theorem blockIdx2_1 : ∀ t : Fin cfg2.N, win2_1.index t (0 : Fin 2) = 0 ∧ win2_1.index t (1 : Fin 2) = 0 :=
  (by decide +kernel : ∀ t : Fin grid2.N, _)
theorem blockIdx2_2 : ∀ t : Fin cfg2.N, win2_2.index t (0 : Fin 2) = 0 ∧ win2_2.index t (1 : Fin 2) = 0 :=
  (by decide +kernel : ∀ t : Fin grid2.N, _)
theorem blockIdx2_3 : ∀ t : Fin cfg2.N, win2_3.index t (0 : Fin 2) = t.val / 8 ∧ win2_3.index t (1 : Fin 2) = 0 :=
  (by decide +kernel : ∀ t : Fin grid2.N, _)
theorem blockIdx2_4 : ∀ t : Fin cfg2.N, win2_4.index t (0 : Fin 2) = t.val / 8 ∧ win2_4.index t (1 : Fin 2) = 0 :=
  (by decide +kernel : ∀ t : Fin grid2.N, _)
theorem blockIdx2_5 : ∀ t : Fin cfg2.N, win2_5.index t (0 : Fin 3) = t.val / 8 ∧ win2_5.index t (1 : Fin 3) = 0
    ∧ win2_5.index t (2 : Fin 3) = 0 :=
  (by decide +kernel : ∀ t : Fin grid2.N, _)

theorem blk2_0_read (c : Dev nD) (X : Buf (Elt Ideal) ((cfg2.win 0).arr.view.loc (c.tc : Thread nD τ))) (t : Fin cfg2.N) (r : Fin 512) (j : Fin 1024) (h0 : 512 * (t.val / 8) + r.val < 8192) (h1 : 1024 * (t.val % 8) + j.val < 8192) :
    ((cfg2.win 0).blk t).view.read (Elt Ideal) X (ix2 r j) = X (ix2 (⟨512 * (t.val / 8) + r.val, h0⟩ : Fin 8192) (⟨1024 * (t.val % 8) + j.val, h1⟩ : Fin 8192)) := by
  obtain ⟨e0, e1⟩ := blockIdx2_0 t
  show X (((cfg2.win 0).blk t).view.emb (ix2 r j)) = _
  exact congrArg X (idx2_eq _ _ _ (by show win2_0.index t (0 : Fin 2) * 512 + 1 * r.val = 512 * (t.val / 8) + r.val; omega) (by show win2_0.index t (1 : Fin 2) * 1024 + 1 * j.val = 1024 * (t.val % 8) + j.val; omega))

theorem blk2_1_read (c : Dev nD) (X : Buf (Elt Ideal) ((cfg2.win 1).arr.view.loc (c.tc : Thread nD τ))) (t : Fin cfg2.N) (r : Fin 8192) (j : Fin 384) :
    ((cfg2.win 1).blk t).view.read (Elt Ideal) X (ix2 r j) = X (ix2 r j) := by
  obtain ⟨e0, e1⟩ := blockIdx2_1 t
  show X (((cfg2.win 1).blk t).view.emb (ix2 r j)) = _
  exact congrArg X (idx2_eq _ _ _ (by show win2_1.index t (0 : Fin 2) * 8192 + 1 * r.val = r.val; omega) (by show win2_1.index t (1 : Fin 2) * 384 + 1 * j.val = j.val; omega))

theorem blk2_2_read (c : Dev nD) (X : Buf (Elt Ideal) ((cfg2.win 2).arr.view.loc (c.tc : Thread nD τ))) (t : Fin cfg2.N) (j : Fin 384) :
    ((cfg2.win 2).blk t).view.read (Elt Ideal) X (ix2 (0 : Fin 1) j) = X (ix2 (0 : Fin 1) j) := by
  obtain ⟨e0, e1⟩ := blockIdx2_2 t
  show X (((cfg2.win 2).blk t).view.emb (ix2 (0 : Fin 1) j)) = _
  exact congrArg X (idx2_eq _ _ _ (by show win2_2.index t (0 : Fin 2) * 1 + 1 * 0 = 0; omega) (by show win2_2.index t (1 : Fin 2) * 384 + 1 * j.val = j.val; omega))

theorem blk2_3_read (c : Dev nD) (X : Buf (Elt Ideal) ((cfg2.win 3).arr.view.loc (c.tc : Thread nD τ))) (t : Fin cfg2.N) (r : Fin 512) (j : Fin 128) (h0 : 512 * (t.val / 8) + r.val < 8192) :
    ((cfg2.win 3).blk t).view.read (Elt Ideal) X (ix2 r j) = X (ix2 (⟨512 * (t.val / 8) + r.val, h0⟩ : Fin 8192) j) := by
  obtain ⟨e0, e1⟩ := blockIdx2_3 t
  show X (((cfg2.win 3).blk t).view.emb (ix2 r j)) = _
  exact congrArg X (idx2_eq _ _ _ (by show win2_3.index t (0 : Fin 2) * 512 + 1 * r.val = 512 * (t.val / 8) + r.val; omega) (by show win2_3.index t (1 : Fin 2) * 128 + 1 * j.val = j.val; omega))

theorem blk2_4_read (c : Dev nD) (X : Buf (Elt Ideal) ((cfg2.win 4).arr.view.loc (c.tc : Thread nD τ))) (t : Fin cfg2.N) (r : Fin 512) (j : Fin 384) (h0 : 512 * (t.val / 8) + r.val < 8192) :
    ((cfg2.win 4).blk t).view.read (Elt Ideal) X (ix2 r j) = X (ix2 (⟨512 * (t.val / 8) + r.val, h0⟩ : Fin 8192) j) := by
  obtain ⟨e0, e1⟩ := blockIdx2_4 t
  show X (((cfg2.win 4).blk t).view.emb (ix2 r j)) = _
  exact congrArg X (idx2_eq _ _ _ (by show win2_4.index t (0 : Fin 2) * 512 + 1 * r.val = 512 * (t.val / 8) + r.val; omega) (by show win2_4.index t (1 : Fin 2) * 384 + 1 * j.val = j.val; omega))

theorem blk2_5_read (c : Dev nD) (X : Buf (Elt Ideal) ((cfg2.win 5).arr.view.loc (c.tc : Thread nD τ))) (t : Fin cfg2.N) (s : Fin 2) (j : Fin 384) (h0 : t.val / 8 < 16) :
    ((cfg2.win 5).blk t).view.read (Elt Ideal) X (ix3 (0 : Fin 1) s j) = X (ix3 (⟨t.val / 8, h0⟩ : Fin 16) s j) := by
  obtain ⟨e0, e1, e2⟩ := blockIdx2_5 t
  show X (((cfg2.win 5).blk t).view.emb (ix3 (0 : Fin 1) s j)) = _
  exact congrArg X (idx3_eq _ _ _ _ (by show win2_5.index t (0 : Fin 3) * 1 + 1 * 0 = t.val / 8; omega) (by show win2_5.index t (1 : Fin 3) * 2 + 1 * s.val = s.val; omega) (by show win2_5.index t (2 : Fin 3) * 384 + 1 * j.val = j.val; omega))

theorem cover2_4 (c : Dev nD) : ∀ i : ((cfg2.win 4).arr.view.loc (c.tc : Thread nD τ)).2.ty.Idx,
    ∃ t : Fin cfg2.N, (cfg2.win 4).flush t = true ∧ i ∈ ((cfg2.win 4).blk t).view.set := by
  intro i
  have h0 : (i 0).val < 8192 := (i 0).isLt
  have h1 : (i 1).val < 384 := (i 1).isLt
  let t : Fin cfg2.N := ⟨8 * ((i 0).val / 512) + 7, lt_of_lt_of_eq (by omega : 8 * ((i 0).val / 512) + 7 < 128) gridN2.symm⟩
  have ht : t.val = 8 * ((i 0).val / 512) + 7 := rfl
  obtain ⟨e0, e1⟩ := blockIdx2_4 t
  refine ⟨t, (flush2_4 t).mpr (by omega), ?_⟩
  show i ∈ ((View.whole main_v69_0).slice (win2_4.rect t)).set
  rw [View.set_slice_whole, Rect.mem_set_unit]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 384 ≤ (i 1).val ∧ (i 1).val < win2_4.index t (1 : Fin 2) * 384 + 384; omega

theorem cover2_5 (c : Dev nD) : ∀ i : ((cfg2.win 5).arr.view.loc (c.tc : Thread nD τ)).2.ty.Idx,
    ∃ t : Fin cfg2.N, (cfg2.win 5).flush t = true ∧ i ∈ ((cfg2.win 5).blk t).view.set := by
  intro i
  have h0 : (i 0).val < 16 := (i 0).isLt
  have h1 : (i 1).val < 2 := (i 1).isLt
  have h2 : (i 2).val < 384 := (i 2).isLt
  let t : Fin cfg2.N := ⟨8 * (i 0).val + 7, lt_of_lt_of_eq (by omega : 8 * (i 0).val + 7 < 128) gridN2.symm⟩
  have ht : t.val = 8 * (i 0).val + 7 := rfl
  obtain ⟨e0, e1, e2⟩ := blockIdx2_5 t
  refine ⟨t, (flush2_5 t).mpr (by omega), ?_⟩
  show i ∈ ((View.whole main_v69_1).slice (win2_5.rect t)).set
  rw [View.set_slice_whole, Rect.mem_set_unit]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 2 ≤ (i 1).val ∧ (i 1).val < win2_5.index t (1 : Fin 3) * 2 + 2; omega
  | ⟨2, _⟩ => show win2_5.index t (2 : Fin 3) * 384 ≤ (i 2).val ∧ (i 2).val < win2_5.index t (2 : Fin 3) * 384 + 384; omega

theorem ld2_off1 (i : grid2.Coords) (X : Vec Ideal S8192x384 .bf16)
    (inb : ∀ a, (k2_off1 i) a + S1024x384.size a ≤ S8192x384.size a) (jj : Fin 1024) (hh : Fin 384)
    (h : 1024 * (i 1).val + jj.val < 8192) :
    View.ld X (Rect.unit (s := S8192x384) (k2_off1 i) S1024x384.size inb) (ix2 jj hh)
      = X (ix2 (⟨1024 * (i 1).val + jj.val, h⟩ : Fin 8192) hh) := by
  have e0 : k2_off1 i (0 : Fin 2) = 1024 * (i 1).val := congrFun (k2_off1_eq i) 0
  have e1 : k2_off1 i (1 : Fin 2) = 0 := congrFun (k2_off1_eq i) 1
  show X ((Rect.unit (s := S8192x384) (k2_off1 i) S1024x384.size inb).idx (ix2 jj hh)) = _
  exact congrArg X (idx2_eq _ _ _ (by show k2_off1 i (0 : Fin 2) + 1 * jj.val = 1024 * (i 1).val + jj.val; omega) (by show k2_off1 i (1 : Fin 2) + 1 * hh.val = hh.val; omega))

theorem ld2_off2 (i : grid2.Coords) (X : Vec Ideal S8192x384 .bf16)
    (inb : ∀ a, (k2_off2 i) a + S512x384.size a ≤ S8192x384.size a) (r : Fin 512) (hh : Fin 384)
    (h : 512 * (i 0).val + r.val < 8192) :
    View.ld X (Rect.unit (s := S8192x384) (k2_off2 i) S512x384.size inb) (ix2 r hh)
      = X (ix2 (⟨512 * (i 0).val + r.val, h⟩ : Fin 8192) hh) := by
  have e0 : k2_off2 i (0 : Fin 2) = 512 * (i 0).val := congrFun (k2_off2_eq i) 0
  have e1 : k2_off2 i (1 : Fin 2) = 0 := congrFun (k2_off2_eq i) 1
  show X ((Rect.unit (s := S8192x384) (k2_off2 i) S512x384.size inb).idx (ix2 r hh)) = _
  exact congrArg X (idx2_eq _ _ _ (by show k2_off2 i (0 : Fin 2) + 1 * r.val = 512 * (i 0).val + r.val; omega) (by show k2_off2 i (1 : Fin 2) + 1 * hh.val = hh.val; omega))

end Cert.KernelIdeal.HandV

end
-- ==== Proof.KI_V2.lean ====
import proofs.«101322_g2000704916760673_pallasbulk_724_3_alg».proof.Proof.KI_R2
import proofs.«101322_g2000704916760673_pallasbulk_724_3_alg».proof.Proof.KI_V2_Pay
import proofs.«101322_g2000704916760673_pallasbulk_724_3_alg».proof.Proof.KI_V2_Idx
import proofs.«101322_g2000704916760673_pallasbulk_724_3_alg».proof.Proof.Spec
import Idealize.ShloMosaic.Lib.Pipeline.Value
import Idealize.ShloMosaic.Lib.ValueIdx

noncomputable section

open scoped BigOperators

namespace Cert.KernelIdeal.HandV

open Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev cnt2 (c : Dev nD) : Spec.Arr2 8192 8192 := V c main_v33
abbrev feat2 (c : Dev nD) : Spec.Arr2 8192 384 := V c main_v68
abbrev bias2 (c : Dev nD) : Spec.Arr2 1 384 := V c main_v39
abbrev fac2 (c : Dev nD) : Spec.Arr2 8192 128 := V c main_v17

def cntAt2 (c : Dev nD) (x y : ℕ) : EReal := if h : x < 8192 ∧ y < 8192 then cnt2 V c (ix2 ⟨x, h.1⟩ ⟨y, h.2⟩) else 0

def featAt2 (c : Dev nD) (x : ℕ) (hh : Fin 384) : EReal := if h : x < 8192 then feat2 V c (ix2 ⟨x, h⟩ hh) else 0

theorem accNext2_apply (c : Dev nD) (n : ℕ) (h : n < cfg2.N) (s : Vec Ideal S512x384 .f32) (r : Fin 512) (hh : Fin 384) :
    accNext2 V c n h s (ix2 r hh) = s (ix2 r hh)
      + ∑ jj : Fin 1024, cntAt2 V c (512 * (n / 8) + r.val) (1024 * (n % 8) + jj.val) * featAt2 V c (1024 * (n % 8) + jj.val) hh := by
  have hn : n < 128 := lt_of_lt_of_eq h N_2
  unfold accNext2 accStep2
  rw [k2_pay2_apply]
  congr 1
  refine Finset.sum_congr rfl fun jj _ => ?_
  have hb0 : 512 * (n / 8) + r.val < 8192 := by have := r.isLt; omega
  have hb1 : 1024 * (n % 8) + jj.val < 8192 := by have := jj.isLt; omega
  have hc1 : ((grid2.coords ⟨n, h⟩) 1).val = n % 8 := coords2_1 ⟨n, h⟩
  have hb1' : 1024 * ((grid2.coords ⟨n, h⟩) 1).val + jj.val < 8192 := by rw [hc1]; exact hb1
  congr 1
  · unfold cntAt2; rw [dif_pos ⟨hb0, hb1⟩]
    exact blk2_0_read c _ ⟨n, h⟩ r jj hb0 hb1
  · unfold featAt2; rw [dif_pos hb1, ld2_off1 _ _ _ jj hh hb1',
      show (⟨1024 * ((grid2.coords ⟨n, h⟩) 1).val + jj.val, hb1'⟩ : Fin 8192) = ⟨1024 * (n % 8) + jj.val, hb1⟩ from Fin.ext (by dsimp only; omega)]
    exact blk2_1_read c _ ⟨n, h⟩ _ hh

theorem acc2_fold (c : Dev nD) (q : Fin 16) (r : Fin 512) (hh : Fin 384) :
    ∀ (k : ℕ) (_ : k < 8) (h : 8 * q.val + k < cfg2.N),
      acc2 V c (8 * q.val + k) h (ix2 r hh)
        = ∑ s ∈ Finset.range (k + 1), ∑ jj : Fin 1024,
            cntAt2 V c (512 * q.val + r.val) (1024 * s + jj.val) * featAt2 V c (1024 * s + jj.val) hh
  | 0, _, h => by
    rw [acc2_reset V c _ h (by omega), accNext2_apply, Finset.sum_range_one,
      show k2accZero (F := Ideal) (ix2 r hh) = 0 from k2_pay1_apply _, zero_add,
      show (8 * q.val + 0) / 8 = q.val by omega, show (8 * q.val + 0) % 8 = 0 by omega]
  | k + 1, hk, h => by
    rw [show acc2 V c (8 * q.val + (k + 1)) h = accNext2 V c (8 * q.val + (k + 1)) h (acc2 V c (8 * q.val + k) (Nat.lt_of_succ_lt h))
        from acc2_step V c (8 * q.val + k) h (by omega),
      accNext2_apply, acc2_fold c q r hh k (by omega) _, Finset.sum_range_succ _ (k + 1),
      show (8 * q.val + (k + 1)) / 8 = q.val by omega, show (8 * q.val + (k + 1)) % 8 = k + 1 by omega]

theorem acc2_last (c : Dev nD) (n : ℕ) (h : n < cfg2.N) (h7 : n % 8 = 7) (r : Fin 512) (hh : Fin 384)
    (hi : 512 * (n / 8) + r.val < 8192) :
    acc2 V c n h (ix2 r hh) = ∑ j : Fin 8192, cnt2 V c (ix2 ⟨512 * (n / 8) + r.val, hi⟩ j) * feat2 V c (ix2 j hh) := by
  have hn : n < 128 := lt_of_lt_of_eq h N_2
  obtain ⟨q, hq⟩ : ∃ q : Fin 16, n = 8 * q.val + 7 := ⟨⟨n / 8, by omega⟩, by dsimp only; omega⟩
  subst hq
  have hi' : 512 * q.val + r.val < 8192 := by have := r.isLt; have := q.isLt; omega
  rw [show (⟨512 * ((8 * q.val + 7) / 8) + r.val, hi⟩ : Fin 8192) = ⟨512 * q.val + r.val, hi'⟩ from Fin.ext (by dsimp only; omega),
    acc2_fold V c q r hh 7 (by omega) h, Finset.sum_range]
  refine Eq.trans ?_ (Spec.sum_tiles 8 1024 8192 rfl
    (fun j : Fin 8192 => cnt2 V c (ix2 ⟨512 * q.val + r.val, hi'⟩ j) * feat2 V c (ix2 j hh)))
  refine Finset.sum_congr rfl fun s _ => Finset.sum_congr rfl fun jj _ => ?_
  have hb : 1024 * s.val + jj.val < 8192 := by have := s.isLt; have := jj.isLt; omega
  unfold cntAt2 featAt2
  rw [dif_pos ⟨hi', hb⟩, dif_pos hb]

def agg2 (c : Dev nD) : Spec.Arr2 8192 384 :=
  Spec.mk2 (Spec.aggregateSelf (cnt2 V c) (feat2 V c) (bias2 V c) (fac2 V c))

theorem pay3_at2 (c : Dev nD) (t : Fin cfg2.N) (h7 : t.val % 8 = 7) (r : Fin 512) (hh : Fin 384)
    (hi : 512 * (t.val / 8) + r.val < 8192) :
    k2_pay3 (grid2.coords t) (View.ld (iblk2 V c 1 t) (k2rowsOfTile (grid2.coords t))) (acc2 V c t.val t.isLt)
        (iblk2 V c 3 t) (iblk2 V c 2 t) (ix2 r hh)
      = agg2 V c (ix2 ⟨512 * (t.val / 8) + r.val, hi⟩ hh) := by
  have hc0 : ((grid2.coords t) 0).val = t.val / 8 := coords2_0 t
  have hi0 : 512 * ((grid2.coords t) 0).val + r.val < 8192 := by rw [hc0]; exact hi
  have hA := acc2_last V c t.val t.isLt h7 r hh hi
  have hG : View.ld (iblk2 V c 1 t) (k2rowsOfTile (grid2.coords t)) (ix2 r hh)
      = feat2 V c (ix2 ⟨512 * (t.val / 8) + r.val, hi⟩ hh) := by
    rw [ld2_off2 _ _ _ r hh hi0,
      show (⟨512 * ((grid2.coords t) 0).val + r.val, hi0⟩ : Fin 8192) = ⟨512 * (t.val / 8) + r.val, hi⟩ from Fin.ext (by dsimp only; omega)]
    exact blk2_1_read c _ t _ hh
  have hD : (iblk2 V c 3 t : Vec Ideal S512x128 .f32) (ix2 r (0 : Fin 128)) = fac2 V c (ix2 ⟨512 * (t.val / 8) + r.val, hi⟩ 0) :=
    blk2_3_read c _ t r 0 hi
  have hB : (iblk2 V c 2 t : Vec Ideal S1x384 .f32) (ix2 (0 : Fin 1) hh) = bias2 V c (ix2 0 hh) :=
    blk2_2_read c _ t hh
  rw [k2_pay3_apply, hA, hG, hD, hB]
  rfl

theorem after2_4_apply (c : Dev nD) (t : Fin cfg2.N) (h7 : t.val % 8 = 7) (r : Fin 512) (hh : Fin 384)
    (hi : 512 * (t.val / 8) + r.val < 8192) :
    ((dat2 V c).after 4 t : Vec Ideal S512x384 .bf16) (ix2 r hh) = agg2 V c (ix2 ⟨512 * (t.val / 8) + r.val, hi⟩ hh) := by
  rw [after2_4]; unfold out2_4
  rw [k2_pay4_apply]
  exact pay3_at2 V c t h7 r hh hi

theorem flushed2_4 (c : Dev nD) (t : Fin cfg2.N) (hf : (cfg2.win 4).flush t = true) :
    (dat2 V c).flushed 4 t = ((cfg2.win 4).blk t).view.read (Elt Ideal) (agg2 V c) := by
  have h7 : t.val % 8 = 7 := (flush2_4 t).mp hf
  have hn : t.val < 128 := lt_of_lt_of_eq t.isLt N_2
  show ((cfg2.win 4).cut (grid2.coords t) ((dat2 V c).after 4 t) : Vec Ideal S512x384 .bf16) = _
  funext x
  obtain ⟨r, hh, rfl⟩ : ∃ r hh, x = ix2 r hh := ⟨x 0, x 1, eq_ix2 x⟩
  have hi : 512 * (t.val / 8) + r.val < 8192 := by have := r.isLt; omega
  rw [blk2_4_read c _ t r hh hi]
  exact after2_4_apply V c t h7 r hh hi

theorem arrAt2_4 (c : Dev nD) : (dat2 V c).arrAt 4 cfg2.N = agg2 V c :=
  (dat2 V c).arrAt_eq_of_cover 4 (agg2 V c) (flushed2_4 V c) (cover2_4 c)

theorem value2_4 (c : Dev nD) (i : Fin 8192) (h : Fin 384) :
    (dat2 V c).arrAt 4 cfg2.N (ix2 i h)
      = Spec.aggregateSelf (V c main_v33 : Spec.Arr2 8192 8192) (V c main_v68 : Spec.Arr2 8192 384)
          (V c main_v39 : Spec.Arr2 1 384) (V c main_v17 : Spec.Arr2 8192 128) i h := by
  rw [arrAt2_4]; rfl

def mom2 (c : Dev nD) : Spec.Arr3 16 2 384 := fun j =>
  if (j 1).val = 0 then Spec.tileSum512 (agg2 V c) (j 0) (j 2) else Spec.tileSumSq512 (agg2 V c) (j 0) (j 2)

/-- Both rows are sums over the tile's rows of the first result's entries, which are `agg2`'s. -/
theorem after2_5_apply (c : Dev nD) (t : Fin cfg2.N) (h7 : t.val % 8 = 7) (s : Fin 2) (hh : Fin 384) (hq : t.val / 8 < 16) :
    ((dat2 V c).after 5 t : Vec Ideal S1x2x384 .f32) (ix3 (0 : Fin 1) s hh) = mom2 V c (ix3 ⟨t.val / 8, hq⟩ s hh) := by
  have hn : t.val < 128 := lt_of_lt_of_eq t.isLt N_2
  have hi : ∀ r : Fin 512, 512 * (t.val / 8) + r.val < 8192 := fun r => by have := r.isLt; omega
  rw [after2_5]; unfold out2_5
  refine (k2_pay5_apply _ _ _ _ _ s hh).trans ?_
  unfold mom2 Spec.tileSum512 Spec.tileSumSq512
  exact congrArg₂ (fun a b : EReal => if s.val = 0 then a else b)
    (Finset.sum_congr rfl fun r _ => pay3_at2 V c t h7 r hh (hi r))
    (Finset.sum_congr rfl fun r _ => congrArg₂ (· * ·) (pay3_at2 V c t h7 r hh (hi r)) (pay3_at2 V c t h7 r hh (hi r)))

theorem flushed2_5 (c : Dev nD) (t : Fin cfg2.N) (hf : (cfg2.win 5).flush t = true) :
    (dat2 V c).flushed 5 t = ((cfg2.win 5).blk t).view.read (Elt Ideal) (mom2 V c) := by
  have h7 : t.val % 8 = 7 := (flush2_5 t).mp hf
  have hn : t.val < 128 := lt_of_lt_of_eq t.isLt N_2
  have hq : t.val / 8 < 16 := by omega
  show ((cfg2.win 5).cut (grid2.coords t) ((dat2 V c).after 5 t) : Vec Ideal S1x2x384 .f32) = _
  funext x
  obtain ⟨z, s, hh, rfl⟩ : ∃ z s hh, x = ix3 z s hh := ⟨x 0, x 1, x 2, eq_ix3 x⟩
  obtain rfl : z = 0 := Subsingleton.elim _ _
  rw [blk2_5_read c _ t s hh hq]
  exact after2_5_apply V c t h7 s hh hq

theorem arrAt2_5 (c : Dev nD) : (dat2 V c).arrAt 5 cfg2.N = mom2 V c :=
  (dat2 V c).arrAt_eq_of_cover 5 (mom2 V c) (flushed2_5 V c) (cover2_5 c)

theorem value2_5_0 (c : Dev nD) (t : Fin 16) (h : Fin 384) :
    (dat2 V c).arrAt 5 cfg2.N (ix3 t (0 : Fin 2) h)
      = Spec.tileSum512 (Spec.mk2 (Spec.aggregateSelf (V c main_v33 : Spec.Arr2 8192 8192) (V c main_v68 : Spec.Arr2 8192 384)
          (V c main_v39 : Spec.Arr2 1 384) (V c main_v17 : Spec.Arr2 8192 128))) t h := by
  rw [arrAt2_5]; rfl

theorem value2_5_1 (c : Dev nD) (t : Fin 16) (h : Fin 384) :
    (dat2 V c).arrAt 5 cfg2.N (ix3 t (1 : Fin 2) h)
      = Spec.tileSumSq512 (Spec.mk2 (Spec.aggregateSelf (V c main_v33 : Spec.Arr2 8192 8192) (V c main_v68 : Spec.Arr2 8192 384)
          (V c main_v39 : Spec.Arr2 1 384) (V c main_v17 : Spec.Arr2 8192 128))) t h := by
  rw [arrAt2_5]; rfl

end Cert.KernelIdeal.HandV

end
-- ==== Proof.KI_V3.lean ====
import proofs.«101322_g2000704916760673_pallasbulk_724_3_alg».proof.Proof.KI_R3
import proofs.«101322_g2000704916760673_pallasbulk_724_3_alg».proof.Proof.Spec
import proofs.«101322_g2000704916760673_pallasbulk_724_3_alg».proof.Proof.LibValue
import Idealize.ShloMosaic.Lib.Pipeline.Value

noncomputable section

namespace Cert.KernelIdeal.HandV

open Cert.KernelIdeal.Gen Cert.KernelIdeal.Hand Cert.LibValue
open Idealize.ShloMosaic Idealize.ShloMosaic.TcCoe Idealize.ShloMosaic.ValueIdx Idealize.SL.Sem
open Idealize.ShloMosaic.Pipeline (Dat)
open scoped BigOperators

/-- A change of float format is the identity, and the product into the zero accumulator is the sum over the contracted axis. -/
theorem pay_K3_apply (x0 : Vec Ideal S256x384 .bf16) (x1 x2 : Vec Ideal S1x384 .f32) (x3 : Vec Ideal S256x128 .f32)
    (x4 : Vec Ideal S384x256 .bf16) (p : Fin 256) (q : Fin 256) :
    k3_pay1 x0 x1 x2 x3 x4 (ix2 p q)
      = ∑ k : Fin 384, ((x0 (ix2 p k) * x1 (ix2 0 k) + x2 (ix2 0 k)) * x3 (ix2 p 0)) * x4 (ix2 k q) := by
  unfold k3_pay1
  rw [truncf_apply]
  refine (matmul_plain_apply _ _ p q).trans (Finset.sum_congr rfl fun k _ => ?_)
  rw [truncf_apply, mulf_apply, addf_apply, mulf_apply, broadcastTo_1b_ab_apply, broadcastTo_1b_ab_apply, broadcastTo_a1_ab_apply,
    slice2_axis1_apply 0 _ slices_S256x128_o0_0_S256x1 p (0 : Fin 1) (0 : Fin 128) rfl]
  simp only [Idealize.ShloMosaic.shapeCast_self, extf_apply]

variable (V : (c : Dev nD) → (b : Ref sig .tc) → Buf (Elt Ideal) ((c : Thread nD τ).loc b))

theorem origin_K3 : (![0, 0] : Fin 2 → Nat) = fun _ => 0 := funext fun a => by fin_cases a <;> rfl

abbrev inX_K3 (c : Dev nD) : Spec.Arr2 8192 384 := V c main_v69_0
abbrev inS_K3 (c : Dev nD) : Spec.Arr2 1 384 := V c main_v85
abbrev inT_K3 (c : Dev nD) : Spec.Arr2 1 384 := V c main_v88
abbrev inD_K3 (c : Dev nD) : Spec.Arr2 8192 128 := V c main_v17
abbrev inW_K3 (c : Dev nD) : Spec.Arr2 384 256 := V c main_v43

/-- The output array as one function of the five input arrays. -/
def G3 (c : Dev nD) : S8192x256.Idx → EReal := fun j =>
  Spec.affineScaled (inX_K3 V c) (inS_K3 V c) (inT_K3 V c) (inD_K3 V c) (inW_K3 V c) (j 0) (j 1)

theorem idx_K3 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = win3_5.index t (0 : Fin 2) ∧ win3_3.index t (1 : Fin 2) = 0
    ∧ win3_4.index t (0 : Fin 2) = 0 ∧ win3_4.index t (1 : Fin 2) = 0
    ∧ win3_5.index t (0 : Fin 2) ≤ 31 ∧ win3_5.index t (1 : Fin 2) = 0 :=
  (by decide +kernel : ∀ t : Fin grid3.N, _)

theorem onto_K3 : ∀ q0 : Fin 32, ∃ t : Fin cfg3.N, win3_5.index t = ![q0.val, 0] :=
  (by decide +kernel : ∀ q0 : Fin 32, ∃ t : Fin grid3.N, win3_5.index t = ![q0.val, 0])

/-- Point `t`'s block is computed from the same rows of the features and row factors and from the whole scale, shift and weights: it is its block of `G3`. -/
theorem flushed_K3 (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero origin_K3]
  simp only [View.ld_unit_zero (S := S256x384) origin_K3, View.ld_unit_zero (S := S1x384) origin_K3,
    View.ld_unit_zero (S := S256x128) origin_K3, View.ld_unit_zero (S := S384x256) origin_K3]
  obtain ⟨e00, e01, e10, e11, e20, e21, e30, e31, e40, e41, e50, e51⟩ := idx_K3 t
  funext j
  obtain ⟨p, q, rfl⟩ : ∃ (p : Fin 256) (q : Fin 256), j = ix2 p q := ⟨j 0, j 1, eq_ix2 j⟩
  have hp := p.isLt
  have hr : win3_5.index t (0 : Fin 2) * 256 + p.val < 8192 := by omega
  show k3_pay1 (iblk3 V c 0 t) (iblk3 V c 1 t) (iblk3 V c 2 t) (iblk3 V c 3 t) (iblk3 V c 4 t) (ix2 p q)
      = G3 V c (((cfg3.win 5).blk t).view.emb (ix2 p q))
  rw [pay_K3_apply, show ((cfg3.win 5).blk t).view.emb (ix2 p q) = (ix2 (⟨_, hr⟩ : Fin 8192) q : S8192x256.Idx) from
    idx2_eq _ _ _ (by show win3_5.index t (0 : Fin 2) * 256 + 1 * p.val = win3_5.index t (0 : Fin 2) * 256 + p.val; omega)
      (by show win3_5.index t (1 : Fin 2) * 256 + 1 * q.val = q.val; omega)]
  show _ = ∑ k : Fin 384, ((inX_K3 V c (ix2 ⟨_, hr⟩ k) * inS_K3 V c (ix2 0 k)
      + inT_K3 V c (ix2 0 k)) * inD_K3 V c (ix2 ⟨_, hr⟩ 0)) * inW_K3 V c (ix2 k q)
  refine Finset.sum_congr rfl fun k _ => ?_
  have b0 : iblk3 V c 0 t (ix2 p k) = inX_K3 V c (ix2 ⟨_, hr⟩ k) :=
    congrArg (inX_K3 V c) (idx2_eq _ _ _ (by show win3_0.index t (0 : Fin 2) * 256 + 1 * p.val = win3_5.index t (0 : Fin 2) * 256 + p.val; omega)
      (by show win3_0.index t (1 : Fin 2) * 384 + 1 * k.val = k.val; omega))
  have b1 : iblk3 V c 1 t (ix2 0 k) = inS_K3 V c (ix2 0 k) :=
    congrArg (inS_K3 V c) (idx2_eq _ _ _ (by show win3_1.index t (0 : Fin 2) * 1 + 1 * 0 = 0; omega)
      (by show win3_1.index t (1 : Fin 2) * 384 + 1 * k.val = k.val; omega))
  have b2 : iblk3 V c 2 t (ix2 0 k) = inT_K3 V c (ix2 0 k) :=
    congrArg (inT_K3 V c) (idx2_eq _ _ _ (by show win3_2.index t (0 : Fin 2) * 1 + 1 * 0 = 0; omega)
      (by show win3_2.index t (1 : Fin 2) * 384 + 1 * k.val = k.val; omega))
  have b3 : iblk3 V c 3 t (ix2 p 0) = inD_K3 V c (ix2 ⟨_, hr⟩ 0) :=
    congrArg (inD_K3 V c) (idx2_eq _ _ _ (by show win3_3.index t (0 : Fin 2) * 256 + 1 * p.val = win3_5.index t (0 : Fin 2) * 256 + p.val; omega)
      (by show win3_3.index t (1 : Fin 2) * 128 + 1 * 0 = 0; omega))
  have b4 : iblk3 V c 4 t (ix2 k q) = inW_K3 V c (ix2 k q) :=
    congrArg (inW_K3 V c) (idx2_eq _ _ _ (by show win3_4.index t (0 : Fin 2) * 384 + 1 * k.val = k.val; omega)
      (by show win3_4.index t (1 : Fin 2) * 256 + 1 * q.val = q.val; omega))
  rw [b0, b1, b2, b3, b4]

/-- Row `r` belongs to the block of the point whose row block is `r / 256`. -/
theorem cover_K3 (i : S8192x256.Idx) :
    ∃ t : Fin cfg3.N, (cfg3.win 5).flush t = true ∧ i ∈ ((cfg3.win 5).blk t).view.set := by
  have hi0 : (i 0).val < 8192 := (i 0).isLt
  have hi1 : (i 1).val < 256 := (i 1).isLt
  obtain ⟨t, ht⟩ := onto_K3 ⟨(i 0).val / 256, by omega⟩
  have q0 : win3_5.index t (0 : Fin 2) = (i 0).val / 256 := congrFun ht 0
  have q1 : win3_5.index t (1 : Fin 2) = 0 := congrFun ht 1
  refine ⟨t, flush3_5 t, ?_⟩
  show i ∈ ((View.whole main_v89).slice (win3_5.rect t)).set
  rw [View.set_slice_whole, Rect.mem_set_unit]
  intro a
  match a with
  | ⟨0, _⟩ =>
    show win3_5.index t (0 : Fin 2) * 256 ≤ (i 0).val ∧ (i 0).val < win3_5.index t (0 : Fin 2) * 256 + 256
    omega
  | ⟨1, _⟩ =>
    show win3_5.index t (1 : Fin 2) * 256 ≤ (i 1).val ∧ (i 1).val < win3_5.index t (1 : Fin 2) * 256 + 256
    omega

theorem value3 (c : Dev nD) (i : Fin 8192) (h : Fin 256) :
    (dat3 (F := Ideal) V c).arrAt 5 cfg3.N (ix2 i h)
      = Spec.affineScaled (V c main_v69_0) (V c main_v85) (V c main_v88) (V c main_v17) (V c main_v43) i h := by
  rw [(dat3 (F := Ideal) V c).arrAt_eq_of_cover 5 (G3 V c) (fun t _ => flushed_K3 V c t) cover_K3]
  rfl

end Cert.KernelIdeal.HandV

end
-- ==== Proof.KI_V4.lean ====
import proofs.«101322_g2000704916760673_pallasbulk_724_3_alg».proof.Proof.KI_R4
import proofs.«101322_g2000704916760673_pallasbulk_724_3_alg».proof.Proof.Spec
import proofs.«101322_g2000704916760673_pallasbulk_724_3_alg».proof.Proof.LibValue
import Idealize.ShloMosaic.Lib.Pipeline.Value
import Idealize.ShloMosaic.Lib.ValueIdx

noncomputable section

open scoped BigOperators

namespace Cert.KernelIdeal.HandV

open Cert.KernelIdeal.Gen Cert.KernelIdeal.Hand Cert.LibValue
open Idealize.ShloMosaic Idealize.ShloMosaic.TcCoe Idealize.ShloMosaic.ValueIdx Idealize.ShloMosaic.Pipeline

namespace K4

theorem pay1_apply (y : S512x256.Idx) : k4_pay1 (F := Ideal) y = 0 := by
  unfold k4_pay1
  simp only [shapeCast_self]
  exact Ideal.ofBits_zero_f32

theorem pay2_apply (a : Vec Ideal S512x1024 .f32) (s : Vec Ideal S512x256 .f32) (g : Vec Ideal S1024x256 .bf16) (r : Fin 512) (o : Fin 256) :
    k4_pay2 (F := Ideal) a s g (ix2 r o) = s (ix2 r o) + ∑ j : Fin 1024, a (ix2 r j) * g (ix2 j o) := by
  unfold k4_pay2
  simp only [shapeCast_self]
  exact congrArg (s (ix2 r o) + ·) (matmul_plain_apply _ g r o)

/-- Each spread operand is read at its own entry, and the zero word is zero. -/
theorem pay3_apply (gs : Vec Ideal S512x256 .bf16) (s : Vec Ideal S512x256 .f32) (dv : Vec Ideal S512x128 .f32) (b : Vec Ideal S1x256 .f32)
    (r : Fin 512) (o : Fin 256) :
    k4_pay3 (F := Ideal) gs s dv b (ix2 r o) = max ((s (ix2 r o) + gs (ix2 r o)) * dv (ix2 r 0) + b (ix2 0 o)) 0 := by
  unfold k4_pay3
  simp only [shapeCast_self]
  show max ((s (ix2 r o) + gs (ix2 r o))
        * broadcastTo S512x256 (extractStridedSlice S512x1 ![0, 0] dv slices_S512x128_o0_0_S512x1) broadcasts_S512x1_S512x256 (ix2 r o)
      + broadcastTo S512x256 b broadcasts_S1x256_S512x256 (ix2 r o)) (Ideal.ofBits .f32 0x00000000#32) = _
  rw [broadcastTo_a1_ab_apply, slice2_axis1_apply 0 dv slices_S512x128_o0_0_S512x1 r (0 : Fin 1) (0 : Fin 128) rfl,
    broadcastTo_1b_ab_apply, Ideal.ofBits_zero_f32]

variable (V : (c : Dev nD) → (b : Ref sig .tc) → Buf (Elt Ideal) ((c : Thread nD τ).loc b))

abbrev cntA (c : Dev nD) : Spec.Arr2 8192 8192 := V c main_v33
abbrev featA (c : Dev nD) : Spec.Arr2 8192 256 := V c main_v89
abbrev biasA (c : Dev nD) : Spec.Arr2 1 256 := V c main_v44
abbrev facA (c : Dev nD) : Spec.Arr2 8192 128 := V c main_v17

abbrev G4 (c : Dev nD) : Spec.Arr2 8192 256 := Spec.mk2 (Spec.aggregateSelf (cntA V c) (featA V c) (biasA V c) (facA V c))

theorem idx_facts4 : ∀ t : Fin cfg4.N,
    win4_0.index t (0 : Fin 2) = t.val / 8 ∧ win4_0.index t (1 : Fin 2) = t.val % 8
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val / 8 ∧ win4_3.index t (1 : Fin 2) = 0
    ∧ win4_4.index t (0 : Fin 2) = t.val / 8 ∧ win4_4.index t (1 : Fin 2) = 0
    ∧ ((grid4.coords t) 0).val = t.val / 8 ∧ ((grid4.coords t) 1).val = t.val % 8 :=
  (by decide +kernel : ∀ t : Fin grid4.N, _)

theorem cnt4_apply (c : Dev nD) (t : Fin cfg4.N) (r : Fin 512) (j : Fin 1024) (i n : Fin 8192)
    (hi : i.val = 512 * (t.val / 8) + r.val) (hn : n.val = 1024 * (t.val % 8) + j.val) :
    cnt4 V c t (ix2 r j) = cntA V c (ix2 i n) := by
  obtain ⟨e0, e1, -⟩ := idx_facts4 t
  show V c main_v33 (((cfg4.win 0).blk t).view.emb (ix2 r j)) = V c main_v33 (ix2 i n)
  exact congrArg (V c main_v33) (idx2_eq _ _ _ (by show win4_0.index t (0 : Fin 2) * 512 + 1 * r.val = i.val; omega) (by show win4_0.index t (1 : Fin 2) * 1024 + 1 * j.val = n.val; omega))

theorem feat4_apply (c : Dev nD) (t : Fin cfg4.N) (n : Fin 8192) (o : Fin 256) :
    feat4 V c t (ix2 n o) = featA V c (ix2 n o) := by
  obtain ⟨-, -, e0, e1, -⟩ := idx_facts4 t
  show V c main_v89 (((cfg4.win 1).blk t).view.emb (ix2 n o)) = V c main_v89 (ix2 n o)
  exact congrArg (V c main_v89) (idx2_eq _ _ _ (by show win4_1.index t (0 : Fin 2) * 8192 + 1 * n.val = n.val; omega) (by show win4_1.index t (1 : Fin 2) * 256 + 1 * o.val = o.val; omega))

theorem bias4_apply (c : Dev nD) (t : Fin cfg4.N) (z : Fin 1) (o : Fin 256) :
    bias4 V c t (ix2 z o) = biasA V c (ix2 z o) := by
  obtain ⟨-, -, -, -, e0, e1, -⟩ := idx_facts4 t
  show V c main_v44 (((cfg4.win 2).blk t).view.emb (ix2 z o)) = V c main_v44 (ix2 z o)
  exact congrArg (V c main_v44) (idx2_eq _ _ _ (by show win4_2.index t (0 : Fin 2) * 1 + 1 * z.val = z.val; omega) (by show win4_2.index t (1 : Fin 2) * 256 + 1 * o.val = o.val; omega))

theorem fac4_apply (c : Dev nD) (t : Fin cfg4.N) (r : Fin 512) (l : Fin 128) (i : Fin 8192) (hi : i.val = 512 * (t.val / 8) + r.val) :
    fac4 V c t (ix2 r l) = facA V c (ix2 i l) := by
  obtain ⟨-, -, -, -, -, -, e0, e1, -⟩ := idx_facts4 t
  show V c main_v17 (((cfg4.win 3).blk t).view.emb (ix2 r l)) = V c main_v17 (ix2 i l)
  exact congrArg (V c main_v17) (idx2_eq _ _ _ (by show win4_3.index t (0 : Fin 2) * 512 + 1 * r.val = i.val; omega) (by show win4_3.index t (1 : Fin 2) * 128 + 1 * l.val = l.val; omega))

theorem featRows4_apply (c : Dev nD) (t : Fin cfg4.N) (j : Fin 1024) (o : Fin 256) (n : Fin 8192) (hn : n.val = 1024 * (t.val % 8) + j.val) :
    featRows4 (grid4.coords t) (feat4 V c t) (ix2 j o) = featA V c (ix2 n o) := by
  obtain ⟨-, -, -, -, -, -, -, -, -, -, g0, g1⟩ := idx_facts4 t
  refine Eq.trans ?_ (feat4_apply V c t n o)
  show feat4 V c t ((Rect.unit (s := S8192x256) (k4_off1 (grid4.coords t)) S1024x256.size (k4_off1_inb (grid4.coords t))).idx (ix2 j o))
    = feat4 V c t (ix2 n o)
  refine congrArg (feat4 V c t) (funext fun a => Fin.ext ?_)
  have e := k4_off1_eq (grid4.coords t)
  match a with
  | ⟨0, _⟩ =>
    show k4_off1 (grid4.coords t) 0 + 1 * j.val = n.val
    rw [e]; show 1024 * ((grid4.coords t) 1).val + 1 * j.val = n.val; omega
  | ⟨1, _⟩ =>
    show k4_off1 (grid4.coords t) 1 + 1 * o.val = o.val
    rw [e]; show 0 + 1 * o.val = o.val; omega

theorem ownRows4_apply (c : Dev nD) (t : Fin cfg4.N) (h : isLast4 (grid4.coords t)) (r : Fin 512) (o : Fin 256) (i : Fin 8192)
    (hi : i.val = 512 * (t.val / 8) + r.val) :
    ownRows4 (grid4.coords t) h (feat4 V c t) (ix2 r o) = featA V c (ix2 i o) := by
  obtain ⟨-, -, -, -, -, -, -, -, -, -, g0, g1⟩ := idx_facts4 t
  refine Eq.trans ?_ (feat4_apply V c t i o)
  show feat4 V c t ((Rect.unit (s := S8192x256) (k4_off2 (grid4.coords t)) S512x256.size (k4_off2_inb (grid4.coords t) h)).idx (ix2 r o))
    = feat4 V c t (ix2 i o)
  refine congrArg (feat4 V c t) (funext fun a => Fin.ext ?_)
  have e := k4_off2_eq (grid4.coords t)
  match a with
  | ⟨0, _⟩ =>
    show k4_off2 (grid4.coords t) 0 + 1 * r.val = i.val
    rw [e]; show 512 * ((grid4.coords t) 0).val + 1 * r.val = i.val; omega
  | ⟨1, _⟩ =>
    show k4_off2 (grid4.coords t) 1 + 1 * o.val = o.val
    rw [e]; show 0 + 1 * o.val = o.val; omega

theorem acc4_at_first (c : Dev nD) (n : ℕ) (h : n < cfg4.N) (h0 : n % 8 = 0) :
    acc4 V c n h = k4_pay2 (cnt4 V c ⟨n, h⟩) (k4_pay1 (F := Ideal)) (featRows4 (grid4.coords ⟨n, h⟩) (feat4 V c ⟨n, h⟩)) :=
  acc4_first V c ⟨n, h⟩ h0

theorem acc4_at_succ (c : Dev nD) (n : ℕ) (h : n + 1 < cfg4.N) (hne : ¬(n + 1) % 8 = 0) :
    acc4 V c (n + 1) h
      = k4_pay2 (cnt4 V c ⟨n + 1, h⟩) (acc4 V c n (Nat.lt_of_succ_lt h)) (featRows4 (grid4.coords ⟨n + 1, h⟩) (feat4 V c ⟨n + 1, h⟩)) :=
  acc4_later V c ⟨n + 1, h⟩ hne

def add4 (c : Dev nD) (r : Fin 512) (o : Fin 256) (n : ℕ) : EReal :=
  if h : n < cfg4.N then
    ∑ j : Fin 1024, cnt4 V c ⟨n, h⟩ (ix2 r j) * featRows4 (grid4.coords ⟨n, h⟩) (feat4 V c ⟨n, h⟩) (ix2 j o)
  else 0

theorem acc4_run (c : Dev nD) (q : ℕ) (r : Fin 512) (o : Fin 256) (s : ℕ) : ∀ (h : 8 * q + s < cfg4.N), s < 8 →
    acc4 V c (8 * q + s) h (ix2 r o) = ∑ s' ∈ Finset.range (s + 1), add4 V c r o (8 * q + s') := by
  induction s with
  | zero =>
    intro h _
    rw [acc4_at_first V c (8 * q + 0) h (by omega), pay2_apply, pay1_apply, zero_add, Finset.sum_range_one]
    unfold add4; rw [dif_pos h]
  | succ s ih =>
    intro h hs
    have h' : 8 * q + s < cfg4.N := by omega
    have hne : ¬(8 * q + s + 1) % 8 = 0 := by omega
    show acc4 V c (8 * q + s + 1) h (ix2 r o) = _
    rw [acc4_at_succ V c (8 * q + s) h hne, pay2_apply, ih h' (by omega), Finset.sum_range_succ _ (s + 1)]
    congr 1
    unfold add4; rw [dif_pos h]
    rfl

theorem acc4_last_apply (c : Dev nD) (t : Fin cfg4.N) (hl : t.val % 8 = 7) (r : Fin 512) (o : Fin 256) (i : Fin 8192)
    (hi : i.val = 512 * (t.val / 8) + r.val) :
    acc4 V c t.val t.isLt (ix2 r o) = ∑ n : Fin 8192, cntA V c (ix2 i n) * featA V c (ix2 n o) := by
  have hN : t.val < 128 := lt_of_lt_of_eq t.isLt N_4
  have ht : 8 * (t.val / 8) + 7 = t.val := by omega
  have hb : 8 * (t.val / 8) + 7 < cfg4.N := by rw [ht]; exact t.isLt
  have same : ∀ (u : ℕ) (hu : u < cfg4.N), u = t.val → acc4 V c u hu = acc4 V c t.val t.isLt := fun u hu e => by subst e; rfl
  rw [← same _ hb ht, acc4_run V c (t.val / 8) r o 7 hb (by omega), Finset.sum_range]
  refine (Finset.sum_congr rfl fun k _ => ?_).trans
    (Spec.sum_tiles 8 1024 8192 rfl (fun n : Fin 8192 => cntA V c (ix2 i n) * featA V c (ix2 n o)))
  have hk : k.val < 8 := k.isLt
  have hp : 8 * (t.val / 8) + k.val < cfg4.N := lt_of_lt_of_eq (show 8 * (t.val / 8) + k.val < 128 by omega) N_4.symm
  unfold add4; rw [dif_pos hp]
  refine Finset.sum_congr rfl fun j _ => ?_
  have hj : j.val < 1024 := j.isLt
  rw [cnt4_apply V c ⟨_, hp⟩ r j i ⟨1024 * k.val + j.val, by omega⟩ (by show i.val = 512 * ((8 * (t.val / 8) + k.val) / 8) + r.val; omega)
      (by show 1024 * k.val + j.val = 1024 * ((8 * (t.val / 8) + k.val) % 8) + j.val; omega),
    featRows4_apply V c ⟨_, hp⟩ j o ⟨1024 * k.val + j.val, by omega⟩
      (by show 1024 * k.val + j.val = 1024 * ((8 * (t.val / 8) + k.val) % 8) + j.val; omega)]

theorem flushed4_eq (c : Dev nD) (t : Fin cfg4.N) (hf : (cfg4.win 4).flush t = true) :
    (dat4 (F := Ideal) V c).flushed 4 t = ((cfg4.win 4).blk t).view.read (Elt Ideal) (G4 V c) := by
  have hl : t.val % 8 = 7 := (flush4_4 t).mp hf
  have hlast : isLast4 (grid4.coords t) := (isLast4_iff t).mpr hl
  have hN : t.val < 128 := lt_of_lt_of_eq t.isLt N_4
  show (cfg4.win 4).cut (grid4.coords t) ((dat4 (F := Ideal) V c).after 4 t) = _
  rw [after4_4, out4_last V c t hlast]
  obtain ⟨-, -, -, -, -, -, -, -, e0, e1, -⟩ := idx_facts4 t
  funext y
  obtain ⟨r, o, rfl⟩ : ∃ (r : Fin 512) (o : Fin 256), y = ix2 r o := ⟨y 0, y 1, eq_ix2 y⟩
  have hr : r.val < 512 := r.isLt
  have hemb : ((cfg4.win 4).blk t).view.emb (ix2 r o) = ix2 (⟨512 * (t.val / 8) + r.val, by omega⟩ : Fin 8192) o :=
    idx2_eq _ _ _ (by show win4_4.index t (0 : Fin 2) * 512 + 1 * r.val = 512 * (t.val / 8) + r.val; omega) (by show win4_4.index t (1 : Fin 2) * 256 + 1 * o.val = o.val; omega)
  show k4_pay3 (F := Ideal) (ownRows4 (grid4.coords t) hlast (feat4 V c t)) (acc4 V c t.val t.isLt) (fac4 V c t) (bias4 V c t) (ix2 r o)
    = G4 V c (((cfg4.win 4).blk t).view.emb (ix2 r o))
  rw [hemb, pay3_apply, acc4_last_apply V c t hl r o ⟨512 * (t.val / 8) + r.val, by omega⟩ rfl,
    ownRows4_apply V c t hlast r o ⟨512 * (t.val / 8) + r.val, by omega⟩ rfl,
    fac4_apply V c t r 0 ⟨512 * (t.val / 8) + r.val, by omega⟩ rfl, bias4_apply V c t 0 o]
  rfl

/-- Every row lies in the block of its row tile's last point. -/
theorem cover4 (i : S8192x256.Idx) : ∃ t : Fin cfg4.N, (cfg4.win 4).flush t = true ∧ i ∈ ((cfg4.win 4).blk t).view.set := by
  have hi0 : (i 0).val < 8192 := (i 0).isLt
  have hi1 : (i 1).val < 256 := (i 1).isLt
  obtain ⟨t, ht⟩ : ∃ t : Fin cfg4.N, t.val = 8 * ((i 0).val / 512) + 7 :=
    ⟨⟨_, lt_of_lt_of_eq (show 8 * ((i 0).val / 512) + 7 < 128 by omega) N_4.symm⟩, rfl⟩
  obtain ⟨-, -, -, -, -, -, -, -, e0, e1, -⟩ := idx_facts4 t
  refine ⟨t, (flush4_4 t).mpr (by omega), ?_⟩
  show i ∈ ((View.whole main_v90).slice (win4_4.rect t)).set
  rw [View.set_slice_whole, Rect.mem_set_unit]
  intro a
  match a with
  | ⟨0, _⟩ => show win4_4.index t (0 : Fin 2) * 512 ≤ (i 0).val ∧ (i 0).val < win4_4.index t (0 : Fin 2) * 512 + 512; omega
  | ⟨1, _⟩ => show win4_4.index t (1 : Fin 2) * 256 ≤ (i 1).val ∧ (i 1).val < win4_4.index t (1 : Fin 2) * 256 + 256; omega

end K4

open K4

variable (V : (c : Dev nD) → (b : Ref sig .tc) → Buf (Elt Ideal) ((c : Thread nD τ).loc b))

theorem value4 (c : Dev nD) (i : Fin 8192) (o : Fin 256) :
    (dat4 (F := Ideal) V c).arrAt 4 cfg4.N (ix2 i o)
      = Spec.aggregateSelf (V c main_v33 : Spec.Arr2 8192 8192) (V c main_v89 : Spec.Arr2 8192 256) (V c main_v44 : Spec.Arr2 1 256)
          (V c main_v17 : Spec.Arr2 8192 128) i o := by
  rw [(dat4 (F := Ideal) V c).arrAt_eq_of_cover 4 (G4 V c) (fun t hf => flushed4_eq V c t hf) cover4]
  rfl

end Cert.KernelIdeal.HandV

end
-- ==== Proof.HostScatter.lean ====
import Idealize.ShloMosaic.PureOps.Contract
import Idealize.ShloMosaic.PureOps.Ideal.Laws
import Idealize.ShloMosaic.Lib.ValueIdx
import Idealize.ShloMosaic.Lib.ValueIdxRank1
import Idealize.ShloMosaic.Lib.IdealHost
import Idealize.ShloMosaic.Lib.ValueLayout
import Idealize.ShloMosaic.Lib.KernelVsHost
import Idealize.ShloMosaic.Lib.Affine

noncomputable section

namespace Cert.HostScatter

open Idealize.ShloMosaic
open Idealize.ShloMosaic.ValueIdx
open scoped BigOperators

abbrev T2 : Shape := ⟨2, ![8192, 8192]⟩
abbrev T1 : Shape := ⟨1, ![8192]⟩
abbrev I2 : Shape := ⟨2, ![131072, 2]⟩
abbrev I1 : Shape := ⟨2, ![131072, 1]⟩
abbrev U1 : Shape := ⟨1, ![131072]⟩

theorem splat_zero {t : Shape} (h : (⟨0, ![]⟩ : Shape).BroadcastsInDim t ![]) (j : t.Idx) :
    broadcastInDim t ![] h (constant (F := Ideal) ⟨0, ![]⟩ .f32 0x00000000#32) j = 0 := Ideal.ofBits_zero_f32

theorem splat_one {t : Shape} (h : (⟨0, ![]⟩ : Shape).BroadcastsInDim t ![]) (j : t.Idx) :
    broadcastInDim t ![] h (constant (F := Ideal) ⟨0, ![]⟩ .f32 0x3F800000#32) j = 1 := Ideal.ofBits_one_f32

theorem toInt_eq_toNat_of_nonneg (x : BitVec 32) (h : 0 ≤ x.toInt) : x.toInt = (x.toNat : ℤ) := by
  have hx := x.isLt
  rw [BitVec.toInt_eq_toNat_cond] at h ⊢
  by_cases hc : 2 * x.toNat < 2 ^ 32
  · rw [if_pos hc]
  · rw [if_neg hc] at h; omega

theorem size2 (a : Fin 2) : T2.size a = 8192 := by revert a; decide

theorem size1 (a : Fin 1) : T1.size a = 8192 := by revert a; decide

/-- An update whose start plus window is the number `v a` on every axis, each inside the operand, lands at `j` exactly
    when `v` is `j`'s coordinates. -/
theorem lands_iff {s si su : Shape} (d : ScatterDims s si su) (u : su.Idx) (idx : IVec si 32) (v : Fin s.rank → ℕ)
    (hv : ∀ a, d.start u idx a + (d.window u a : ℤ) = (v a : ℤ)) (hlt : ∀ a, v a < s.size a) (j : s.Idx) :
    d.resultIdx? u idx = some j ↔ ∀ a, v a = (j a).val := by
  have hin : ∀ a, 0 ≤ d.start u idx a + d.window u a ∧ d.start u idx a + d.window u a < s.size a := fun a => by
    have := hlt a; rw [hv]; omega
  unfold ScatterDims.resultIdx?
  rw [dif_pos hin, Option.some.injEq]
  constructor
  · intro h a
    have h0 : (d.start u idx a + (d.window u a : ℤ)).toNat = (j a).val := congrArg (fun f => (f a).val) h
    rw [hv] at h0; omega
  · intro h
    funext a; apply Fin.ext
    show (d.start u idx a + (d.window u a : ℤ)).toNat = (j a).val
    rw [hv, ← h a]; omega

/-- Ones scattered into zeros leave, at a position, the number of updates that land there. -/
theorem count_of_lands {s si : Shape} (d : ScatterDims s si U1) (x : FVec Ideal s .f32) (u : FVec Ideal U1 .f32)
    (hx : ∀ j, x j = 0) (hu : ∀ j, u j = 1) (idx : IVec si 32) (j : s.Idx) (P : Fin 131072 → Prop) [DecidablePred P]
    (hl : ∀ e, d.resultIdx? (ix1 e) idx = some j ↔ P e) :
    Host.scatterAdd (F := Ideal) (φ := .f32) d x idx u j = ∑ e : Fin 131072, if P e then (1 : EReal) else 0 := by
  show Ideal.hostScatterAdd d x idx u j = _
  unfold Ideal.hostScatterAdd
  rw [hx, zero_add, Finset.sum_filter, ← Equiv.sum_comp (idxEquiv1 (n := 131072)).symm]
  refine Finset.sum_congr rfl fun e _ => ?_
  show (if d.resultIdx? (ix1 e) idx = some j then u (ix1 e) else 0) = _
  rw [hu]
  exact if_congr (hl e) rfl rfl

section Rank2

variable (wf : ScatterDims.WF T2 I2 U1 [] [0, 1] [0, 1] 1)

abbrev D2 : ScatterDims T2 I2 U1 := ⟨[], [0, 1], [0, 1], 1, wf⟩

theorem siIdx2 (e : Fin 131072) (c : Fin 2) : (D2 wf).siIdx (ix1 e) ⟨c.val, c.isLt⟩ = ix2 e c := by
  funext b
  match b with
  | ⟨0, _⟩ => rfl
  | ⟨1, _⟩ => rfl

theorem start2 (idx : IVec I2 32) (e : Fin 131072) (a : Fin 2) :
    (D2 wf).start (ix1 e) idx a = (idx (ix2 e a)).toInt := by
  match a with
  | ⟨0, _⟩ => exact congrArg (fun j => (idx j).toInt) (siIdx2 wf e 0)
  | ⟨1, _⟩ => exact congrArg (fun j => (idx j).toInt) (siIdx2 wf e 1)

theorem window2 (e : Fin 131072) (a : Fin 2) : (D2 wf).window (ix1 e) a = 0 := by
  match a with
  | ⟨0, _⟩ => rfl
  | ⟨1, _⟩ => rfl

theorem lands2 (idx : IVec I2 32)
    (hr : ∀ (e : Fin 131072) (c : Fin 2), 0 ≤ (idx (ix2 e c)).toInt ∧ (idx (ix2 e c)).toInt < 8192)
    (e : Fin 131072) (i k : Fin 8192) :
    (D2 wf).resultIdx? (ix1 e) idx = some (ix2 i k)
      ↔ (idx (ix2 e 0)).toNat = i.val ∧ (idx (ix2 e 1)).toNat = k.val :=
  (lands_iff (D2 wf) (ix1 e) idx (fun a => (idx (ix2 e a)).toNat)
    (fun a => by rw [start2, window2, toInt_eq_toNat_of_nonneg _ (hr e a).1]; simp)
    (fun a => by
      have h1 := hr e a
      rw [toInt_eq_toNat_of_nonneg _ h1.1] at h1
      show (idx (ix2 e a)).toNat < T2.size a
      rw [size2]; omega) (ix2 i k)).trans Fin.forall_fin_two

end Rank2

theorem scatter2_count (d : ScatterDims T2 I2 U1) (h1 : d.updateWindowDims = []) (h2 : d.insertedWindowDims = [0, 1])
    (h3 : d.scatterDimsToOperandDims = [0, 1]) (h4 : d.indexVectorDim = 1)
    (x : FVec Ideal T2 .f32) (u : FVec Ideal U1 .f32) (hx : ∀ j, x j = 0) (hu : ∀ j, u j = 1)
    (idx : IVec I2 32)
    (hr : ∀ (e : Fin 131072) (c : Fin 2), 0 ≤ (idx (ix2 e c)).toInt ∧ (idx (ix2 e c)).toInt < 8192) (i k : Fin 8192) :
    Host.scatterAdd (F := Ideal) (φ := .f32) d x idx u (ix2 i k)
      = ∑ e : Fin 131072, if (idx (ix2 e 0)).toNat = i.val ∧ (idx (ix2 e 1)).toNat = k.val then (1 : EReal) else 0 := by
  obtain ⟨uw, iw, sd, iv, wf⟩ := d
  dsimp only at h1 h2 h3 h4
  subst h1 h2 h3 h4
  exact count_of_lands (D2 wf) x u hx hu idx (ix2 i k) _ fun e => lands2 wf idx hr e i k

section Rank1

variable (wf : ScatterDims.WF T1 I1 U1 [] [0] [0] 1)

abbrev D1 : ScatterDims T1 I1 U1 := ⟨[], [0], [0], 1, wf⟩

theorem siIdx1 (e : Fin 131072) : (D1 wf).siIdx (ix1 e) ⟨0, Nat.one_pos⟩ = ix2 e 0 := by
  funext b
  match b with
  | ⟨0, _⟩ => rfl
  | ⟨1, _⟩ => rfl

theorem start1 (idx : IVec I1 32) (e : Fin 131072) (a : Fin 1) :
    (D1 wf).start (ix1 e) idx a = (idx (ix2 e 0)).toInt := by
  match a with
  | ⟨0, _⟩ => exact congrArg (fun j => (idx j).toInt) (siIdx1 wf e)

theorem window1 (e : Fin 131072) (a : Fin 1) : (D1 wf).window (ix1 e) a = 0 := by
  match a with
  | ⟨0, _⟩ => rfl

theorem lands1 (idx : IVec I1 32)
    (hr : ∀ e : Fin 131072, 0 ≤ (idx (ix2 e 0)).toInt ∧ (idx (ix2 e 0)).toInt < 8192)
    (e : Fin 131072) (i : Fin 8192) :
    (D1 wf).resultIdx? (ix1 e) idx = some (ix1 i) ↔ (idx (ix2 e 0)).toNat = i.val :=
  (lands_iff (D1 wf) (ix1 e) idx (fun _ => (idx (ix2 e 0)).toNat)
    (fun a => by rw [start1, window1, toInt_eq_toNat_of_nonneg _ (hr e).1]; simp)
    (fun a => by
      have h1 := hr e
      rw [toInt_eq_toNat_of_nonneg _ h1.1] at h1
      show (idx (ix2 e 0)).toNat < T1.size a
      rw [size1]; omega) (ix1 i)).trans Fin.forall_fin_one

end Rank1

theorem scatter1_count (d : ScatterDims T1 I1 U1) (h1 : d.updateWindowDims = []) (h2 : d.insertedWindowDims = [0])
    (h3 : d.scatterDimsToOperandDims = [0]) (h4 : d.indexVectorDim = 1)
    (x : FVec Ideal T1 .f32) (u : FVec Ideal U1 .f32) (hx : ∀ j, x j = 0) (hu : ∀ j, u j = 1)
    (idx : IVec I1 32)
    (hr : ∀ e : Fin 131072, 0 ≤ (idx (ix2 e 0)).toInt ∧ (idx (ix2 e 0)).toInt < 8192) (i : Fin 8192) :
    Host.scatterAdd (F := Ideal) (φ := .f32) d x idx u (ix1 i)
      = ∑ e : Fin 131072, if (idx (ix2 e 0)).toNat = i.val then (1 : EReal) else 0 := by
  obtain ⟨uw, iw, sd, iv, wf⟩ := d
  dsimp only at h1 h2 h3 h4
  subst h1 h2 h3 h4
  exact count_of_lands (D1 wf) x u hx hu idx (ix1 i) _ fun e => lands1 wf idx hr e i

abbrev E2 : Shape := ⟨2, ![2, 131072]⟩
abbrev R1 : Shape := ⟨2, ![1, 131072]⟩

/-- A rank-2 array padded by nothing is the array: every index is inside, at itself. -/
theorem pad_none2 {α : Type} {n0 n1 : ℕ} (x : (⟨2, ![n0, n1]⟩ : Shape).Idx → α) {u : Shape} (v : u.Idx → α)
    (h : (⟨2, ![n0, n1]⟩ : Shape).Pads (![0, 0] : Fin 2 → Nat) ![0, 0] ![0, 0] ⟨2, ![n0, n1]⟩) (hu : 0 < u.numel) :
    pad ⟨2, ![n0, n1]⟩ ![0, 0] ![0, 0] ![0, 0] x v h hu = x := by
  funext j
  exact pad_apply_of_inside _ _ _ x v h hu j j fun a => by
    match a with
    | ⟨0, _⟩ => show (j 0).val = 0 + (j 0).val * (0 + 1); omega
    | ⟨1, _⟩ => show (j 1).val = 0 + (j 1).val * (0 + 1); omega

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Plane `k` of an `[n, 2, b]` array summed over every tile and column from zero. -/
theorem total_apply {n b : ℕ} (X : (⟨3, ![n, 2, b]⟩ : Shape).Idx → EReal) (o : Nat) (k : Fin 2) (hk : k.val = o)
    (hs : (⟨3, ![n, 2, b]⟩ : Shape).Slices ![0, o, 0] ⟨3, ![n, 1, b]⟩)
    (hc : (⟨3, ![n, 1, b]⟩ : Shape).ShapeCasts ⟨2, ![n, b]⟩)
    (hr : (⟨2, ![n, b]⟩ : Shape).ReducesTo [0, 1] ⟨0, ![]⟩) (hu : 0 < (⟨0, ![]⟩ : Shape).numel)
    (i0 : (⟨0, ![]⟩ : Shape).Idx) :
    Host.reduceAdd (F := Ideal) (φ := .f32)
        (fun i => shapeCast ⟨2, ![n, b]⟩ (extractStridedSlice ⟨3, ![n, 1, b]⟩ ![0, o, 0] X hs) hc i)
        (constant ⟨0, ![]⟩ .f32 0#32) hr hu i0
      = ∑ t : Fin n, ∑ h : Fin b, X (ix3 t k h) := by
  rw [hostReduceAdd_apply, Ideal.hostReduceAdd_total _ (fun b => b.elim0), constant_apply, Ideal.ofBits_zero_f32, zero_add,
    sum_idx2]
  refine Finset.sum_congr rfl fun t _ => Finset.sum_congr rfl fun h _ => ?_
  exact (shapeCast_a1b_ab_apply _ hc t h).trans (slice3_axis1_apply o X hs t 0 h k (by rw [hk]; rfl))

/-- Row `r` of the edge list taken as a vector: its entry `e` is the end `(r, e)`. -/
theorem row_apply (ei : IVec E2 32) (o : Nat) (r : Fin 2) (hr : r.val = o) (hs : E2.Slices ![o, 0] R1)
    (hc : R1.ShapeCasts U1) (e : Fin 131072) :
    shapeCast U1 (extractStridedSlice R1 ![o, 0] ei hs) hc (ix1 e) = ei (ix2 r e) :=
  (shapeCast_1a_a_apply _ hc e).trans (slice2_axis0_apply o ei hs 0 e r (by rw [hr]; rfl))

/-- An index that is not negative passes the wrap of negative indices unchanged: the sign test is false. -/
theorem wrap_apply (x z k : IVec U1 32) (e : Fin 131072) (hz : z (ix1 e) = 0#32) (h0 : 0 ≤ (x (ix1 e)).toInt) :
    select (cmpi .slt x z) (addi x k) x (ix1 e) = x (ix1 e) := by
  show Scalar.select (IntOp.cmpi .slt (x (ix1 e)) (z (ix1 e))) (addi x k (ix1 e)) (x (ix1 e)) = x (ix1 e)
  rw [hz]
  unfold Scalar.select
  rw [if_neg]
  intro hc
  have h1 := IntOp.cmpi_slt.mp hc
  have hz0 : (0#32 : BitVec 32).toInt = 0 := by decide
  rw [hz0] at h1
  omega

theorem col_apply {α : Type} (hb : U1.BroadcastsInDim I1 ![0]) (x : U1.Idx → α) (e : Fin 131072) (c : Fin 1) :
    broadcastInDim I1 ![0] hb x (ix2 e c) = x (ix1 e) :=
  broadcastInDim_apply _ _ x _ (ix1 e) fun ax => by
    match ax with
    | ⟨0, _⟩ => rfl

theorem cat_left (hc : Shape.Concatenates [I1, I1] I2 1) (A B : IVec I1 32) (e : Fin 131072) :
    concatenate I2 1 [⟨I1, A⟩, ⟨I1, B⟩] hc (ix2 e (0 : Fin 2)) = A (ix2 e (0 : Fin 1)) :=
  concatenate_pair_apply_left (1 : Fin 2) A B _ (ix2 e (0 : Fin 2)) rfl (ix2 e (0 : Fin 1)) fun b => by
    match b with
    | ⟨0, _⟩ => rfl
    | ⟨1, _⟩ => rfl

theorem cat_right (hc : Shape.Concatenates [I1, I1] I2 1) (A B : IVec I1 32) (e : Fin 131072) :
    concatenate I2 1 [⟨I1, A⟩, ⟨I1, B⟩] hc (ix2 e (1 : Fin 2)) = B (ix2 e (0 : Fin 1)) :=
  concatenate_pair_apply_right (1 : Fin 2) A B _ (ix2 e (1 : Fin 2)) rfl rfl (ix2 e (0 : Fin 1))
    (fun b hb => by
      match b with
      | ⟨0, _⟩ => rfl
      | ⟨1, _⟩ => exact absurd rfl hb)
    rfl

/-- The wrapped vector of node indices laid down one column reads, at `(e, c)`, the index itself when not negative. -/
theorem wrapped_col (hb : U1.BroadcastsInDim I1 ![0]) (x z k : IVec U1 32) (e : Fin 131072) (c : Fin 1) (v : BitVec 32)
    (hx : x (ix1 e) = v) (hz : z (ix1 e) = 0#32) (h0 : 0 ≤ v.toInt) :
    broadcastInDim I1 ![0] hb (select (cmpi .slt x z) (addi x k) x) (ix2 e c) = v := by
  rw [col_apply, wrap_apply x z k e hz (by rw [hx]; exact h0), hx]

end Cert.HostScatter

end
-- ==== Proof.KI_Host.lean ====
import proofs.«101322_g2000704916760673_pallasbulk_724_3_alg».proof.Proof.Gen.KernelIdeal.Launch
import proofs.«101322_g2000704916760673_pallasbulk_724_3_alg».proof.Proof.Spec
import proofs.«101322_g2000704916760673_pallasbulk_724_3_alg».proof.Proof.HostScatter
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HostV

open Idealize.ShloMosaic Idealize.ShloMosaic.TcCoe Idealize.ShloMosaic.ValueIdx
open Cert.KernelIdeal Cert.KernelIdeal.Gen
open Cert.HostScatter (shapeCast_a1b_ab_apply total_apply)
open scoped BigOperators

variable (W : Valuation τ sig (Elt Ideal))

theorem bcast512_apply (V : (⟨1, ![512]⟩ : Shape).Idx → EReal) (a : Fin 1) (c : Fin 512) :
    broadcastInDim S1x512 ![1] bcast_S512_S1x512_1 V (ix2 a c) = V (ix1 c) :=
  broadcastInDim_apply _ _ V _ (ix1 c) fun ax => by
    match ax with
    | ⟨0, _⟩ => rfl

theorem lift_row_eq (hr : S32x512.Reduces [0] S512) (c : Fin 512) (t : Fin 32) : hr.lift (ix1 c) t = ix2 t c := by
  funext d
  refine Fin.ext ?_
  match d with
  | ⟨0, _⟩ => rfl
  | ⟨1, _⟩ => rfl

theorem colsum_apply (X : Spec.Arr3 32 2 512) (o : Nat) (k : Fin 2) (hk : k.val = o)
    (hs : S32x2x512.Slices ![0, o, 0] S32x1x512) (c : Fin 512) :
    Host.reduceAdd (F := Ideal) (φ := .f32)
        (fun i => shapeCast S32x512 (extractStridedSlice S32x1x512 ![0, o, 0] X hs) shapeCasts_S32x1x512_S32x512 i)
        (constant S_ .f32 0#32) reducesTo_S32x512_S512_d0 h_S_ (ix1 c)
      = ∑ t : Fin 32, X (ix3 t k c) := by
  have hr : S32x512.Reduces [0] S512 := by decide
  rw [hostReduceAdd_apply, Ideal.hostReduceAdd_single _ hr, constant_apply, Ideal.ofBits_zero_f32, zero_add]
  refine Finset.sum_congr rfl fun t _ => ?_
  exact (congrArg (shapeCast S32x512 (extractStridedSlice S32x1x512 ![0, o, 0] X hs) shapeCasts_S32x1x512_S32x512)
      (lift_row_eq hr c t)).trans
    ((shapeCast_a1b_ab_apply _ shapeCasts_S32x1x512_S32x512 t c).trans
      (slice3_axis1_apply o X hs t 0 c k (by rw [hk]; rfl)))

def mom1 (k : Fin 2) (c : Fin 512) : EReal := ∑ t : Fin 32, (W main_v45 : Spec.Arr3 32 2 512) (ix3 t k c)

set_option maxHeartbeats 2000000 in
theorem hostOps1_v65 :
    (StableHlo.after (hostOps1 (F := Ideal)) W (Proc.devRef .tc main_v65) : Spec.Arr2 1 512)
      = Spec.bnScale (W main_v35) (mom1 W 0) (mom1 W 1) := by
  funext j
  obtain ⟨a, c, rfl⟩ : ∃ (a : Fin 1) (c : Fin 512), j = ix2 a c := ⟨j 0, j 1, eq_ix2 j⟩
  obtain rfl : a = 0 := Subsingleton.elim _ _
  after_results_simp
  simp only [mulf_apply, addf_apply, subf_apply, maximumf_apply, hostDivf_apply, Host.rsqrt, Ideal.hostUnary_rsqrt_def]
  repeat rw [bcast512_apply]
  repeat rw [broadcastInDim_scalar_apply]
  repeat rw [constant_apply]
  erw [colsum_apply (W main_v45) 1 1 rfl, colsum_apply (W main_v45) 0 0 rfl]
  rw [Ideal.ofBits_zero_f32]
  rfl

set_option maxHeartbeats 2000000 in
theorem hostOps1_v67 :
    (StableHlo.after (hostOps1 (F := Ideal)) W (Proc.devRef .tc main_v67) : Spec.Arr2 1 512)
      = Spec.bnShift (W main_v36) (W main_v35) (mom1 W 0) (mom1 W 1) := by
  funext j
  obtain ⟨a, c, rfl⟩ : ∃ (a : Fin 1) (c : Fin 512), j = ix2 a c := ⟨j 0, j 1, eq_ix2 j⟩
  obtain rfl : a = 0 := Subsingleton.elim _ _
  after_results_simp
  simp only [mulf_apply, addf_apply, subf_apply, maximumf_apply, hostDivf_apply, Host.rsqrt, Ideal.hostUnary_rsqrt_def]
  repeat rw [bcast512_apply]
  repeat rw [broadcastInDim_scalar_apply]
  repeat rw [constant_apply]
  erw [colsum_apply (W main_v45) 1 1 rfl, colsum_apply (W main_v45) 0 0 rfl]
  rw [Ideal.ofBits_zero_f32]
  rfl

def mom3 (k : Fin 2) : EReal := ∑ t : Fin 16, ∑ h : Fin 384, (W main_v69_1 : Spec.Arr3 16 2 384) (ix3 t k h)

set_option maxHeartbeats 2000000 in
theorem hostOps3_v85 :
    (StableHlo.after (hostOps3 (F := Ideal)) W (Proc.devRef .tc main_v85) : Spec.Arr2 1 384)
      = Spec.lnScale (W main_v40) (mom3 W 0) (mom3 W 1) := by
  funext j
  obtain ⟨a, h, rfl⟩ : ∃ (a : Fin 1) (h : Fin 384), j = ix2 a h := ⟨j 0, j 1, eq_ix2 j⟩
  obtain rfl : a = 0 := Subsingleton.elim _ _
  after_results_simp
  simp only [mulf_apply, subf_apply]
  repeat rw [broadcastInDim_scalar_apply]
  simp only [mulf_apply, addf_apply, subf_apply, maximumf_apply, hostDivf_apply, Host.sqrt, Ideal.hostUnary_sqrt_def]
  repeat rw [constant_apply]
  erw [total_apply (n := 16) (b := 384) (W main_v69_1) 1 1 rfl, total_apply (n := 16) (b := 384) (W main_v69_1) 0 0 rfl]
  rw [Ideal.ofBits_zero_f32]
  rfl

set_option maxHeartbeats 2000000 in
theorem hostOps3_v88 :
    (StableHlo.after (hostOps3 (F := Ideal)) W (Proc.devRef .tc main_v88) : Spec.Arr2 1 384)
      = Spec.lnShift (W main_v41) (W main_v40) (mom3 W 0) (mom3 W 1) := by
  funext j
  obtain ⟨a, h, rfl⟩ : ∃ (a : Fin 1) (h : Fin 384), j = ix2 a h := ⟨j 0, j 1, eq_ix2 j⟩
  obtain rfl : a = 0 := Subsingleton.elim _ _
  after_results_simp
  simp only [mulf_apply, subf_apply]
  repeat rw [broadcastInDim_scalar_apply]
  simp only [mulf_apply, addf_apply, subf_apply, maximumf_apply, hostDivf_apply, Host.sqrt, Ideal.hostUnary_sqrt_def]
  repeat rw [constant_apply]
  erw [total_apply (n := 16) (b := 384) (W main_v69_1) 1 1 rfl, total_apply (n := 16) (b := 384) (W main_v69_1) 0 0 rfl]
  rw [Ideal.ofBits_zero_f32]
  rfl

end Cert.KernelIdeal.HostV
end
-- ==== Proof.KI_Host1.lean ====
import proofs.«101322_g2000704916760673_pallasbulk_724_3_alg».proof.Proof.Gen.KernelIdeal.Launch
import proofs.«101322_g2000704916760673_pallasbulk_724_3_alg».proof.Proof.Spec
import proofs.«101322_g2000704916760673_pallasbulk_724_3_alg».proof.Proof.HostScatter
import Idealize.ShloMosaic.Lib.StableHlo.Run
import Idealize.ShloMosaic.Lib.ValueIdx
import Idealize.ShloMosaic.Lib.KernelVsHost

set_option maxRecDepth 16384

noncomputable section

namespace Cert.KernelIdeal.HostV

open Idealize.ShloMosaic Idealize.ShloMosaic.TcCoe Idealize.ShloMosaic.ValueIdx
open Cert.KernelIdeal Cert.KernelIdeal.Gen
open Cert.HostScatter (pad_none2)
open scoped BigOperators

variable (W : Valuation τ sig (Elt Ideal))

theorem pad34 :
    (StableHlo.after (hostOps0_1 (F := Ideal)) W (Proc.devRef .tc main_v34) : Spec.Arr2 8192 512)
      = W (Proc.devRef .tc main_arg0) := by
  after_results_simp
  exact pad_none2 (n0 := 8192) (n1 := 512) (W (Proc.devRef .tc main_arg0)) _ pads_S8192x512_S8192x512_000_000 h_S_

theorem pad35 :
    (StableHlo.after (hostOps0_3 (F := Ideal)) W (Proc.devRef .tc main_v35) : Spec.Arr2 1 512)
      = W (Proc.devRef .tc main_arg2) := by
  after_results_simp
  exact pad_none2 (n0 := 1) (n1 := 512) (W (Proc.devRef .tc main_arg2)) _ pads_S1x512_S1x512_000_000 h_S_

theorem pad36 :
    (StableHlo.after (hostOps0_5 (F := Ideal)) W (Proc.devRef .tc main_v36) : Spec.Arr2 1 512)
      = W (Proc.devRef .tc main_arg3) := by
  after_results_simp
  exact pad_none2 (n0 := 1) (n1 := 512) (W (Proc.devRef .tc main_arg3)) _ pads_S1x512_S1x512_000_000 h_S_

theorem cvt37 :
    (StableHlo.after (hostOps0_6 (F := Ideal)) W (Proc.devRef .tc main_v37) : Spec.Arr2 512 384)
      = W (Proc.devRef .tc main_arg4) := by
  after_results_simp
  rfl

theorem pad38 :
    (StableHlo.after (hostOps0_7 (F := Ideal)) W (Proc.devRef .tc main_v38) : Spec.Arr2 512 384)
      = W (Proc.devRef .tc main_v37) := by
  after_results_simp
  exact pad_none2 (n0 := 512) (n1 := 384) (W (Proc.devRef .tc main_v37)) _ pads_S512x384_S512x384_000_000 h_S_

theorem pad39 :
    (StableHlo.after (hostOps0_9 (F := Ideal)) W (Proc.devRef .tc main_v39) : Spec.Arr2 1 384)
      = W (Proc.devRef .tc main_arg5) := by
  after_results_simp
  exact pad_none2 (n0 := 1) (n1 := 384) (W (Proc.devRef .tc main_arg5)) _ pads_S1x384_S1x384_000_000 h_S_

theorem pad40 :
    (StableHlo.after (hostOps0_11 (F := Ideal)) W (Proc.devRef .tc main_v40) : Spec.Arr2 1 384)
      = W (Proc.devRef .tc main_arg6) := by
  after_results_simp
  exact pad_none2 (n0 := 1) (n1 := 384) (W (Proc.devRef .tc main_arg6)) _ pads_S1x384_S1x384_000_000 h_S_

theorem pad41 :
    (StableHlo.after (hostOps0_13 (F := Ideal)) W (Proc.devRef .tc main_v41) : Spec.Arr2 1 384)
      = W (Proc.devRef .tc main_arg7) := by
  after_results_simp
  exact pad_none2 (n0 := 1) (n1 := 384) (W (Proc.devRef .tc main_arg7)) _ pads_S1x384_S1x384_000_000 h_S_

theorem cvt42 :
    (StableHlo.after (hostOps0_14 (F := Ideal)) W (Proc.devRef .tc main_v42) : Spec.Arr2 384 256)
      = W (Proc.devRef .tc main_arg8) := by
  after_results_simp
  rfl

theorem pad43 :
    (StableHlo.after (hostOps0_15 (F := Ideal)) W (Proc.devRef .tc main_v43) : Spec.Arr2 384 256)
      = W (Proc.devRef .tc main_v42) := by
  after_results_simp
  exact pad_none2 (n0 := 384) (n1 := 256) (W (Proc.devRef .tc main_v42)) _ pads_S384x256_S384x256_000_000 h_S_

theorem pad44 :
    (StableHlo.after (hostOps0_17 (F := Ideal)) W (Proc.devRef .tc main_v44) : Spec.Arr2 1 256)
      = W (Proc.devRef .tc main_arg9) := by
  after_results_simp
  exact pad_none2 (n0 := 1) (n1 := 256) (W (Proc.devRef .tc main_arg9)) _ pads_S1x256_S1x256_000_000 h_S_

end Cert.KernelIdeal.HostV
end
-- ==== Proof.KI_Host2.lean ====
import proofs.«101322_g2000704916760673_pallasbulk_724_3_alg».proof.Proof.Gen.KernelIdeal.Launch
import proofs.«101322_g2000704916760673_pallasbulk_724_3_alg».proof.Proof.Spec
import proofs.«101322_g2000704916760673_pallasbulk_724_3_alg».proof.Proof.HostScatter
import Idealize.ShloMosaic.Lib.StableHlo.Run
import Idealize.ShloMosaic.Lib.ValueIdx
import Idealize.ShloMosaic.Lib.ValueLayout
import Idealize.ShloMosaic.Lib.IdealHost
import Idealize.ShloMosaic.Lib.Affine
import Idealize.ShloMosaic.PureOps.Ideal.Laws

set_option maxRecDepth 16384

noncomputable section

namespace Cert.KernelIdeal.HostV

open Idealize.ShloMosaic Idealize.ShloMosaic.TcCoe Idealize.ShloMosaic.ValueIdx
open Cert.KernelIdeal Cert.KernelIdeal.Gen
open Cert.HostScatter (row_apply cat_left cat_right wrapped_col)
open scoped BigOperators

variable (W : Valuation τ sig (Elt Ideal))

theorem lanes_apply {α : Type} (y : S8192x1.Idx → α) (i : Fin 8192) (l : Fin 128) :
    broadcastInDim S8192x128 ![0, 1] bcast_S8192x1_S8192x128_0_1 y (ix2 i l) = y (ix2 i (0 : Fin 1)) :=
  broadcastInDim_apply _ _ y _ (ix2 i (0 : Fin 1)) fun ax => by
    match ax with
    | ⟨0, _⟩ => rfl
    | ⟨1, _⟩ => rfl

theorem col8192_apply {α : Type} (y : S8192.Idx → α) (i : Fin 8192) (c : Fin 1) :
    broadcastInDim S8192x1 ![0] bcast_S8192_S8192x1_0 y (ix2 i c) = y (ix1 i) :=
  broadcastInDim_apply _ _ y _ (ix1 i) fun ax => by
    match ax with
    | ⟨0, _⟩ => rfl

set_option maxHeartbeats 4000000 in
theorem cnt33 (hin : Spec.InRange (W (Proc.devRef .tc main_arg1))) :
    (StableHlo.after (hostOps0 (F := Ideal)) W (Proc.devRef .tc main_v33) : Spec.Arr2 8192 8192)
      = Spec.mk2 (Spec.edgeCount (W (Proc.devRef .tc main_arg1))) := by
  funext j
  obtain ⟨i, k, rfl⟩ : ∃ (i k : Fin 8192), j = ix2 i k := ⟨j 0, j 1, eq_ix2 j⟩
  rw [Spec.mk2_apply]
  after_results_simp
  generalize hI : concatenate (α := BitVec 32) S131072x2 1 [⟨S131072x1, _⟩, ⟨S131072x1, _⟩]
    concatenates_S131072x1_S131072x1_S131072x2_d1 = IDX
  have i0 : ∀ e : Fin 131072, IDX (ix2 e (0 : Fin 2)) = W (Proc.devRef .tc main_arg1) (ix2 (1 : Fin 2) e) := by
    intro e
    rw [← hI, cat_left]
    after_results_simp
    exact wrapped_col _ _ _ _ e 0 _ (row_apply (W (Proc.devRef .tc main_arg1)) 1 1 rfl _ _ e)
      (by rw [broadcastInDim_scalar_apply]; rfl) (hin 1 e).1
  have i1 : ∀ e : Fin 131072, IDX (ix2 e (1 : Fin 2)) = W (Proc.devRef .tc main_arg1) (ix2 (0 : Fin 2) e) := by
    intro e
    rw [← hI, cat_right]
    after_results_simp
    exact wrapped_col _ _ _ _ e 0 _ (row_apply (W (Proc.devRef .tc main_arg1)) 0 0 rfl _ _ e)
      (by rw [broadcastInDim_scalar_apply]; rfl) (hin 0 e).1
  refine (Cert.HostScatter.scatter2_count scatter_S8192x8192_S131072x2_S131072_n_01_01_1 rfl rfl rfl rfl _ _
    (fun q => Cert.HostScatter.splat_zero _ q) (fun q => Cert.HostScatter.splat_one _ q) IDX
    (fun e => Fin.forall_fin_two.mpr ⟨by rw [i0]; exact hin 1 e, by rw [i1]; exact hin 0 e⟩) i k).trans ?_
  unfold Spec.edgeCount Spec.node
  refine Finset.sum_congr rfl fun e _ => ?_
  rw [i0, i1]

set_option maxHeartbeats 4000000 in
theorem fac17 (hin : Spec.InRange (W (Proc.devRef .tc main_arg1))) :
    (StableHlo.after (hostOps0 (F := Ideal)) W (Proc.devRef .tc main_v17) : Spec.Arr2 8192 128)
      = Spec.rowFactor (W (Proc.devRef .tc main_arg1)) := by
  funext j
  obtain ⟨i, l, rfl⟩ : ∃ (i : Fin 8192) (l : Fin 128), j = ix2 i l := ⟨j 0, j 1, eq_ix2 j⟩
  rw [Spec.rowFactor, Spec.mk2_apply]
  after_results_simp
  rw [lanes_apply, col8192_apply]
  simp only [Host.rsqrt, Ideal.hostUnary_rsqrt_def, addf_apply]
  rw [broadcastInDim_scalar_apply, constant_apply]
  unfold Spec.cOne
  refine congrArg (fun s : EReal => Ideal.rsqrt (s + Ideal.ofBits FTy.f32 0x3F800000#32)) ?_
  generalize hI : broadcastInDim (s := S131072) (α := BitVec 32) S131072x1 ![0] bcast_S131072_S131072x1_0 _ = IDX
  have i0 : ∀ e : Fin 131072, IDX (ix2 e (0 : Fin 1)) = W (Proc.devRef .tc main_arg1) (ix2 (1 : Fin 2) e) := by
    intro e
    rw [← hI]
    exact wrapped_col _ _ _ _ e 0 _ (row_apply (W (Proc.devRef .tc main_arg1)) 1 1 rfl _ _ e)
      (by rw [broadcastInDim_scalar_apply]; rfl) (hin 1 e).1
  refine (Cert.HostScatter.scatter1_count scatter_S8192_S131072x1_S131072_n_0_0_1 rfl rfl rfl rfl _ _
    (fun q => Cert.HostScatter.splat_zero _ q) (fun q => Cert.HostScatter.splat_one _ q) IDX
    (fun e => by rw [i0]; exact hin 1 e) i).trans ?_
  unfold Spec.inDegree Spec.node
  refine Finset.sum_congr rfl fun e _ => ?_
  rw [i0]

end Cert.KernelIdeal.HostV
end
-- ==== Proof.KI_Final.lean ====
import proofs.«101322_g2000704916760673_pallasbulk_724_3_alg».proof.Proof.KI_Comp
import proofs.«101322_g2000704916760673_pallasbulk_724_3_alg».proof.Proof.KI_Bundle
import proofs.«101322_g2000704916760673_pallasbulk_724_3_alg».proof.Proof.KI_V0
import proofs.«101322_g2000704916760673_pallasbulk_724_3_alg».proof.Proof.KI_V1
import proofs.«101322_g2000704916760673_pallasbulk_724_3_alg».proof.Proof.KI_V2
import proofs.«101322_g2000704916760673_pallasbulk_724_3_alg».proof.Proof.KI_V3
import proofs.«101322_g2000704916760673_pallasbulk_724_3_alg».proof.Proof.KI_V4
import proofs.«101322_g2000704916760673_pallasbulk_724_3_alg».proof.Proof.KI_Host
import proofs.«101322_g2000704916760673_pallasbulk_724_3_alg».proof.Proof.KI_Host1
import proofs.«101322_g2000704916760673_pallasbulk_724_3_alg».proof.Proof.KI_Host2

set_option maxRecDepth 16384

noncomputable section

namespace Cert.KernelIdeal.Comp

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

theorem values : Values (Hand.regions (F := Ideal)) where
  sum0 V c t k := HandV.arrAt0_1_sum V c t k
  sq0 V c t k := HandV.arrAt0_1_sumSq V c t k
  aff1 V c i h := HandV.value1 V c i h
  agg2 V c i h := HandV.value2_4 V c i h
  sum2 V c t h := HandV.value2_5_0 V c t h
  sq2 V c t h := HandV.value2_5_1 V c t h
  aff3 V c i o := HandV.value3 V c i o
  agg4 V c i o := HandV.value4 V c i o

theorem hostFacts : HostFacts where
  fac17 W h := HostV.fac17 W h
  cnt33 W h := HostV.cnt33 W h
  pad34 W := HostV.pad34 W
  pad35 W := HostV.pad35 W
  pad36 W := HostV.pad36 W
  cvt37 W := HostV.cvt37 W
  pad38 W := HostV.pad38 W
  pad39 W := HostV.pad39 W
  pad40 W := HostV.pad40 W
  pad41 W := HostV.pad41 W
  cvt42 W := HostV.cvt42 W
  pad43 W := HostV.pad43 W
  pad44 W := HostV.pad44 W
  bn65 W := HostV.hostOps1_v65 W
  bn67 W := HostV.hostOps1_v67 W
  ln85 W := HostV.hostOps3_v85 W
  ln88 W := HostV.hostOps3_v88 W

theorem result (m : (ℓ : Loc nD τ sig) → Buf (Elt Ideal) ℓ) (c : Dev nD)
    (hei : Spec.InRange (m ((c.tc : Thread nD τ).loc main_arg1))) :
    (Hand.W25 m Hand.regions c (Proc.devRef .tc main_v90) : Spec.Arr2 8192 256)
      = Spec.kOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  result_eq_of m Hand.regions c values hostFacts hei

end Cert.KernelIdeal.Comp

end
-- ==== Proof.RI_Run.lean ====
import proofs.«101322_g2000704916760673_pallasbulk_724_3_alg».proof.Proof.Gen.ReferenceIdeal.Regions
import proofs.«101322_g2000704916760673_pallasbulk_724_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

abbrev VT (F : FTy → Type) [FloatOps F] : Type := (c : Dev nD) → (b : Ref sig .tc) → Buf (Elt F) ((c : Thread nD τ).loc b)

/-- What the run asks of a region: proof data at any entry contents, the body obligation, and the invariant's two ends. -/
structure Region (F : FTy → Type) [FloatOps F] (cfg : Cfg sig Λ₀) where
  dat : VT F → (c : Dev nD) → Dat τ (Elt F) Unit ℕ (UR sig nD τ) ℕ cfg c
  hA : ∀ V c w, (dat V c).A w = V c (Pipeline.arrRef cfg.spec w)
  hq : ∀ V c w, (dat V c).q w = fullShare := by intros; rfl
  howed : ∀ V c t, (dat V c).owed t = 0 := by intros; rfl
  hrec : ∀ V c t, (dat V c).recorded t = Set.univ := by intros; rfl
  hbody : ∀ V c, BodyObligation (dat V c) (defs₀ (F := F)) Variants.none () Set.univ
  hin : ∀ V c, (iprop((∃ r, prngReg c r) ∗ Pipeline.scopedRest cfg.spec c) : sProp (MT nD τ sig Unit (Elt F) ℕ (UR sig nD τ) ℕ)) ⊢ (dat V c).Φ 0
  hout : ∀ V c, (dat V c).Φ (Fin.last cfg.N) ⊢ (iprop((∃ r, prngReg c r) ∗ Pipeline.scopedRest cfg.spec c) : sProp (MT nD τ sig Unit (Elt F) ℕ (UR sig nD τ) ℕ))

structure Regions (F : FTy → Type) [FloatOps F] where
  r0 : Region F cfg0
  r1 : Region F cfg1
  r2 : Region F cfg2
  r3 : Region F cfg3
  r4 : Region F cfg4

def Regions.r (Rs : Regions F) : (p : Fin 5) → Region F (cfgs p)
  | ⟨0, _⟩ => Rs.r0 | ⟨1, _⟩ => Rs.r1 | ⟨2, _⟩ => Rs.r2 | ⟨3, _⟩ => Rs.r3 | ⟨4, _⟩ => Rs.r4
  | ⟨_ + 5, h⟩ => absurd h (Nat.not_lt.2 (Nat.le_add_left _ _))

section
variable {cfg : Cfg sig Λ₀} (R : Region F cfg) (Win : Dev nD → Valuation τ sig (Elt F))

/-- After a region entered at `Win`: its arrays at what its write-backs leave, every other buffer as entered. -/
def exitVal (c : Dev nD) : Valuation τ sig (Elt F) :=
  Pipeline.withArrays cfg.spec c (Win c) fun w => (R.dat (fun c b => Win c b) c).arrAt w cfg.N

theorem exitVal_arr (hinj : Function.Injective (Pipeline.arrRef cfg.spec)) (c : Dev nD) (w : Fin cfg.W) :
    exitVal R Win c (Proc.devRef .tc (Pipeline.arrRef cfg.spec w)) = (R.dat (fun c b => Win c b) c).arrAt w cfg.N :=
  Pipeline.withArrays_arr cfg.spec hinj c _ _ w

theorem exitVal_of_ne (c : Dev nD) (b : Ref sig .tc) (hb : ∀ w, Pipeline.arrRef cfg.spec w ≠ b) :
    exitVal R Win c (Proc.devRef .tc b) = Win c (Proc.devRef .tc b) :=
  Pipeline.withArrays_of_ne cfg.spec c _ _ b hb

/-- An array no window names is not touched, and an input window's array is never written. -/
theorem exitVal_keep (hinj : Function.Injective (Pipeline.arrRef cfg.spec)) (c : Dev nD) (b : Ref sig .tc)
    (h : ∀ w : Fin cfg.W, Pipeline.arrRef cfg.spec w = b → (cfg.win w).isOut = false) :
    exitVal R Win c (Proc.devRef .tc b) = Win c (Proc.devRef .tc b) := by
  by_cases hb : ∃ w, Pipeline.arrRef cfg.spec w = b
  · obtain ⟨w, rfl⟩ := hb
    rw [exitVal_arr R Win hinj]
    exact ((R.dat _ c).arrAt_in w (h w rfl) _).trans (R.hA _ c w)
  · exact exitVal_of_ne R Win c b fun w e => hb ⟨w, e⟩
end

variable (m : (ℓ : Loc nD τ sig) → Buf (Elt F) ℓ) (ρ : Dev nD → PrngReg) (Rs : Regions F)

abbrev Vin0 : VT F := fun c b => V22 m c b
def W23 : Dev nD → Valuation τ sig (Elt F) := exitVal Rs.r0 (V22 m)
abbrev W24 : Dev nD → Valuation τ sig (Elt F) := fun c => StableHlo.after hostOps1 (W23 m Rs c)
theorem W24_of (c : Dev nD) (r : Ref sig .tc) (h : r ∉ hostOps1_W) : W24 m Rs c r = W23 m Rs c r :=
  StableHlo.after_of_writes_sub hostOps1 _ hostOps1_writes h
abbrev Vin1 : VT F := fun c b => W24 m Rs c b
def W25 : Dev nD → Valuation τ sig (Elt F) := exitVal Rs.r1 (W24 m Rs)
abbrev Vin2 : VT F := fun c b => W25 m Rs c b
def W26 : Dev nD → Valuation τ sig (Elt F) := exitVal Rs.r2 (W25 m Rs)
abbrev W27 : Dev nD → Valuation τ sig (Elt F) := fun c => StableHlo.after hostOps3 (W26 m Rs c)
theorem W27_of (c : Dev nD) (r : Ref sig .tc) (h : r ∉ hostOps3_W) : W27 m Rs c r = W26 m Rs c r :=
  StableHlo.after_of_writes_sub hostOps3 _ hostOps3_writes h
abbrev Vin3 : VT F := fun c b => W27 m Rs c b
def W28 : Dev nD → Valuation τ sig (Elt F) := exitVal Rs.r3 (W27 m Rs)
abbrev Vin4 : VT F := fun c b => W28 m Rs c b
def W29 : Dev nD → Valuation τ sig (Elt F) := exitVal Rs.r4 (W28 m Rs)

theorem W23_arr (c : Dev nD) (w : Fin cfg0.W) :
    W23 m Rs c (Proc.devRef .tc (Pipeline.arrRef spec0 w)) = (Rs.r0.dat (Vin0 m) c).arrAt w cfg0.N :=
  exitVal_arr Rs.r0 (V22 m) launch0.win.arr_inj c w
theorem W23_keep (c : Dev nD) (b : Ref sig .tc)
    (h : ∀ w : Fin cfg0.W, Pipeline.arrRef spec0 w = b → (cfg0.win w).isOut = false) :
    W23 m Rs c (Proc.devRef .tc b) = V22 m c (Proc.devRef .tc b) :=
  exitVal_keep Rs.r0 (V22 m) launch0.win.arr_inj c b h
theorem W25_arr (c : Dev nD) (w : Fin cfg1.W) :
    W25 m Rs c (Proc.devRef .tc (Pipeline.arrRef spec1 w)) = (Rs.r1.dat (Vin1 m Rs) c).arrAt w cfg1.N :=
  exitVal_arr Rs.r1 (W24 m Rs) launch1.win.arr_inj c w
theorem W25_keep (c : Dev nD) (b : Ref sig .tc)
    (h : ∀ w : Fin cfg1.W, Pipeline.arrRef spec1 w = b → (cfg1.win w).isOut = false) :
    W25 m Rs c (Proc.devRef .tc b) = W24 m Rs c (Proc.devRef .tc b) :=
  exitVal_keep Rs.r1 (W24 m Rs) launch1.win.arr_inj c b h
theorem W26_arr (c : Dev nD) (w : Fin cfg2.W) :
    W26 m Rs c (Proc.devRef .tc (Pipeline.arrRef spec2 w)) = (Rs.r2.dat (Vin2 m Rs) c).arrAt w cfg2.N :=
  exitVal_arr Rs.r2 (W25 m Rs) launch2.win.arr_inj c w
theorem W26_keep (c : Dev nD) (b : Ref sig .tc)
    (h : ∀ w : Fin cfg2.W, Pipeline.arrRef spec2 w = b → (cfg2.win w).isOut = false) :
    W26 m Rs c (Proc.devRef .tc b) = W25 m Rs c (Proc.devRef .tc b) :=
  exitVal_keep Rs.r2 (W25 m Rs) launch2.win.arr_inj c b h
theorem W28_arr (c : Dev nD) (w : Fin cfg3.W) :
    W28 m Rs c (Proc.devRef .tc (Pipeline.arrRef spec3 w)) = (Rs.r3.dat (Vin3 m Rs) c).arrAt w cfg3.N :=
  exitVal_arr Rs.r3 (W27 m Rs) launch3.win.arr_inj c w
theorem W28_keep (c : Dev nD) (b : Ref sig .tc)
    (h : ∀ w : Fin cfg3.W, Pipeline.arrRef spec3 w = b → (cfg3.win w).isOut = false) :
    W28 m Rs c (Proc.devRef .tc b) = W27 m Rs c (Proc.devRef .tc b) :=
  exitVal_keep Rs.r3 (W27 m Rs) launch3.win.arr_inj c b h
theorem W29_arr (c : Dev nD) (w : Fin cfg4.W) :
    W29 m Rs c (Proc.devRef .tc (Pipeline.arrRef spec4 w)) = (Rs.r4.dat (Vin4 m Rs) c).arrAt w cfg4.N :=
  exitVal_arr Rs.r4 (W28 m Rs) launch4.win.arr_inj c w
theorem W29_keep (c : Dev nD) (b : Ref sig .tc)
    (h : ∀ w : Fin cfg4.W, Pipeline.arrRef spec4 w = b → (cfg4.win w).isOut = false) :
    W29 m Rs c (Proc.devRef .tc b) = W28 m Rs c (Proc.devRef .tc b) :=
  exitVal_keep Rs.r4 (W28 m Rs) launch4.win.arr_inj c b h

/-- Region `p`'s entry contents. -/
def Win : Fin 5 → Dev nD → Valuation τ sig (Elt F)
  | ⟨0, _⟩ => V22 m | ⟨1, _⟩ => W24 m Rs | ⟨2, _⟩ => W25 m Rs | ⟨3, _⟩ => W27 m Rs | ⟨4, _⟩ => W28 m Rs
  | ⟨_ + 5, h⟩ => absurd h (Nat.not_lt.2 (Nat.le_add_left _ _))
abbrev Vin (p : Fin 5) : VT F := fun c b => Win m Rs p c b
abbrev Wout (p : Fin 5) : Dev nD → Valuation τ sig (Elt F) := exitVal (Rs.r p) (Win m Rs p)
abbrev Vout (p : Fin 5) : VT F := fun c b => Wout m Rs p c b

theorem hF (p : Fin 5) (la : Pipeline.LaunchFacts (nD := nD) (τ := τ) cfgs p) (c : Dev nD) (w : Fin (cfgs p).W) :
    ((Rs.r p).dat (Vin m Rs p) c).arrAt w (cfgs p).N = Vout m Rs p c (Pipeline.arrRef (cfgs p).spec w) :=
  (exitVal_arr (Rs.r p) (Win m Rs p) la.win.arr_inj c w).symm
theorem hrest (p : Fin 5) (c : Dev nD) :
    ∀ b, b ∉ Finset.univ.image (Pipeline.arrRef (cfgs p).spec) → Vout m Rs p c b = Vin m Rs p c b :=
  fun b hb => exitVal_of_ne (Rs.r p) (Win m Rs p) c b fun w e => hb (Finset.mem_image.mpr ⟨w, Finset.mem_univ _, e⟩)

set_option backward.isDefEq.respectTransparency.types false in
/-- Every pipeline's proof data, each at its region's entry contents. -/
def pdats (p : Fin 5) (c : Dev nD) : Dat τ (Elt F) Unit ℕ (UR sig nD τ) ℕ (Pipeline.pin (pcfgs (F := F)) adm p) c :=
  (Rs.r p).dat (Vin m Rs p) c

abbrev 𝒱₀ : Variants := Variants.none
abbrev L : GSem nD τ sig → Finset Unit := fun _ => ∅
abbrev lv : GSem nD τ sig → Unit → ℕ := fun _ _ => 0
abbrev Rest (c : Dev nD) : sProp 𝕄 := iprop((∃ r, prngReg c r) ∗ ∃ W, owes (c : Thread nD τ) (0 : CellTallies nD τ sig Unit) W)
abbrev Erest : Fin 6 → Dev nD → sProp 𝕄 := fun _ c => Rest (F := F) c
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W29 m Rs c) ∗ ∃ r, prngReg c r)

set_option backward.isDefEq.respectTransparency.types false in
/-- Region `p` over the thread state: its arrays are split out of the unscoped buffers and put back at their exit contents; the generator register and the scoped rest go into its invariant and come back; nothing is owed. -/
def reg (p : Fin 5) (la : Pipeline.LaunchFacts (nD := nD) (τ := τ) cfgs p) :
    Pipeline.RegionSeg (pcfgs (F := F)) adm (pdats m Rs) () defs₀ 𝒱₀ L lv p where
  win := la.win.to₀
  block_pos := la.block_pos
  stage_whole := la.stage_whole
  K := PEmpty
  osem k := k.elim
  ho := Pipeline.OwnSemFacts.none _
  hbody c := ((Rs.r p).hbody (Vin m Rs p) c).loose
  hwaits := Pipeline.hwaits_of_owed_zero _ _ _ _ L lv p fun c t => (Rs.r p).howed (Vin m Rs p) c t
  pre c := iprop(StableHlo.held (c : Thread nD τ) (Pipeline.ucRefs τ sig) (Win m Rs p c) ∗ Rest c)
  post c := iprop(StableHlo.held (c : Thread nD τ) (Pipeline.ucRefs τ sig) (Wout m Rs p c) ∗ Rest c)
  X c := iprop(∃ r, prngReg c r)
  Y c := iprop(∃ r, prngReg c r)
  Z c := Pipeline.unscopedRest (Ix := Unit) (Name := ℕ) (U := UR sig nD τ) (Lvl := ℕ) (cfgs p).spec c (Vin m Rs p c)
  hentry c := by
    rw [Pipeline.ownSems0_none]
    have hsplit := Pipeline.arrays_of_unscopedBufs (p := p) (pcfgs (F := F)) adm (pdats m Rs) la.win la.arr_whole c
      ((pdats m Rs p c).share_full fun w => (Rs.r p).hq (Vin m Rs p) c w) (Vin m Rs p c) fun w => (Rs.r p).hA (Vin m Rs p) c w
    rw [Pipeline.unscopedBufs_held] at hsplit
    have ho : (pdats m Rs p c).owed 0 = 0 := (Rs.r p).howed (Vin m Rs p) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun _ _ => Or.inl (((Rs.r p).hrec (Vin m Rs p) c 0).symm ▸ Set.mem_univ _)
      iexact HO
    isplitl [Hp]; · iexact Hp
    iexact Hrest
  hin c :=
    (show (iprop((∃ r, prngReg c r) ∗ Pipeline.prefHeld (pcfgs (F := F) p).pre c (fun _ => fullShare) (adm p).1
          ∗ Pipeline.scopedRest (Pipeline.pin (pcfgs (F := F)) adm p).spec c) : sProp 𝕄)
        ⊢ iprop((∃ r, prngReg c r) ∗ Pipeline.scopedRest (cfgs p).spec c) from by
      iintro ⟨Hp, -, Hr⟩
      isplitl [Hp]; · iexact Hp
      iexact Hr).trans ((Rs.r p).hin (Vin m Rs p) c)
  hout c := by
    rw [Pipeline.ownSems0_none]
    exact ((Rs.r p).hout (Vin m Rs p) c).trans
      (show (iprop((∃ r, prngReg c r) ∗ Pipeline.scopedRest (cfgs p).spec c) : sProp 𝕄)
        ⊢ iprop((∃ r, prngReg c r) ∗ BI.emp ∗ Pipeline.scopedRest (Pipeline.pin (pcfgs (F := F)) adm p).spec c) from by
      iintro ⟨Hp, Hr⟩
      isplitl [Hp]; · iexact Hp
      isplitr; · iempintro
      iexact Hr)
  hexit c := by
    have hjoin := Pipeline.unscopedBufs_of_arrays (p := p) (pcfgs (F := F)) adm (Ix := Unit) (Name := ℕ) (U := UR sig nD τ) (Lvl := ℕ)
      la.win la.arr_whole c (pdats m Rs) ((pdats m Rs p c).share_full fun w => (Rs.r p).hq (Vin m Rs p) c w)
      (Vin m Rs p c) (Vout m Rs p c) ((pdats m Rs p c).arrAt · (cfgs p).N) (hF m Rs p la c) (hrest m Rs p c)
    rw [Pipeline.unscopedBufs_held] at hjoin
    have ho : (pdats m Rs p c).owed (Fin.last (Pipeline.pin (pcfgs (F := F)) adm p).N) = 0 := (Rs.r p).howed (Vin m Rs p) c _
    unfold Pipeline.Dat.owesAt Pipeline.owesWithin
    rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m Rs) () defs₀ 𝒱₀ L lv) :=
  [ .host (seg0 m 𝒱₀ L lv Erest),
    .host (seg1 m 𝒱₀ L lv Erest),
    .host (seg2 m 𝒱₀ L lv Erest),
    .host (seg3 m 𝒱₀ L lv Erest),
    .host (seg4 m 𝒱₀ L lv Erest),
    .host (seg5 m 𝒱₀ L lv Erest),
    .host (seg6 m 𝒱₀ L lv Erest),
    .host (seg7 m 𝒱₀ L lv Erest),
    .host (seg8 m 𝒱₀ L lv Erest),
    .host (seg9 m 𝒱₀ L lv Erest),
    .host (seg10 m 𝒱₀ L lv Erest),
    .host (seg11 m 𝒱₀ L lv Erest),
    .host (seg12 m 𝒱₀ L lv Erest),
    .host (seg13 m 𝒱₀ L lv Erest),
    .host (seg14 m 𝒱₀ L lv Erest),
    .host (seg15 m 𝒱₀ L lv Erest),
    .host (seg16 m 𝒱₀ L lv Erest),
    .host (seg17 m 𝒱₀ L lv Erest),
    .host (seg18 m 𝒱₀ L lv Erest),
    .host (seg19 m 𝒱₀ L lv Erest),
    .host (seg20 m 𝒱₀ L lv Erest),
    .host (seg21 m 𝒱₀ L lv Erest),
    .region (reg m Rs 0 launch0),
    .host (hseg hostOps1 hostOps1_sub hostOps1_fresh (W23 m Rs)),
    .region (reg m Rs 1 launch1),
    .region (reg m Rs 2 launch2),
    .host (hseg hostOps3 hostOps3_sub hostOps3_fresh (W26 m Rs)),
    .region (reg m Rs 3 launch3),
    .region (reg m Rs 4 launch4) ]

theorem main_run (c : Dev nD) : main (F := F) c = Pipeline.Seg.run (segs m Rs) := by
  rw [main_chain c, Pipeline.Seg.run_eq_chain]
  rfl

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W29 m Rs c b) :=
  Pipeline.θ_run_regions_kit (pcfgs (F := F)) adm (pdats m Rs) () cellOf_inj emb₁ defs₀ 𝒱₀ L lv m ρ main (segs m Rs)
    (fun c Q => by rw [main_run m Rs c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c)) (Tₙ := Tₙ m Rs)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W29 m Rs c) ∗ Rest c) : sProp 𝕄)
          ⊢ iprop(Tₙ m Rs c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m Rs c b)
    (hfin := fun c s' => by
      iintro ⟨⟨Hh, -⟩, HSI⟩
      unfold StableHlo.held
      imodintro
      iapply (pointsTo_read_all (Pipeline.ucRefs τ sig) (fun b => (((c : Thread nD τ)).1, b)) (W29 m Rs c) s')
      isplitl [Hh] <;> iassumption)
    (hQ := fun s h c => h c)

end Cert.ReferenceIdeal.Hand

end
-- ==== Proof.RI_Comp.lean ====
import proofs.«101322_g2000704916760673_pallasbulk_724_3_alg».proof.Proof.RI_Run
import proofs.«101322_g2000704916760673_pallasbulk_724_3_alg».proof.Proof.Spec
import Idealize.ShloMosaic.Lib.ValueIdx

set_option maxRecDepth 16384

noncomputable section

namespace Cert.ReferenceIdeal.Comp

open Idealize.ShloMosaic Idealize.ShloMosaic.TcCoe Idealize.ShloMosaic.ValueIdx
open Idealize.SL.Sem
open Cert.ReferenceIdeal Cert.ReferenceIdeal.Gen Cert.ReferenceIdeal.Hand
open scoped BigOperators

variable (m : (ℓ : Loc nD τ sig) → Buf (Elt Ideal) ℓ) (Rs : Regions Ideal)

structure ValueFacts : Prop where
  sum0 : ∀ (V : VT Ideal) (c : Dev nD) (j : Fin 512),
    ((Rs.r0.dat V c).arrAt 1 cfg0.N : Spec.Arr2 1 512) (ix2 0 j) = Spec.colSum (V c main_v38 : Spec.Arr2 8192 512) j
  sumsq0 : ∀ (V : VT Ideal) (c : Dev nD) (j : Fin 512),
    ((Rs.r0.dat V c).arrAt 2 cfg0.N : Spec.Arr2 1 512) (ix2 0 j) = Spec.colSumSq (V c main_v38 : Spec.Arr2 8192 512) j
  aff1 : ∀ (V : VT Ideal) (c : Dev nD) (i : Fin 8192) (h : Fin 384),
    ((Rs.r1.dat V c).arrAt 4 cfg1.N : Spec.Arr2 8192 384) (ix2 i h)
      = Spec.affine (V c main_v38 : Spec.Arr2 8192 512) (V c main_v63 : Spec.Arr2 1 512) (V c main_v65 : Spec.Arr2 1 512)
          (V c main_v44 : Spec.Arr2 512 384) i h
  agg2 : ∀ (V : VT Ideal) (c : Dev nD) (i : Fin 8192) (h : Fin 384),
    ((Rs.r2.dat V c).arrAt 3 cfg2.N : Spec.Arr2 8192 384) (ix2 i h)
      = Spec.aggregate (V c main_v40 : Spec.Arr2 8192 8192) (V c main_v66 : Spec.Arr2 8192 384) (V c main_v45 : Spec.Arr2 1 384) i h
  mom2s : ∀ (V : VT Ideal) (c : Dev nD) (t : Fin 32) (h : Fin 384),
    ((Rs.r2.dat V c).arrAt 4 cfg2.N : Spec.Arr3 32 2 384) (ix3 t 0 h)
      = Spec.tileSum256 (Spec.mk2 (Spec.aggregate (V c main_v40 : Spec.Arr2 8192 8192) (V c main_v66 : Spec.Arr2 8192 384)
          (V c main_v45 : Spec.Arr2 1 384))) t h
  mom2q : ∀ (V : VT Ideal) (c : Dev nD) (t : Fin 32) (h : Fin 384),
    ((Rs.r2.dat V c).arrAt 4 cfg2.N : Spec.Arr3 32 2 384) (ix3 t 1 h)
      = Spec.tileSumSq256 (Spec.mk2 (Spec.aggregate (V c main_v40 : Spec.Arr2 8192 8192) (V c main_v66 : Spec.Arr2 8192 384)
          (V c main_v45 : Spec.Arr2 1 384))) t h
  aff3 : ∀ (V : VT Ideal) (c : Dev nD) (i : Fin 8192) (o : Fin 256),
    ((Rs.r3.dat V c).arrAt 4 cfg3.N : Spec.Arr2 8192 256) (ix2 i o)
      = Spec.affine (V c main_v67_0 : Spec.Arr2 8192 384) (V c main_v83 : Spec.Arr2 1 384) (V c main_v86 : Spec.Arr2 1 384)
          (V c main_v49 : Spec.Arr2 384 256) i o
  agg4 : ∀ (V : VT Ideal) (c : Dev nD) (i : Fin 8192) (o : Fin 256),
    ((Rs.r4.dat V c).arrAt 3 cfg4.N : Spec.Arr2 8192 256) (ix2 i o)
      = Spec.aggregate (V c main_v40 : Spec.Arr2 8192 8192) (V c main_v87 : Spec.Arr2 8192 256) (V c main_v50 : Spec.Arr2 1 256) i o

def momTot (a : Spec.Arr3 32 2 384) (s : Fin 2) : EReal := ∑ t : Fin 32, ∑ h : Fin 384, a (ix3 t s h)

structure HostFacts : Prop where
  x : ∀ c : Dev nD, (V22 m c (Proc.devRef .tc main_v38) : Spec.Arr2 8192 512) = m ((c : Thread nD τ).loc main_arg0)
  adj : ∀ c : Dev nD, Spec.InRange (m ((c : Thread nD τ).loc main_arg1)) →
    (V22 m c (Proc.devRef .tc main_v40) : Spec.Arr2 8192 8192) = Spec.normAdj (m ((c : Thread nD τ).loc main_arg1))
  g : ∀ c : Dev nD, (V22 m c (Proc.devRef .tc main_v41) : Spec.Arr2 1 512) = m ((c : Thread nD τ).loc main_arg2)
  bb : ∀ c : Dev nD, (V22 m c (Proc.devRef .tc main_v42) : Spec.Arr2 1 512) = m ((c : Thread nD τ).loc main_arg3)
  w1 : ∀ c : Dev nD, (V22 m c (Proc.devRef .tc main_v44) : Spec.Arr2 512 384) = m ((c : Thread nD τ).loc main_arg4)
  b1 : ∀ c : Dev nD, (V22 m c (Proc.devRef .tc main_v45) : Spec.Arr2 1 384) = m ((c : Thread nD τ).loc main_arg5)
  lg : ∀ c : Dev nD, (V22 m c (Proc.devRef .tc main_v46) : Spec.Arr2 1 384) = m ((c : Thread nD τ).loc main_arg6)
  lb : ∀ c : Dev nD, (V22 m c (Proc.devRef .tc main_v47) : Spec.Arr2 1 384) = m ((c : Thread nD τ).loc main_arg7)
  w2 : ∀ c : Dev nD, (V22 m c (Proc.devRef .tc main_v49) : Spec.Arr2 384 256) = m ((c : Thread nD τ).loc main_arg8)
  b2 : ∀ c : Dev nD, (V22 m c (Proc.devRef .tc main_v50) : Spec.Arr2 1 256) = m ((c : Thread nD τ).loc main_arg9)
  bn_scale : ∀ W : Valuation τ sig (Elt Ideal),
    (StableHlo.after (hostOps1 (F := Ideal)) W (Proc.devRef .tc main_v63) : Spec.Arr2 1 512)
      = Spec.bnScale (W (Proc.devRef .tc main_v41)) (fun j => (W (Proc.devRef .tc main_v51_0) : Spec.Arr2 1 512) (ix2 0 j))
          (fun j => (W (Proc.devRef .tc main_v51_1) : Spec.Arr2 1 512) (ix2 0 j))
  bn_shift : ∀ W : Valuation τ sig (Elt Ideal),
    (StableHlo.after (hostOps1 (F := Ideal)) W (Proc.devRef .tc main_v65) : Spec.Arr2 1 512)
      = Spec.bnShift (W (Proc.devRef .tc main_v42)) (W (Proc.devRef .tc main_v41))
          (fun j => (W (Proc.devRef .tc main_v51_0) : Spec.Arr2 1 512) (ix2 0 j))
          (fun j => (W (Proc.devRef .tc main_v51_1) : Spec.Arr2 1 512) (ix2 0 j))
  ln_scale : ∀ W : Valuation τ sig (Elt Ideal),
    (StableHlo.after (hostOps3 (F := Ideal)) W (Proc.devRef .tc main_v83) : Spec.Arr2 1 384)
      = Spec.lnScale (W (Proc.devRef .tc main_v46))
          (momTot (W (Proc.devRef .tc main_v67_1)) 0)
          (momTot (W (Proc.devRef .tc main_v67_1)) 1)
  ln_shift : ∀ W : Valuation τ sig (Elt Ideal),
    (StableHlo.after (hostOps3 (F := Ideal)) W (Proc.devRef .tc main_v86) : Spec.Arr2 1 384)
      = Spec.lnShift (W (Proc.devRef .tc main_v47)) (W (Proc.devRef .tc main_v46))
          (momTot (W (Proc.devRef .tc main_v67_1)) 0)
          (momTot (W (Proc.devRef .tc main_v67_1)) 1)

abbrev aX (c : Dev nD) : Spec.Arr2 8192 512 := m ((c : Thread nD τ).loc main_arg0)
abbrev aE (c : Dev nD) : Spec.Edges := m ((c : Thread nD τ).loc main_arg1)
abbrev aG (c : Dev nD) : Spec.Arr2 1 512 := m ((c : Thread nD τ).loc main_arg2)
abbrev aB (c : Dev nD) : Spec.Arr2 1 512 := m ((c : Thread nD τ).loc main_arg3)
abbrev aW1 (c : Dev nD) : Spec.Arr2 512 384 := m ((c : Thread nD τ).loc main_arg4)
abbrev aB1 (c : Dev nD) : Spec.Arr2 1 384 := m ((c : Thread nD τ).loc main_arg5)
abbrev aLg (c : Dev nD) : Spec.Arr2 1 384 := m ((c : Thread nD τ).loc main_arg6)
abbrev aLb (c : Dev nD) : Spec.Arr2 1 384 := m ((c : Thread nD τ).loc main_arg7)
abbrev aW2 (c : Dev nD) : Spec.Arr2 384 256 := m ((c : Thread nD τ).loc main_arg8)
abbrev aB2 (c : Dev nD) : Spec.Arr2 1 256 := m ((c : Thread nD τ).loc main_arg9)

section Walk

variable (c : Dev nD)

/-- The contents at the boundaries of the run from the first region's entry on, in order. -/
def B : ℕ → Valuation τ sig (Elt Ideal)
  | 0 => V22 m c | 1 => W23 m Rs c | 2 => W24 m Rs c | 3 => W25 m Rs c | 4 => W26 m Rs c | 5 => W27 m Rs c | _ => W28 m Rs c

/-- Whether the item that runs after boundary `k` leaves buffer `r` alone. -/
def K (r : Ref sig .tc) : ℕ → Bool
  | 0 => decide (∀ w : Fin cfg0.W, Pipeline.arrRef spec0 w = r → (cfg0.win w).isOut = false)
  | 1 => decide (r ∉ hostOps1_W)
  | 2 => decide (∀ w : Fin cfg1.W, Pipeline.arrRef spec1 w = r → (cfg1.win w).isOut = false)
  | 3 => decide (∀ w : Fin cfg2.W, Pipeline.arrRef spec2 w = r → (cfg2.win w).isOut = false)
  | 4 => decide (r ∉ hostOps3_W)
  | 5 => decide (∀ w : Fin cfg3.W, Pipeline.arrRef spec3 w = r → (cfg3.win w).isOut = false)
  | _ => true

theorem step (r : Ref sig .tc) : ∀ k, K r k = true → B m Rs c (k + 1) (Proc.devRef .tc r) = B m Rs c k (Proc.devRef .tc r)
  | 0, h => W23_keep m Rs c r (of_decide_eq_true h)
  | 1, h => W24_of m Rs c r (of_decide_eq_true h)
  | 2, h => W25_keep m Rs c r (of_decide_eq_true h)
  | 3, h => W26_keep m Rs c r (of_decide_eq_true h)
  | 4, h => W27_of m Rs c r (of_decide_eq_true h)
  | 5, h => W28_keep m Rs c r (of_decide_eq_true h)
  | _ + 6, _ => rfl

/-- A buffer that no item before boundary `k` writes holds at `k` what it held at the first region's entry. -/
theorem walk (r : Ref sig .tc) : ∀ k, (∀ i, i < k → K r i = true) → B m Rs c k (Proc.devRef .tc r) = V22 m c (Proc.devRef .tc r)
  | 0, _ => rfl
  | k + 1, h => (step m Rs c r k (h k k.lt_succ_self)).trans (walk r k fun i hi => h i (Nat.lt_succ_of_lt hi))

end Walk

/-- Two arrays that agree at every pair of coordinates are equal. -/
theorem ext2 {n k : ℕ} {A A' : Spec.Arr2 n k} (h : ∀ i j, A (ix2 i j) = A' (ix2 i j)) : A = A' :=
  funext fun j => by rw [eq_ix2 j]; exact h _ _

section Chain

variable {m Rs}
variable (hV : ValueFacts Rs) (hH : HostFacts m) (c : Dev nD)

include hV hH in
theorem colsum_eq : (fun j => (W23 m Rs c (Proc.devRef .tc main_v51_0) : Spec.Arr2 1 512) (ix2 0 j)) = Spec.colSum (aX m c) :=
  funext fun j => (congrFun (W23_arr m Rs c (1 : Fin cfg0.W)) (ix2 0 j)).trans
    ((hV.sum0 (Vin0 m) c j).trans (congrArg (fun x => Spec.colSum x j) (hH.x c)))

include hV hH in
theorem colsumsq_eq : (fun j => (W23 m Rs c (Proc.devRef .tc main_v51_1) : Spec.Arr2 1 512) (ix2 0 j)) = Spec.colSumSq (aX m c) :=
  funext fun j => (congrFun (W23_arr m Rs c (2 : Fin cfg0.W)) (ix2 0 j)).trans
    ((hV.sumsq0 (Vin0 m) c j).trans (congrArg (fun x => Spec.colSumSq x j) (hH.x c)))

include hH in
theorem g23 : (W23 m Rs c (Proc.devRef .tc main_v41) : Spec.Arr2 1 512) = aG m c :=
  (walk m Rs c main_v41 1 (by decide)).trans (hH.g c)

include hV hH in
theorem scale1_eq : (W24 m Rs c (Proc.devRef .tc main_v63) : Spec.Arr2 1 512)
    = Spec.bnScale (aG m c) (Spec.colSum (aX m c)) (Spec.colSumSq (aX m c)) :=
  (hH.bn_scale (W23 m Rs c)).trans
    (congr (congr (congrArg Spec.bnScale (g23 hH c)) (colsum_eq hV hH c)) (colsumsq_eq hV hH c))

include hV hH in
theorem shift1_eq : (W24 m Rs c (Proc.devRef .tc main_v65) : Spec.Arr2 1 512)
    = Spec.bnShift (aB m c) (aG m c) (Spec.colSum (aX m c)) (Spec.colSumSq (aX m c)) :=
  (hH.bn_shift (W23 m Rs c)).trans
    (congr (congr (congr (congrArg Spec.bnShift ((walk m Rs c main_v42 1 (by decide)).trans (hH.bb c))) (g23 hH c))
      (colsum_eq hV hH c)) (colsumsq_eq hV hH c))

include hV hH in
theorem h0_eq : (W25 m Rs c (Proc.devRef .tc main_v66) : Spec.Arr2 8192 384) = Spec.rH0 (aX m c) (aG m c) (aB m c) (aW1 m c) :=
  ext2 fun i h => (congrFun (W25_arr m Rs c (4 : Fin cfg1.W)) (ix2 i h)).trans <| (hV.aff1 (Vin1 m Rs) c i h).trans <|
    congrFun (congrFun (congr (congr (congr (congrArg (Spec.affine (C := 512) (H := 384))
      ((walk m Rs c main_v38 2 (by decide)).trans (hH.x c))) (scale1_eq hV hH c)) (shift1_eq hV hH c))
      ((walk m Rs c main_v44 2 (by decide)).trans (hH.w1 c))) i) h

variable (hei : Spec.InRange (m ((c : Thread nD τ).loc main_arg1)))

include hH hei in
theorem adj_at (k : ℕ) (h : ∀ i, i < k → K main_v40 i = true) :
    (B m Rs c k (Proc.devRef .tc main_v40) : Spec.Arr2 8192 8192) = Spec.normAdj (aE m c) :=
  (walk m Rs c main_v40 k h).trans (hH.adj c hei)

include hV hH hei in
/-- The aggregation at what the third region finds is the aggregation of the launch memory's arguments. -/
theorem agg2_eq :
    Spec.aggregate (W25 m Rs c (Proc.devRef .tc main_v40) : Spec.Arr2 8192 8192) (W25 m Rs c (Proc.devRef .tc main_v66) : Spec.Arr2 8192 384)
        (W25 m Rs c (Proc.devRef .tc main_v45) : Spec.Arr2 1 384)
      = Spec.aggregate (Spec.normAdj (aE m c)) (Spec.rH0 (aX m c) (aG m c) (aB m c) (aW1 m c)) (aB1 m c) :=
  congr (congr (congrArg Spec.aggregate (adj_at hH c hei 3 (by decide))) (h0_eq hV hH c))
    ((walk m Rs c main_v45 3 (by decide)).trans (hH.b1 c))

include hV hH hei in
theorem h1_eq : (W26 m Rs c (Proc.devRef .tc main_v67_0) : Spec.Arr2 8192 384) = Spec.rH1 (aX m c) (aE m c) (aG m c) (aB m c) (aW1 m c) (aB1 m c) :=
  ext2 fun i h => (congrFun (W26_arr m Rs c (3 : Fin cfg2.W)) (ix2 i h)).trans <| (hV.agg2 (Vin2 m Rs) c i h).trans <|
    congrFun (congrFun (agg2_eq hV hH c hei) i) h

include hV hH hei in
/-- A slab of the third region's moments, totalled, as a function of the launch memory's arguments. -/
theorem plane2 (p : Fin 2) {f : Spec.Arr2 8192 384 → Fin 32 → Fin 384 → EReal}
    (hv : ∀ (V : VT Ideal) (c : Dev nD) (t : Fin 32) (h : Fin 384),
      ((Rs.r2.dat V c).arrAt 4 cfg2.N : Spec.Arr3 32 2 384) (ix3 t p h)
        = f (Spec.mk2 (Spec.aggregate (V c main_v40 : Spec.Arr2 8192 8192) (V c main_v66 : Spec.Arr2 8192 384)
            (V c main_v45 : Spec.Arr2 1 384))) t h) :
    momTot (W26 m Rs c (Proc.devRef .tc main_v67_1)) p = ∑ t : Fin 32, ∑ h : Fin 384, f (Spec.rH1 (aX m c) (aE m c) (aG m c) (aB m c) (aW1 m c) (aB1 m c)) t h :=
  Finset.sum_congr rfl fun t _ => Finset.sum_congr rfl fun h _ =>
    (congrFun (W26_arr m Rs c (4 : Fin cfg2.W)) (ix3 t p h)).trans <| (hv (Vin2 m Rs) c t h).trans <|
      congrArg (fun g : Fin 8192 → Fin 384 → EReal => f (Spec.mk2 g) t h) (agg2_eq hV hH c hei)

include hH in
theorem lg26 : (W26 m Rs c (Proc.devRef .tc main_v46) : Spec.Arr2 1 384) = aLg m c :=
  (walk m Rs c main_v46 4 (by decide)).trans (hH.lg c)

include hV hH hei in
theorem scale3_eq : (W27 m Rs c (Proc.devRef .tc main_v83) : Spec.Arr2 1 384)
    = Spec.lnScale (aLg m c) (Spec.rT (aX m c) (aE m c) (aG m c) (aB m c) (aW1 m c) (aB1 m c)) (Spec.rTT (aX m c) (aE m c) (aG m c) (aB m c) (aW1 m c) (aB1 m c)) :=
  (hH.ln_scale (W26 m Rs c)).trans
    (congr (congr (congrArg Spec.lnScale (lg26 hH c)) (plane2 hV hH c hei 0 hV.mom2s)) (plane2 hV hH c hei 1 hV.mom2q))

include hV hH hei in
theorem shift3_eq : (W27 m Rs c (Proc.devRef .tc main_v86) : Spec.Arr2 1 384)
    = Spec.lnShift (aLb m c) (aLg m c) (Spec.rT (aX m c) (aE m c) (aG m c) (aB m c) (aW1 m c) (aB1 m c)) (Spec.rTT (aX m c) (aE m c) (aG m c) (aB m c) (aW1 m c) (aB1 m c)) :=
  (hH.ln_shift (W26 m Rs c)).trans
    (congr (congr (congr (congrArg Spec.lnShift ((walk m Rs c main_v47 4 (by decide)).trans (hH.lb c))) (lg26 hH c))
      (plane2 hV hH c hei 0 hV.mom2s)) (plane2 hV hH c hei 1 hV.mom2q))

include hV hH hei in
theorem h2_eq : (W28 m Rs c (Proc.devRef .tc main_v87) : Spec.Arr2 8192 256)
    = Spec.rH2 (aX m c) (aE m c) (aG m c) (aB m c) (aW1 m c) (aB1 m c) (aLg m c) (aLb m c) (aW2 m c) :=
  ext2 fun i o => (congrFun (W28_arr m Rs c (4 : Fin cfg3.W)) (ix2 i o)).trans <| (hV.aff3 (Vin3 m Rs) c i o).trans <|
    congrFun (congrFun (congr (congr (congr (congrArg (Spec.affine (C := 384) (H := 256))
      ((W27_of m Rs c main_v67_0 (by decide)).trans (h1_eq hV hH c hei))) (scale3_eq hV hH c hei)) (shift3_eq hV hH c hei))
      ((walk m Rs c main_v49 5 (by decide)).trans (hH.w2 c))) i) o

include hV hH hei in
/-- The result array after the whole run is the reference function of the ten arguments as launched. -/
theorem result_eq_of : (W29 m Rs c (Proc.devRef .tc main_v88) : Spec.Arr2 8192 256)
    = Spec.rOut (aX m c) (aE m c) (aG m c) (aB m c) (aW1 m c) (aB1 m c) (aLg m c) (aLb m c) (aW2 m c) (aB2 m c) :=
  ext2 fun i o => (congrFun (W29_arr m Rs c (3 : Fin cfg4.W)) (ix2 i o)).trans <| (hV.agg4 (Vin4 m Rs) c i o).trans <|
    congrFun (congrFun (congr (congr (congrArg Spec.aggregate (adj_at hH c hei 6 (by decide))) (h2_eq hV hH c hei))
      ((walk m Rs c main_v50 6 (by decide)).trans (hH.b2 c))) i) o

end Chain

end Cert.ReferenceIdeal.Comp

end
-- ==== Proof.RI_RunArgs.lean ====
import proofs.«101322_g2000704916760673_pallasbulk_724_3_alg».proof.Proof.RI_Run

set_option maxRecDepth 16384

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]
variable (m : (ℓ : Loc nD τ sig) → Buf (Elt F) ℓ) (ρ : Dev nD → PrngReg) (Rs : Regions F)

/-- A buffer that no host stretch writes and that is no region's output array ends at its launch contents. -/
theorem W29_launch (c : Dev nD) (b : Ref sig .tc)
    (hr : (∀ w : Fin cfg4.W, Pipeline.arrRef spec4 w = b → (cfg4.win w).isOut = false)
      ∧ (∀ w : Fin cfg3.W, Pipeline.arrRef spec3 w = b → (cfg3.win w).isOut = false)
      ∧ (∀ w : Fin cfg2.W, Pipeline.arrRef spec2 w = b → (cfg2.win w).isOut = false)
      ∧ (∀ w : Fin cfg1.W, Pipeline.arrRef spec1 w = b → (cfg1.win w).isOut = false)
      ∧ (∀ w : Fin cfg0.W, Pipeline.arrRef spec0 w = b → (cfg0.win w).isOut = false))
    (g1 : b ∉ hostOps3_W ∧ b ∉ hostOps1_W ∧ b ∉ hostOps0_21_W ∧ b ∉ hostOps0_20_W ∧ b ∉ hostOps0_19_W ∧ b ∉ hostOps0_18_W ∧ b ∉ hostOps0_17_W ∧ b ∉ hostOps0_16_W)
    (g2 : b ∉ hostOps0_15_W ∧ b ∉ hostOps0_14_W ∧ b ∉ hostOps0_13_W ∧ b ∉ hostOps0_12_W ∧ b ∉ hostOps0_11_W ∧ b ∉ hostOps0_10_W ∧ b ∉ hostOps0_9_W ∧ b ∉ hostOps0_8_W)
    (g3 : b ∉ hostOps0_7_W ∧ b ∉ hostOps0_6_W ∧ b ∉ hostOps0_5_W ∧ b ∉ hostOps0_4_W ∧ b ∉ hostOps0_3_W ∧ b ∉ hostOps0_2_W ∧ b ∉ hostOps0_1_W ∧ b ∉ hostOps0_W) :
    W29 m Rs c (Proc.devRef .tc b) = m ((c : Thread nD τ).loc b) := by
  obtain ⟨r4, r3, r2, r1, r0⟩ := hr
  obtain ⟨n3, n1, n0_21, n0_20, n0_19, n0_18, n0_17, n0_16⟩ := g1
  obtain ⟨n0_15, n0_14, n0_13, n0_12, n0_11, n0_10, n0_9, n0_8⟩ := g2
  obtain ⟨n0_7, n0_6, n0_5, n0_4, n0_3, n0_2, n0_1, n0⟩ := g3
  exact (W29_keep m Rs c b r4).trans <| (W28_keep m Rs c b r3).trans <| (W27_of m Rs c b n3).trans <|
    (W26_keep m Rs c b r2).trans <| (W25_keep m Rs c b r1).trans <| (W24_of m Rs c b n1).trans <|
    (W23_keep m Rs c b r0).trans <|
    (V22_of m c b n0_21).trans <|
    (V21_of m c b n0_20).trans <|
    (V20_of m c b n0_19).trans <|
    (V19_of m c b n0_18).trans <|
    (V18_of m c b n0_17).trans <|
    (V17_of m c b n0_16).trans <|
    (V16_of m c b n0_15).trans <|
    (V15_of m c b n0_14).trans <|
    (V14_of m c b n0_13).trans <|
    (V13_of m c b n0_12).trans <|
    (V12_of m c b n0_11).trans <|
    (V11_of m c b n0_10).trans <|
    (V10_of m c b n0_9).trans <|
    (V9_of m c b n0_8).trans <|
    (V8_of m c b n0_7).trans <|
    (V7_of m c b n0_6).trans <|
    (V6_of m c b n0_5).trans <|
    (V5_of m c b n0_4).trans <|
    (V4_of m c b n0_3).trans <|
    (V3_of m c b n0_2).trans <|
    (V2_of m c b n0_1).trans <|
    (V1_of m c b n0).trans rfl

theorem run_result : θ_run defs (onTc (τ := τ) (main (F := F))) ⟨m, fun _ => 0, ρ⟩ (fun r => ∀ c : Dev nD,
      r.2.mem ((c.tc : Thread nD τ).loc main_v88) = W29 m Rs c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v88 (by decide)),
      (h c _ (mem_uc main_arg0 (by decide))).trans (W29_launch m Rs c main_arg0 (by decide) (by decide) (by decide) (by decide)),
      (h c _ (mem_uc main_arg1 (by decide))).trans (W29_launch m Rs c main_arg1 (by decide) (by decide) (by decide) (by decide)),
      (h c _ (mem_uc main_arg2 (by decide))).trans (W29_launch m Rs c main_arg2 (by decide) (by decide) (by decide) (by decide)),
      (h c _ (mem_uc main_arg3 (by decide))).trans (W29_launch m Rs c main_arg3 (by decide) (by decide) (by decide) (by decide)),
      (h c _ (mem_uc main_arg4 (by decide))).trans (W29_launch m Rs c main_arg4 (by decide) (by decide) (by decide) (by decide)),
      (h c _ (mem_uc main_arg5 (by decide))).trans (W29_launch m Rs c main_arg5 (by decide) (by decide) (by decide) (by decide)),
      (h c _ (mem_uc main_arg6 (by decide))).trans (W29_launch m Rs c main_arg6 (by decide) (by decide) (by decide) (by decide)),
      (h c _ (mem_uc main_arg7 (by decide))).trans (W29_launch m Rs c main_arg7 (by decide) (by decide) (by decide) (by decide)),
      (h c _ (mem_uc main_arg8 (by decide))).trans (W29_launch m Rs c main_arg8 (by decide) (by decide) (by decide) (by decide)),
      (h c _ (mem_uc main_arg9 (by decide))).trans (W29_launch m Rs c main_arg9 (by decide) (by decide) (by decide) (by decide))⟩) (run m ρ Rs)

end Cert.ReferenceIdeal.Hand

end
-- ==== Proof.RI_R0.lean ====
import proofs.«101322_g2000704916760673_pallasbulk_724_3_alg».proof.Proof.Gen.ReferenceIdeal.Launch
import proofs.«101322_g2000704916760673_pallasbulk_724_3_alg».proof.Proof.Gen.ReferenceIdeal.Skeleton
import proofs.«101322_g2000704916760673_pallasbulk_724_3_alg».proof.Proof.Gen.ReferenceIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros0 : (![0, 0] : Fin 2 → Nat) = fun _ => 0 := funext fun a => by fin_cases a <;> rfl

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

set_option maxHeartbeats 1000000 in

theorem run0_B (c : Dev nD) (E : Set ℕ) (i : grid0.Coords)
    (arg1 : Memref sig .tc .vmem S256x512 .f32) (harg1 : arg1.IsWhole)
    (arg2 : Memref sig .tc .vmem S1x512 .f32) (harg2 : arg2.IsWhole)
    (arg3 : Memref sig .tc .vmem S1x512 .f32) (harg3 : arg3.IsWhole) (hc : ¬cond0_0 i)
    (x0 : Vec F S256x512 .f32) (a1 a2 : Vec F S1x512 .f32) (K : PUnit → sProp 𝕄) :
    iprop(owns (c : Thread nD τ) arg1 fullShare x0 ∗ owns (c : Thread nD τ) arg2 fullShare a1
        ∗ owns (c : Thread nD τ) arg3 fullShare a2
        ∗ (iprop(owns (c : Thread nD τ) arg1 fullShare x0 ∗ owns (c : Thread nD τ) arg2 fullShare (k0_pay4 x0 a1)
            ∗ owns (c : Thread nD τ) arg3 fullShare (k0_pay5 x0 a2)) -∗ K ⟨⟩))
      ⊢ wp frame (wpE (defs₀ (F := F)) Variants.none c none) E (cc0_moments_kernel i arg1 harg1 arg2 harg2 arg3 harg3) K := by
  simp only [cc0_moments_kernel_eq_skeleton]; unfold cc0_moments_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc)
  sl_step
  iapply Hk
  isplitl [H0]
  · iexists _; isplitr; · ipureintro; exact harg1.read_unread _
    iexact H0
  isplitl [H1]
  · iexists _; isplitr
    swap; · iexact H1
    ipureintro

    rw [View.read_writes_eq_canon _ _ _ (fun y => ⟨_, List.mem_singleton_self _, View.mem_set_unit_zero zeros0 inb_S1x512_S1x512_0_0 y⟩),
      View.canon_unit_zero zeros0]
    simp only [View.readAt_eq_ld, harg1.read_unread, harg2.read_unread, View.ld_unit_zero (S := S256x512) zeros0,
      View.ld_unit_zero (S := S1x512) zeros0]
  · iexists _; isplitr
    swap; · iexact H2
    ipureintro
    rw [View.read_writes_eq_canon _ _ _ (fun y => ⟨_, List.mem_singleton_self _, View.mem_set_unit_zero zeros0 inb_S1x512_S1x512_0_0 y⟩),
      View.canon_unit_zero zeros0]
    simp only [View.readAt_eq_ld, harg1.read_unread, harg3.read_unread, View.ld_unit_zero (S := S256x512) zeros0,
      View.ld_unit_zero (S := S1x512) zeros0]

set_option maxHeartbeats 1000000 in

theorem run0_A (c : Dev nD) (E : Set ℕ) (i : grid0.Coords)
    (arg1 : Memref sig .tc .vmem S256x512 .f32) (harg1 : arg1.IsWhole)
    (arg2 : Memref sig .tc .vmem S1x512 .f32) (harg2 : arg2.IsWhole)
    (arg3 : Memref sig .tc .vmem S1x512 .f32) (harg3 : arg3.IsWhole) (hc : cond0_0 i)
    (x0 : Vec F S256x512 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (k0_pay4 x0 k0_pay1)
            ∗ owns (c : Thread nD τ) arg3 fullShare (k0_pay5 x0 k0_pay2)) -∗ K ⟨⟩))
      ⊢ wp frame (wpE (defs₀ (F := F)) Variants.none c none) E (cc0_moments_kernel i arg1 harg1 arg2 harg2 arg3 harg3) K := by
  simp only [cc0_moments_kernel_eq_skeleton]; unfold cc0_moments_kernel_skel
  unfold owns
  iintro ⟨⟨%f0, %hf0, H0⟩, ⟨%d1, %f1, -, H1⟩, ⟨%d2, %f2, -, H2⟩, Hk⟩
  obtain rfl := harg1.eq_unread hf0
  sl_exec (disch := first | exact hc)
  sl_step
  iapply Hk
  isplitl [H0]
  · iexists _; isplitr; · ipureintro; exact harg1.read_unread _
    iexact H0
  isplitl [H1]
  · iexists _; isplitr
    swap; · iexact H1
    ipureintro

    rw [View.read_writes_eq_canon _ _ _ (fun y => ⟨_, List.mem_cons.mpr (Or.inl rfl), View.mem_set_unit_zero zeros0 inb_S1x512_S1x512_0_0 y⟩),
      View.canon_cons_unit_zero zeros0]
    sl_unfold_words
    simp only [View.readAt_eq_ld, harg1.read_unread, View.ld_unit_zero (S := S256x512) zeros0,
      View.readCov_unit_zero (S := S1x512) _ zeros0]
  · iexists _; isplitr
    swap; · iexact H2
    ipureintro
    rw [View.read_writes_eq_canon _ _ _ (fun y => ⟨_, List.mem_cons.mpr (Or.inl rfl), View.mem_set_unit_zero zeros0 inb_S1x512_S1x512_0_0 y⟩),
      View.canon_cons_unit_zero zeros0]
    sl_unfold_words
    simp only [View.readAt_eq_ld, harg1.read_unread, View.ld_unit_zero (S := S256x512) zeros0,
      View.readCov_unit_zero (S := S1x512) _ zeros0]

def acc0_1 (c : Dev nD) : (n : ℕ) → n < cfg0.N → Vec F S1x512 .f32
  | 0, h => k0_pay4 (iblk0 V c 0 ⟨0, h⟩) k0_pay1
  | n + 1, h => k0_pay4 (iblk0 V c 0 ⟨n + 1, h⟩) (acc0_1 c n (Nat.lt_of_succ_lt h))

def acc0_2 (c : Dev nD) : (n : ℕ) → n < cfg0.N → Vec F S1x512 .f32
  | 0, h => k0_pay5 (iblk0 V c 0 ⟨0, h⟩) k0_pay2
  | n + 1, h => k0_pay5 (iblk0 V c 0 ⟨n + 1, h⟩) (acc0_2 c n (Nat.lt_of_succ_lt h))

theorem acc0_1_first (c : Dev nD) (t : Fin cfg0.N) (h0 : t.val = 0) :
    acc0_1 V c t.val t.isLt = k0_pay4 (iblk0 V c 0 t) k0_pay1 := by
  obtain ⟨n, hn⟩ := t
  cases n with
  | zero => rfl
  | succ n => exact absurd h0 (Nat.succ_ne_zero n)

theorem acc0_1_later (c : Dev nD) (t : Fin cfg0.N) (h0 : t.val ≠ 0) :
    acc0_1 V c t.val t.isLt
      = k0_pay4 (iblk0 V c 0 t) (acc0_1 V c (t.val - 1) (Nat.lt_of_le_of_lt (Nat.sub_le _ _) t.isLt)) := by
  obtain ⟨n, hn⟩ := t
  cases n with
  | zero => exact absurd rfl h0
  | succ n => rfl

theorem acc0_2_first (c : Dev nD) (t : Fin cfg0.N) (h0 : t.val = 0) :
    acc0_2 V c t.val t.isLt = k0_pay5 (iblk0 V c 0 t) k0_pay2 := by
  obtain ⟨n, hn⟩ := t
  cases n with
  | zero => rfl
  | succ n => exact absurd h0 (Nat.succ_ne_zero n)

theorem acc0_2_later (c : Dev nD) (t : Fin cfg0.N) (h0 : t.val ≠ 0) :
    acc0_2 V c t.val t.isLt
      = k0_pay5 (iblk0 V c 0 t) (acc0_2 V c (t.val - 1) (Nat.lt_of_le_of_lt (Nat.sub_le _ _) t.isLt)) := by
  obtain ⟨n, hn⟩ := t
  cases n with
  | zero => exact absurd rfl h0
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0_1 V c t.val t.isLt
    | ⟨2, _⟩ => acc0_2 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0_1 V c t.val t.isLt := by dsimp only [dat0]
theorem after0_2 (c : Dev nD) (t : Fin cfg0.N) : (dat0 V c).after 2 t = acc0_2 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

theorem before0_1_later (c : Dev nD) (t : Fin cfg0.N) (h0 : t.val ≠ 0) (d) :
    (dat0 V c).before 1 t d = acc0_1 V c (t.val - 1) (Nat.lt_of_le_of_lt (Nat.sub_le _ _) t.isLt) := by
  have hN : t.val < 32 := lt_of_lt_of_eq t.isLt (show cfg0.N = 32 from N_0)
  rw [Dat.before_out_kept _ 1 rfl t h0 (Bool.eq_false_iff.mpr fun h => by have := (flush0_1 _).mp h; dsimp only at this; omega)
    (fun _ => rfl) (fun _ _ => rfl)]
  dsimp only [dat0]

theorem before0_2_later (c : Dev nD) (t : Fin cfg0.N) (h0 : t.val ≠ 0) (d) :
    (dat0 V c).before 2 t d = acc0_2 V c (t.val - 1) (Nat.lt_of_le_of_lt (Nat.sub_le _ _) t.isLt) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [acc0_1_first V c t h0, acc0_2_first V c t h0]
    iintro ⟨HΦ, Ho, ⟨%d0, H0⟩, ⟨%d1, H1⟩, ⟨%d2, H2⟩⟩
    iapply (run0_A c Set.univ (grid0.coords t) _ _ _ _ _ _ ((hcond0_0 t).mpr h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc0_1_later V c t h0, acc0_2_later V c t h0]
    simp only [before0_1_later V c t h0, before0_2_later V c t h0]
    iintro ⟨HΦ, Ho, ⟨%d0, H0⟩, ⟨%d1, H1⟩, ⟨%d2, H2⟩⟩
    iapply (run0_B c Set.univ (grid0.coords t) _ _ _ _ _ _ (fun h => h0 ((hcond0_0 t).mp h)) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation0 (c : Dev nD) : BodyObligation (dat0 (F := F) V c) (defs₀ (F := F)) Variants.none () Set.univ := fun t => by
  rw [bigSep_W0, bigSep_W0]
  exact sound_body0 V c t

theorem phi_in0 (c : Dev nD) : iprop((∃ r, prngReg c r) ∗ Pipeline.scopedRest spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

theorem phi_out0 (c : Dev nD) : (dat0 V c).Φ (Fin.last cfg0.N) ⊢ iprop((∃ r, prngReg c r) ∗ Pipeline.scopedRest spec0 c) := by
  rw [show (dat0 V c).Φ (Fin.last cfg0.N) = Pipeline.ΦA spec0 c from rfl]; unfold Pipeline.ΦA
  iintro ⟨Hr, Hp⟩
  isplitl [Hp]; · iexact Hp
  iexact Hr

end Cert.ReferenceIdeal.Hand

end
-- ==== Proof.RI_R1.lean ====
import proofs.«101322_g2000704916760673_pallasbulk_724_3_alg».proof.Proof.Gen.ReferenceIdeal.Launch
import proofs.«101322_g2000704916760673_pallasbulk_724_3_alg».proof.Proof.Gen.ReferenceIdeal.Skeleton
import proofs.«101322_g2000704916760673_pallasbulk_724_3_alg».proof.Proof.Gen.ReferenceIdeal.Points
import Idealize.ShloMosaic.Lib.Pipeline.FrameBody
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Before

variable {V}
variable {c : Dev nD} (dat : Dat τ (Elt F) Unit ℕ (UR sig nD τ) ℕ cfg1 c)

theorem before1_0_of (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

theorem before1_3_of (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

end Before

abbrev rX1 : Rect S256x512 := Rect.unit (s := S256x512) ![0, 0] S256x512.size inb_S256x512_S256x512_0_0
abbrev rRow1 : Rect S1x512 := Rect.unit (s := S1x512) ![0, 0] S1x512.size inb_S1x512_S1x512_0_0
abbrev rW1 : Rect S512x384 := Rect.unit (s := S512x384) ![0, 0] S512x384.size inb_S512x384_S512x384_0_0
abbrev rOut1 : Rect S256x384 := Rect.unit (s := S256x384) ![0, 0] S256x384.size inb_S256x384_S256x384_0_0

def out1_4 (x : Vec F S256x512 .f32) (s t : Vec F S1x512 .f32) (w : Vec F S512x384 .bf16) : Vec F S256x384 .bf16 :=
  View.canon [⟨rOut1, k1_pay1 (View.ld x rX1) (View.ld s rRow1) (View.ld t rRow1) (View.ld w rW1)⟩]

theorem cover1_4 (p : Vec F S256x384 .bf16) (y : S256x384.Idx) :
    ∃ pc ∈ ([⟨rOut1, p⟩] : List (View.Piece (Elt F) S256x384 .bf16)), y ∈ pc.1.set :=
  View.cover_of_tiled [⟨rOut1, p⟩] S256x384.size (by rfl) y

set_option maxHeartbeats 1000000 in

theorem sound_kernel1 (c : Dev nD) (E : Set ℕ) (i : grid1.Coords)
    (a0 : Memref sig .tc .vmem S256x512 .f32) (h0 : a0.IsWhole) (a1 : Memref sig .tc .vmem S1x512 .f32) (h1 : a1.IsWhole)
    (a2 : Memref sig .tc .vmem S1x512 .f32) (h2 : a2.IsWhole) (a3 : Memref sig .tc .vmem S512x384 .bf16) (h3 : a3.IsWhole)
    (a4 : Memref sig .tc .vmem S256x384 .bf16) (h4 : a4.IsWhole)
    (x : Vec F S256x512 .f32) (s t : Vec F S1x512 .f32) (w : Vec F S512x384 .bf16) (K : PUnit → sProp 𝕄) :
    iprop(owns (c : Thread nD τ) a0 fullShare x ∗ owns (c : Thread nD τ) a1 fullShare s ∗ owns (c : Thread nD τ) a2 fullShare t
        ∗ owns (c : Thread nD τ) a3 fullShare w ∗ (∃ d, owns (c : Thread nD τ) a4 fullShare d)
        ∗ (iprop(owns (c : Thread nD τ) a0 fullShare x ∗ owns (c : Thread nD τ) a1 fullShare s ∗ owns (c : Thread nD τ) a2 fullShare t
            ∗ owns (c : Thread nD τ) a3 fullShare w ∗ owns (c : Thread nD τ) a4 fullShare (out1_4 x s t w)) -∗ K ⟨⟩))
      ⊢ wp frame (wpE (defs₀ (F := F)) Variants.none c none) E (cc1_affine_matmul_kernel i a0 h0 a1 h1 a2 h2 a3 h3 a4 h4) K := by
  simp only [cc1_affine_matmul_kernel_eq_skeleton]; unfold cc1_affine_matmul_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of (dat1 V c) (A_eq1 V c 0) (after1_0 V c) t d
theorem before1_1 (c : Dev nD) (t : Fin cfg1.N) (d) : (dat1 V c).before 1 t d = iblk1 V c 1 t :=
  before1_1_of (dat1 V c) (A_eq1 V c 1) (after1_1 V c) t d
theorem before1_2 (c : Dev nD) (t : Fin cfg1.N) (d) : (dat1 V c).before 2 t d = iblk1 V c 2 t :=
  before1_2_of (dat1 V c) (A_eq1 V c 2) (after1_2 V c) t d
theorem before1_3 (c : Dev nD) (t : Fin cfg1.N) (d) : (dat1 V c).before 3 t d = iblk1 V c 3 t :=
  before1_3_of (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

theorem phi_in1 (c : Dev nD) : iprop((∃ r, prngReg c r) ∗ Pipeline.scopedRest spec1 c) ⊢ (dat1 V c).Φ 0 := by
  rw [show (dat1 V c).Φ 0 = Pipeline.ΦA spec1 c from rfl]; unfold Pipeline.ΦA
  iintro ⟨Hp, Hr⟩
  isplitl [Hr]; · iexact Hr
  iexact Hp

theorem phi_out1 (c : Dev nD) : (dat1 V c).Φ (Fin.last cfg1.N) ⊢ iprop((∃ r, prngReg c r) ∗ Pipeline.scopedRest spec1 c) := by
  rw [show (dat1 V c).Φ (Fin.last _) = Pipeline.ΦA spec1 c from rfl]; unfold Pipeline.ΦA
  iintro ⟨Hr, Hp⟩
  isplitl [Hp]; · iexact Hp
  iexact Hr

end Cert.ReferenceIdeal.Hand

end
-- ==== Proof.RI_R2B.lean ====
import proofs.«101322_g2000704916760673_pallasbulk_724_3_alg».proof.Proof.Gen.ReferenceIdeal.Launch
import proofs.«101322_g2000704916760673_pallasbulk_724_3_alg».proof.Proof.Gen.ReferenceIdeal.Skeleton
import proofs.«101322_g2000704916760673_pallasbulk_724_3_alg».proof.Proof.Gen.ReferenceIdeal.Points
import Idealize.ShloMosaic.Lib.Pipeline.FrameBody
import Idealize.ShloMosaic.Lib.Pipeline.Value
import Idealize.ShloMosaic.Lib.Pipeline.Frame
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

abbrev rH (i : grid2.Coords) : Rect S8192x384 := Rect.unit (s := S8192x384) (k2_off1 i) S512x384.size (k2_off1_inb i)

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 2000000 in

theorem sound_mid (c : Dev nD) (E : Set ℕ) (i : grid2.Coords)
    (arg2 : Memref sig .tc .vmem S256x512 .bf16) (harg2 : arg2.IsWhole) (arg3 : Memref sig .tc .vmem S8192x384 .bf16) (harg3 : arg3.IsWhole)
    (arg4 : Memref sig .tc .vmem S1x384 .f32) (harg4 : arg4.IsWhole) (arg5 : Memref sig .tc .vmem S256x384 .bf16) (harg5 : arg5.IsWhole)
    (arg6 : Memref sig .tc .vmem S1x2x384 .f32) (harg6 : arg6.IsWhole) (arg7 : Memref sig .tc .vmem S256x384 .f32) (harg7 : arg7.IsWhole)
    (hc0 : ¬cond2_0 i) (hc1 : ¬cond2_1 i)
    (x0 : Vec F S256x512 .bf16) (x1 : Vec F S8192x384 .bf16) (s : Vec F S256x384 .f32) (K : PUnit → sProp 𝕄) :
    iprop(owns (c : Thread nD τ) arg2 fullShare x0 ∗ owns (c : Thread nD τ) arg3 fullShare x1 ∗ owns (c : Thread nD τ) arg7 fullShare s
        ∗ (iprop(owns (c : Thread nD τ) arg2 fullShare x0 ∗ owns (c : Thread nD τ) arg3 fullShare x1
            ∗ owns (c : Thread nD τ) arg7 fullShare (k2_pay2 (View.ld x1 (rH i)) s x0)) -∗ K ⟨⟩))
      ⊢ wp frame (wpE (defs₀ (F := F)) Variants.none c none) E (cc2__kernel_body i arg2 harg2 arg3 harg3 arg4 harg4 arg5 harg5 arg6 harg6 arg7 harg7) K := by
  simp only [cc2__kernel_body_eq_skeleton]; unfold cc2__kernel_body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (fun y => ⟨_, List.mem_cons_self, View.mem_set_unit_zero zero2 inb_S256x384_S256x384_0_0 y⟩),
    View.canon_unit_zero zero2]
  simp only [View.readAt_eq_ld, hf0, hf1, hfs, View.ld_unit_zero (S := S256x512) zero2, View.ld_unit_zero (S := S256x384) zero2]

set_option maxHeartbeats 2000000 in

theorem sound_first (c : Dev nD) (E : Set ℕ) (i : grid2.Coords)
    (arg2 : Memref sig .tc .vmem S256x512 .bf16) (harg2 : arg2.IsWhole) (arg3 : Memref sig .tc .vmem S8192x384 .bf16) (harg3 : arg3.IsWhole)
    (arg4 : Memref sig .tc .vmem S1x384 .f32) (harg4 : arg4.IsWhole) (arg5 : Memref sig .tc .vmem S256x384 .bf16) (harg5 : arg5.IsWhole)
    (arg6 : Memref sig .tc .vmem S1x2x384 .f32) (harg6 : arg6.IsWhole) (arg7 : Memref sig .tc .vmem S256x384 .f32) (harg7 : arg7.IsWhole)
    (hc0 : cond2_0 i) (hc1 : ¬cond2_1 i)
    (x0 : Vec F S256x512 .bf16) (x1 : Vec F S8192x384 .bf16) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k2_pay2 (View.ld x1 (rH i)) (k2_pay1 (F := F)) x0)) -∗ K ⟨⟩))
      ⊢ wp frame (wpE (defs₀ (F := F)) Variants.none c none) E (cc2__kernel_body i arg2 harg2 arg3 harg3 arg4 harg4 arg5 harg5 arg6 harg6 arg7 harg7) K := by
  simp only [cc2__kernel_body_eq_skeleton]; unfold cc2__kernel_body_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (fun y => ⟨_, List.mem_cons_self, View.mem_set_unit_zero zero2 inb_S256x384_S256x384_0_0 y⟩),
    View.canon_cons_unit_zero zero2]
  sl_unfold_run_names
  simp only [View.readAt_eq_ld, hf0, hf1, View.ld_unit_zero (S := S256x512) zero2, View.ld_unit_zero (S := S256x384) zero2,
    View.readCov_unit_zero (S := S256x384) _ zero2]

set_option maxHeartbeats 2000000 in

theorem sound_last (c : Dev nD) (E : Set ℕ) (i : grid2.Coords)
    (arg2 : Memref sig .tc .vmem S256x512 .bf16) (harg2 : arg2.IsWhole) (arg3 : Memref sig .tc .vmem S8192x384 .bf16) (harg3 : arg3.IsWhole)
    (arg4 : Memref sig .tc .vmem S1x384 .f32) (harg4 : arg4.IsWhole) (arg5 : Memref sig .tc .vmem S256x384 .bf16) (harg5 : arg5.IsWhole)
    (arg6 : Memref sig .tc .vmem S1x2x384 .f32) (harg6 : arg6.IsWhole) (arg7 : Memref sig .tc .vmem S256x384 .f32) (harg7 : arg7.IsWhole)
    (hc0 : ¬cond2_0 i) (hc1 : cond2_1 i)
    (x0 : Vec F S256x512 .bf16) (x1 : Vec F S8192x384 .bf16) (x2 : Vec F S1x384 .f32) (s : Vec F S256x384 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k2_pay4 i (k2_pay2 (View.ld x1 (rH i)) s x0) x2)
            ∗ owns (c : Thread nD τ) arg6 fullShare (k2_pay5 i (k2_pay2 (View.ld x1 (rH i)) s x0) x2)
            ∗ owns (c : Thread nD τ) arg7 fullShare (k2_pay2 (View.ld x1 (rH i)) s x0)) -∗ K ⟨⟩))
      ⊢ wp frame (wpE (defs₀ (F := F)) Variants.none c none) E (cc2__kernel_body i arg2 harg2 arg3 harg3 arg4 harg4 arg5 harg5 arg6 harg6 arg7 harg7) K := by
  simp only [cc2__kernel_body_eq_skeleton]; unfold cc2__kernel_body_skel
  unfold owns
  iintro ⟨⟨%f0, %hf0, H0⟩, ⟨%f1, %hf1, H1⟩, ⟨%f2, %hf2, H2⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [View.read_writes_eq_canon _ _ _ (fun y => ⟨_, List.mem_cons_self, View.mem_set_unit_zero zero2 inb_S256x384_S256x384_0_0 y⟩),
      View.canon_unit_zero zero2]
    sl_unfold_run_names
    simp only [View.readAt_eq_ld, hf0, hf1, hf2, hfs, View.ld_unit_zero (S := S256x512) zero2, View.ld_unit_zero (S := S256x384) zero2,
      View.ld_unit_zero (S := S1x384) zero2, View.readCov_unit_zero (S := S256x384) _ zero2]
  isplitl [H6]
  · iexists _; isplitr
    swap; · iexact H6
    ipureintro
    rw [View.read_writes_eq_canon _ _ _ (fun y => ⟨_, List.mem_cons_self, View.mem_set_unit_zero zero3 inb_S1x2x384_S1x2x384_0_0_0 y⟩),
      View.canon_unit_zero zero3]
    sl_unfold_run_names
    simp only [View.readAt_eq_ld, hf0, hf1, hf2, hfs, View.ld_unit_zero (S := S256x512) zero2, View.ld_unit_zero (S := S256x384) zero2,
      View.ld_unit_zero (S := S1x384) zero2, View.readCov_unit_zero (S := S256x384) _ zero2]
  iexists _; isplitr
  swap; · iexact HS
  ipureintro
  sl_unfold_run_names
  rw [View.read_writes_eq_canon _ _ _ (fun y => ⟨_, List.mem_cons_self, View.mem_set_unit_zero zero2 inb_S256x384_S256x384_0_0 y⟩),
    View.canon_unit_zero zero2]
  simp only [View.readAt_eq_ld, hf0, hf1, hfs, View.ld_unit_zero (S := S256x512) zero2, View.ld_unit_zero (S := S256x384) zero2]

end Cert.ReferenceIdeal.Hand

end
-- ==== Proof.RI_R2.lean ====
import proofs.«101322_g2000704916760673_pallasbulk_724_3_alg».proof.Proof.RI_R2B
import Idealize.ShloMosaic.Lib.Pipeline.FrameBody
import Idealize.ShloMosaic.Lib.Pipeline.Value
import Idealize.ShloMosaic.Lib.Pipeline.Frame
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

theorem hcond2_0 : ∀ t : Fin cfg2.N, cond2_0 (grid2.coords t) ↔ t.val % 16 = 0 :=
  (by decide +kernel : ∀ t : Fin grid2.N, cond2_0 (grid2.coords t) ↔ t.val % 16 = 0)

theorem hcond2_1 : ∀ t : Fin cfg2.N, cond2_1 (grid2.coords t) ↔ t.val % 16 = 15 :=
  (by decide +kernel : ∀ t : Fin grid2.N, cond2_1 (grid2.coords t) ↔ t.val % 16 = 15)

theorem idle2_3 : ∀ t : Fin cfg2.N, ¬t.val % 16 = 15 → cfg2.idle 3 (grid2.coords t) = true :=
  (by decide +kernel : ∀ t : Fin grid2.N, ¬t.val % 16 = 15 → idle2 3 (grid2.coords t) = true)
theorem idle2_4 : ∀ t : Fin cfg2.N, ¬t.val % 16 = 15 → cfg2.idle 4 (grid2.coords t) = true :=
  (by decide +kernel : ∀ t : Fin grid2.N, ¬t.val % 16 = 15 → idle2 4 (grid2.coords t) = true)

theorem live2_3 : ∀ t : Fin cfg2.N, t.val % 16 = 15 → cfg2.idle 3 (grid2.coords t) = false :=
  (by decide +kernel : ∀ t : Fin grid2.N, t.val % 16 = 15 → idle2 3 (grid2.coords t) = false)
theorem live2_4 : ∀ t : Fin cfg2.N, t.val % 16 = 15 → cfg2.idle 4 (grid2.coords t) = false :=
  (by decide +kernel : ∀ t : Fin grid2.N, t.val % 16 = 15 → idle2 4 (grid2.coords t) = false)

theorem noflush2_3 (t : Fin cfg2.N) (h : ¬t.val % 16 = 15) : (cfg2.win 3).flush t = false := by
  cases hf : (cfg2.win 3).flush t
  · rfl
  · exact absurd ((flush2_3 t).mp hf) h
theorem noflush2_4 (t : Fin cfg2.N) (h : ¬t.val % 16 = 15) : (cfg2.win 4).flush t = false := by
  cases hf : (cfg2.win 4).flush t
  · rfl
  · exact absurd ((flush2_4 t).mp hf) h

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hk : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hk t d]
  unfold Dat.fetched Dat.blockOf iblk2; rw [hA]; try rfl
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hk : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hk t d]
  unfold Dat.fetched Dat.blockOf iblk2; rw [hA]; try rfl
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hk : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hk t d]
  unfold Dat.fetched Dat.blockOf iblk2; rw [hA]; try rfl

def stepv (c : Dev nD) (t : Fin cfg2.N) (s : Vec F S256x384 .f32) : Vec F S256x384 .f32 :=
  k2_pay2 (View.ld (iblk2 V c 1 t) (rH (grid2.coords t))) s (iblk2 V c 0 t)

def scrAt (c : Dev nD) : (n : ℕ) → n < cfg2.N → Vec F S256x384 .f32
  | 0, h => stepv V c ⟨0, h⟩ (k2_pay1 (F := F))
  | n + 1, h => stepv V c ⟨n + 1, h⟩ (if (n + 1) % 16 = 0 then (k2_pay1 (F := F)) else scrAt c n (Nat.lt_of_succ_lt h))

theorem scrAt_reset (c : Dev nD) (t : Fin cfg2.N) (h0 : t.val % 16 = 0) :
    scrAt V c t.val t.isLt = stepv V c t (k2_pay1 (F := F)) := by
  obtain ⟨n, hn⟩ := t
  cases n with
  | zero => rfl
  | succ n => show stepv V c _ (if (n + 1) % 16 = 0 then _ else _) = _; rw [if_pos h0]

theorem scrAt_step (c : Dev nD) (t : Fin cfg2.N) (h0 : ¬t.val % 16 = 0) :
    scrAt V c t.val t.isLt = stepv V c t (scrAt V c (t.val - 1) (Nat.lt_of_le_of_lt (Nat.sub_le _ _) t.isLt)) := by
  obtain ⟨n, hn⟩ := t
  cases n with
  | zero => exact absurd (Nat.zero_mod _) h0
  | succ n => show stepv V c _ (if (n + 1) % 16 = 0 then _ else _) = _; rw [if_neg h0]; rfl

abbrev scM2 : Memref sig .tc .vmem S256x384 .f32 := Memref.whole cc2_scratch0

def Phi2 (c : Dev nD) : (n : ℕ) → n ≤ cfg2.N → sProp 𝕄
  | 0, _ => iprop((∃ r, prngReg c r) ∗ Pipeline.scopedRest spec2 c)
  | n + 1, hn => iprop(owns (c : Thread nD τ) scM2 fullShare (scrAt V c n hn) ∗ Pipeline.scopedRestBut spec2 c [cc2_scratch0] ∗ (∃ r, prngReg c r))

theorem Phi2_succ (c : Dev nD) (n : ℕ) (hn : n < cfg2.N) :
    Phi2 V c (n + 1) hn = iprop(owns (c : Thread nD τ) scM2 fullShare (scrAt V c n hn) ∗ Pipeline.scopedRestBut spec2 c [cc2_scratch0] ∗ (∃ r, prngReg c r)) := rfl

theorem Phi2_pos (c : Dev nD) (n : ℕ) (h : n ≤ cfg2.N) (hz : n ≠ 0) :
    Phi2 V c n h = iprop(owns (c : Thread nD τ) scM2 fullShare (scrAt V c (n - 1) (by omega)) ∗ Pipeline.scopedRestBut spec2 c [cc2_scratch0] ∗ (∃ r, prngReg c r)) := by
  cases n with
  | zero => exact absurd rfl hz
  | succ n => rfl

theorem rest2_eq (c : Dev nD) :
    (Pipeline.scopedRest spec2 c : sProp 𝕄)
      = iprop((∃ d, owns (c : Thread nD τ) scM2 fullShare d) ∗ Pipeline.scopedRestBut spec2 c [cc2_scratch0]) := by
  rw [scopedRest2_split]; simp only [scM2, owns_whole]; rfl

theorem Phi2_any (c : Dev nD) (n : ℕ) (h : n ≤ cfg2.N) :
    Phi2 V c n h ⊢ iprop((∃ d, owns (c : Thread nD τ) scM2 fullShare d) ∗ Pipeline.scopedRestBut spec2 c [cc2_scratch0] ∗ (∃ r, prngReg c r)) := by
  cases n with
  | zero =>
    show iprop((∃ r, prngReg c r) ∗ Pipeline.scopedRest spec2 c) ⊢ _
    rw [rest2_eq]
    iintro ⟨Hg, HS, HB⟩
    isplitl [HS]; · iexact HS
    isplitl [HB]; · iexact HB
    iexact Hg
  | succ n =>
    rw [Phi2_succ]
    iintro ⟨HS, HB, Hg⟩
    isplitl [HS]; · iexists _; iexact HS
    isplitl [HB]; · iexact HB
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay4 (grid2.coords t) (scrAt V c t.val t.isLt) (iblk2 V c 2 t)
    | ⟨4, _⟩ => k2_pay5 (grid2.coords t) (scrAt V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay4 (grid2.coords t) (scrAt V c t.val t.isLt) (iblk2 V c 2 t) := by dsimp only [dat2]
theorem after2_4 (c : Dev nD) (t : Fin cfg2.N) :
    (dat2 V c).after 4 t = k2_pay5 (grid2.coords t) (scrAt V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_at (c : Dev nD) (t : Fin cfg2.N) : (dat2 V c).Φ t.castSucc = Phi2 V c t.val (Nat.le_of_lt t.isLt) := by
  dsimp only [dat2]; simp only [Fin.coe_castSucc]
theorem Phi2_next (c : Dev nD) (t : Fin cfg2.N) : (dat2 V c).Φ t.succ = Phi2 V c (t.val + 1) t.isLt := by
  dsimp only [dat2]; simp only [Fin.val_succ]

abbrev sm0 (t : Fin cfg2.N) : Memref sig .tc .vmem S256x512 .bf16 := win2_0.stage (cfg2.slots t 0)
abbrev sm1 (t : Fin cfg2.N) : Memref sig .tc .vmem S8192x384 .bf16 := win2_1.stage (cfg2.slots t 1)
abbrev sm2 (t : Fin cfg2.N) : Memref sig .tc .vmem S1x384 .f32 := win2_2.stage (cfg2.slots t 2)
abbrev sm3 (t : Fin cfg2.N) : Memref sig .tc .vmem S256x384 .bf16 := win2_3.stage (cfg2.slots t 3)
abbrev sm4 (t : Fin cfg2.N) : Memref sig .tc .vmem S1x2x384 .f32 := win2_4.stage (cfg2.slots t 4)

def bodyPre2 (c : Dev nD) (t : Fin cfg2.N) : sProp 𝕄 :=
  iprop((dat2 V c).Φ t.castSucc ∗ (dat2 V c).owesAt () t.castSucc
    ∗ (∃ d, owns (c : Thread nD τ) (sm0 t) fullShare ((dat2 V c).before 0 t d))
    ∗ (∃ d, owns (c : Thread nD τ) (sm1 t) fullShare ((dat2 V c).before 1 t d))
    ∗ (∃ d, owns (c : Thread nD τ) (sm2 t) fullShare ((dat2 V c).before 2 t d))
    ∗ (∃ d, owns (c : Thread nD τ) (sm3 t) fullShare ((dat2 V c).before 3 t d))
    ∗ (∃ d, owns (c : Thread nD τ) (sm4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

theorem leaves2_0 (c : Dev nD) (t : Fin cfg2.N) :
    (dat2 V c).leavesExact 0 t = owns (c : Thread nD τ) (sm0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (sm1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (sm2 t) fullShare (iblk2 V c 2 t) := by
  unfold Dat.leavesExact; rw [show cfg2.idle 2 (cfg2.grid.coords t) = false from rfl, after2_2]
theorem leaves2_3_last (c : Dev nD) (t : Fin cfg2.N) (h : t.val % 16 = 15) :
    (dat2 V c).leavesExact 3 t = owns (c : Thread nD τ) (sm3 t) fullShare (k2_pay4 (grid2.coords t) (scrAt V c t.val t.isLt) (iblk2 V c 2 t)) := by
  unfold Dat.leavesExact; rw [live2_3 t h, after2_3]
theorem leaves2_4_last (c : Dev nD) (t : Fin cfg2.N) (h : t.val % 16 = 15) :
    (dat2 V c).leavesExact 4 t = owns (c : Thread nD τ) (sm4 t) fullShare (k2_pay5 (grid2.coords t) (scrAt V c t.val t.isLt) (iblk2 V c 2 t)) := by
  unfold Dat.leavesExact; rw [live2_4 t h, after2_4]

set_option maxHeartbeats 2000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl, Phi2_at, Phi2_next, Phi2_succ,
    leaves2_0, leaves2_1, leaves2_2]
  by_cases h0 : t.val % 16 = 0
  · have h1 : ¬t.val % 16 = 15 := by omega
    rw [Dat.leavesExact_idle (dat2 V c) 3 t (idle2_3 t h1) (noflush2_3 t h1),
      Dat.leavesExact_idle (dat2 V c) 4 t (idle2_4 t h1) (noflush2_4 t h1), scrAt_reset V c t h0]
    refine (sep_mono (Phi2_any V c _ _) .rfl).trans ?_
    iintro ⟨⟨HS, HB, Hg⟩, Ho, ⟨%d0, H0⟩, ⟨%d1, H1⟩, ⟨%d2, H2⟩, H3, H4⟩
    iapply (sound_first c Set.univ (grid2.coords t) _ _ _ _ _ _ _ _ _ _ _ _ ((hcond2_0 t).mpr h0) (fun h => h1 ((hcond2_1 t).mp h))
      (iblk2 V c 0 t) (iblk2 V c 1 t) _)
    isplitl [H0]; · iexact H0
    isplitl [H1]; · iexact H1
    isplitl [HS]; · iexact HS
    iintro ⟨H0, H1, HS⟩
    isplitl [HS HB Hg]
    · isplitl [HS]; · iexact HS
      isplitl [HB]; · iexact HB
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [Phi2_pos V c _ _ hz, scrAt_step V c t h0]
    by_cases h1 : t.val % 16 = 15
    · rw [leaves2_3_last V c t h1, leaves2_4_last V c t h1, scrAt_step V c t h0]
      iintro ⟨⟨HS, HB, Hg⟩, Ho, ⟨%d0, H0⟩, ⟨%d1, H1⟩, ⟨%d2, H2⟩, ⟨%d3, H3⟩, ⟨%d4, H4⟩⟩
      iapply (sound_last c Set.univ (grid2.coords t) _ _ _ _ _ _ _ _ _ _ _ _ (fun h => h0 ((hcond2_0 t).mp h)) ((hcond2_1 t).mpr h1)
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 3 t (idle2_3 t h1) (noflush2_3 t h1),
        Dat.leavesExact_idle (dat2 V c) 4 t (idle2_4 t h1) (noflush2_4 t h1)]
      iintro ⟨⟨HS, HB, Hg⟩, Ho, ⟨%d0, H0⟩, ⟨%d1, H1⟩, ⟨%d2, H2⟩, H3, H4⟩
      iapply (sound_mid c Set.univ (grid2.coords t) _ _ _ _ _ _ _ _ _ _ _ _ (fun h => h0 ((hcond2_0 t).mp h)) (fun h => h1 ((hcond2_1 t).mp h))
        (iblk2 V c 0 t) (iblk2 V c 1 t) _ _)
      isplitl [H0]; · iexact H0
      isplitl [H1]; · iexact H1
      isplitl [HS]; · iexact HS
      iintro ⟨H0, H1, HS⟩
      isplitl [HS HB Hg]
      · isplitl [HS]; · iexact HS
        isplitl [HB]; · iexact HB
        iexact Hg
      isplitl [Ho]; · iexact Ho
      isplitl [H0]; · iexact H0
      isplitl [H1]; · iexact H1
      isplitl [H2]; · iexact H2
      isplitl [H3]; · iexact H3
      iexact H4

theorem body_obligation2 (c : Dev nD) : BodyObligation (dat2 (F := F) V c) (defs₀ (F := F)) Variants.none () Set.univ := fun t => by
  rw [bigSep_W2, bigSep_W2]
  exact sound_body2 V c t

theorem phi_in2 (c : Dev nD) : iprop((∃ r, prngReg c r) ∗ Pipeline.scopedRest spec2 c) ⊢ (dat2 V c).Φ 0 :=
  Idealize.SL.BI.Entails.refl _

theorem phi_out2 (c : Dev nD) : (dat2 V c).Φ (Fin.last cfg2.N) ⊢ iprop((∃ r, prngReg c r) ∗ Pipeline.scopedRest spec2 c) := by
  have hN : cfg2.N ≠ 0 := by show grid2.N ≠ 0; rw [N_2]; decide
  rw [show (dat2 V c).Φ (Fin.last cfg2.N) = Phi2 V c cfg2.N (Nat.le_refl _) from rfl, Phi2_pos V c _ _ hN, rest2_eq]
  iintro ⟨HS, HB, Hg⟩
  isplitl [Hg]; · iexact Hg
  isplitl [HS]; · iexists _; iexact HS
  iexact HB

end Region

end Cert.ReferenceIdeal.Hand

end
-- ==== Proof.RI_R3.lean ====
import proofs.«101322_g2000704916760673_pallasbulk_724_3_alg».proof.Proof.Gen.ReferenceIdeal.Launch
import proofs.«101322_g2000704916760673_pallasbulk_724_3_alg».proof.Proof.Gen.ReferenceIdeal.Skeleton
import proofs.«101322_g2000704916760673_pallasbulk_724_3_alg».proof.Proof.Gen.ReferenceIdeal.Points
import Idealize.ShloMosaic.Lib.Pipeline.FrameBody
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section Before

variable {V}
variable {c : Dev nD} (dat : Dat τ (Elt F) Unit ℕ (UR sig nD τ) ℕ cfg3 c)

theorem before3_0_of (hA : dat.A 0 = V c (Pipeline.arrRef spec3 0)) (hafter : ∀ t, dat.after 0 t = iblk3 V c 0 t)
    (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  rw [dat.before_in_eq_fetched 0 rfl (fun _ => rfl) (fun _ _ _ => rfl) hkeep t d]
  unfold Dat.fetched Dat.blockOf iblk3; rw [hA]; try rfl

theorem before3_1_of (hA : dat.A 1 = V c (Pipeline.arrRef spec3 1)) (hafter : ∀ t, dat.after 1 t = iblk3 V c 1 t)
    (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  rw [dat.before_in_eq_fetched 1 rfl (fun _ => rfl) (fun _ _ _ => rfl) hkeep t d]
  unfold Dat.fetched Dat.blockOf iblk3; rw [hA]; try rfl

theorem before3_2_of (hA : dat.A 2 = V c (Pipeline.arrRef spec3 2)) (hafter : ∀ t, dat.after 2 t = iblk3 V c 2 t)
    (t : Fin cfg3.N) (d) : dat.before 2 t d = iblk3 V c 2 t := by
  have hkeep : ∀ t, (cfg3.win 2).cut (cfg3.grid.coords t) (dat.after 2 t) = dat.blockOf 2 t := fun t => by
    rw [hafter]; unfold Dat.blockOf iblk3; rw [hA]; try rfl
  rw [dat.before_in_eq_fetched 2 rfl (fun _ => rfl) (fun _ _ _ => rfl) hkeep t d]
  unfold Dat.fetched Dat.blockOf iblk3; rw [hA]; try rfl

theorem before3_3_of (hA : dat.A 3 = V c (Pipeline.arrRef spec3 3)) (hafter : ∀ t, dat.after 3 t = iblk3 V c 3 t)
    (t : Fin cfg3.N) (d) : dat.before 3 t d = iblk3 V c 3 t := by
  have hkeep : ∀ t, (cfg3.win 3).cut (cfg3.grid.coords t) (dat.after 3 t) = dat.blockOf 3 t := fun t => by
    rw [hafter]; unfold Dat.blockOf iblk3; rw [hA]; try rfl
  rw [dat.before_in_eq_fetched 3 rfl (fun _ => rfl) (fun _ _ _ => rfl) hkeep t d]
  unfold Dat.fetched Dat.blockOf iblk3; rw [hA]; try rfl

end Before

abbrev rX3 : Rect S256x384 := Rect.unit (s := S256x384) ![0, 0] S256x384.size inb_S256x384_S256x384_0_0
abbrev rRow3 : Rect S1x384 := Rect.unit (s := S1x384) ![0, 0] S1x384.size inb_S1x384_S1x384_0_0
abbrev rW3 : Rect S384x256 := Rect.unit (s := S384x256) ![0, 0] S384x256.size inb_S384x256_S384x256_0_0
abbrev rOut3 : Rect S256x256 := Rect.unit (s := S256x256) ![0, 0] S256x256.size inb_S256x256_S256x256_0_0

def out3_4 (x : Vec F S256x384 .bf16) (s t : Vec F S1x384 .f32) (w : Vec F S384x256 .bf16) : Vec F S256x256 .bf16 :=
  View.canon [⟨rOut3, k3_pay1 (View.ld x rX3) (View.ld s rRow3) (View.ld t rRow3) (View.ld w rW3)⟩]

theorem cover3_4 (p : Vec F S256x256 .bf16) (y : S256x256.Idx) :
    ∃ pc ∈ ([⟨rOut3, p⟩] : List (View.Piece (Elt F) S256x256 .bf16)), y ∈ pc.1.set :=
  View.cover_of_tiled [⟨rOut3, p⟩] S256x256.size (by rfl) y

set_option maxHeartbeats 1000000 in

theorem sound_kernel3 (c : Dev nD) (E : Set ℕ) (i : grid3.Coords)
    (a0 : Memref sig .tc .vmem S256x384 .bf16) (h0 : a0.IsWhole) (a1 : Memref sig .tc .vmem S1x384 .f32) (h1 : a1.IsWhole)
    (a2 : Memref sig .tc .vmem S1x384 .f32) (h2 : a2.IsWhole) (a3 : Memref sig .tc .vmem S384x256 .bf16) (h3 : a3.IsWhole)
    (a4 : Memref sig .tc .vmem S256x256 .bf16) (h4 : a4.IsWhole)
    (x : Vec F S256x384 .bf16) (s t : Vec F S1x384 .f32) (w : Vec F S384x256 .bf16) (K : PUnit → sProp 𝕄) :
    iprop(owns (c : Thread nD τ) a0 fullShare x ∗ owns (c : Thread nD τ) a1 fullShare s ∗ owns (c : Thread nD τ) a2 fullShare t
        ∗ owns (c : Thread nD τ) a3 fullShare w ∗ (∃ d, owns (c : Thread nD τ) a4 fullShare d)
        ∗ (iprop(owns (c : Thread nD τ) a0 fullShare x ∗ owns (c : Thread nD τ) a1 fullShare s ∗ owns (c : Thread nD τ) a2 fullShare t
            ∗ owns (c : Thread nD τ) a3 fullShare w ∗ owns (c : Thread nD τ) a4 fullShare (out3_4 x s t w)) -∗ K ⟨⟩))
      ⊢ wp frame (wpE (defs₀ (F := F)) Variants.none c none) E (cc3_affine_matmul_kernel i a0 h0 a1 h1 a2 h2 a3 h3 a4 h4) K := by
  simp only [cc3_affine_matmul_kernel_eq_skeleton]; unfold cc3_affine_matmul_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of (dat3 V c) (A_eq3 V c 0) (after3_0 V c) t d
theorem before3_1 (c : Dev nD) (t : Fin cfg3.N) (d) : (dat3 V c).before 1 t d = iblk3 V c 1 t :=
  before3_1_of (dat3 V c) (A_eq3 V c 1) (after3_1 V c) t d
theorem before3_2 (c : Dev nD) (t : Fin cfg3.N) (d) : (dat3 V c).before 2 t d = iblk3 V c 2 t :=
  before3_2_of (dat3 V c) (A_eq3 V c 2) (after3_2 V c) t d
theorem before3_3 (c : Dev nD) (t : Fin cfg3.N) (d) : (dat3 V c).before 3 t d = iblk3 V c 3 t :=
  before3_3_of (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

theorem phi_in3 (c : Dev nD) : iprop((∃ r, prngReg c r) ∗ Pipeline.scopedRest spec3 c) ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem phi_out3 (c : Dev nD) : (dat3 V c).Φ (Fin.last cfg3.N) ⊢ iprop((∃ r, prngReg c r) ∗ Pipeline.scopedRest spec3 c) := by
  rw [show (dat3 V c).Φ (Fin.last _) = Pipeline.ΦA spec3 c from rfl]; unfold Pipeline.ΦA
  iintro ⟨Hr, Hp⟩
  isplitl [Hp]; · iexact Hp
  iexact Hr

end Cert.ReferenceIdeal.Hand

end
-- ==== Proof.RI_R4.lean ====
import proofs.«101322_g2000704916760673_pallasbulk_724_3_alg».proof.Proof.Gen.ReferenceIdeal.Launch
import proofs.«101322_g2000704916760673_pallasbulk_724_3_alg».proof.Proof.Gen.ReferenceIdeal.Skeleton
import proofs.«101322_g2000704916760673_pallasbulk_724_3_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1

abbrev cond4_1 (i : grid4.Coords) : Prop := (Scalar.cmpi .ne (Scalar.extui (Scalar.cmpi .eq (BitVec.ofNat 32 (i 1).val) 15#32)) 0#32) = 1#1

theorem hcond4_0 : ∀ t : Fin cfg4.N, cond4_0 (grid4.coords t) ↔ t.val % 16 = 0 :=
  (by decide +kernel : ∀ t : Fin grid4.N, cond4_0 (grid4.coords t) ↔ t.val % 16 = 0)

theorem hcond4_1 : ∀ t : Fin cfg4.N, cond4_1 (grid4.coords t) ↔ t.val % 16 = 15 :=
  (by decide +kernel : ∀ t : Fin grid4.N, cond4_1 (grid4.coords t) ↔ t.val % 16 = 15)

theorem hz4 : (![0, 0] : Fin 2 → Nat) = fun _ => 0 := funext fun a => by fin_cases a <;> rfl

abbrev r4_o : Rect S256x256 := Rect.unit (s := S256x256) ![0, 0] S256x256.size inb_S256x256_S256x256_0_0
abbrev r4_a : Rect S256x512 := Rect.unit (s := S256x512) ![0, 0] S256x512.size inb_S256x512_S256x512_0_0
abbrev r4_b : Rect S1x256 := Rect.unit (s := S1x256) ![0, 0] S1x256.size inb_S1x256_S1x256_0_0

abbrev r4_h (i : grid4.Coords) : Rect S8192x256 := Rect.unit (s := S8192x256) (k4_off1 i) S512x256.size (k4_off1_inb i)

def slab4 (i : grid4.Coords) (x1 : Vec F S8192x256 .bf16) : Vec F S512x256 .bf16 := View.ld x1 (r4_h i)

def first4 (i : grid4.Coords) (x0 : Vec F S256x512 .bf16) (x1 : Vec F S8192x256 .bf16) : Vec F S256x256 .f32 :=
  k4_pay2 (slab4 i x1) (k4_pay1 (F := F)) x0

def mid4 (i : grid4.Coords) (x0 : Vec F S256x512 .bf16) (x1 : Vec F S8192x256 .bf16) (o : Vec F S256x256 .f32) : Vec F S256x256 .f32 :=
  k4_pay2 (slab4 i x1) o x0

def last4 (i : grid4.Coords) (x0 : Vec F S256x512 .bf16) (x1 : Vec F S8192x256 .bf16) (x2 : Vec F S1x256 .f32) (o : Vec F S256x256 .f32) : Vec F S256x256 .f32 :=
  k4_pay3 (k4_pay2 (slab4 i x1) o x0) x2

theorem cover4_o (w : Vec F S256x256 .f32) (L : List (View.Piece (Elt F) S256x256 .f32)) (y : S256x256.Idx) :
    ∃ pc ∈ ((⟨r4_o, w⟩ : View.Piece (Elt F) S256x256 .f32) :: L), y ∈ pc.1.set :=
  ⟨_, List.mem_cons_self .., View.mem_set_unit_zero (S := S256x256) hz4 inb_S256x256_S256x256_0_0 y⟩

set_option maxHeartbeats 1000000 in

theorem sound_kernel4_first (c : Dev nD) (E : Set ℕ) (i : grid4.Coords)
    (arg2 : Memref sig .tc .vmem S256x512 .bf16) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S256x256 .f32) (harg5 : arg5.IsWhole)
    (hc0 : cond4_0 i) (hc1 : ¬cond4_1 i)
    (x0 : Vec F S256x512 .bf16) (x1 : Vec F S8192x256 .bf16) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (first4 i x0 x1)) -∗ K ⟨⟩))
      ⊢ wp frame (wpE (defs₀ (F := F)) Variants.none c none) E (cc4__kernel_body i arg2 harg2 arg3 harg3 arg4 harg4 arg5 harg5) K := by
  simp only [cc4__kernel_body_eq_skeleton]; unfold cc4__kernel_body_skel
  unfold owns
  iintro ⟨⟨%f0, %hf0, H0⟩, ⟨%f1, %hf1, H1⟩, ⟨%f2, %hf2, H2⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_run_names
  refine (View.read_writes_eq_canon _ _ _ (cover4_o _ _)).trans ?_
  refine (View.canon_cons_unit_zero (S := S256x256) hz4 _ _ _).trans ?_
  unfold first4 slab4
  rw [View.readCov_unit_zero (S := S256x256) _ hz4, View.readAt_eq_ld, View.readAt_eq_ld, View.ld_unit_zero (S := S256x512) hz4]

set_option maxHeartbeats 1000000 in

theorem sound_kernel4_mid (c : Dev nD) (E : Set ℕ) (i : grid4.Coords)
    (arg2 : Memref sig .tc .vmem S256x512 .bf16) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S256x256 .f32) (harg5 : arg5.IsWhole)
    (hc0 : ¬cond4_0 i) (hc1 : ¬cond4_1 i)
    (x0 : Vec F S256x512 .bf16) (x1 : Vec F S8192x256 .bf16) (x2 : Vec F S1x256 .f32) (o : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o
        ∗ (iprop(owns (c : Thread nD τ) arg2 fullShare x0 ∗ owns (c : Thread nD τ) arg3 fullShare x1 ∗ owns (c : Thread nD τ) arg4 fullShare x2
            ∗ owns (c : Thread nD τ) arg5 fullShare (mid4 i x0 x1 o)) -∗ K ⟨⟩))
      ⊢ wp frame (wpE (defs₀ (F := F)) Variants.none c none) E (cc4__kernel_body i arg2 harg2 arg3 harg3 arg4 harg4 arg5 harg5) K := by
  simp only [cc4__kernel_body_eq_skeleton]; unfold cc4__kernel_body_skel
  unfold owns
  iintro ⟨⟨%f0, %hf0, H0⟩, ⟨%f1, %hf1, H1⟩, ⟨%f2, %hf2, H2⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  refine (View.read_writes_eq_canon _ _ _ (cover4_o _ _)).trans ?_
  refine (View.canon_cons_unit_zero (S := S256x256) hz4 _ _ _).trans ?_
  unfold mid4 slab4
  rw [View.readAt_eq_ld, View.readAt_eq_ld, View.readAt_eq_ld]
  rw [View.ld_unit_zero (S := S256x512) hz4, View.ld_unit_zero (S := S256x256) hz4]

set_option maxHeartbeats 1000000 in

theorem sound_kernel4_last (c : Dev nD) (E : Set ℕ) (i : grid4.Coords)
    (arg2 : Memref sig .tc .vmem S256x512 .bf16) (harg2 : arg2.IsWhole) (arg3 : Memref sig .tc .vmem S8192x256 .bf16) (harg3 : arg3.IsWhole)
    (arg4 : Memref sig .tc .vmem S1x256 .f32) (harg4 : arg4.IsWhole) (arg5 : Memref sig .tc .vmem S256x256 .f32) (harg5 : arg5.IsWhole)
    (hc0 : ¬cond4_0 i) (hc1 : cond4_1 i)
    (x0 : Vec F S256x512 .bf16) (x1 : Vec F S8192x256 .bf16) (x2 : Vec F S1x256 .f32) (o : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o
        ∗ (iprop(owns (c : Thread nD τ) arg2 fullShare x0 ∗ owns (c : Thread nD τ) arg3 fullShare x1 ∗ owns (c : Thread nD τ) arg4 fullShare x2
            ∗ owns (c : Thread nD τ) arg5 fullShare (last4 i x0 x1 x2 o)) -∗ K ⟨⟩))
      ⊢ wp frame (wpE (defs₀ (F := F)) Variants.none c none) E (cc4__kernel_body i arg2 harg2 arg3 harg3 arg4 harg4 arg5 harg5) K := by
  simp only [cc4__kernel_body_eq_skeleton]; unfold cc4__kernel_body_skel
  unfold owns
  iintro ⟨⟨%f0, %hf0, H0⟩, ⟨%f1, %hf1, H1⟩, ⟨%f2, %hf2, H2⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_run_names
  refine (View.read_writes_eq_canon _ _ _ (cover4_o _ _)).trans ?_
  refine (View.canon_cons_unit_zero (S := S256x256) hz4 _ _ _).trans ?_
  unfold last4 slab4
  rw [View.readCov_unit_zero (S := S256x256) _ hz4]
  rw [View.readAt_eq_ld, View.readAt_eq_ld, View.readAt_eq_ld, View.readAt_eq_ld]
  rw [View.ld_unit_zero (S := S256x512) hz4, View.ld_unit_zero (S := S256x256) hz4, View.ld_unit_zero (S := S1x256) hz4]

def outsAt4 (c : Dev nD) : (n : ℕ) → n < cfg4.N → Vec F S256x256 .f32
  | 0, hn => first4 (grid4.coords ⟨0, hn⟩) (iblk4 V c 0 ⟨0, hn⟩) (iblk4 V c 1 ⟨0, hn⟩)
  | n + 1, hn =>
    if h0 : (n + 1) % 16 = 0 then
      first4 (grid4.coords ⟨n + 1, hn⟩) (iblk4 V c 0 ⟨n + 1, hn⟩) (iblk4 V c 1 ⟨n + 1, hn⟩)
    else if h1 : (n + 1) % 16 = 15 then
      last4 (grid4.coords ⟨n + 1, hn⟩) (iblk4 V c 0 ⟨n + 1, hn⟩) (iblk4 V c 1 ⟨n + 1, hn⟩) (iblk4 V c 2 ⟨n + 1, hn⟩)
        (outsAt4 c n (Nat.lt_of_succ_lt hn))
    else
      mid4 (grid4.coords ⟨n + 1, hn⟩) (iblk4 V c 0 ⟨n + 1, hn⟩) (iblk4 V c 1 ⟨n + 1, hn⟩) (outsAt4 c n (Nat.lt_of_succ_lt hn))

theorem outsAt4_first (c : Dev nD) (t : Fin cfg4.N) (h0 : t.val % 16 = 0) :
    outsAt4 V c t.val t.isLt = first4 (grid4.coords t) (iblk4 V c 0 t) (iblk4 V c 1 t) := by
  obtain ⟨n, hn⟩ := t
  cases n with
  | zero => exact rfl
  | succ n => exact (dif_pos h0).trans rfl

theorem outsAt4_last (c : Dev nD) (t : Fin cfg4.N) (h1 : t.val % 16 = 15) :
    outsAt4 V c t.val t.isLt = last4 (grid4.coords t) (iblk4 V c 0 t) (iblk4 V c 1 t) (iblk4 V c 2 t)
      (outsAt4 V c (t.val - 1) (Nat.lt_of_le_of_lt (Nat.sub_le _ _) t.isLt)) := by
  obtain ⟨n, hn⟩ := t
  cases n with
  | zero => exact (by exfalso; (try dsimp only at h1); omega)
  | succ n =>
    have h0 : ¬(n + 1) % 16 = 0 := fun h => by dsimp only at h1; omega
    exact (dif_neg h0).trans ((dif_pos h1).trans rfl)

theorem outsAt4_mid (c : Dev nD) (t : Fin cfg4.N) (h0 : ¬t.val % 16 = 0) (h1 : ¬t.val % 16 = 15) :
    outsAt4 V c t.val t.isLt = mid4 (grid4.coords t) (iblk4 V c 0 t) (iblk4 V c 1 t)
      (outsAt4 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outsAt4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

theorem before4_3_kept (c : Dev nD) (t : Fin cfg4.N) (h0 : ¬t.val % 16 = 0) (d) :
    (dat4 V c).before 3 t d = outsAt4 V c (t.val - 1) (Nat.lt_of_le_of_lt (Nat.sub_le _ _) t.isLt) := by
  rw [Dat.before_out_kept _ 3 rfl t (fun h => h0 (by rw [h])) (Bool.eq_false_iff.mpr fun h => by
      have := (flush4_3 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  by_cases h0 : t.val % 16 = 0
  · have h1 : ¬t.val % 16 = 15 := by omega
    rw [outsAt4_first V c t h0]
    iintro ⟨HΦ, Ho, ⟨%d0, H0⟩, ⟨%d1, H1⟩, ⟨%d2, H2⟩, ⟨%d3, H3⟩⟩
    iapply (sound_kernel4_first c Set.univ (grid4.coords t) _ _ _ _ _ _ _ _ ((hcond4_0 t).mpr h0) (fun h => h1 ((hcond4_1 t).mp h))
      (iblk4 V c 0 t) (iblk4 V c 1 t) (iblk4 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h1 : t.val % 16 = 15
    · rw [outsAt4_last V c t h1]
      simp only [before4_3_kept V c t h0]
      iintro ⟨HΦ, Ho, ⟨%d0, H0⟩, ⟨%d1, H1⟩, ⟨%d2, H2⟩, ⟨%d3, H3⟩⟩
      iapply (sound_kernel4_last c Set.univ (grid4.coords t) _ _ _ _ _ _ _ _ (fun h => h0 ((hcond4_0 t).mp h)) ((hcond4_1 t).mpr h1)
        (iblk4 V c 0 t) (iblk4 V c 1 t) (iblk4 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt4_mid V c t h0 h1]
      simp only [before4_3_kept V c t h0]
      iintro ⟨HΦ, Ho, ⟨%d0, H0⟩, ⟨%d1, H1⟩, ⟨%d2, H2⟩, ⟨%d3, H3⟩⟩
      iapply (sound_kernel4_mid c Set.univ (grid4.coords t) _ _ _ _ _ _ _ _ (fun h => h0 ((hcond4_0 t).mp h)) (fun h => h1 ((hcond4_1 t).mp h))
        (iblk4 V c 0 t) (iblk4 V c 1 t) (iblk4 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

theorem body_obligation4 (c : Dev nD) : BodyObligation (dat4 (F := F) V c) (defs₀ (F := F)) Variants.none () Set.univ := fun t => by
  rw [bigSep_W4, bigSep_W4]
  exact sound_body4 V c t

theorem phi_in4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [show (dat4 V c).Φ 0 = Pipeline.ΦA spec4 c from rfl]; unfold Pipeline.ΦA
  iintro ⟨Hp, Hr⟩
  isplitl [Hr]; · iexact Hr
  iexact Hp

theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) (Val := Elt F) spec4 c) : sProp 𝕄) := by
  rw [show (dat4 V c).Φ (Fin.last cfg4.N) = Pipeline.ΦA spec4 c from rfl]; unfold Pipeline.ΦA
  iintro ⟨Hr, Hp⟩
  isplitl [Hp]; · iexact Hp
  iexact Hr

end Cert.ReferenceIdeal.Hand

end
-- ==== Proof.RI_Bundle.lean ====
import proofs.«101322_g2000704916760673_pallasbulk_724_3_alg».proof.Proof.RI_RunArgs
import proofs.«101322_g2000704916760673_pallasbulk_724_3_alg».proof.Proof.RI_R0
import proofs.«101322_g2000704916760673_pallasbulk_724_3_alg».proof.Proof.RI_R1
import proofs.«101322_g2000704916760673_pallasbulk_724_3_alg».proof.Proof.RI_R2
import proofs.«101322_g2000704916760673_pallasbulk_724_3_alg».proof.Proof.RI_R3
import proofs.«101322_g2000704916760673_pallasbulk_724_3_alg».proof.Proof.RI_R4

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

def regions : Regions F where
  r0 := { dat := dat0, hA := A_eq0, hbody := body_obligation0, hin := phi_in0, hout := phi_out0 }
  r1 := { dat := dat1, hA := A_eq1, hbody := body_obligation1, hin := phi_in1, hout := phi_out1 }
  r2 := { dat := dat2, hA := A_eq2, hbody := body_obligation2, hin := phi_in2, hout := phi_out2 }
  r3 := { dat := dat3, hA := A_eq3, hbody := body_obligation3, hin := phi_in3, hout := phi_out3 }
  r4 := { dat := dat4, hA := A_eq4, hbody := body_obligation4, hin := phi_in4, hout := phi_out4 }

end Cert.ReferenceIdeal.Hand

end
-- ==== Proof.RI_V0a.lean ====
import proofs.«101322_g2000704916760673_pallasbulk_724_3_alg».proof.Proof.Gen.ReferenceIdeal.Skeleton
import proofs.«101322_g2000704916760673_pallasbulk_724_3_alg».proof.Proof.LibValue
import Idealize.ShloMosaic.Lib.Pipeline.Value

noncomputable section

open scoped BigOperators

namespace Cert.ReferenceIdeal.HandV

open Cert.ReferenceIdeal Cert.ReferenceIdeal.Gen Cert.LibValue Idealize.ShloMosaic Idealize.ShloMosaic.ValueIdx

theorem pay3_eq0 (x : Vec Ideal S256x512 .f32) : k0_pay3 (F := Ideal) x = x := shapeCast_self x _

/-- A row plus the column sums of a block, at column `j`. -/
theorem rowPlusColSum_apply (y : FVec Ideal S256x512 .f32) (a : Vec Ideal S1x512 .f32) (j : Fin 512) :
    addf (shapeCast S1x512 a shapeCasts_S1x512_S1x512)
        (shapeCast S1x512 (multiReduction (F := Ideal) .add [0] S512 y 0x00000000#32 reduces_S256x512_S512 (.inl rfl) rfl)
          shapeCasts_S512_S1x512) (ix2 (0 : Fin 1) j)
      = a (ix2 (0 : Fin 1) j) + ∑ r : Fin 256, y (ix2 r j) :=
  (addf_apply _ _ _).trans (congrArg₂ (· + ·) (congrFun (shapeCast_self a _) _)
    ((shapeCast_a_1a_apply _ shapeCasts_S512_S1x512 0 j).trans (colSum_apply y _ j)))

theorem pay4_apply0 (x : Vec Ideal S256x512 .f32) (a : Vec Ideal S1x512 .f32) (j : Fin 512) :
    k0_pay4 x a (ix2 (0 : Fin 1) j) = a (ix2 (0 : Fin 1) j) + ∑ r : Fin 256, x (ix2 r j) :=
  (rowPlusColSum_apply (k0_pay3 x) a j).trans (by rw [pay3_eq0])

theorem pay5_apply0 (x : Vec Ideal S256x512 .f32) (a : Vec Ideal S1x512 .f32) (j : Fin 512) :
    k0_pay5 x a (ix2 (0 : Fin 1) j) = a (ix2 (0 : Fin 1) j) + ∑ r : Fin 256, x (ix2 r j) * x (ix2 r j) :=
  (rowPlusColSum_apply (mulf (k0_pay3 x) (k0_pay3 x)) a j).trans (by rw [pay3_eq0]; rfl)

end Cert.ReferenceIdeal.HandV

end
-- ==== Proof.RI_V0.lean ====
import proofs.«101322_g2000704916760673_pallasbulk_724_3_alg».proof.Proof.RI_R0
import proofs.«101322_g2000704916760673_pallasbulk_724_3_alg».proof.Proof.RI_V0a
import proofs.«101322_g2000704916760673_pallasbulk_724_3_alg».proof.Proof.Spec

noncomputable section

open scoped BigOperators

namespace Cert.ReferenceIdeal.HandV

open Idealize.ShloMosaic Idealize.ShloMosaic.TcCoe Idealize.ShloMosaic.ValueIdx
open Idealize.SL Idealize.SL.Sem
open Idealize.ShloMosaic.Pipeline (Dat Cfg Window)
open Cert.ReferenceIdeal.Gen Cert.ReferenceIdeal.Hand Cert.LibValue

/-- The sum of `φ` of column `k` over tile `t`, zero past the last tile. -/
def part0 (φ : EReal → EReal) (X : Spec.Arr2 8192 512) (k : Fin 512) (t : ℕ) : EReal :=
  if h : t < 32 then ∑ r : Fin 256, φ (X (ix2 ⟨256 * t + r.val, by omega⟩ k)) else 0

/-- The 32 tile sums add up to the sum over all rows. -/
theorem parts_eq0 (φ : EReal → EReal) (X : Spec.Arr2 8192 512) (k : Fin 512) :
    ∑ t ∈ Finset.range 32, part0 φ X k t = ∑ i : Fin 8192, φ (X (ix2 i k)) := by
  rw [Finset.sum_range]
  exact (Finset.sum_congr rfl fun t _ => dif_pos t.isLt).trans (Spec.sum_tiles 32 256 8192 rfl fun i => φ (X (ix2 i k)))

def rowArr0 (f : Fin 512 → EReal) : S1x512.Idx → Elt Ideal .f32 := fun y => f (y 1)

section Run

variable (V : (c : Dev nD) → (b : Ref sig .tc) → Buf (Elt Ideal) ((c : Thread nD τ).loc b))

theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem lt32 (t : Fin cfg0.N) : t.val < 32 := lt_of_lt_of_eq t.isLt N_0

def blk0 (c : Dev nD) (t : Fin cfg0.N) : Vec Ideal S256x512 .f32 := iblk0 V c 0 t

/-- Entry (r, k) of the block at point `t` is entry (256·t + r, k) of the array. -/
theorem tile_entry0 (c : Dev nD) (t : Fin cfg0.N) (r : Fin 256) (k : Fin 512) :
    blk0 V c t (ix2 r k)
      = (V c main_v38 : Spec.Arr2 8192 512) (ix2 (⟨256 * t.val + r.val, by have := lt32 t; omega⟩ : Fin 8192) k) := by
  obtain ⟨e0, e1, -⟩ := blockIdx0 t
  exact congrArg (V c main_v38) (idx2_eq (((cfg0.win 0).blk t).view.emb (ix2 r k)) _ k
    (by show win0_0.index t (0 : Fin 2) * 256 + 1 * r.val = 256 * t.val + r.val; rw [e0]; omega)
    (by show win0_0.index t (1 : Fin 2) * 512 + 1 * k.val = k.val; rw [e1]; omega))

theorem blockPart0 (φ : EReal → EReal) (c : Dev nD) (t : Fin cfg0.N) (k : Fin 512) :
    ∑ r : Fin 256, φ (blk0 V c t (ix2 r k)) = part0 φ (V c main_v38) k t.val := by
  unfold part0
  rw [dif_pos (lt32 t)]
  exact Finset.sum_congr rfl fun r _ => congrArg φ (tile_entry0 V c t r k)

/-- A row that starts at zero and gains each point's column sums of `φ` holds, after point `n`, the sums over tiles `0 … n`. -/
theorem acc_apply0 (φ : EReal → EReal) (P : Vec Ideal S256x512 .f32 → Vec Ideal S1x512 .f32 → Vec Ideal S1x512 .f32)
    (hP : ∀ x a j, P x a (ix2 (0 : Fin 1) j) = a (ix2 (0 : Fin 1) j) + ∑ r : Fin 256, φ (x (ix2 r j)))
    (z : Vec Ideal S1x512 .f32) (hz : ∀ j, z (ix2 (0 : Fin 1) j) = 0)
    (c : Dev nD) (acc : ∀ n, n < cfg0.N → Vec Ideal S1x512 .f32)
    (h0 : ∀ h, acc 0 h = P (blk0 V c ⟨0, h⟩) z)
    (hs : ∀ n h, acc (n + 1) h = P (blk0 V c ⟨n + 1, h⟩) (acc n (Nat.lt_of_succ_lt h))) (k : Fin 512) :
    ∀ (n : ℕ) (h : n < cfg0.N), acc n h (ix2 (0 : Fin 1) k) = ∑ t ∈ Finset.range (n + 1), part0 φ (V c main_v38) k t := by
  intro n
  induction n with
  | zero =>
    intro h
    rw [h0, hP, hz, zero_add, Finset.sum_range_one]
    exact blockPart0 V φ c ⟨0, h⟩ k
  | succ n ih =>
    intro h
    rw [hs, hP, ih, Finset.sum_range_succ _ (n + 1)]
    exact congrArg _ (blockPart0 V φ c ⟨n + 1, h⟩ k)

abbrev last0 : Fin cfg0.N := ⟨31, lt_of_lt_of_eq (by decide : 31 < 32) N_0.symm⟩

theorem eq_last0 (t : Fin cfg0.N) (h : t.val % 32 = 31) : t = last0 :=
  Fin.ext (by have := lt32 t; show t.val = 31; omega)

theorem out_emb0_1 (t : Fin cfg0.N) (u : Fin 1) (k : Fin 512) :
    ((cfg0.win 1).blk t).view.emb (ix2 u k) = (ix2 u k : S1x512.Idx) := by
  obtain ⟨-, -, e0, e1, -, -⟩ := blockIdx0 t
  exact idx2_eq _ u k (by show win0_1.index t (0 : Fin 2) * 1 + 1 * u.val = u.val; rw [e0]; omega)
    (by show win0_1.index t (1 : Fin 2) * 512 + 1 * k.val = k.val; rw [e1]; omega)

theorem flushed0_1_eq (c : Dev nD) (t : Fin cfg0.N) (hf : (cfg0.win 1).flush t = true) :
    (dat0 V c).flushed 1 t = ((cfg0.win 1).blk t).view.read (Elt Ideal) (rowArr0 (Spec.colSum (V c main_v38))) := by
  obtain rfl := eq_last0 t ((flush0_1 t).mp hf)
  show (cfg0.win 1).cut (grid0.coords last0) ((dat0 V c).after 1 last0) = _
  rw [after0_1]
  funext y
  obtain ⟨u, k, rfl⟩ : ∃ (u : Fin 1) (k : Fin 512), y = ix2 u k := ⟨y 0, y 1, eq_ix2 y⟩
  obtain rfl : u = 0 := Subsingleton.elim _ _
  show acc0_1 V c 31 last0.isLt (ix2 (0 : Fin 1) k)
    = rowArr0 (Spec.colSum (V c main_v38)) (((cfg0.win 1).blk last0).view.emb (ix2 (0 : Fin 1) k))
  rw [out_emb0_1 last0 0 k, acc_apply0 V id k0_pay4 pay4_apply0 (k0_pay1 (F := Ideal)) (fun j => zeroSplat_apply S1x512 (ix2 (0 : Fin 1) j)) c (acc0_1 V c)
    (fun _ => rfl) (fun _ _ => rfl) k 31 last0.isLt]
  exact parts_eq0 id (V c main_v38) k

theorem covered0_1 (i : S1x512.Idx) :
    ∃ t : Fin cfg0.N, (cfg0.win 1).flush t = true ∧ i ∈ ((cfg0.win 1).blk t).view.set := by
  have h0 : (i 0).val < 1 := (i 0).isLt
  have h1 : (i 1).val < 512 := (i 1).isLt
  obtain ⟨-, -, e0, e1, -, -⟩ := blockIdx0 last0
  refine ⟨last0, (flush0_1 last0).mpr (by decide), ?_⟩
  show i ∈ ((View.whole main_v51_0).slice (win0_1.rect last0)).set
  rw [View.set_slice_whole, Rect.mem_set_unit]
  intro a
  match a with
  | ⟨0, _⟩ => show win0_1.index last0 (0 : Fin 2) * 1 ≤ (i 0).val ∧ (i 0).val < win0_1.index last0 (0 : Fin 2) * 1 + 1; omega
  | ⟨1, _⟩ => show win0_1.index last0 (1 : Fin 2) * 512 ≤ (i 1).val ∧ (i 1).val < win0_1.index last0 (1 : Fin 2) * 512 + 512; omega

theorem out_emb0_2 (t : Fin cfg0.N) (u : Fin 1) (k : Fin 512) :
    ((cfg0.win 2).blk t).view.emb (ix2 u k) = (ix2 u k : S1x512.Idx) := by
  obtain ⟨-, -, -, -, e0, e1⟩ := blockIdx0 t
  exact idx2_eq _ u k (by show win0_2.index t (0 : Fin 2) * 1 + 1 * u.val = u.val; rw [e0]; omega)
    (by show win0_2.index t (1 : Fin 2) * 512 + 1 * k.val = k.val; rw [e1]; omega)

theorem flushed0_2_eq (c : Dev nD) (t : Fin cfg0.N) (hf : (cfg0.win 2).flush t = true) :
    (dat0 V c).flushed 2 t = ((cfg0.win 2).blk t).view.read (Elt Ideal) (rowArr0 (Spec.colSumSq (V c main_v38))) := by
  obtain rfl := eq_last0 t ((flush0_2 t).mp hf)
  show (cfg0.win 2).cut (grid0.coords last0) ((dat0 V c).after 2 last0) = _
  rw [after0_2]
  funext y
  obtain ⟨u, k, rfl⟩ : ∃ (u : Fin 1) (k : Fin 512), y = ix2 u k := ⟨y 0, y 1, eq_ix2 y⟩
  obtain rfl : u = 0 := Subsingleton.elim _ _
  show acc0_2 V c 31 last0.isLt (ix2 (0 : Fin 1) k)
    = rowArr0 (Spec.colSumSq (V c main_v38)) (((cfg0.win 2).blk last0).view.emb (ix2 (0 : Fin 1) k))
  rw [out_emb0_2 last0 0 k, acc_apply0 V (fun y => y * y) k0_pay5 pay5_apply0 (k0_pay2 (F := Ideal)) (fun j => zeroSplat_apply S1x512 (ix2 (0 : Fin 1) j)) c (acc0_2 V c)
    (fun _ => rfl) (fun _ _ => rfl) k 31 last0.isLt]
  exact parts_eq0 (fun y => y * y) (V c main_v38) k

theorem covered0_2 (i : S1x512.Idx) :
    ∃ t : Fin cfg0.N, (cfg0.win 2).flush t = true ∧ i ∈ ((cfg0.win 2).blk t).view.set := by
  have h0 : (i 0).val < 1 := (i 0).isLt
  have h1 : (i 1).val < 512 := (i 1).isLt
  obtain ⟨-, -, -, -, e0, e1⟩ := blockIdx0 last0
  refine ⟨last0, (flush0_2 last0).mpr (by decide), ?_⟩
  show i ∈ ((View.whole main_v51_1).slice (win0_2.rect last0)).set
  rw [View.set_slice_whole, Rect.mem_set_unit]
  intro a
  match a with
  | ⟨0, _⟩ => show win0_2.index last0 (0 : Fin 2) * 1 ≤ (i 0).val ∧ (i 0).val < win0_2.index last0 (0 : Fin 2) * 1 + 1; omega
  | ⟨1, _⟩ => show win0_2.index last0 (1 : Fin 2) * 512 ≤ (i 1).val ∧ (i 1).val < win0_2.index last0 (1 : Fin 2) * 512 + 512; omega

theorem arrAt0_1_sum (c : Dev nD) (k : Fin 512) :
    (dat0 (F := Ideal) V c).arrAt 1 cfg0.N (ix2 (0 : Fin 1) k) = Spec.colSum (V c main_v38) k :=
  congrFun ((dat0 V c).arrAt_eq_of_cover 1 (rowArr0 (Spec.colSum (V c main_v38))) (flushed0_1_eq V c) covered0_1) (ix2 0 k)

theorem arrAt0_2_sumSq (c : Dev nD) (k : Fin 512) :
    (dat0 (F := Ideal) V c).arrAt 2 cfg0.N (ix2 (0 : Fin 1) k) = Spec.colSumSq (V c main_v38) k :=
  congrFun ((dat0 V c).arrAt_eq_of_cover 2 (rowArr0 (Spec.colSumSq (V c main_v38))) (flushed0_2_eq V c) covered0_2) (ix2 0 k)

end Run

end Cert.ReferenceIdeal.HandV

end
-- ==== Proof.RI_V1.lean ====
import proofs.«101322_g2000704916760673_pallasbulk_724_3_alg».proof.Proof.RI_R1
import proofs.«101322_g2000704916760673_pallasbulk_724_3_alg».proof.Proof.Spec
import proofs.«101322_g2000704916760673_pallasbulk_724_3_alg».proof.Proof.LibValue
import Idealize.ShloMosaic.Lib.Pipeline.Value

set_option maxRecDepth 16384

noncomputable section

namespace Cert.ReferenceIdeal.HandV

open Cert.ReferenceIdeal Cert.ReferenceIdeal.Gen Cert.ReferenceIdeal.Hand Cert.LibValue
open Idealize.ShloMosaic Idealize.ShloMosaic.TcCoe Idealize.SL.Sem
open Idealize.ShloMosaic.ValueIdx
open Idealize.ShloMosaic.Pipeline (Dat)
open scoped BigOperators

/-- A block scaled and shifted by two rows, times a matrix, at `(p, q)`: over the extended reals the roundings are the identity. -/
theorem affineProduct_apply {m k n : ℕ} (x : FVec Ideal ⟨2, ![m, k]⟩ .f32) (s t : FVec Ideal ⟨2, ![1, k]⟩ .f32)
    (w : FVec Ideal ⟨2, ![k, n]⟩ .bf16) (hb : (⟨2, ![1, k]⟩ : Shape).Broadcasts ⟨2, ![m, k]⟩)
    (hlt : FTy.bits .bf16 < FTy.bits .f32) (p : Fin m) (q : Fin n) :
    truncf .bf16 (matmul (F := Ideal) (DotDims.plain m k n) none
        (truncf .bf16 (addf (mulf x (broadcastTo ⟨2, ![m, k]⟩ s hb)) (broadcastTo ⟨2, ![m, k]⟩ t hb)) hlt) w
        (constant (F := Ideal) ⟨2, ![m, n]⟩ .f32 0x00000000#32)) hlt (ix2 p q)
      = ∑ c : Fin k, (x (ix2 p c) * s (ix2 0 c) + t (ix2 0 c)) * w (ix2 c q) :=
  (truncf_apply _ hlt _).trans ((matmul_plain_apply _ w p q).trans (Finset.sum_congr rfl fun c _ => by
    show (x (ix2 p c) * broadcastTo ⟨2, ![m, k]⟩ s hb (ix2 p c) + broadcastTo ⟨2, ![m, k]⟩ t hb (ix2 p c)) * w (ix2 c q) = _
    rw [broadcastTo_1b_ab_apply, broadcastTo_1b_ab_apply]))

theorem pay1_apply (x : Vec Ideal S256x512 .f32) (s t : Vec Ideal S1x512 .f32) (w : Vec Ideal S512x384 .bf16)
    (p : Fin 256) (q : Fin 384) :
    k1_pay1 (F := Ideal) x s t w (ix2 p q) = ∑ k : Fin 512, (x (ix2 p k) * s (ix2 0 k) + t (ix2 0 k)) * w (ix2 k q) := by
  unfold k1_pay1
  simp only [shapeCast_self]
  exact affineProduct_apply x s t w _ _ p q

variable (V : (c : Dev nD) → (b : Ref sig .tc) → Buf (Elt Ideal) ((c : Thread nD τ).loc b))

abbrev X1 (c : Dev nD) : Spec.Arr2 8192 512 := V c main_v38
abbrev Sc1 (c : Dev nD) : Spec.Arr2 1 512 := V c main_v63
abbrev Sh1 (c : Dev nD) : Spec.Arr2 1 512 := V c main_v65
abbrev Wm1 (c : Dev nD) : Spec.Arr2 512 384 := V c main_v44

abbrev G1 (c : Dev nD) : S8192x384.Idx → Elt Ideal .bf16 :=
  Spec.mk2 (Spec.affine (X1 V c) (Sc1 V c) (Sh1 V c) (Wm1 V c))

theorem hz1 : (![0, 0] : Fin 2 → Nat) = fun _ => 0 := funext fun a => by fin_cases a <;> rfl

theorem idx_facts1 : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 31 ∧ win1_4.index t (1 : Fin 2) = 0 :=
  (by decide +kernel : ∀ t : Fin grid1.N, _)

theorem idx_onto1 : ∀ b : Fin 32, ∃ t : Fin cfg1.N, win1_4.index t = ![b.val, 0] :=
  (by decide +kernel : ∀ b : Fin 32, ∃ t : Fin grid1.N, win1_4.index t = ![b.val, 0])

theorem flushed1_4_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S256x512) hz1, View.ld_unit_zero (S := S1x512) hz1, View.ld_unit_zero (S := S512x384) hz1]
  obtain ⟨e00, e01, e10, e11, e20, e21, e30, e31, e40, e41⟩ := idx_facts1 t
  funext j
  obtain ⟨p, q, rfl⟩ : ∃ (p : Fin 256) (q : Fin 384), j = ix2 p q := ⟨j 0, j 1, eq_ix2 j⟩
  show k1_pay1 (F := Ideal) (iblk1 V c 0 t) (iblk1 V c 1 t) (iblk1 V c 2 t) (iblk1 V c 3 t) (ix2 p q)
    = G1 V c (((cfg1.win 4).blk t).view.emb (ix2 p q))
  refine (pay1_apply _ _ _ _ p q).trans ?_
  have hrow : (((cfg1.win 4).blk t).view.emb (ix2 p q) 0).val = win1_4.index t (0 : Fin 2) * 256 + 1 * p.val := rfl
  have hcol : (((cfg1.win 4).blk t).view.emb (ix2 p q) 1).val = win1_4.index t (1 : Fin 2) * 384 + 1 * q.val := rfl
  show _ = ∑ k : Fin 512, (X1 V c (ix2 (((cfg1.win 4).blk t).view.emb (ix2 p q) 0) k) * Sc1 V c (ix2 0 k) + Sh1 V c (ix2 0 k))
    * Wm1 V c (ix2 k (((cfg1.win 4).blk t).view.emb (ix2 p q) 1))
  refine Finset.sum_congr rfl fun k _ => ?_
  have hx : iblk1 V c 0 t (ix2 p k) = X1 V c (ix2 (((cfg1.win 4).blk t).view.emb (ix2 p q) 0) k) :=
    congrArg (V c main_v38) (idx2_eq (((cfg1.win 0).blk t).view.emb (ix2 p k)) _ _ (by show win1_0.index t (0 : Fin 2) * 256 + 1 * p.val = _; rw [hrow]; omega) (by show win1_0.index t (1 : Fin 2) * 512 + 1 * k.val = k.val; omega))
  have hs : iblk1 V c 1 t (ix2 0 k) = Sc1 V c (ix2 0 k) :=
    congrArg (V c main_v63) (idx2_eq (((cfg1.win 1).blk t).view.emb (ix2 0 k)) _ _ (by show win1_1.index t (0 : Fin 2) * 1 + 1 * 0 = 0; omega) (by show win1_1.index t (1 : Fin 2) * 512 + 1 * k.val = k.val; omega))
  have ht : iblk1 V c 2 t (ix2 0 k) = Sh1 V c (ix2 0 k) :=
    congrArg (V c main_v65) (idx2_eq (((cfg1.win 2).blk t).view.emb (ix2 0 k)) _ _ (by show win1_2.index t (0 : Fin 2) * 1 + 1 * 0 = 0; omega) (by show win1_2.index t (1 : Fin 2) * 512 + 1 * k.val = k.val; omega))
  have hw : iblk1 V c 3 t (ix2 k q) = Wm1 V c (ix2 k (((cfg1.win 4).blk t).view.emb (ix2 p q) 1)) :=
    congrArg (V c main_v44) (idx2_eq (((cfg1.win 3).blk t).view.emb (ix2 k q)) _ _ (by show win1_3.index t (0 : Fin 2) * 512 + 1 * k.val = k.val; omega) (by show win1_3.index t (1 : Fin 2) * 384 + 1 * q.val = _; rw [hcol]; omega))
  rw [hx, hs, ht, hw]

theorem cover1_4_all (i : S8192x384.Idx) :
    ∃ t : Fin cfg1.N, (cfg1.win 4).flush t = true ∧ i ∈ ((cfg1.win 4).blk t).view.set := by
  have hi0 : (i 0).val < 8192 := (i 0).isLt
  have hi1 : (i 1).val < 384 := (i 1).isLt
  obtain ⟨t, ht⟩ := idx_onto1 ⟨(i 0).val / 256, by omega⟩
  have q0 : win1_4.index t (0 : Fin 2) = (i 0).val / 256 := congrFun ht 0
  have q1 : win1_4.index t (1 : Fin 2) = 0 := congrFun ht 1
  refine ⟨t, flush1_4 t, ?_⟩
  show i ∈ ((View.whole main_v66).slice (win1_4.rect t)).set
  rw [View.set_slice_whole, Rect.mem_set_unit]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 384 ≤ (i 1).val ∧ (i 1).val < win1_4.index t (1 : Fin 2) * 384 + 384; omega

theorem value1_4 (c : Dev nD) (i : Fin 8192) (h : Fin 384) :
    (dat1 (F := Ideal) V c).arrAt 4 cfg1.N (ix2 i h)
      = Spec.affine (V c main_v38 : Spec.Arr2 8192 512) (V c main_v63 : Spec.Arr2 1 512) (V c main_v65 : Spec.Arr2 1 512)
          (V c main_v44 : Spec.Arr2 512 384) i h := by
  exact congrFun ((dat1 (F := Ideal) V c).arrAt_eq_of_cover 4 (G1 V c) (fun t _ => flushed1_4_eq V c t) cover1_4_all) (ix2 i h)

end Cert.ReferenceIdeal.HandV

end
-- ==== Proof.RI_V2_Pay.lean ====
import proofs.«101322_g2000704916760673_pallasbulk_724_3_alg».proof.Proof.Gen.ReferenceIdeal.Skeleton
import proofs.«101322_g2000704916760673_pallasbulk_724_3_alg».proof.Proof.LibValue
import Idealize.ShloMosaic.Lib.Pipeline.Value
import Idealize.ShloMosaic.Lib.WordArith

noncomputable section

open scoped BigOperators

namespace Cert.ReferenceIdeal.HandV

open Cert.ReferenceIdeal Cert.ReferenceIdeal.Gen Cert.LibValue Idealize.ShloMosaic Idealize.ShloMosaic.ValueIdx
open Idealize.ShloMosaic.WordArith

theorem k2_pay1_apply (r : Fin 256) (h : Fin 384) : k2_pay1 (F := Ideal) (ix2 r h) = 0 :=
  (congrFun (shapeCast_self _ shapeCasts_S256x384_S256x384) _).trans (zeroSplat_apply _ _)

theorem k2_pay2_apply (v10 : Vec Ideal S512x384 .bf16) (v12 : Vec Ideal S256x384 .f32) (v13 : Vec Ideal S256x512 .bf16)
    (r : Fin 256) (h : Fin 384) :
    k2_pay2 v10 v12 v13 (ix2 r h) = v12 (ix2 r h) + ∑ q : Fin 512, v13 (ix2 r q) * v10 (ix2 q h) := by
  unfold k2_pay2
  simp only [shapeCast_self]
  exact (addf_apply _ _ _).trans (congrArg _ (matmul_plain_apply v13 v10 r h))

/-- Row `r` of tile `a` has number `256·a + r < 8192`: no sum or product here leaves the signed range. -/
theorem k2_rowBelow8192 (a : Fin 32) (r : Fin 256) :
    IntOp.cmpi .slt (IntOp.addi (BitVec.ofNat 32 (0 * 256 + r.val)) (IntOp.muli (BitVec.ofNat 32 a.val) 256#32)) 8192#32 = 1#1 := by
  have ha := a.isLt
  have hr := r.isLt
  have e1 : (BitVec.ofNat 32 (0 * 256 + r.val)).toInt = r.val := by rw [toInt_ofNat_small _ (by omega)]; omega
  have e2 : (BitVec.ofNat 32 a.val).toInt = a.val := toInt_ofNat_small _ (by omega)
  have e3 : (256#32 : BitVec 32).toInt = 256 := by decide
  have e4 : (BitVec.ofNat 32 a.val * 256#32).toInt = a.val * 256 := by
    rw [toInt_mul_of_bounds _ _ (by rw [e2, e3]; omega) (by rw [e2, e3]; omega), e2, e3]
  have e5 : (BitVec.ofNat 32 (0 * 256 + r.val) + BitVec.ofNat 32 a.val * 256#32).toInt = r.val + a.val * 256 := by
    rw [toInt_add_of_bounds _ _ (by rw [e1, e4]; omega) (by rw [e1, e4]; omega), e1, e4]
  have e6 : (8192#32 : BitVec 32).toInt = 8192 := by decide
  show BitVec.ofBool ((BitVec.ofNat 32 (0 * 256 + r.val) + BitVec.ofNat 32 a.val * 256#32).slt 8192#32) = 1#1
  rw [ofBool_eq_one_iff, BitVec.slt_iff_toInt_lt, e5, e6]
  omega

theorem k2_pay3_apply (i : grid2.Coords) (v23 : Vec Ideal S256x384 .f32) (v24 : Vec Ideal S1x384 .f32) (r : Fin 256) (h : Fin 384) :
    k2_pay3 i v23 v24 (ix2 r h) = max (v23 (ix2 r h) + v24 (ix2 (0 : Fin 1) h)) 0 := by
  unfold k2_pay3
  refine (select_apply _ _ _ (ix2 r h)).trans ?_
  refine (congrArg (fun c => Scalar.select c _ _) (k2_rowBelow8192 (i 0) r)).trans ((select_one _ _).trans ?_)
  refine (maximumf_apply _ _ _).trans (congrArg₂ max ((addf_apply _ _ _).trans (congrArg _ ?_)) (zeroSplat_apply _ _))
  exact (broadcastTo_1b_ab_apply _ broadcasts_S1x384_S256x384 r h).trans (congrFun (shapeCast_self v24 _) _)

/-- Slot 0 holds the column sums of the result, slot 1 the column sums of its squares. -/
theorem k2_pay5_apply (i : grid2.Coords) (v23 : Vec Ideal S256x384 .f32) (v24 : Vec Ideal S1x384 .f32) (s : Fin 2) (h : Fin 384) :
    k2_pay5 i v23 v24 (ix3 (0 : Fin 1) s h)
      = if s.val = 0 then ∑ r : Fin 256, k2_pay3 i v23 v24 (ix2 r h)
        else ∑ r : Fin 256, k2_pay3 i v23 v24 (ix2 r h) * k2_pay3 i v23 v24 (ix2 r h) :=
  (stack2_apply _ _ shapeCasts_S384_S1x384 concatenates_S1x384_S1x384_S2x384_d0 shapeCasts_S2x384_S1x2x384 s h).trans
    (if_congr Iff.rfl (colSum_apply _ _ h) (colSum_apply _ _ h))

end Cert.ReferenceIdeal.HandV

end
-- ==== Proof.RI_V2.lean ====
import proofs.«101322_g2000704916760673_pallasbulk_724_3_alg».proof.Proof.RI_R2
import proofs.«101322_g2000704916760673_pallasbulk_724_3_alg».proof.Proof.RI_V2_Pay
import proofs.«101322_g2000704916760673_pallasbulk_724_3_alg».proof.Proof.Spec

set_option maxRecDepth 16384

noncomputable section

open scoped BigOperators

namespace Cert.ReferenceIdeal.HandV

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen Cert.ReferenceIdeal.Hand Cert.LibValue

variable (V : (c : Dev nD) → (b : Ref sig .tc) → Buf (Elt Ideal) ((c : Thread nD τ).loc b))

namespace V2

abbrev aA (c : Dev nD) : Spec.Arr2 8192 8192 := V c main_v40
abbrev aH (c : Dev nD) : Spec.Arr2 8192 384 := V c main_v66
abbrev aB (c : Dev nD) : Spec.Arr2 1 384 := V c main_v45

theorem idx2 : ∀ t : Fin cfg2.N,
    (win2_0.index t (0 : Fin 2) = t.val / 16 ∧ win2_0.index t (1 : Fin 2) = t.val % 16)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val / 16 ∧ win2_3.index t (1 : Fin 2) = 0)
    ∧ (win2_4.index t (0 : Fin 3) = t.val / 16 ∧ win2_4.index t (1 : Fin 3) = 0 ∧ win2_4.index t (2 : Fin 3) = 0)
    ∧ (k2_off1 (grid2.coords t) (0 : Fin 2) = 512 * (t.val % 16) ∧ k2_off1 (grid2.coords t) (1 : Fin 2) = 0) :=
  (by decide +kernel : ∀ t : Fin grid2.N,
    (win2_0.index t (0 : Fin 2) = t.val / 16 ∧ win2_0.index t (1 : Fin 2) = t.val % 16)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val / 16 ∧ win2_3.index t (1 : Fin 2) = 0)
    ∧ (win2_4.index t (0 : Fin 3) = t.val / 16 ∧ win2_4.index t (1 : Fin 3) = 0 ∧ win2_4.index t (2 : Fin 3) = 0)
    ∧ (k2_off1 (grid2.coords t) (0 : Fin 2) = 512 * (t.val % 16) ∧ k2_off1 (grid2.coords t) (1 : Fin 2) = 0))

theorem lt512 (t : Fin cfg2.N) : t.val < 512 := lt_of_lt_of_eq t.isLt (show cfg2.N = 512 from N_2)

theorem blk0_apply (c : Dev nD) (t : Fin cfg2.N) (i : Fin 32) (k : ℕ) (hk : k < 16) (ht : t.val = 16 * i.val + k) (r : Fin 256) (q : Fin 512) :
    (iblk2 V c 0 t : Vec Ideal S256x512 .bf16) (ix2 r q)
      = aA V c (ix2 ⟨256 * i.val + r.val, by omega⟩ ⟨512 * k + q.val, by omega⟩) := by
  obtain ⟨⟨h00, h01⟩, -⟩ := idx2 t
  unfold iblk2
  rw [View.read_apply]
  show V c main_v40 _ = V c main_v40 _
  exact congrArg (V c main_v40) (idx2_eq _ _ _ (by show win2_0.index t (0 : Fin 2) * 256 + 1 * r.val = 256 * i.val + r.val; rw [h00]; omega) (by show win2_0.index t (1 : Fin 2) * 512 + 1 * q.val = 512 * k + q.val; rw [h01]; omega))

theorem blk1_apply (c : Dev nD) (t : Fin cfg2.N) (i : Fin 32) (k : ℕ) (hk : k < 16) (ht : t.val = 16 * i.val + k) (q : Fin 512) (h : Fin 384) :
    (View.ld (iblk2 V c 1 t : Vec Ideal S8192x384 .bf16) (rH (grid2.coords t)) : Vec Ideal S512x384 .bf16) (ix2 q h)
      = aH V c (ix2 ⟨512 * k + q.val, by omega⟩ h) := by
  obtain ⟨-, ⟨h10, h11⟩, -, -, -, ⟨ho0, ho1⟩⟩ := idx2 t
  unfold iblk2
  show (View.read (Elt Ideal) ((cfg2.win 1).blk t).view (V c (Pipeline.arrRef spec2 1))) ((rH (grid2.coords t)).idx (ix2 q h)) = _
  rw [View.read_apply]
  show V c main_v66 _ = V c main_v66 _
  exact congrArg (V c main_v66) (idx2_eq _ _ _ (by show win2_1.index t (0 : Fin 2) * 8192 + 1 * (k2_off1 (grid2.coords t) (0 : Fin 2) + 1 * q.val) = 512 * k + q.val; rw [h10, ho0]; omega) (by show win2_1.index t (1 : Fin 2) * 384 + 1 * (k2_off1 (grid2.coords t) (1 : Fin 2) + 1 * h.val) = h.val; rw [h11, ho1]; omega))

theorem blk2_apply (c : Dev nD) (t : Fin cfg2.N) (h : Fin 384) :
    (iblk2 V c 2 t : Vec Ideal S1x384 .f32) (ix2 0 h) = aB V c (ix2 0 h) := by
  obtain ⟨-, -, ⟨h20, h21⟩, -⟩ := idx2 t
  unfold iblk2
  rw [View.read_apply]
  show V c main_v45 _ = V c main_v45 _
  exact congrArg (V c main_v45) (idx2_eq _ _ _ (by show win2_2.index t (0 : Fin 2) * 1 + 1 * 0 = 0; rw [h20]) (by show win2_2.index t (1 : Fin 2) * 384 + 1 * h.val = h.val; rw [h21]; omega))

def term (c : Dev nD) (i : Fin 32) (r : Fin 256) (h : Fin 384) (k : ℕ) : EReal :=
  if hk : k < 16 then
    ∑ q : Fin 512, aA V c (ix2 ⟨256 * i.val + r.val, by omega⟩ ⟨512 * k + q.val, by omega⟩) * aH V c (ix2 ⟨512 * k + q.val, by omega⟩ h)
  else 0

theorem step_apply (c : Dev nD) (t : Fin cfg2.N) (i : Fin 32) (k : ℕ) (hk : k < 16) (ht : t.val = 16 * i.val + k)
    (s : Vec Ideal S256x384 .f32) (r : Fin 256) (h : Fin 384) :
    stepv V c t s (ix2 r h) = s (ix2 r h) + term V c i r h k := by
  unfold stepv term
  rw [dif_pos hk, k2_pay2_apply]
  congr 1
  refine Finset.sum_congr rfl fun q _ => ?_
  rw [blk0_apply V c t i k hk ht, blk1_apply V c t i k hk ht]

theorem scrAt_first (c : Dev nD) (n : ℕ) (hn : n < cfg2.N) (h0 : n % 16 = 0) :
    scrAt V c n hn = stepv V c ⟨n, hn⟩ (k2_pay1 (F := Ideal)) := scrAt_reset V c ⟨n, hn⟩ h0

theorem scrAt_next (c : Dev nD) (n : ℕ) (hn : n + 1 < cfg2.N) (h0 : ¬(n + 1) % 16 = 0) :
    scrAt V c (n + 1) hn = stepv V c ⟨n + 1, hn⟩ (scrAt V c n (Nat.lt_of_succ_lt hn)) := by
  show stepv V c _ (if (n + 1) % 16 = 0 then _ else _) = _
  rw [if_neg h0]

theorem acc_apply (c : Dev nD) (i : Fin 32) (r : Fin 256) (h : Fin 384) :
    ∀ (k : ℕ) (hk : k < 16) (ht : 16 * i.val + k < cfg2.N),
      scrAt V c (16 * i.val + k) ht (ix2 r h) = ∑ k' ∈ Finset.range (k + 1), term V c i r h k'
  | 0, hk, ht => by
    rw [scrAt_first V c _ ht (by omega), step_apply V c ⟨16 * i.val + 0, ht⟩ i 0 hk rfl, k2_pay1_apply, zero_add,
      Finset.sum_range_one]
  | k + 1, hk, ht => by
    have h0 : ¬(16 * i.val + k + 1) % 16 = 0 := by omega
    show scrAt V c (16 * i.val + k + 1) ht (ix2 r h) = _
    rw [scrAt_next V c (16 * i.val + k) ht h0, step_apply V c ⟨16 * i.val + k + 1, ht⟩ i (k + 1) hk rfl,
      acc_apply c i r h k (by omega) _]
    exact (Finset.sum_range_succ _ (k + 1)).symm

theorem pt_lt (i : Fin 32) (k : ℕ) (hk : k < 16) : 16 * i.val + k < cfg2.N := by
  rw [show cfg2.N = 512 from N_2]; omega

theorem acc_total (c : Dev nD) (i : Fin 32) (r : Fin 256) (h : Fin 384) :
    scrAt V c (16 * i.val + 15) (pt_lt i 15 (by omega)) (ix2 r h)
      = ∑ j : Fin 8192, aA V c (ix2 ⟨256 * i.val + r.val, by omega⟩ j) * aH V c (ix2 j h) := by
  rw [acc_apply V c i r h 15 (by omega), ← Fin.sum_univ_eq_sum_range (fun k => term V c i r h k) 16]
  refine Eq.trans ?_ (Spec.sum_tiles 16 512 8192 rfl
    (fun j => aA V c (ix2 ⟨256 * i.val + r.val, by omega⟩ j) * aH V c (ix2 j h)))
  refine Finset.sum_congr rfl fun k _ => ?_
  unfold term
  rw [dif_pos k.isLt]

theorem relu_total (c : Dev nD) (i : Fin 32) (r : Fin 256) (h : Fin 384) :
    max (scrAt V c (16 * i.val + 15) (pt_lt i 15 (by omega)) (ix2 r h) + aB V c (ix2 0 h)) 0
      = Spec.aggregate (aA V c) (aH V c) (aB V c) ⟨256 * i.val + r.val, by omega⟩ h := by
  rw [acc_total]; rfl

theorem scrAt_congr (c : Dev nD) {n n' : ℕ} (e : n = n') (hn : n < cfg2.N) (hn' : n' < cfg2.N) :
    scrAt V c n hn = scrAt V c n' hn' := by subst e; rfl

def G3 (c : Dev nD) : Buf (Elt Ideal) ((c : Thread nD τ).loc main_v67_0) :=
  Spec.mk2 (Spec.aggregate (aA V c) (aH V c) (aB V c))

def G4 (c : Dev nD) : Buf (Elt Ideal) ((c : Thread nD τ).loc main_v67_1) :=
  fun j => if (j (1 : Fin 3)).val = 0 then Spec.tileSum256 (Spec.mk2 (Spec.aggregate (aA V c) (aH V c) (aB V c))) (j (0 : Fin 3)) (j (2 : Fin 3))
    else Spec.tileSumSq256 (Spec.mk2 (Spec.aggregate (aA V c) (aH V c) (aB V c))) (j (0 : Fin 3)) (j (2 : Fin 3))

theorem tile_of (t : Fin cfg2.N) (h15 : t.val % 16 = 15) : t.val = 16 * (t.val / 16) + 15 := by omega

theorem pay3_total (c : Dev nD) (t : Fin cfg2.N) (h15 : t.val % 16 = 15) (r : Fin 256) (h : Fin 384) :
    k2_pay3 (grid2.coords t) (scrAt V c t.val t.isLt) (iblk2 V c 2 t) (ix2 r h)
      = Spec.aggregate (aA V c) (aH V c) (aB V c) ⟨256 * (t.val / 16) + r.val, by have := lt512 t; omega⟩ h := by
  have hi : t.val / 16 < 32 := by have := lt512 t; omega
  rw [k2_pay3_apply, blk2_apply, scrAt_congr V c (tile_of t h15) t.isLt (pt_lt ⟨t.val / 16, hi⟩ 15 (by omega))]
  exact relu_total V c ⟨t.val / 16, hi⟩ r h

theorem pay4_total (c : Dev nD) (t : Fin cfg2.N) (h15 : t.val % 16 = 15) (r : Fin 256) (h : Fin 384) :
    k2_pay4 (grid2.coords t) (scrAt V c t.val t.isLt) (iblk2 V c 2 t) (ix2 r h)
      = Spec.aggregate (aA V c) (aH V c) (aB V c) ⟨256 * (t.val / 16) + r.val, by have := lt512 t; omega⟩ h :=
  (truncf_apply _ bitsLt_bf16_f32 _).trans (pay3_total V c t h15 r h)

theorem flushed3 (c : Dev nD) (t : Fin cfg2.N) (hf : (cfg2.win 3).flush t = true) :
    (dat2 (F := Ideal) V c).flushed 3 t = ((cfg2.win 3).blk t).view.read (Elt Ideal) (G3 V c) := by
  have h15 := (flush2_3 t).mp hf
  obtain ⟨-, -, -, ⟨h30, h31⟩, -⟩ := idx2 t
  funext (x : S256x384.Idx)
  obtain ⟨r, h, rfl⟩ : ∃ r h, x = ix2 r h := ⟨x 0, x 1, eq_ix2 x⟩
  show (dat2 (F := Ideal) V c).after 3 t (ix2 r h) = _
  rw [after2_3, pay4_total V c t h15, View.read_apply]
  show _ = Spec.aggregate (aA V c) (aH V c) (aB V c) _ _
  congr 1
  · apply Fin.ext
    show 256 * (t.val / 16) + r.val = win2_3.index t (0 : Fin 2) * 256 + 1 * r.val
    rw [h30]; omega
  · apply Fin.ext
    show h.val = win2_3.index t (1 : Fin 2) * 384 + 1 * h.val
    rw [h31]; omega

theorem flushed4 (c : Dev nD) (t : Fin cfg2.N) (hf : (cfg2.win 4).flush t = true) :
    (dat2 (F := Ideal) V c).flushed 4 t = ((cfg2.win 4).blk t).view.read (Elt Ideal) (G4 V c) := by
  have h15 := (flush2_4 t).mp hf
  have hi : t.val / 16 < 32 := by have := lt512 t; omega
  obtain ⟨-, -, -, -, ⟨h40, h41, h42⟩, -⟩ := idx2 t
  funext (x : S1x2x384.Idx)
  obtain ⟨z, s, h, rfl⟩ : ∃ z s h, x = ix3 z s h := ⟨x 0, x 1, x 2, eq_ix3 x⟩
  obtain rfl : z = 0 := Subsingleton.elim _ _
  show (dat2 (F := Ideal) V c).after 4 t (ix3 0 s h) = _
  rw [after2_4, View.read_apply]
  have e0 : ((((cfg2.win 4).blk t).view.emb (ix3 (0 : Fin 1) s h)) (0 : Fin 3) : Fin 32) = ⟨t.val / 16, hi⟩ := by
    apply Fin.ext
    show win2_4.index t (0 : Fin 3) * 1 + 1 * 0 = t.val / 16
    rw [h40]; omega
  have e1 : ((((cfg2.win 4).blk t).view.emb (ix3 (0 : Fin 1) s h)) (1 : Fin 3) : Fin 2) = s := by
    apply Fin.ext
    show win2_4.index t (1 : Fin 3) * 2 + 1 * s.val = s.val
    rw [h41]; omega
  have e2 : ((((cfg2.win 4).blk t).view.emb (ix3 (0 : Fin 1) s h)) (2 : Fin 3) : Fin 384) = h := by
    apply Fin.ext
    show win2_4.index t (2 : Fin 3) * 384 + 1 * h.val = h.val
    rw [h42]; omega
  show _ = G4 V c _
  unfold G4
  rw [e0, e1, e2]
  show k2_pay5 _ _ _ (ix3 0 s h) = _
  refine (k2_pay5_apply _ _ _ s h).trans (if_congr Iff.rfl ?_ ?_)
  · unfold Spec.tileSum256
    refine Finset.sum_congr rfl fun r _ => ?_
    rw [pay3_total V c t h15, Spec.mk2_apply]
  · unfold Spec.tileSumSq256
    refine Finset.sum_congr rfl fun r _ => ?_
    rw [pay3_total V c t h15, Spec.mk2_apply]

def lastPt (i : ℕ) (hi : i < 32) : Fin cfg2.N := ⟨16 * i + 15, by rw [show cfg2.N = 512 from N_2]; omega⟩

theorem mem4 (tt : Fin 32) (s : Fin 2) (h : Fin 384) :
    (ix3 tt s h : S32x2x384.Idx) ∈ ((cfg2.win 4).blk (lastPt tt.val tt.isLt)).view.set := by
  obtain ⟨-, -, -, -, ⟨h40, h41, h42⟩, -⟩ := idx2 (lastPt tt.val tt.isLt)
  have hval : (lastPt tt.val tt.isLt).val = 16 * tt.val + 15 := rfl
  show ix3 tt s h ∈ ((View.whole main_v67_1).slice (win2_4.rect (lastPt tt.val tt.isLt))).set
  rw [View.set_slice_whole, Rect.mem_set_unit]
  intro a
  match a with
  | ⟨0, _⟩ =>
    show win2_4.index (lastPt tt.val tt.isLt) (0 : Fin 3) * 1 ≤ tt.val ∧ tt.val < win2_4.index (lastPt tt.val tt.isLt) (0 : Fin 3) * 1 + 1
    rw [h40, hval]; omega
  | ⟨1, _⟩ =>
    show win2_4.index (lastPt tt.val tt.isLt) (1 : Fin 3) * 2 ≤ s.val ∧ s.val < win2_4.index (lastPt tt.val tt.isLt) (1 : Fin 3) * 2 + 2
    rw [h41]; omega
  | ⟨2, _⟩ =>
    show win2_4.index (lastPt tt.val tt.isLt) (2 : Fin 3) * 384 ≤ h.val ∧ h.val < win2_4.index (lastPt tt.val tt.isLt) (2 : Fin 3) * 384 + 384
    rw [h42]; omega

end V2

open V2

theorem value2_3 (c : Dev nD) (i : Fin 8192) (h : Fin 384) :
    (dat2 (F := Ideal) V c).arrAt 3 cfg2.N (ix2 i h) = Spec.aggregate (V c main_v40) (V c main_v66) (V c main_v45) i h := by
  have hi : i.val / 256 < 32 := by omega
  obtain ⟨-, -, -, ⟨h30, h31⟩, -⟩ := idx2 (lastPt (i.val / 256) hi)
  have hval : (lastPt (i.val / 256) hi).val = 16 * (i.val / 256) + 15 := rfl
  refine ((dat2 (F := Ideal) V c).arrAt_apply_of_mem 3 (G3 V c) (flushed3 V c) cfg2.N (lastPt (i.val / 256) hi) (ix2 i h)
    (lastPt (i.val / 256) hi).isLt ((flush2_3 _).mpr (by rw [hval]; omega)) ?_).trans rfl
  show ix2 i h ∈ ((View.whole main_v67_0).slice (win2_3.rect (lastPt (i.val / 256) hi))).set
  rw [View.set_slice_whole, Rect.mem_set_unit]
  intro a
  match a with
  | ⟨0, _⟩ =>
    show win2_3.index (lastPt (i.val / 256) hi) (0 : Fin 2) * 256 ≤ i.val ∧ i.val < win2_3.index (lastPt (i.val / 256) hi) (0 : Fin 2) * 256 + 256
    rw [h30, hval]; omega
  | ⟨1, _⟩ =>
    show win2_3.index (lastPt (i.val / 256) hi) (1 : Fin 2) * 384 ≤ h.val ∧ h.val < win2_3.index (lastPt (i.val / 256) hi) (1 : Fin 2) * 384 + 384
    rw [h31]; omega

theorem value2_4 (c : Dev nD) (tt : Fin 32) (s : Fin 2) (h : Fin 384) :
    (dat2 (F := Ideal) V c).arrAt 4 cfg2.N (ix3 tt s h) = G4 V c (ix3 tt s h) :=
  (dat2 (F := Ideal) V c).arrAt_apply_of_mem 4 (G4 V c) (flushed4 V c) cfg2.N (lastPt tt.val tt.isLt) (ix3 tt s h)
    (lastPt tt.val tt.isLt).isLt ((flush2_4 _).mpr (by show (16 * tt.val + 15) % 16 = 15; omega)) (mem4 tt s h)

theorem value2_4_sum (c : Dev nD) (tt : Fin 32) (h : Fin 384) :
    (dat2 (F := Ideal) V c).arrAt 4 cfg2.N (ix3 tt 0 h)
      = Spec.tileSum256 (Spec.mk2 (Spec.aggregate (V c main_v40) (V c main_v66) (V c main_v45))) tt h :=
  (value2_4 V c tt 0 h).trans (if_pos rfl)

theorem value2_4_sq (c : Dev nD) (tt : Fin 32) (h : Fin 384) :
    (dat2 (F := Ideal) V c).arrAt 4 cfg2.N (ix3 tt 1 h)
      = Spec.tileSumSq256 (Spec.mk2 (Spec.aggregate (V c main_v40) (V c main_v66) (V c main_v45))) tt h :=
  (value2_4 V c tt 1 h).trans (if_neg (show ¬(1 : ℕ) = 0 by decide))

end Cert.ReferenceIdeal.HandV

end
-- ==== Proof.RI_V3.lean ====
import proofs.«101322_g2000704916760673_pallasbulk_724_3_alg».proof.Proof.RI_R3
import proofs.«101322_g2000704916760673_pallasbulk_724_3_alg».proof.Proof.RI_V1

set_option maxRecDepth 16384

noncomputable section

namespace Cert.ReferenceIdeal.HandV

open Cert.ReferenceIdeal Cert.ReferenceIdeal.Gen Cert.ReferenceIdeal.Hand Cert.LibValue
open Idealize.ShloMosaic Idealize.ShloMosaic.TcCoe Idealize.SL.Sem
open Idealize.ShloMosaic.ValueIdx
open Idealize.ShloMosaic.Pipeline (Dat)
open scoped BigOperators

theorem pay3_apply (x : Vec Ideal S256x384 .bf16) (s t : Vec Ideal S1x384 .f32) (w : Vec Ideal S384x256 .bf16)
    (p : Fin 256) (q : Fin 256) :
    k3_pay1 (F := Ideal) x s t w (ix2 p q) = ∑ k : Fin 384, (x (ix2 p k) * s (ix2 0 k) + t (ix2 0 k)) * w (ix2 k q) := by
  unfold k3_pay1
  simp only [shapeCast_self]
  exact affineProduct_apply (extf .f32 x bitsLt_bf16_f32) s t w _ _ p q

variable (V : (c : Dev nD) → (b : Ref sig .tc) → Buf (Elt Ideal) ((c : Thread nD τ).loc b))

abbrev X3 (c : Dev nD) : Spec.Arr2 8192 384 := V c main_v67_0
abbrev Sc3 (c : Dev nD) : Spec.Arr2 1 384 := V c main_v83
abbrev Sh3 (c : Dev nD) : Spec.Arr2 1 384 := V c main_v86
abbrev Wm3 (c : Dev nD) : Spec.Arr2 384 256 := V c main_v49

abbrev G3 (c : Dev nD) : S8192x256.Idx → Elt Ideal .bf16 :=
  Spec.mk2 (Spec.affine (X3 V c) (Sc3 V c) (Sh3 V c) (Wm3 V c))

theorem idx_facts3 : ∀ t : Fin cfg3.N, win3_0.index t (0 : Fin 2) = win3_4.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) ≤ 31 ∧ win3_4.index t (1 : Fin 2) = 0 :=
  (by decide +kernel : ∀ t : Fin grid3.N, _)

theorem idx_onto3 : ∀ b : Fin 32, ∃ t : Fin cfg3.N, win3_4.index t = ![b.val, 0] :=
  (by decide +kernel : ∀ b : Fin 32, ∃ t : Fin grid3.N, win3_4.index t = ![b.val, 0])

theorem flushed3_4_eq (c : Dev nD) (t : Fin cfg3.N) :
    (dat3 (F := Ideal) V c).flushed 4 t = ((cfg3.win 4).blk t).view.read (Elt Ideal) (G3 V c) := by
  show (cfg3.win 4).cut (grid3.coords t) ((dat3 V c).after 4 t) = _
  rw [after3_4]
  unfold out3_4
  rw [View.canon_unit_zero hz1]
  simp only [View.ld_unit_zero (S := S256x384) hz1, View.ld_unit_zero (S := S1x384) hz1, View.ld_unit_zero (S := S384x256) hz1]
  obtain ⟨e00, e01, e10, e11, e20, e21, e30, e31, e40, e41⟩ := idx_facts3 t
  funext j
  obtain ⟨p, q, rfl⟩ : ∃ (p : Fin 256) (q : Fin 256), j = ix2 p q := ⟨j 0, j 1, eq_ix2 j⟩
  show k3_pay1 (F := Ideal) (iblk3 V c 0 t) (iblk3 V c 1 t) (iblk3 V c 2 t) (iblk3 V c 3 t) (ix2 p q)
    = G3 V c (((cfg3.win 4).blk t).view.emb (ix2 p q))
  refine (pay3_apply _ _ _ _ p q).trans ?_
  have hrow : (((cfg3.win 4).blk t).view.emb (ix2 p q) 0).val = win3_4.index t (0 : Fin 2) * 256 + 1 * p.val := rfl
  have hcol : (((cfg3.win 4).blk t).view.emb (ix2 p q) 1).val = win3_4.index t (1 : Fin 2) * 256 + 1 * q.val := rfl
  show _ = ∑ k : Fin 384, (X3 V c (ix2 (((cfg3.win 4).blk t).view.emb (ix2 p q) 0) k) * Sc3 V c (ix2 0 k) + Sh3 V c (ix2 0 k))
    * Wm3 V c (ix2 k (((cfg3.win 4).blk t).view.emb (ix2 p q) 1))
  refine Finset.sum_congr rfl fun k _ => ?_
  have hx : iblk3 V c 0 t (ix2 p k) = X3 V c (ix2 (((cfg3.win 4).blk t).view.emb (ix2 p q) 0) k) :=
    congrArg (V c main_v67_0) (idx2_eq (((cfg3.win 0).blk t).view.emb (ix2 p k)) _ _ (by show win3_0.index t (0 : Fin 2) * 256 + 1 * p.val = _; rw [hrow]; omega) (by show win3_0.index t (1 : Fin 2) * 384 + 1 * k.val = k.val; omega))
  have hs : iblk3 V c 1 t (ix2 0 k) = Sc3 V c (ix2 0 k) :=
    congrArg (V c main_v83) (idx2_eq (((cfg3.win 1).blk t).view.emb (ix2 0 k)) _ _ (by show win3_1.index t (0 : Fin 2) * 1 + 1 * 0 = 0; omega) (by show win3_1.index t (1 : Fin 2) * 384 + 1 * k.val = k.val; omega))
  have ht : iblk3 V c 2 t (ix2 0 k) = Sh3 V c (ix2 0 k) :=
    congrArg (V c main_v86) (idx2_eq (((cfg3.win 2).blk t).view.emb (ix2 0 k)) _ _ (by show win3_2.index t (0 : Fin 2) * 1 + 1 * 0 = 0; omega) (by show win3_2.index t (1 : Fin 2) * 384 + 1 * k.val = k.val; omega))
  have hw : iblk3 V c 3 t (ix2 k q) = Wm3 V c (ix2 k (((cfg3.win 4).blk t).view.emb (ix2 p q) 1)) :=
    congrArg (V c main_v49) (idx2_eq (((cfg3.win 3).blk t).view.emb (ix2 k q)) _ _ (by show win3_3.index t (0 : Fin 2) * 384 + 1 * k.val = k.val; omega) (by show win3_3.index t (1 : Fin 2) * 256 + 1 * q.val = _; rw [hcol]; omega))
  rw [hx, hs, ht, hw]

theorem cover3_4_all (i : S8192x256.Idx) :
    ∃ t : Fin cfg3.N, (cfg3.win 4).flush t = true ∧ i ∈ ((cfg3.win 4).blk t).view.set := by
  have hi0 : (i 0).val < 8192 := (i 0).isLt
  have hi1 : (i 1).val < 256 := (i 1).isLt
  obtain ⟨t, ht⟩ := idx_onto3 ⟨(i 0).val / 256, by omega⟩
  have q0 : win3_4.index t (0 : Fin 2) = (i 0).val / 256 := congrFun ht 0
  have q1 : win3_4.index t (1 : Fin 2) = 0 := congrFun ht 1
  refine ⟨t, flush3_4 t, ?_⟩
  show i ∈ ((View.whole main_v87).slice (win3_4.rect t)).set
  rw [View.set_slice_whole, Rect.mem_set_unit]
  intro a
  match a with
  | ⟨0, _⟩ => show win3_4.index t (0 : Fin 2) * 256 ≤ (i 0).val ∧ (i 0).val < win3_4.index t (0 : Fin 2) * 256 + 256; omega
  | ⟨1, _⟩ => show win3_4.index t (1 : Fin 2) * 256 ≤ (i 1).val ∧ (i 1).val < win3_4.index t (1 : Fin 2) * 256 + 256; omega

theorem value3_4 (c : Dev nD) (i : Fin 8192) (h : Fin 256) :
    (dat3 (F := Ideal) V c).arrAt 4 cfg3.N (ix2 i h)
      = Spec.affine (V c main_v67_0 : Spec.Arr2 8192 384) (V c main_v83 : Spec.Arr2 1 384) (V c main_v86 : Spec.Arr2 1 384)
          (V c main_v49 : Spec.Arr2 384 256) i h := by
  exact congrFun ((dat3 (F := Ideal) V c).arrAt_eq_of_cover 4 (G3 V c) (fun t _ => flushed3_4_eq V c t) cover3_4_all) (ix2 i h)

end Cert.ReferenceIdeal.HandV

end
-- ==== Proof.RI_V4_Pay.lean ====
import proofs.«101322_g2000704916760673_pallasbulk_724_3_alg».proof.Proof.Gen.ReferenceIdeal.Skeleton
import proofs.«101322_g2000704916760673_pallasbulk_724_3_alg».proof.Proof.LibValue
import Idealize.ShloMosaic.Lib.Pipeline.Value

noncomputable section

open scoped BigOperators

namespace Cert.ReferenceIdeal.HandV

open Cert.ReferenceIdeal Cert.ReferenceIdeal.Gen Cert.LibValue Idealize.ShloMosaic Idealize.ShloMosaic.ValueIdx

theorem k4_pay1_apply (j : S256x256.Idx) : k4_pay1 (F := Ideal) j = 0 := zeroSplat_apply _ j

theorem k4_pay2_apply (v6 : Vec Ideal S512x256 .bf16) (v8 : Vec Ideal S256x256 .f32) (v10 : Vec Ideal S256x512 .bf16) (r col : Fin 256) :
    k4_pay2 v6 v8 v10 (ix2 r col) = v8 (ix2 r col) + ∑ j : Fin 512, v10 (ix2 r j) * v6 (ix2 j col) := by
  unfold k4_pay2
  simp only [shapeCast_self]
  exact (addf_apply _ _ _).trans (congrArg _ (matmul_plain_apply v10 v6 r col))

theorem k4_pay3_apply (v18 : Vec Ideal S256x256 .f32) (v20 : Vec Ideal S1x256 .f32) (r col : Fin 256) :
    k4_pay3 v18 v20 (ix2 r col) = max (v18 (ix2 r col) + v20 (ix2 (0 : Fin 1) col)) 0 := by
  unfold k4_pay3
  simp only [shapeCast_self]
  exact (maximumf_apply _ _ _).trans (congrArg₂ max
    ((addf_apply _ _ _).trans (congrArg _ (broadcastTo_1b_ab_apply v20 broadcasts_S1x256_S256x256 r col))) (zeroSplat_apply _ _))

end Cert.ReferenceIdeal.HandV

end
-- ==== Proof.RI_V4.lean ====
import proofs.«101322_g2000704916760673_pallasbulk_724_3_alg».proof.Proof.RI_R4
import proofs.«101322_g2000704916760673_pallasbulk_724_3_alg».proof.Proof.RI_V4_Pay
import proofs.«101322_g2000704916760673_pallasbulk_724_3_alg».proof.Proof.Spec

set_option maxRecDepth 16384

noncomputable section

open scoped BigOperators

namespace Cert.ReferenceIdeal.HandV

open Cert.ReferenceIdeal Cert.ReferenceIdeal.Gen Cert.ReferenceIdeal.Hand Cert.LibValue
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

namespace V4

theorem idx4 : ∀ t : Fin cfg4.N,
    win4_0.index t (0 : Fin 2) = t.val / 16 ∧ win4_0.index t (1 : Fin 2) = t.val % 16
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val / 16 ∧ win4_3.index t (1 : Fin 2) = 0
    ∧ k4_off1 (grid4.coords t) (0 : Fin 2) = 512 * (t.val % 16) ∧ k4_off1 (grid4.coords t) (1 : Fin 2) = 0 :=
  (by decide +kernel : ∀ t : Fin grid4.N, _)

theorem lt512 (t : Fin cfg4.N) : t.val < 512 := lt_of_lt_of_eq t.isLt N_4

theorem iblk4_0_apply (c : Dev nD) (t : Fin cfg4.N) (r : Fin 256) (j : Fin 512)
    (hr : 256 * (t.val / 16) + r.val < 8192) (hj : 512 * (t.val % 16) + j.val < 8192) :
    (iblk4 V c 0 t : Vec Ideal S256x512 .bf16) (ix2 r j)
      = (V c main_v40 : Spec.Arr2 8192 8192) (ix2 ⟨256 * (t.val / 16) + r.val, hr⟩ ⟨512 * (t.val % 16) + j.val, hj⟩) := by
  obtain ⟨h00, h01, -⟩ := idx4 t
  unfold iblk4
  rw [View.read_apply]
  show V c main_v40 _ = V c main_v40 _
  exact congrArg (V c main_v40) (idx2_eq _ _ _ (by show win4_0.index t (0 : Fin 2) * 256 + 1 * r.val = 256 * (t.val / 16) + r.val; rw [h00]; omega) (by show win4_0.index t (1 : Fin 2) * 512 + 1 * j.val = 512 * (t.val % 16) + j.val; rw [h01]; omega))

theorem slab4_apply (c : Dev nD) (t : Fin cfg4.N) (j : Fin 512) (col : Fin 256) (hj : 512 * (t.val % 16) + j.val < 8192) :
    slab4 (grid4.coords t) (iblk4 V c 1 t : Vec Ideal S8192x256 .bf16) (ix2 j col)
      = (V c main_v87 : Spec.Arr2 8192 256) (ix2 ⟨512 * (t.val % 16) + j.val, hj⟩ col) := by
  obtain ⟨-, -, h10, h11, -, -, -, -, ho0, ho1⟩ := idx4 t
  unfold slab4 iblk4
  show ((cfg4.win 1).blk t).view.read (Elt Ideal) (V c (Pipeline.arrRef spec4 1)) ((r4_h (grid4.coords t)).emb (ix2 j col)) = _
  rw [View.read_apply]
  show V c main_v87 _ = V c main_v87 _
  exact congrArg (V c main_v87) (idx2_eq _ _ _ (by show win4_1.index t (0 : Fin 2) * 8192 + 1 * (k4_off1 (grid4.coords t) (0 : Fin 2) + 1 * j.val) = 512 * (t.val % 16) + j.val; rw [h10, ho0]; omega) (by show win4_1.index t (1 : Fin 2) * 256 + 1 * (k4_off1 (grid4.coords t) (1 : Fin 2) + 1 * col.val) = col.val; rw [h11, ho1]; omega))

theorem iblk4_2_apply (c : Dev nD) (t : Fin cfg4.N) (col : Fin 256) :
    (iblk4 V c 2 t : Vec Ideal S1x256 .f32) (ix2 (0 : Fin 1) col) = (V c main_v50 : Spec.Arr2 1 256) (ix2 0 col) := by
  obtain ⟨-, -, -, -, h20, h21, -⟩ := idx4 t
  unfold iblk4
  rw [View.read_apply]
  show V c main_v50 _ = V c main_v50 _
  exact congrArg (V c main_v50) (idx2_eq _ _ _ (by show win4_2.index t (0 : Fin 2) * 1 + 1 * 0 = 0; rw [h20]) (by show win4_2.index t (1 : Fin 2) * 256 + 1 * col.val = col.val; rw [h21]; omega))

section Sums

variable (A : Spec.Arr2 8192 8192) (H : Spec.Arr2 8192 256)

def chunk4 (T : Fin 32) (r col : Fin 256) (k : Fin 16) : EReal :=
  ∑ j : Fin 512, A (ix2 ⟨256 * T.val + r.val, by omega⟩ ⟨512 * k.val + j.val, by omega⟩) * H (ix2 ⟨512 * k.val + j.val, by omega⟩ col)

def psum4 (T : Fin 32) (r col : Fin 256) (n : ℕ) : EReal :=
  ∑ k ∈ Finset.range (n + 1), if hk : k < 16 then chunk4 A H T r col ⟨k, hk⟩ else 0

theorem psum4_zero (T : Fin 32) (r col : Fin 256) : psum4 A H T r col 0 = chunk4 A H T r col 0 := by
  unfold psum4
  rw [Finset.sum_range_one, dif_pos (by decide)]
  rfl

theorem psum4_succ (T : Fin 32) (r col : Fin 256) (n : ℕ) (hn : n + 1 < 16) :
    psum4 A H T r col (n + 1) = psum4 A H T r col n + chunk4 A H T r col ⟨n + 1, hn⟩ := by
  unfold psum4
  rw [Finset.sum_range_succ _ (n + 1), dif_pos hn]

theorem psum4_full (T : Fin 32) (r col : Fin 256) :
    psum4 A H T r col 15 = ∑ j : Fin 8192, A (ix2 ⟨256 * T.val + r.val, by omega⟩ j) * H (ix2 j col) := by
  show ∑ k ∈ Finset.range 16, (if hk : k < 16 then chunk4 A H T r col ⟨k, hk⟩ else 0) = _
  rw [← Fin.sum_univ_eq_sum_range (fun k => if hk : k < 16 then chunk4 A H T r col ⟨k, hk⟩ else 0) 16,
    ← Spec.sum_tiles 16 512 8192 rfl (fun j : Fin 8192 => A (ix2 ⟨256 * T.val + r.val, by omega⟩ j) * H (ix2 j col))]
  refine Finset.sum_congr rfl fun k _ => ?_
  rw [dif_pos k.isLt]
  rfl

end Sums

/-- The 512 products a point with chunk index `k` of row tile `T` forms are chunk `k`'s contribution. -/
theorem chunk_at (c : Dev nD) (T : Fin 32) (k : Fin 16) (t : Fin cfg4.N) (hd : t.val / 16 = T.val) (hm : t.val % 16 = k.val)
    (r col : Fin 256) (a : Vec Ideal S256x512 .bf16) (s : Vec Ideal S512x256 .bf16)
    (ha : a = iblk4 V c 0 t) (hs : s = slab4 (grid4.coords t) (iblk4 V c 1 t)) :
    ∑ j : Fin 512, a (ix2 r j) * s (ix2 j col) = chunk4 (V c main_v40) (V c main_v87) T r col k := by
  subst ha hs
  have hT := T.isLt
  have hk := k.isLt
  unfold chunk4
  refine Finset.sum_congr rfl fun j _ => ?_
  rw [iblk4_0_apply V c t r j (by rw [hd]; have := r.isLt; omega) (by rw [hm]; have := j.isLt; omega),
    slab4_apply V c t j col (by rw [hm]; have := j.isLt; omega)]
  congr 2 <;> (congr 1 <;> first | rfl | (apply Fin.ext; show _ = _; simp only [hd, hm]; try rfl))

theorem outsAt4_congr (c : Dev nD) {n n' : ℕ} (e : n = n') (h : n < cfg4.N) (h' : n' < cfg4.N) :
    outsAt4 V c n h = outsAt4 V c n' h' := by subst e; rfl

theorem pt_lt (T : Fin 32) (k : ℕ) (hk : k < 16) : 16 * T.val + k < cfg4.N := by
  show 16 * T.val + k < grid4.N; rw [N_4]; have := T.isLt; omega

theorem outsAt4_psum (c : Dev nD) (T : Fin 32) (r col : Fin 256) : ∀ (k : ℕ) (hk : k < 15),
    outsAt4 V c (16 * T.val + k) (pt_lt T k (by omega)) (ix2 r col)
      = psum4 (V c main_v40) (V c main_v87) T r col k
  | 0, _ => by
    have hT := T.isLt
    let t : Fin cfg4.N := ⟨16 * T.val + 0, pt_lt T 0 (by omega)⟩
    have hd : t.val / 16 = T.val := by show (16 * T.val + 0) / 16 = T.val; omega
    have hm : t.val % 16 = 0 := by show (16 * T.val + 0) % 16 = 0; omega
    rw [show outsAt4 V c (16 * T.val + 0) _ = outsAt4 V c t.val t.isLt from rfl, outsAt4_first V c t hm, psum4_zero]
    unfold first4
    rw [k4_pay2_apply, k4_pay1_apply, zero_add]
    exact chunk_at V c T 0 t hd hm r col _ _ rfl rfl
  | k + 1, hk => by
    have hT := T.isLt
    let t : Fin cfg4.N := ⟨16 * T.val + (k + 1), pt_lt T (k + 1) (by omega)⟩
    have hd : t.val / 16 = T.val := by show (16 * T.val + (k + 1)) / 16 = T.val; omega
    have hm : t.val % 16 = k + 1 := by show (16 * T.val + (k + 1)) % 16 = k + 1; omega
    have h0 : ¬t.val % 16 = 0 := by rw [hm]; omega
    have h1 : ¬t.val % 16 = 15 := by rw [hm]; omega
    rw [show outsAt4 V c (16 * T.val + (k + 1)) _ = outsAt4 V c t.val t.isLt from rfl, outsAt4_mid V c t h0 h1,
      psum4_succ _ _ T r col k (by omega)]
    unfold mid4
    rw [k4_pay2_apply,
      outsAt4_congr V c (show t.val - 1 = 16 * T.val + k from by show 16 * T.val + (k + 1) - 1 = _; omega) _ (pt_lt T k (by omega)),
      outsAt4_psum c T r col k (by omega)]
    congr 1
    exact chunk_at V c T ⟨k + 1, by omega⟩ t hd hm r col _ _ rfl rfl

theorem outsAt4_final (c : Dev nD) (T : Fin 32) (r col : Fin 256) :
    outsAt4 V c (16 * T.val + 15) (pt_lt T 15 (by omega)) (ix2 r col)
      = Spec.aggregate (V c main_v40) (V c main_v87) (V c main_v50) ⟨256 * T.val + r.val, by omega⟩ col := by
  have hT := T.isLt
  let t : Fin cfg4.N := ⟨16 * T.val + 15, pt_lt T 15 (by omega)⟩
  have hd : t.val / 16 = T.val := by show (16 * T.val + 15) / 16 = T.val; omega
  have hm : t.val % 16 = 15 := by show (16 * T.val + 15) % 16 = 15; omega
  rw [show outsAt4 V c (16 * T.val + 15) _ = outsAt4 V c t.val t.isLt from rfl, outsAt4_last V c t hm]
  unfold last4 Spec.aggregate
  rw [k4_pay3_apply, k4_pay2_apply,
    outsAt4_congr V c (show t.val - 1 = 16 * T.val + 14 from by show 16 * T.val + 15 - 1 = _; omega) _ (pt_lt T 14 (by omega)),
    outsAt4_psum V c T r col 14 (by omega), iblk4_2_apply V c t col,
    ← psum4_full (V c main_v40) (V c main_v87) T r col, psum4_succ _ _ T r col 14 (by omega)]
  congr 3
  exact chunk_at V c T ⟨15, by omega⟩ t hd hm r col _ _ rfl rfl

def G4 (c : Dev nD) : Buf (Elt Ideal) ((c : Thread nD τ).loc main_v88) :=
  Spec.mk2 (Spec.aggregate (V c main_v40) (V c main_v87) (V c main_v50))

theorem flushed4 (c : Dev nD) (t : Fin cfg4.N) (hf : (cfg4.win 3).flush t = true) :
    (dat4 (F := Ideal) V c).flushed 3 t = ((cfg4.win 3).blk t).view.read (Elt Ideal) (G4 V c) := by
  have hm : t.val % 16 = 15 := (flush4_3 t).mp hf
  have ht := lt512 t
  obtain ⟨-, -, -, -, -, -, h30, h31, -⟩ := idx4 t
  let T : Fin 32 := ⟨t.val / 16, by omega⟩
  have et : t.val = 16 * T.val + 15 := by show t.val = 16 * (t.val / 16) + 15; omega
  show (cfg4.win 3).cut (grid4.coords t) ((dat4 (F := Ideal) V c).after 3 t) = _
  rw [after4_3]
  refine funext fun (y : (⟨2, ![256, 256]⟩ : Shape).Idx) => ?_
  obtain ⟨r, col, rfl⟩ : ∃ (r : Fin 256) (col : Fin 256), y = ix2 r col := ⟨y 0, y 1, eq_ix2 y⟩
  show outsAt4 V c t.val t.isLt (ix2 r col) = _
  rw [View.read_apply, outsAt4_congr V c et t.isLt (pt_lt T 15 (by omega)), outsAt4_final V c T r col]
  show _ = G4 V c _
  unfold G4 Spec.mk2
  show Spec.aggregate _ _ _ _ _ = Spec.aggregate _ _ _ _ _
  congr 1 <;> apply Fin.ext
  · show 256 * (t.val / 16) + r.val = win4_3.index t (0 : Fin 2) * 256 + 1 * r.val
    rw [h30]; omega
  · show col.val = win4_3.index t (1 : Fin 2) * 256 + 1 * col.val
    rw [h31]; omega

theorem cover4 (c : Dev nD) (i : ((cfg4.win 3).arr.view.loc ((c : Thread nD τ))).2.ty.Idx) :
    ∃ t : Fin cfg4.N, (cfg4.win 3).flush t = true ∧ i ∈ ((cfg4.win 3).blk t).view.set := by
  have h0 : (i 0 : Nat) < 8192 := (i 0).isLt
  have h1 : (i 1 : Nat) < 256 := (i 1).isLt
  let t : Fin cfg4.N := ⟨16 * ((i 0 : Nat) / 256) + 15, by show _ < grid4.N; rw [N_4]; omega⟩
  have hm : t.val % 16 = 15 := by show (16 * ((i 0 : Nat) / 256) + 15) % 16 = 15; omega
  have hd : t.val / 16 = (i 0 : Nat) / 256 := by show (16 * ((i 0 : Nat) / 256) + 15) / 16 = _; omega
  obtain ⟨-, -, -, -, -, -, h30, h31, -⟩ := idx4 t
  refine ⟨t, (flush4_3 t).mpr hm, ?_⟩
  show i ∈ ((View.whole main_v88).slice (win4_3.rect t)).set
  rw [View.set_slice_whole, Rect.mem_set_unit]
  intro a
  match a with
  | ⟨0, _⟩ =>
    show win4_3.index t (0 : Fin 2) * 256 ≤ (i 0 : Nat) ∧ (i 0 : Nat) < win4_3.index t (0 : Fin 2) * 256 + 256
    rw [h30, hd]; omega
  | ⟨1, _⟩ =>
    show win4_3.index t (1 : Fin 2) * 256 ≤ (i 1 : Nat) ∧ (i 1 : Nat) < win4_3.index t (1 : Fin 2) * 256 + 256
    rw [h31]; omega

end V4

theorem value4 (c : Dev nD) (i : Fin 8192) (o : Fin 256) :
    (dat4 (F := Ideal) V c).arrAt 3 cfg4.N (ix2 i o)
      = Spec.aggregate (V c main_v40) (V c main_v87) (V c main_v50) i o := by
  rw [(dat4 (F := Ideal) V c).arrAt_eq_of_cover 3 (V4.G4 V c) (V4.flushed4 V c) (V4.cover4 c)]
  rfl

end Cert.ReferenceIdeal.HandV

end
-- ==== Proof.RI_Host.lean ====
import proofs.«101322_g2000704916760673_pallasbulk_724_3_alg».proof.Proof.Gen.ReferenceIdeal.Launch
import proofs.«101322_g2000704916760673_pallasbulk_724_3_alg».proof.Proof.Spec
import proofs.«101322_g2000704916760673_pallasbulk_724_3_alg».proof.Proof.HostScatter
import Idealize.ShloMosaic.PureOps.Ideal.Laws
import Idealize.ShloMosaic.Lib.Pipeline.Value
import Idealize.ShloMosaic.Lib.ValueLayout

noncomputable section

namespace Cert.ReferenceIdeal.HostV

open Idealize.ShloMosaic Idealize.ShloMosaic.ValueIdx Idealize.ShloMosaic.TcCoe
open Cert.ReferenceIdeal Cert.ReferenceIdeal.Gen
open scoped BigOperators

variable (W : Valuation τ sig (Elt Ideal))

abbrev rowOf {n : Nat} (v : Spec.Arr2 1 n) : Fin n → EReal := fun c => v (ix2 0 c)

set_option maxHeartbeats 4000000 in
theorem bn_scale : (StableHlo.after (hostOps1 (F := Ideal)) W (Proc.devRef .tc main_v63) : Spec.Arr2 1 512)
    = Spec.bnScale (W (Proc.devRef .tc main_v41)) (rowOf (W (Proc.devRef .tc main_v51_0))) (rowOf (W (Proc.devRef .tc main_v51_1))) := by
  after_results_simp
  funext j
  obtain ⟨a, c, rfl⟩ : ∃ (a : Fin 1) (c : Fin 512), j = ix2 a c := ⟨j 0, j 1, eq_ix2 j⟩
  obtain rfl : a = 0 := Subsingleton.elim _ _
  change _ * Ideal.rsqrt (max _ (Ideal.ofBits .f32 0x00000000#32) + _) = _
  rw [Ideal.ofBits_zero_f32]
  rfl

set_option maxHeartbeats 4000000 in
theorem bn_shift : (StableHlo.after (hostOps1 (F := Ideal)) W (Proc.devRef .tc main_v65) : Spec.Arr2 1 512)
    = Spec.bnShift (W (Proc.devRef .tc main_v42)) (W (Proc.devRef .tc main_v41)) (rowOf (W (Proc.devRef .tc main_v51_0))) (rowOf (W (Proc.devRef .tc main_v51_1))) := by
  after_results_simp
  funext j
  obtain ⟨a, c, rfl⟩ : ∃ (a : Fin 1) (c : Fin 512), j = ix2 a c := ⟨j 0, j 1, eq_ix2 j⟩
  obtain rfl : a = 0 := Subsingleton.elim _ _
  change _ - _ * (_ * Ideal.rsqrt (max _ (Ideal.ofBits .f32 0x00000000#32) + _)) = _
  rw [Ideal.ofBits_zero_f32]
  rfl

def momTotal (m : Spec.Arr3 32 2 384) (s : Fin 2) : EReal := ∑ t : Fin 32, ∑ h : Fin 384, m (ix3 t s h)

def hostTotal (m : Spec.Arr3 32 2 384) (o : Nat) (hs : S32x2x384.Slices ![0, o, 0] S32x1x384) : S_.Idx → EReal :=
  Host.reduceAdd (F := Ideal) (φ := .f32)
    (fun i => shapeCast S32x384 (extractStridedSlice S32x1x384 ![0, o, 0] m hs) shapeCasts_S32x1x384_S32x384 i)
    (constant S_ .f32 0#32) reducesTo_S32x384_S_d0_1 h_S_

theorem hostTotal_eq (m : Spec.Arr3 32 2 384) (o : Nat) (k : Fin 2) (hk : k.val = o)
    (hs : S32x2x384.Slices ![0, o, 0] S32x1x384) (i : S_.Idx) : hostTotal m o hs i = momTotal m k :=
  Cert.HostScatter.total_apply (n := 32) (b := 384) m o k hk hs _ _ _ i

set_option maxHeartbeats 4000000 in
theorem ln_scale : (StableHlo.after (hostOps3 (F := Ideal)) W (Proc.devRef .tc main_v83) : Spec.Arr2 1 384)
    = Spec.lnScale (W (Proc.devRef .tc main_v46)) (momTotal (W (Proc.devRef .tc main_v67_1)) 0) (momTotal (W (Proc.devRef .tc main_v67_1)) 1) := by
  after_results_simp
  funext j
  obtain ⟨a, c, rfl⟩ : ∃ (a : Fin 1) (c : Fin 384), j = ix2 a c := ⟨j 0, j 1, eq_ix2 j⟩
  obtain rfl : a = 0 := Subsingleton.elim _ _
  change _ * Ideal.div _ (Ideal.sqrt (max (Ideal.div (hostTotal (W (Proc.devRef .tc main_v67_1)) 1 _ _) _
    - Ideal.div (hostTotal (W (Proc.devRef .tc main_v67_1)) 0 _ _) _ * Ideal.div (hostTotal (W (Proc.devRef .tc main_v67_1)) 0 _ _) _)
      (Ideal.ofBits .f32 0x00000000#32)) + _) = _
  rw [hostTotal_eq _ 0 0 rfl, hostTotal_eq _ 1 1 rfl, Ideal.ofBits_zero_f32]
  rfl

set_option maxHeartbeats 4000000 in
theorem ln_shift : (StableHlo.after (hostOps3 (F := Ideal)) W (Proc.devRef .tc main_v86) : Spec.Arr2 1 384)
    = Spec.lnShift (W (Proc.devRef .tc main_v47)) (W (Proc.devRef .tc main_v46)) (momTotal (W (Proc.devRef .tc main_v67_1)) 0) (momTotal (W (Proc.devRef .tc main_v67_1)) 1) := by
  after_results_simp
  funext j
  obtain ⟨a, c, rfl⟩ : ∃ (a : Fin 1) (c : Fin 384), j = ix2 a c := ⟨j 0, j 1, eq_ix2 j⟩
  obtain rfl : a = 0 := Subsingleton.elim _ _
  change _ - Ideal.div (hostTotal (W (Proc.devRef .tc main_v67_1)) 0 _ _) _ * (_ * Ideal.div _ (Ideal.sqrt (max (Ideal.div (hostTotal (W (Proc.devRef .tc main_v67_1)) 1 _ _) _
    - Ideal.div (hostTotal (W (Proc.devRef .tc main_v67_1)) 0 _ _) _ * Ideal.div (hostTotal (W (Proc.devRef .tc main_v67_1)) 0 _ _) _)
      (Ideal.ofBits .f32 0x00000000#32)) + _)) = _
  rw [hostTotal_eq _ 0 0 rfl, hostTotal_eq _ 1 1 rfl, Ideal.ofBits_zero_f32]
  rfl

end Cert.ReferenceIdeal.HostV

end
-- ==== Proof.RI_Host1.lean ====
import proofs.«101322_g2000704916760673_pallasbulk_724_3_alg».proof.Proof.Gen.ReferenceIdeal.Launch
import proofs.«101322_g2000704916760673_pallasbulk_724_3_alg».proof.Proof.Spec
import proofs.«101322_g2000704916760673_pallasbulk_724_3_alg».proof.Proof.HostScatter
import Idealize.ShloMosaic.PureOps.Ideal.Laws
import Idealize.ShloMosaic.Lib.Pipeline.Value
import Idealize.ShloMosaic.Lib.ValueLayout
import Idealize.ShloMosaic.Lib.IdealHost
import Idealize.ShloMosaic.Lib.KernelVsHost

noncomputable section

namespace Cert.ReferenceIdeal.HostV

open Idealize.ShloMosaic Idealize.ShloMosaic.ValueIdx Idealize.ShloMosaic.TcCoe
open Cert.ReferenceIdeal Cert.ReferenceIdeal.Gen
open Cert.HostScatter (pad_none2 row_apply cat_left cat_right wrapped_col)
open scoped BigOperators

section Adjacency

variable (ei : Spec.Edges)

def srcRow : IVec S131072 32 :=
  shapeCast S131072 (extractStridedSlice S1x131072 ![0, 0] ei slices_S2x131072_S1x131072_0_0) shapeCasts_S1x131072_S131072

def dstRow : IVec S131072 32 :=
  shapeCast S131072 (extractStridedSlice S1x131072 ![1, 0] ei slices_S2x131072_S1x131072_1_0) shapeCasts_S1x131072_S131072

def wrapNeg (v : IVec S131072 32) : IVec S131072 32 :=
  select (cmpi .slt v (broadcastInDim S131072 ![] bcast_S_S131072 (constantI S_ 32 0#32)))
    (addi v (broadcastInDim S131072 ![] bcast_S_S131072 (constantI S_ 32 8192#32))) v

def pairs : IVec S131072x2 32 :=
  concatenate S131072x2 1
    [⟨S131072x1, broadcastInDim S131072x1 ![0] bcast_S131072_S131072x1_0 (wrapNeg (dstRow ei))⟩,
     ⟨S131072x1, broadcastInDim S131072x1 ![0] bcast_S131072_S131072x1_0 (wrapNeg (srcRow ei))⟩]
    concatenates_S131072x1_S131072x1_S131072x2_d1

def counts : FVec Ideal S8192x8192 .f32 :=
  Host.scatterAdd scatter_S8192x8192_S131072x2_S131072_n_01_01_1
    (broadcastInDim S8192x8192 ![] bcast_S_S8192x8192 (constant S_ .f32 0x00000000#32)) (pairs ei)
    (broadcastInDim S131072 ![] bcast_S_S131072 (constant S_ .f32 0x3F800000#32))

def eyeT : FVec Ideal S8192x8192 .f32 :=
  uitofp .f32 (cmpi .eq (addi (iotaInDim S8192x8192 32 0) (broadcastInDim S8192x8192 ![] bcast_S_S8192x8192 (constantI S_ 32 0#32)))
    (iotaInDim S8192x8192 32 1))

def adjPlus : FVec Ideal S8192x8192 .f32 := addf (counts ei) eyeT

def deg : FVec Ideal S8192 .f32 :=
  Host.reduceAdd (adjPlus ei) (constant S_ .f32 0x00000000#32) reducesTo_S8192x8192_S8192_d1 h_S_

def dinv : FVec Ideal S8192 .f32 :=
  select (cmpf .ogt (deg ei) (broadcastInDim S8192 ![] bcast_S_S8192 (constant S_ .f32 0x00000000#32))) (Host.rsqrt (deg ei))
    (broadcastInDim S8192 ![] bcast_S_S8192 (constant S_ .f32 0x00000000#32))

def normT : FVec Ideal S8192x8192 .f32 :=
  mulf (mulf (broadcastInDim S8192x8192 ![0, 1] bcast_S8192x1_S8192x8192_0_1 (broadcastInDim S8192x1 ![0] bcast_S8192_S8192x1_0 (dinv ei))) (adjPlus ei))
    (broadcastInDim S8192x8192 ![0, 1] bcast_S1x8192_S8192x8192_0_1 (broadcastInDim S1x8192 ![1] bcast_S8192_S1x8192_1 (dinv ei)))

def adjOperand : FVec Ideal S8192x8192 .bf16 :=
  pad S8192x8192 ![0, 0] ![0, 0] ![0, 0] (truncf .bf16 (normT ei) bitsLt_bf16_f32) (sitofp .bf16 (constantI S_ 32 0#32))
    pads_S8192x8192_S8192x8192_000_000 h_S_

end Adjacency

section AdjacencyAt

variable (ei : Spec.Edges)

theorem pairs_eq0 (hr : Spec.InRange ei) (e : Fin 131072) : pairs ei (ix2 e 0) = ei (ix2 1 e) :=
  (cat_left _ _ _ e).trans (wrapped_col _ _ _ _ e 0 _ (row_apply ei 1 1 rfl _ _ e)
    (by rw [broadcastInDim_scalar_apply]; rfl) (hr 1 e).1)

theorem pairs_eq1 (hr : Spec.InRange ei) (e : Fin 131072) : pairs ei (ix2 e 1) = ei (ix2 0 e) :=
  (cat_right _ _ _ e).trans (wrapped_col _ _ _ _ e 0 _ (row_apply ei 0 0 rfl _ _ e)
    (by rw [broadcastInDim_scalar_apply]; rfl) (hr 0 e).1)

theorem eyeT_apply (i k : Fin 8192) : eyeT (ix2 i k) = Spec.eye i k := by
  show (((BitVec.ofBool (BitVec.ofNat 32 i.val + 0#32 == BitVec.ofNat 32 k.val)).toNat : ℝ) : EReal) = if i = k then 1 else 0
  rw [BitVec.add_zero]
  by_cases h : i = k
  · subst h; simp
  · rw [if_neg h]
    have hne : (BitVec.ofNat 32 i.val == BitVec.ofNat 32 k.val) = false := by
      rw [beq_eq_false_iff_ne]
      intro hh
      apply h; apply Fin.ext
      have := congrArg BitVec.toNat hh
      simp only [BitVec.toNat_ofNat] at this
      have hi := i.isLt; have hk := k.isLt
      omega
    rw [hne]; simp

theorem adjPlus_apply (i k : Fin 8192) : adjPlus ei (ix2 i k) = counts ei (ix2 i k) + eyeT (ix2 i k) := rfl

theorem deg_apply (i : Fin 8192) : deg ei (ix1 i) = ∑ k : Fin 8192, adjPlus ei (ix2 i k) := by
  show Ideal.hostReduceAdd reducesTo_S8192x8192_S8192_d1 (adjPlus ei) (Ideal.ofBits .f32 0x00000000#32) (ix1 i) = _
  rw [Ideal.hostReduceAdd_single reducesTo_S8192x8192_S8192_d1 (by decide : S8192x8192.Reduces [1] S8192), Ideal.ofBits_zero_f32, zero_add]
  refine Finset.sum_congr rfl fun k _ => congrArg _ (funext fun c => ?_)
  match c with
  | ⟨0, _⟩ => rfl
  | ⟨1, _⟩ => rfl

theorem dinv_apply (i : Fin 8192) :
    dinv ei (ix1 i) = if Ideal.cmp .ogt (deg ei (ix1 i)) 0 = 1#1 then Ideal.rsqrt (deg ei (ix1 i)) else 0 := by
  show Scalar.select (Ideal.cmp .ogt (deg ei (ix1 i)) (Ideal.ofBits .f32 0x00000000#32)) (Ideal.rsqrt (deg ei (ix1 i)))
    (Ideal.ofBits .f32 0x00000000#32) = _
  rw [Ideal.ofBits_zero_f32]
  rfl

theorem normT_apply (i k : Fin 8192) : normT ei (ix2 i k) = (dinv ei (ix1 i) * adjPlus ei (ix2 i k)) * dinv ei (ix1 k) := by
  have hrow : broadcastInDim S8192x8192 ![0, 1] bcast_S8192x1_S8192x8192_0_1 (broadcastInDim S8192x1 ![0] bcast_S8192_S8192x1_0 (dinv ei)) (ix2 i k)
      = dinv ei (ix1 i) := by
    refine (broadcastInDim_apply _ _ _ (ix2 i k : S8192x8192.Idx) (ix2 i 0 : S8192x1.Idx) fun a => ?_).trans
      (broadcastInDim_apply _ _ _ (ix2 i 0 : S8192x1.Idx) (ix1 i) fun a => ?_)
    · match a with
      | ⟨0, _⟩ => rfl
      | ⟨1, _⟩ => rfl
    · match a with
      | ⟨0, _⟩ => rfl
  have hcol : broadcastInDim S8192x8192 ![0, 1] bcast_S1x8192_S8192x8192_0_1 (broadcastInDim S1x8192 ![1] bcast_S8192_S1x8192_1 (dinv ei)) (ix2 i k)
      = dinv ei (ix1 k) := by
    refine (broadcastInDim_apply _ _ _ (ix2 i k : S8192x8192.Idx) (ix2 0 k : S1x8192.Idx) fun a => ?_).trans
      (broadcastInDim_apply _ _ _ (ix2 0 k : S1x8192.Idx) (ix1 k) fun a => ?_)
    · match a with
      | ⟨0, _⟩ => rfl
      | ⟨1, _⟩ => rfl
    · match a with
      | ⟨0, _⟩ => rfl
  show _ * adjPlus ei (ix2 i k) * _ = _
  rw [hrow, hcol]

end AdjacencyAt

section AdjacencyIs

variable (ei : Spec.Edges)

theorem counts_apply (hr : Spec.InRange ei) (i k : Fin 8192) : counts ei (ix2 i k) = Spec.edgeCount ei i k := by
  unfold counts Spec.edgeCount
  refine (Cert.HostScatter.scatter2_count scatter_S8192x8192_S131072x2_S131072_n_01_01_1 rfl rfl rfl rfl _ _
    (Cert.HostScatter.splat_zero _) (Cert.HostScatter.splat_one _) (pairs ei) (fun e c => ?_) i k).trans ?_
  · match c with
    | ⟨0, _⟩ =>
      show 0 ≤ (pairs ei (ix2 e 0)).toInt ∧ (pairs ei (ix2 e 0)).toInt < 8192
      rw [pairs_eq0 ei hr]; exact hr 1 e
    | ⟨1, _⟩ =>
      show 0 ≤ (pairs ei (ix2 e 1)).toInt ∧ (pairs ei (ix2 e 1)).toInt < 8192
      rw [pairs_eq1 ei hr]; exact hr 0 e
  · refine Finset.sum_congr rfl fun e _ => ?_
    rw [pairs_eq0 ei hr, pairs_eq1 ei hr]
    rfl

theorem rowDegree_eq (hr : Spec.InRange ei) (i : Fin 8192) : deg ei (ix1 i) = Spec.rowDegree ei i := by
  rw [deg_apply]
  unfold Spec.rowDegree
  exact Finset.sum_congr rfl fun k _ => by rw [adjPlus_apply, counts_apply ei hr, eyeT_apply]

theorem invSqrtDeg_eq (hr : Spec.InRange ei) (i : Fin 8192) : dinv ei (ix1 i) = Spec.invSqrtDeg ei i := by
  rw [dinv_apply, rowDegree_eq ei hr]
  rfl

theorem adjOperand_eq (hr : Spec.InRange ei) : (adjOperand ei : Spec.Arr2 8192 8192) = Spec.normAdj ei := by
  rw [show (adjOperand ei : Spec.Arr2 8192 8192) = truncf .bf16 (normT ei) bitsLt_bf16_f32 from pad_none2 _ _ _ _]
  funext j
  obtain ⟨i, k, rfl⟩ : ∃ (i : Fin 8192) (k : Fin 8192), j = ix2 i k := ⟨j 0, j 1, eq_ix2 j⟩
  show normT ei (ix2 i k) = _
  rw [normT_apply, invSqrtDeg_eq ei hr, invSqrtDeg_eq ei hr, adjPlus_apply, counts_apply ei hr, eyeT_apply]
  rfl

end AdjacencyIs

section Entry

variable (W : Valuation τ sig (Elt Ideal))

def pre : Valuation τ sig (Elt Ideal) :=
  StableHlo.after hostOps0_21 (StableHlo.after hostOps0_20 (StableHlo.after hostOps0_19 (StableHlo.after hostOps0_18
  (StableHlo.after hostOps0_17 (StableHlo.after hostOps0_16 (StableHlo.after hostOps0_15 (StableHlo.after hostOps0_14
  (StableHlo.after hostOps0_13 (StableHlo.after hostOps0_12 (StableHlo.after hostOps0_11 (StableHlo.after hostOps0_10
  (StableHlo.after hostOps0_9 (StableHlo.after hostOps0_8 (StableHlo.after hostOps0_7 (StableHlo.after hostOps0_6
  (StableHlo.after hostOps0_5 (StableHlo.after hostOps0_4 (StableHlo.after hostOps0_3 (StableHlo.after hostOps0_2
  (StableHlo.after hostOps0_1 (StableHlo.after hostOps0 W)))))))))))))))))))))

set_option maxHeartbeats 16000000 in
theorem pre_x : (pre W (Proc.devRef .tc main_v38) : Spec.Arr2 8192 512) = W (Proc.devRef .tc main_arg0) := by
  unfold pre
  after_results_simp
  exact pad_none2 (n0 := 8192) (n1 := 512) (W (Proc.devRef .tc main_arg0) : FVec Ideal S8192x512 .f32) _ pads_S8192x512_S8192x512_000_000 h_S_

set_option maxHeartbeats 16000000 in
theorem pre_bn_g : (pre W (Proc.devRef .tc main_v41) : Spec.Arr2 1 512) = W (Proc.devRef .tc main_arg2) := by
  unfold pre
  after_results_simp
  exact pad_none2 (n0 := 1) (n1 := 512) (W (Proc.devRef .tc main_arg2) : FVec Ideal S1x512 .f32) _ pads_S1x512_S1x512_000_000 h_S_

set_option maxHeartbeats 16000000 in
theorem pre_bn_b : (pre W (Proc.devRef .tc main_v42) : Spec.Arr2 1 512) = W (Proc.devRef .tc main_arg3) := by
  unfold pre
  after_results_simp
  exact pad_none2 (n0 := 1) (n1 := 512) (W (Proc.devRef .tc main_arg3) : FVec Ideal S1x512 .f32) _ pads_S1x512_S1x512_000_000 h_S_

set_option maxHeartbeats 16000000 in
theorem pre_w1 : (pre W (Proc.devRef .tc main_v44) : Spec.Arr2 512 384) = W (Proc.devRef .tc main_arg4) := by
  unfold pre
  after_results_simp
  show pad S512x384 ![0, 0] ![0, 0] ![0, 0] (truncf .bf16 (W (Proc.devRef .tc main_arg4) : FVec Ideal S512x384 .f32) bitsLt_bf16_f32)
    (sitofp (F := Ideal) .bf16 (constantI S_ 32 0#32)) pads_S512x384_S512x384_000_000 h_S_ = _
  exact pad_none2 _ _ _ _

set_option maxHeartbeats 16000000 in
theorem pre_b1 : (pre W (Proc.devRef .tc main_v45) : Spec.Arr2 1 384) = W (Proc.devRef .tc main_arg5) := by
  unfold pre
  after_results_simp
  exact pad_none2 (n0 := 1) (n1 := 384) (W (Proc.devRef .tc main_arg5) : FVec Ideal S1x384 .f32) _ pads_S1x384_S1x384_000_000 h_S_

set_option maxHeartbeats 16000000 in
theorem pre_ln_g : (pre W (Proc.devRef .tc main_v46) : Spec.Arr2 1 384) = W (Proc.devRef .tc main_arg6) := by
  unfold pre
  after_results_simp
  exact pad_none2 (n0 := 1) (n1 := 384) (W (Proc.devRef .tc main_arg6) : FVec Ideal S1x384 .f32) _ pads_S1x384_S1x384_000_000 h_S_

set_option maxHeartbeats 16000000 in
theorem pre_ln_b : (pre W (Proc.devRef .tc main_v47) : Spec.Arr2 1 384) = W (Proc.devRef .tc main_arg7) := by
  unfold pre
  after_results_simp
  exact pad_none2 (n0 := 1) (n1 := 384) (W (Proc.devRef .tc main_arg7) : FVec Ideal S1x384 .f32) _ pads_S1x384_S1x384_000_000 h_S_

set_option maxHeartbeats 16000000 in
theorem pre_w2 : (pre W (Proc.devRef .tc main_v49) : Spec.Arr2 384 256) = W (Proc.devRef .tc main_arg8) := by
  unfold pre
  after_results_simp
  show pad S384x256 ![0, 0] ![0, 0] ![0, 0] (truncf .bf16 (W (Proc.devRef .tc main_arg8) : FVec Ideal S384x256 .f32) bitsLt_bf16_f32)
    (sitofp (F := Ideal) .bf16 (constantI S_ 32 0#32)) pads_S384x256_S384x256_000_000 h_S_ = _
  exact pad_none2 _ _ _ _

set_option maxHeartbeats 16000000 in
theorem pre_b2 : (pre W (Proc.devRef .tc main_v50) : Spec.Arr2 1 256) = W (Proc.devRef .tc main_arg9) := by
  unfold pre
  after_results_simp
  exact pad_none2 (n0 := 1) (n1 := 256) (W (Proc.devRef .tc main_arg9) : FVec Ideal S1x256 .f32) _ pads_S1x256_S1x256_000_000 h_S_

set_option maxHeartbeats 16000000 in
theorem pre_adj_term : (pre W (Proc.devRef .tc main_v40) : Spec.Arr2 8192 8192) = adjOperand (W (Proc.devRef .tc main_arg1)) := by
  unfold pre
  after_results_simp
  rfl

theorem pre_adj (hr : Spec.InRange (W (Proc.devRef .tc main_arg1))) :
    (pre W (Proc.devRef .tc main_v40) : Spec.Arr2 8192 8192) = Spec.normAdj (W (Proc.devRef .tc main_arg1)) :=
  (pre_adj_term W).trans (adjOperand_eq _ hr)

end Entry

end Cert.ReferenceIdeal.HostV

end
-- ==== Proof.RI_Final.lean ====
import proofs.«101322_g2000704916760673_pallasbulk_724_3_alg».proof.Proof.RI_Comp
import proofs.«101322_g2000704916760673_pallasbulk_724_3_alg».proof.Proof.RI_Bundle
import proofs.«101322_g2000704916760673_pallasbulk_724_3_alg».proof.Proof.RI_V0
import proofs.«101322_g2000704916760673_pallasbulk_724_3_alg».proof.Proof.RI_V1
import proofs.«101322_g2000704916760673_pallasbulk_724_3_alg».proof.Proof.RI_V2
import proofs.«101322_g2000704916760673_pallasbulk_724_3_alg».proof.Proof.RI_V3
import proofs.«101322_g2000704916760673_pallasbulk_724_3_alg».proof.Proof.RI_V4
import proofs.«101322_g2000704916760673_pallasbulk_724_3_alg».proof.Proof.RI_Host
import proofs.«101322_g2000704916760673_pallasbulk_724_3_alg».proof.Proof.RI_Host1

set_option maxRecDepth 16384

noncomputable section

namespace Cert.ReferenceIdeal.Comp

open Idealize.ShloMosaic Idealize.ShloMosaic.TcCoe Idealize.ShloMosaic.ValueIdx
open Idealize.SL.Sem
open Cert.ReferenceIdeal Cert.ReferenceIdeal.Gen Cert.ReferenceIdeal.Hand

theorem valueFacts : ValueFacts (regions (F := Ideal)) where
  sum0 V c j := HandV.arrAt0_1_sum V c j
  sumsq0 V c j := HandV.arrAt0_2_sumSq V c j
  aff1 V c i h := HandV.value1_4 V c i h
  agg2 V c i h := HandV.value2_3 V c i h
  mom2s V c t h := HandV.value2_4_sum V c t h
  mom2q V c t h := HandV.value2_4_sq V c t h
  aff3 V c i o := HandV.value3_4 V c i o
  agg4 V c i o := HandV.value4 V c i o

variable (m : (ℓ : Loc nD τ sig) → Buf (Elt Ideal) ℓ)

theorem hostFacts : HostFacts m where
  x c := HostV.pre_x (V0 m c)
  adj c hei := HostV.pre_adj (V0 m c) hei
  g c := HostV.pre_bn_g (V0 m c)
  bb c := HostV.pre_bn_b (V0 m c)
  w1 c := HostV.pre_w1 (V0 m c)
  b1 c := HostV.pre_b1 (V0 m c)
  lg c := HostV.pre_ln_g (V0 m c)
  lb c := HostV.pre_ln_b (V0 m c)
  w2 c := HostV.pre_w2 (V0 m c)
  b2 c := HostV.pre_b2 (V0 m c)
  bn_scale W := HostV.bn_scale W
  bn_shift W := HostV.bn_shift W
  ln_scale W := HostV.ln_scale W
  ln_shift W := HostV.ln_shift W

theorem result (c : Dev nD) (hei : Spec.InRange (m ((c : Thread nD τ).loc main_arg1))) :
    (W29 m regions c (Proc.devRef .tc main_v88) : Spec.Arr2 8192 256)
      = Spec.rOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) :=
  result_eq_of valueFacts (hostFacts m) c hei

end Cert.ReferenceIdeal.Comp

end
-- ==== Proof.Algebra0.lean ====
import proofs.«101322_g2000704916760673_pallasbulk_724_3_alg».proof.Proof.Spec

noncomputable section

open scoped BigOperators

namespace Cert.Algebra

open Idealize.ShloMosaic Idealize.ShloMosaic.ValueIdx

@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

theorem coe_max_zero (r : ℝ) : max (r : EReal) 0 = ((max r 0 : ℝ) : EReal) :=
  (EReal.coe_strictMono.monotone.map_max (a := r) (b := 0)).symm

theorem IsReal.max_zero {a : EReal} (ha : IsReal a) : IsReal (max a 0) := by
  obtain ⟨r, rfl⟩ := ha; exact ⟨max r 0, coe_max_zero r⟩

theorem div_coe (a b : ℝ) (hb : b ≠ 0) : Ideal.div (a : EReal) (b : EReal) = ((a / b : ℝ) : EReal) := by
  unfold Ideal.div
  rw [if_neg (EReal.coe_ne_zero.mpr hb), ← EReal.coe_inv, ← EReal.coe_mul, div_eq_mul_inv]

theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

theorem sqrt_coe_nonneg (r : ℝ) (hr : 0 ≤ r) : Ideal.sqrt (r : EReal) = ((Real.sqrt r : ℝ) : EReal) := by
  rw [Ideal.sqrt_coe, if_neg (not_lt.mpr hr)]

theorem cOne_eq : Spec.cOne = 1 := by
  unfold Spec.cOne; simp [Ideal.ofBits, Ideal.ieee, -EReal.coe_mul]; norm_num

theorem c8192_eq : Spec.c8192 = ((8192 : ℝ) : EReal) := by
  unfold Spec.c8192; simp [Ideal.ofBits, Ideal.ieee, -EReal.coe_mul]; norm_num

theorem cCnt_eq : Spec.cCnt = ((3145728 : ℝ) : EReal) := by
  unfold Spec.cCnt; simp [Ideal.ofBits, Ideal.ieee, -EReal.coe_mul]; norm_num

theorem cEps_eq : ∃ e : ℝ, 0 < e ∧ Spec.cEps = (e : EReal) := by
  unfold Spec.cEps; simp [Ideal.ofBits, Ideal.ieee, -EReal.coe_mul]

end Cert.Algebra

end
-- ==== Proof.Algebra1.lean ====
import proofs.«101322_g2000704916760673_pallasbulk_724_3_alg».proof.Proof.Algebra0

noncomputable section

open scoped BigOperators

namespace Cert.Algebra

open Idealize.ShloMosaic Idealize.ShloMosaic.ValueIdx

theorem node_lt (ei : Spec.Edges) (hei : Spec.InRange ei) (r : Fin 2) (e : Fin 131072) : Spec.node ei r e < 8192 := by
  obtain ⟨h0, h1⟩ := hei r e
  unfold Spec.node
  have h := BitVec.toInt_eq_toNat_cond (ei (ix2 r e))
  have hlt := (ei (ix2 r e)).isLt
  split at h <;> omega

theorem sum_edgeCount (ei : Spec.Edges) (hei : Spec.InRange ei) (i : Fin 8192) :
    ∑ j : Fin 8192, Spec.edgeCount ei i j = Spec.inDegree ei i := by
  unfold Spec.edgeCount Spec.inDegree
  rw [Finset.sum_comm]
  refine Finset.sum_congr rfl fun e _ => ?_
  by_cases h : Spec.node ei 1 e = i.val
  · simp only [h, true_and, if_true]
    rw [Finset.sum_eq_single (⟨Spec.node ei 0 e, node_lt ei hei 0 e⟩ : Fin 8192)]
    · simp
    · intro j _ hj
      rw [if_neg]
      intro hne
      exact hj (Fin.ext hne.symm)
    · intro hn; exact absurd (Finset.mem_univ _) hn
  · simp only [h, false_and, if_false, Finset.sum_const_zero]

theorem sum_eye (i : Fin 8192) : ∑ j : Fin 8192, Spec.eye i j = 1 := by
  unfold Spec.eye
  rw [Finset.sum_ite_eq Finset.univ i (fun _ => (1 : EReal)), if_pos (Finset.mem_univ _)]

theorem rowDegree_eq (ei : Spec.Edges) (hei : Spec.InRange ei) (i : Fin 8192) :
    Spec.rowDegree ei i = Spec.inDegree ei i + 1 := by
  unfold Spec.rowDegree
  rw [Finset.sum_add_distrib, sum_edgeCount ei hei, sum_eye]

theorem edgeCount_real (ei : Spec.Edges) (i j : Fin 8192) : IsReal (Spec.edgeCount ei i j) := by
  unfold Spec.edgeCount
  refine IsReal.sum _ _ fun e => ?_
  split
  · exact IsReal.one
  · exact IsReal.zero

theorem inDegree_real (ei : Spec.Edges) (i : Fin 8192) : ∃ n : ℝ, 0 ≤ n ∧ Spec.inDegree ei i = (n : EReal) := by
  refine ⟨∑ e : Fin 131072, if Spec.node ei 1 e = i.val then (1 : ℝ) else 0, ?_, ?_⟩
  · exact Finset.sum_nonneg fun e _ => by split <;> norm_num
  · unfold Spec.inDegree
    rw [coe_sum]
    refine Finset.sum_congr rfl fun e _ => ?_
    split <;> simp

theorem rowFactor_real (ei : Spec.Edges) (hei : Spec.InRange ei) (i : Fin 8192) :
    ∃ d : ℝ, Spec.rowFactor ei (ix2 i 0) = (d : EReal) ∧ Spec.invSqrtDeg ei i = (d : EReal) := by
  obtain ⟨n, hn0, hn⟩ := inDegree_real ei i
  have hpos : (0 : ℝ) < n + 1 := by linarith
  have hdeg : Spec.rowDegree ei i = ((n + 1 : ℝ) : EReal) := by
    rw [rowDegree_eq ei hei, hn, EReal.coe_add, EReal.coe_one]
  refine ⟨(Real.sqrt (n + 1))⁻¹, ?_, ?_⟩
  · simp only [Spec.rowFactor, Spec.mk2_apply]
    rw [cOne_eq, hn, ← EReal.coe_one, ← EReal.coe_add, rsqrt_coe_pos _ hpos]
  · unfold Spec.invSqrtDeg
    rw [hdeg, rsqrt_coe_pos _ hpos, if_pos]
    have hlt : (0 : EReal) < ((n + 1 : ℝ) : EReal) := EReal.coe_pos.mpr hpos
    show BitVec.ofBool (decide ((0 : EReal) < ((n + 1 : ℝ) : EReal))) = 1#1
    rw [decide_eq_true hlt]; rfl

end Cert.Algebra

end
-- ==== Proof.Algebra2.lean ====
import proofs.«101322_g2000704916760673_pallasbulk_724_3_alg».proof.Proof.Algebra1

noncomputable section

open scoped BigOperators

namespace Cert.Algebra

open Idealize.ShloMosaic Idealize.ShloMosaic.ValueIdx

theorem affineScaled_eq {C H : Nat} (x : Spec.Arr2 8192 C) (s t : Spec.Arr2 1 C) (dv : Spec.Arr2 8192 128) (w : Spec.Arr2 C H)
    (i : Fin 8192) (h : Fin H) (hx : ∀ c, IsReal (x (ix2 i c))) (hs : ∀ c, IsReal (s (ix2 0 c)))
    (ht : ∀ c, IsReal (t (ix2 0 c))) (hw : ∀ c, IsReal (w (ix2 c h))) (d : ℝ) (hd : dv (ix2 i 0) = (d : EReal)) :
    ∃ a : ℝ, Spec.affine x s t w i h = (a : EReal) ∧ Spec.affineScaled x s t dv w i h = ((d * a : ℝ) : EReal) := by
  choose X hX using hx
  choose S hS using hs
  choose T hT using ht
  choose W hW using hw
  refine ⟨∑ c, (X c * S c + T c) * W c, ?_, ?_⟩
  · unfold Spec.affine
    rw [coe_sum]
    refine Finset.sum_congr rfl fun c _ => ?_
    rw [hX, hS, hT, hW, EReal.coe_mul, EReal.coe_add, EReal.coe_mul]
  · unfold Spec.affineScaled
    rw [Finset.mul_sum, coe_sum]
    refine Finset.sum_congr rfl fun c _ => ?_
    rw [hX, hS, hT, hW, hd, ← EReal.coe_mul, ← EReal.coe_add, ← EReal.coe_mul, ← EReal.coe_mul]
    congr 1; ring

theorem aggregate_identity {N : Nat} (n d Hr : Fin N → ℝ) (i : Fin N) :
    (∑ j, n j * (d j * Hr j) + d i * Hr i) * d i
      = ∑ j, ((d i * (n j + if i = j then 1 else 0)) * d j) * Hr j := by
  have hterm : ∀ j, ((d i * (n j + if i = j then (1 : ℝ) else 0)) * d j) * Hr j
      = d i * (n j * (d j * Hr j)) + if i = j then d i * (d j * Hr j) else 0 := by
    intro j; split <;> ring
  simp only [hterm]
  rw [Finset.sum_add_distrib, Finset.sum_ite_eq Finset.univ i, if_pos (Finset.mem_univ _), ← Finset.mul_sum]
  ring

theorem eye_coe (i j : Fin 8192) : Spec.eye i j = (((if i = j then 1 else 0 : ℝ)) : EReal) := by
  unfold Spec.eye; split <;> simp

theorem aggregateSelf_eq {H : Nat} (ei : Spec.Edges) (G Hm : Spec.Arr2 8192 H) (b : Spec.Arr2 1 H) (i : Fin 8192) (h : Fin H)
    (d : Fin 8192 → ℝ) (hd : ∀ j, Spec.rowFactor ei (ix2 j 0) = (d j : EReal)) (hd' : ∀ j, Spec.invSqrtDeg ei j = (d j : EReal))
    (Hr : Fin 8192 → ℝ) (hH : ∀ j, Hm (ix2 j h) = (Hr j : EReal)) (hG : ∀ j, G (ix2 j h) = ((d j * Hr j : ℝ) : EReal))
    (hb : IsReal (b (ix2 0 h))) :
    Spec.aggregateSelf (Spec.mk2 (Spec.edgeCount ei)) G b (Spec.rowFactor ei) i h = Spec.aggregate (Spec.normAdj ei) Hm b i h
      ∧ IsReal (Spec.aggregate (Spec.normAdj ei) Hm b i h) := by
  choose n hn using edgeCount_real ei i
  obtain ⟨β, hβ⟩ := hb
  have L : (∑ j : Fin 8192, Spec.mk2 (Spec.edgeCount ei) (ix2 i j) * G (ix2 j h)) + G (ix2 i h)
      = ((∑ j, n j * (d j * Hr j) + d i * Hr i : ℝ) : EReal) := by
    rw [EReal.coe_add, coe_sum, hG i]
    refine congrArg (fun z => z + ((d i * Hr i : ℝ) : EReal)) (Finset.sum_congr rfl fun j _ => ?_)
    rw [Spec.mk2_apply, hn, hG, ← EReal.coe_mul]
  have R : (∑ j : Fin 8192, Spec.normAdj ei (ix2 i j) * Hm (ix2 j h))
      = ((∑ j, ((d i * (n j + if i = j then 1 else 0)) * d j) * Hr j : ℝ) : EReal) := by
    rw [coe_sum]
    refine Finset.sum_congr rfl fun j _ => ?_
    simp only [Spec.normAdj, Spec.mk2_apply]
    rw [hd', hd', hn, hH, eye_coe, ← EReal.coe_add, ← EReal.coe_mul, ← EReal.coe_mul, ← EReal.coe_mul]
  have key : Spec.aggregateSelf (Spec.mk2 (Spec.edgeCount ei)) G b (Spec.rowFactor ei) i h
      = Spec.aggregate (Spec.normAdj ei) Hm b i h := by
    unfold Spec.aggregateSelf Spec.aggregate
    rw [L, R, hd i, ← EReal.coe_mul, aggregate_identity]
  refine ⟨key, ?_⟩
  unfold Spec.aggregate
  rw [R, hβ]
  exact ((IsReal.coe _).add (IsReal.coe _)).max_zero

theorem kS_eq {x : Spec.Arr2 8192 512} : Spec.kS x = Spec.colSum x := by
  funext c
  unfold Spec.kS Spec.colSum Spec.tileSum256
  exact Spec.sum_tiles 32 256 8192 (by norm_num) (fun i => x (ix2 i c))

theorem kSS_eq {x : Spec.Arr2 8192 512} : Spec.kSS x = Spec.colSumSq x := by
  funext c
  unfold Spec.kSS Spec.colSumSq Spec.tileSumSq256
  exact Spec.sum_tiles 32 256 8192 (by norm_num) (fun i => x (ix2 i c) * x (ix2 i c))

theorem total512 (A : Spec.Arr2 8192 384) :
    ∑ t : Fin 16, ∑ h : Fin 384, Spec.tileSum512 A t h = ∑ i : Fin 8192, ∑ h : Fin 384, A (ix2 i h) := by
  unfold Spec.tileSum512
  rw [← Spec.sum_tiles 16 512 8192 (by norm_num) (fun i => ∑ h : Fin 384, A (ix2 i h))]
  exact Finset.sum_congr rfl fun t _ => Finset.sum_comm

theorem total256 (A : Spec.Arr2 8192 384) :
    ∑ t : Fin 32, ∑ h : Fin 384, Spec.tileSum256 A t h = ∑ i : Fin 8192, ∑ h : Fin 384, A (ix2 i h) := by
  unfold Spec.tileSum256
  rw [← Spec.sum_tiles 32 256 8192 (by norm_num) (fun i => ∑ h : Fin 384, A (ix2 i h))]
  exact Finset.sum_congr rfl fun t _ => Finset.sum_comm

theorem totalSq512 (A : Spec.Arr2 8192 384) :
    ∑ t : Fin 16, ∑ h : Fin 384, Spec.tileSumSq512 A t h = ∑ i : Fin 8192, ∑ h : Fin 384, A (ix2 i h) * A (ix2 i h) := by
  unfold Spec.tileSumSq512
  rw [← Spec.sum_tiles 16 512 8192 (by norm_num) (fun i => ∑ h : Fin 384, A (ix2 i h) * A (ix2 i h))]
  exact Finset.sum_congr rfl fun t _ => Finset.sum_comm

theorem totalSq256 (A : Spec.Arr2 8192 384) :
    ∑ t : Fin 32, ∑ h : Fin 384, Spec.tileSumSq256 A t h = ∑ i : Fin 8192, ∑ h : Fin 384, A (ix2 i h) * A (ix2 i h) := by
  unfold Spec.tileSumSq256
  rw [← Spec.sum_tiles 32 256 8192 (by norm_num) (fun i => ∑ h : Fin 384, A (ix2 i h) * A (ix2 i h))]
  exact Finset.sum_congr rfl fun t _ => Finset.sum_comm

end Cert.Algebra

end
-- ==== Proof.Algebra3.lean ====
import proofs.«101322_g2000704916760673_pallasbulk_724_3_alg».proof.Proof.Algebra0

noncomputable section

open scoped BigOperators

namespace Cert.Algebra

open Idealize.ShloMosaic Idealize.ShloMosaic.ValueIdx

theorem IsReal.div_coe {a : EReal} (ha : IsReal a) (b : ℝ) (hb : b ≠ 0) : IsReal (Ideal.div a (b : EReal)) := by
  obtain ⟨r, rfl⟩ := ha; exact ⟨r / b, Cert.Algebra.div_coe r b hb⟩

theorem var_real {a m : EReal} (ha : IsReal a) (hm : IsReal m) : ∃ v : ℝ, 0 ≤ v ∧ max (a - m * m) 0 = (v : EReal) := by
  obtain ⟨r, rfl⟩ := ha; obtain ⟨s, rfl⟩ := hm
  refine ⟨max (r - s * s) 0, le_max_right _ _, ?_⟩
  rw [← EReal.coe_mul, ← EReal.coe_sub, coe_max_zero]

theorem bnMean_real (S : Fin 512 → EReal) (hS : ∀ c, IsReal (S c)) (c : Fin 512) : IsReal (Spec.bnMean S c) := by
  unfold Spec.bnMean; rw [c8192_eq]; exact (hS c).div_coe _ (by norm_num)

theorem bnScale_real (g : Spec.Arr2 1 512) (S SS : Fin 512 → EReal) (hg : ∀ c, IsReal (g (ix2 0 c)))
    (hS : ∀ c, IsReal (S c)) (hSS : ∀ c, IsReal (SS c)) (c : Fin 512) : IsReal (Spec.bnScale g S SS (ix2 0 c)) := by
  simp only [Spec.bnScale, Spec.mk2_apply]
  refine (hg c).mul ?_
  obtain ⟨v, hv0, hv⟩ := var_real (a := Ideal.div (SS c) Spec.c8192) (m := Spec.bnMean S c)
    (by rw [c8192_eq]; exact (hSS c).div_coe _ (by norm_num)) (bnMean_real S hS c)
  obtain ⟨e, he0, he⟩ := cEps_eq
  unfold Spec.bnVar
  rw [hv, he, ← EReal.coe_add, rsqrt_coe_pos _ (by linarith)]
  exact IsReal.coe _

theorem bnShift_real (b g : Spec.Arr2 1 512) (S SS : Fin 512 → EReal) (hb : ∀ c, IsReal (b (ix2 0 c)))
    (hg : ∀ c, IsReal (g (ix2 0 c))) (hS : ∀ c, IsReal (S c)) (hSS : ∀ c, IsReal (SS c)) (c : Fin 512) :
    IsReal (Spec.bnShift b g S SS (ix2 0 c)) := by
  simp only [Spec.bnShift, Spec.mk2_apply]
  exact (hb c).sub ((bnMean_real S hS c).mul (bnScale_real g S SS hg hS hSS c))

theorem lnMean_real (T : EReal) (hT : IsReal T) : IsReal (Spec.lnMean T) := by
  unfold Spec.lnMean; rw [cCnt_eq]; exact hT.div_coe _ (by norm_num)

theorem lnInvStd_real (T TT : EReal) (hT : IsReal T) (hTT : IsReal TT) : IsReal (Spec.lnInvStd T TT) := by
  obtain ⟨v, hv0, hv⟩ := var_real (a := Ideal.div TT Spec.cCnt) (m := Spec.lnMean T)
    (by rw [cCnt_eq]; exact hTT.div_coe _ (by norm_num)) (lnMean_real T hT)
  obtain ⟨e, he0, he⟩ := cEps_eq
  unfold Spec.lnInvStd Spec.lnVar
  rw [hv, he, sqrt_coe_nonneg _ hv0, ← EReal.coe_add, cOne_eq]
  exact IsReal.one.div_coe _ (ne_of_gt (by have := Real.sqrt_nonneg v; linarith))

theorem lnScale_real (g : Spec.Arr2 1 384) (T TT : EReal) (hg : ∀ h, IsReal (g (ix2 0 h))) (hT : IsReal T) (hTT : IsReal TT)
    (h : Fin 384) : IsReal (Spec.lnScale g T TT (ix2 0 h)) := by
  simp only [Spec.lnScale, Spec.mk2_apply]
  exact (hg h).mul (lnInvStd_real T TT hT hTT)

theorem lnShift_real (b g : Spec.Arr2 1 384) (T TT : EReal) (hb : ∀ h, IsReal (b (ix2 0 h))) (hg : ∀ h, IsReal (g (ix2 0 h)))
    (hT : IsReal T) (hTT : IsReal TT) (h : Fin 384) : IsReal (Spec.lnShift b g T TT (ix2 0 h)) := by
  simp only [Spec.lnShift, Spec.mk2_apply]
  exact (hb h).sub ((lnMean_real T hT).mul (lnScale_real g T TT hg hT hTT h))

end Cert.Algebra

end
-- ==== Proof.Algebra.lean ====
import proofs.«101322_g2000704916760673_pallasbulk_724_3_alg».proof.Proof.Algebra2
import proofs.«101322_g2000704916760673_pallasbulk_724_3_alg».proof.Proof.Algebra3

noncomputable section

open scoped BigOperators

namespace Cert.Algebra

open Idealize.ShloMosaic Idealize.ShloMosaic.ValueIdx

theorem kOut_eq_rOut (x : Spec.Arr2 8192 512) (ei : Spec.Edges) (g bb : Spec.Arr2 1 512) (w1 : Spec.Arr2 512 384)
    (b1 lg lb : Spec.Arr2 1 384) (w2 : Spec.Arr2 384 256) (b2 : Spec.Arr2 1 256)
    (hx : ∀ j, ∃ r : ℝ, x j = (r : EReal)) (hg : ∀ j, ∃ r : ℝ, g j = (r : EReal)) (hbb : ∀ j, ∃ r : ℝ, bb j = (r : EReal))
    (hw1 : ∀ j, ∃ r : ℝ, w1 j = (r : EReal)) (hb1 : ∀ j, ∃ r : ℝ, b1 j = (r : EReal)) (hlg : ∀ j, ∃ r : ℝ, lg j = (r : EReal))
    (hlb : ∀ j, ∃ r : ℝ, lb j = (r : EReal)) (hw2 : ∀ j, ∃ r : ℝ, w2 j = (r : EReal)) (hb2 : ∀ j, ∃ r : ℝ, b2 j = (r : EReal))
    (hei : Spec.InRange ei) :
    Spec.kOut x ei g bb w1 b1 lg lb w2 b2 = Spec.rOut x ei g bb w1 b1 lg lb w2 b2 := by

  choose d hd hd' using rowFactor_real ei hei

  have hS : ∀ c, IsReal (Spec.colSum x c) := fun c => IsReal.sum _ _ fun i => hx _
  have hSS : ∀ c, IsReal (Spec.colSumSq x c) := fun c => IsReal.sum _ _ fun i => IsReal.mul (hx _) (hx _)
  have hs1 : ∀ c, IsReal (Spec.bnScale g (Spec.colSum x) (Spec.colSumSq x) (ix2 0 c)) :=
    bnScale_real g _ _ (fun c => hg _) hS hSS
  have ht1 : ∀ c, IsReal (Spec.bnShift bb g (Spec.colSum x) (Spec.colSumSq x) (ix2 0 c)) :=
    bnShift_real bb g _ _ (fun c => hbb _) (fun c => hg _) hS hSS

  have hA1 : ∀ i h, ∃ a : ℝ, Spec.rH0 x g bb w1 (ix2 i h) = (a : EReal)
      ∧ Spec.kG1 x ei g bb w1 (ix2 i h) = ((d i * a : ℝ) : EReal) := by
    intro i h
    simp only [Spec.rH0, Spec.kG1, Spec.mk2_apply, kS_eq, kSS_eq]
    exact affineScaled_eq x _ _ (Spec.rowFactor ei) w1 i h (fun c => hx _) hs1 ht1 (fun c => hw1 _) (d i) (hd i)
  choose a1 ha1 hk1 using hA1

  have hB1 : ∀ i h, Spec.kH1 x ei g bb w1 b1 (ix2 i h) = Spec.rH1 x ei g bb w1 b1 (ix2 i h)
      ∧ IsReal (Spec.rH1 x ei g bb w1 b1 (ix2 i h)) := by
    intro i h
    simp only [Spec.kH1, Spec.rH1, Spec.mk2_apply]
    exact aggregateSelf_eq ei _ _ b1 i h d hd hd' (fun j => a1 j h) (fun j => ha1 j h) (fun j => hk1 j h) (hb1 _)
  have hH1 : Spec.kH1 x ei g bb w1 b1 = Spec.rH1 x ei g bb w1 b1 := by
    funext j
    obtain ⟨p, q, rfl⟩ : ∃ (p : Fin 8192) (q : Fin 384), j = ix2 p q := ⟨j 0, j 1, eq_ix2 j⟩
    exact (hB1 p q).1

  have hT : Spec.kT x ei g bb w1 b1 = Spec.rT x ei g bb w1 b1 := by
    unfold Spec.kT Spec.rT; rw [hH1, total512, total256]
  have hTT : Spec.kTT x ei g bb w1 b1 = Spec.rTT x ei g bb w1 b1 := by
    unfold Spec.kTT Spec.rTT; rw [hH1, totalSq512, totalSq256]
  have hTr : IsReal (Spec.rT x ei g bb w1 b1) := by
    unfold Spec.rT; rw [total256]
    exact IsReal.sum _ _ fun i => IsReal.sum _ _ fun h => (hB1 i h).2
  have hTTr : IsReal (Spec.rTT x ei g bb w1 b1) := by
    unfold Spec.rTT; rw [totalSq256]
    exact IsReal.sum _ _ fun i => IsReal.sum _ _ fun h => ((hB1 i h).2).mul (hB1 i h).2
  have hs2 : ∀ h, IsReal (Spec.lnScale lg (Spec.rT x ei g bb w1 b1) (Spec.rTT x ei g bb w1 b1) (ix2 0 h)) :=
    lnScale_real lg _ _ (fun h => hlg _) hTr hTTr
  have ht2 : ∀ h, IsReal (Spec.lnShift lb lg (Spec.rT x ei g bb w1 b1) (Spec.rTT x ei g bb w1 b1) (ix2 0 h)) :=
    lnShift_real lb lg _ _ (fun h => hlb _) (fun h => hlg _) hTr hTTr

  have hA2 : ∀ i o, ∃ a : ℝ, Spec.rH2 x ei g bb w1 b1 lg lb w2 (ix2 i o) = (a : EReal)
      ∧ Spec.kG2 x ei g bb w1 b1 lg lb w2 (ix2 i o) = ((d i * a : ℝ) : EReal) := by
    intro i o
    simp only [Spec.rH2, Spec.kG2, Spec.mk2_apply, hH1, hT, hTT]
    exact affineScaled_eq (Spec.rH1 x ei g bb w1 b1) _ _ (Spec.rowFactor ei) w2 i o (fun c => (hB1 i c).2) hs2 ht2
      (fun c => hw2 _) (d i) (hd i)
  choose a2 ha2 hk2 using hA2

  funext j
  obtain ⟨p, q, rfl⟩ : ∃ (p : Fin 8192) (q : Fin 256), j = ix2 p q := ⟨j 0, j 1, eq_ix2 j⟩
  simp only [Spec.kOut, Spec.rOut, Spec.mk2_apply]
  exact (aggregateSelf_eq ei _ _ b2 p q d hd hd' (fun k => a2 k q) (fun k => ha2 k q) (fun k => hk2 k q) (hb2 _)).1

end Cert.Algebra

end
-- ==== Proof.PreFacts.lean ====
import proofs.«101322_g2000704916760673_pallasbulk_724_3_alg».proof.Pre_finite_inputs
import proofs.«101322_g2000704916760673_pallasbulk_724_3_alg».proof.Proof.Spec
import Idealize.ShloMosaic.Lib.ReduceAll

noncomputable section

namespace Cert.PreFacts

open Idealize.ShloMosaic Idealize.ShloMosaic.ValueIdx
open Cert.Pre_finite_inputs

instance : Subsingleton S_.Idx := ⟨fun a b => funext fun d => d.elim0⟩

theorem inf_word : Ideal.ofBits .f32 0x7F800000#32 = ⊤ := by simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

theorem finite_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    ∀ j, ∃ r : ℝ, x j = (r : EReal) := fun j =>
  real_of_abs_lt_inf (x j) (Host.reduce_andi_all _ _ hr hu ix0 e j)

theorem word_in_range (w : BitVec 32)
    (h : IntOp.andi (IntOp.cmpi .sge w 0#32) (IntOp.cmpi .slt w 8192#32) = 1#1) : 0 ≤ w.toInt ∧ w.toInt < 8192 := by
  obtain ⟨h0, h1⟩ := IntOp.andi_eq_one.1 h
  have z : (0#32 : BitVec 32).toInt = 0 := by decide
  have n : (8192#32 : BitVec 32).toInt = 8192 := by decide
  have a := IntOp.cmpi_sge.1 h0
  have b := IntOp.cmpi_slt.1 h1
  rw [z] at a
  rw [n] at b
  exact ⟨a, b⟩

theorem facts [Cert.Pre_finite_inputs.Facts]
    (a0 : FVec Ideal S8192x512 .f32) (a1 : IVec S2x131072 32) (a2 a3 : FVec Ideal S1x512 .f32)
    (a4 : FVec Ideal S512x384 .f32) (a5 a6 a7 : FVec Ideal S1x384 .f32) (a8 : FVec Ideal S384x256 .f32)
    (a9 : FVec Ideal S1x256 .f32)
    (h : Cert.Pre_finite_inputs.fn (F := Ideal) a0 a1 a2 a3 a4 a5 a6 a7 a8 a9 = fun _ => 1#1) :
    (∀ j, ∃ r : ℝ, a0 j = (r : EReal)) ∧ Spec.InRange a1 ∧ (∀ j, ∃ r : ℝ, a2 j = r) ∧ (∀ j, ∃ r : ℝ, a3 j = r)
      ∧ (∀ j, ∃ r : ℝ, a4 j = r) ∧ (∀ j, ∃ r : ℝ, a5 j = r) ∧ (∀ j, ∃ r : ℝ, a6 j = r) ∧ (∀ j, ∃ r : ℝ, a7 j = r)
      ∧ (∀ j, ∃ r : ℝ, a8 j = r) ∧ (∀ j, ∃ r : ℝ, a9 j = r) := by
  have e := congrFun h ix0
  dsimp only [fn, fn_part1, fn_part2] at e
  simp only [andi, IntOp.andi_eq_one] at e
  obtain ⟨⟨⟨⟨⟨⟨⟨⟨⟨e0, e2⟩, e3⟩, e4⟩, e5⟩, e6⟩, e7⟩, e8⟩, e9⟩, e1⟩ := e
  refine ⟨finite_all a0 _ _ _ e0, ?_, finite_all a2 _ _ _ e2, finite_all a3 _ _ _ e3, finite_all a4 _ _ _ e4,
    finite_all a5 _ _ _ e5, finite_all a6 _ _ _ e6, finite_all a7 _ _ _ e7, finite_all a8 _ _ _ e8,
    finite_all a9 _ _ _ e9⟩
  intro r k
  exact word_in_range (a1 (ix2 r k)) (Host.reduce_andi_all _ _ _ _ ix0 e1 (ix2 r k))

end Cert.PreFacts

end
-- ==== Proof.lean ====
import proofs.«101322_g2000704916760673_pallasbulk_724_3_alg».proof.Defs
import proofs.«101322_g2000704916760673_pallasbulk_724_3_alg».proof.Proof.KB_Bundle
import proofs.«101322_g2000704916760673_pallasbulk_724_3_alg».proof.Proof.KI_Final
import proofs.«101322_g2000704916760673_pallasbulk_724_3_alg».proof.Proof.RI_Final
import proofs.«101322_g2000704916760673_pallasbulk_724_3_alg».proof.Proof.Algebra
import proofs.«101322_g2000704916760673_pallasbulk_724_3_alg».proof.Proof.PreFacts
import proofs.«101322_g2000704916760673_pallasbulk_724_3_alg».proof.Proof.Gen.Kernel
import proofs.«101322_g2000704916760673_pallasbulk_724_3_alg».proof.Proof.Gen.KernelIdeal
import proofs.«101322_g2000704916760673_pallasbulk_724_3_alg».proof.Proof.Gen.ReferenceIdeal
import proofs.«101322_g2000704916760673_pallasbulk_724_3_alg».proof.Proof.Gen.Pre_finite_inputs

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2)
    (Cert.Kernel.Hand.run_result (F := Bits) m ρ Cert.Kernel.Hand.regions)

theorem frame_ki : Cert.frame_KernelIdeal := fun m ρ _ =>
  (θ_run Cert.KernelIdeal.defs _ _).mono (fun _ h c => (h c).2)
    (Cert.KernelIdeal.Hand.run_result (F := Ideal) m ρ Cert.KernelIdeal.Hand.regions)

theorem frame_ri : Cert.frame_ReferenceIdeal := fun m ρ _ =>
  (θ_run Cert.ReferenceIdeal.defs _ _).mono (fun _ h c => (h c).2)
    (Cert.ReferenceIdeal.Hand.run_result (F := Ideal) m ρ Cert.ReferenceIdeal.Hand.regions)

theorem preserves : Cert.preserves_Kernel_KernelIdeal := trivial

theorem algebraic : Cert.algebraic_KernelIdeal_ReferenceIdeal := by
  intro m ρ m' ρ' hpre hagree
  refine ⟨fun c => Cert.Spec.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩)
      (Cert.KernelIdeal.Hand.run_result (F := Ideal) m ρ Cert.KernelIdeal.Hand.regions)
    exact Cert.KernelIdeal.Comp.result m c (Cert.PreFacts.facts _ _ _ _ _ _ _ _ _ _ (hpre c)).2.1
  · refine (θ_run Cert.ReferenceIdeal.defs _ _).mono (fun _ h c => ⟨(h c).1.trans ?_, (h c).2⟩)
      (Cert.ReferenceIdeal.Hand.run_result (F := Ideal) m' ρ' Cert.ReferenceIdeal.Hand.regions)
    obtain ⟨hx, hei, hg, hbb, hw1, hb1, hlg, hlb, hw2, hb2⟩ := Cert.PreFacts.facts _ _ _ _ _ _ _ _ _ _ (hpre c)
    obtain ⟨e0, e1, e2, e3, e4, e5, e6, e7, e8, e9⟩ := hagree c
    have hei' : Cert.Spec.InRange (m' ((c.tc : Thread Cert.ReferenceIdeal.nD Cert.ReferenceIdeal.τ).loc Cert.ReferenceIdeal.main_arg1)) := by
      rw [e1]; exact hei
    refine (Cert.ReferenceIdeal.Comp.result m' c hei').trans ?_
    rw [e0, e1, e2, e3, e4, e5, e6, e7, e8, e9]
    exact (Cert.Algebra.kOut_eq_rOut _ _ _ _ _ _ _ _ _ _ hx hg hbb hw1 hb1 hlg hlb hw2 hb2 hei).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
